-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x9 : Shape := ⟨2, ![500000, 9]⟩
abbrev S2x16000000 : Shape := ⟨2, ![2, 16000000]⟩
abbrev S500000 : Shape := ⟨1, ![500000]⟩
abbrev S3x18x9 : Shape := ⟨3, ![3, 18, 9]⟩
abbrev S3x18 : Shape := ⟨2, ![3, 18]⟩
abbrev S3x9x18 : Shape := ⟨3, ![3, 9, 18]⟩
abbrev S3x9 : Shape := ⟨2, ![3, 9]⟩
abbrev S3 : Shape := ⟨1, ![3]⟩
abbrev S9x9 : Shape := ⟨2, ![9, 9]⟩
abbrev S9 : Shape := ⟨1, ![9]⟩
abbrev S2x9 : Shape := ⟨2, ![2, 9]⟩
abbrev S2 : Shape := ⟨1, ![2]⟩
abbrev S2x2 : Shape := ⟨2, ![2, 2]⟩
abbrev S_ : Shape := ⟨0, ![]⟩

class Facts : Prop where
  bcast_S_S500000x9 : S_.BroadcastsInDim S500000x9 (![] : Fin 0 → Fin S500000x9.rank)
  reducesTo_S500000x9_S_d0_1 : S500000x9.ReducesTo [0, 1] S_
  h_S_ : 0 < S_.numel
  bcast_S_S3x18x9 : S_.BroadcastsInDim S3x18x9 (![] : Fin 0 → Fin S3x18x9.rank)
  reducesTo_S3x18x9_S_d0_1_2 : S3x18x9.ReducesTo [0, 1, 2] S_
  bcast_S_S3x18 : S_.BroadcastsInDim S3x18 (![] : Fin 0 → Fin S3x18.rank)
  reducesTo_S3x18_S_d0_1 : S3x18.ReducesTo [0, 1] S_
  bcast_S_S3x9x18 : S_.BroadcastsInDim S3x9x18 (![] : Fin 0 → Fin S3x9x18.rank)
  reducesTo_S3x9x18_S_d0_1_2 : S3x9x18.ReducesTo [0, 1, 2] S_
  bcast_S_S3x9 : S_.BroadcastsInDim S3x9 (![] : Fin 0 → Fin S3x9.rank)
  reducesTo_S3x9_S_d0_1 : S3x9.ReducesTo [0, 1] S_
  bcast_S_S3 : S_.BroadcastsInDim S3 (![] : Fin 0 → Fin S3.rank)
  reducesTo_S3_S_d0 : S3.ReducesTo [0] S_
  bcast_S_S9x9 : S_.BroadcastsInDim S9x9 (![] : Fin 0 → Fin S9x9.rank)
  reducesTo_S9x9_S_d0_1 : S9x9.ReducesTo [0, 1] S_
  bcast_S_S9 : S_.BroadcastsInDim S9 (![] : Fin 0 → Fin S9.rank)
  reducesTo_S9_S_d0 : S9.ReducesTo [0] S_
  bcast_S_S2x9 : S_.BroadcastsInDim S2x9 (![] : Fin 0 → Fin S2x9.rank)
  reducesTo_S2x9_S_d0_1 : S2x9.ReducesTo [0, 1] S_
  bcast_S_S2 : S_.BroadcastsInDim S2 (![] : Fin 0 → Fin S2.rank)
  reducesTo_S2_S_d0 : S2.ReducesTo [0] S_
  bcast_S_S2x2 : S_.BroadcastsInDim S2x2 (![] : Fin 0 → Fin S2x2.rank)
  reducesTo_S2x2_S_d0_1 : S2x2.ReducesTo [0, 1] S_

variable [Facts]

def fn_part6 {F : FTy → Type} [FloatOps F] (main_arg23 : FVec F S2 .f32) (main_arg24 : FVec F S2x2 .f32) (main_arg25 : FVec F S2 .f32) (main_v98 : IVec S_ 1) (main_v101 : IVec S2x9 1) (main_c_39 : IVec S_ 1) : IVec S_ 1 :=
  let main_v102 : IVec S_ 1 := (fun x v => Host.reduce IntOp.andi x v reducesTo_S2x9_S_d0_1 h_S_) main_v101 main_c_39
  let main_v103 : IVec S_ 1 := andi main_v98 main_v102
  let main_v104 : FVec F S2 .f32 := Host.absf main_arg23
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  let main_v109 : FVec F S2x2 .f32 := Host.absf main_arg24
  let main_cst_42 : FVec F S_ .f32 := constant S_ .f32 0x7F800000#32
  let main_v110 : FVec F S2x2 .f32 := broadcastInDim S2x2 ![] bcast_S_S2x2 main_cst_42
  let main_v111 : IVec S2x2 1 := cmpf .olt main_v109 main_v110
  let main_c_43 : IVec S_ 1 := constantI S_ 1 1#1
  let main_v112 : IVec S_ 1 := (fun x v => Host.reduce IntOp.andi x v reducesTo_S2x2_S_d0_1 h_S_) main_v111 main_c_43
  let main_v113 : IVec S_ 1 := andi main_v108 main_v112
  let main_v114 : FVec F S2 .f32 := Host.absf main_arg25
  let main_cst_44 : FVec F S_ .f32 := constant S_ .f32 0x7F800000#32
  let main_v115 : FVec F S2 .f32 := broadcastInDim S2 ![] bcast_S_S2 main_cst_44
  let main_v116 : IVec S2 1 := cmpf .olt main_v114 main_v115
  let main_c_45 : IVec S_ 1 := constantI S_ 1 1#1
  let main_v117 : IVec S_ 1 := (fun x v => Host.reduce IntOp.andi x v reducesTo_S2_S_d0 h_S_) main_v116 main_c_45
  let main_v118 : IVec S_ 1 := andi main_v113 main_v117
  main_v118

def fn_part5 {F : FTy → Type} [FloatOps F] (main_arg20 : FVec F S9 .f32) (main_arg21 : FVec F S9 .f32) (main_arg22 : FVec F S2x9 .f32) (main_arg23 : FVec F S2 .f32) (main_arg24 : FVec F S2x2 .f32) (main_arg25 : FVec F S2 .f32) (main_v83 : IVec S_ 1) (main_v84 : FVec F S9 .f32) (main_cst_32 : FVec F S_ .f32) : IVec S_ 1 :=
  let main_v85 : FVec F S9 .f32 := broadcastInDim S9 ![] bcast_S_S9 main_cst_32
  let main_v86 : IVec S9 1 := cmpf .olt main_v84 main_v85
  let main_c_33 : IVec S_ 1 := constantI S_ 1 1#1
  let main_v87 : IVec S_ 1 := (fun x v => Host.reduce IntOp.andi x v reducesTo_S9_S_d0 h_S_) main_v86 main_c_33
  let main_v88 : IVec S_ 1 := andi main_v83 main_v87
  let main_v89 : FVec F S9 .f32 := Host.absf main_arg20
  let main_cst_34 : FVec F S_ .f32 := constant S_ .f32 0x7F800000#32
  let main_v90 : FVec F S9 .f32 := broadcastInDim S9 ![] bcast_S_S9 main_cst_34
  let main_v91 : IVec S9 1 := cmpf .olt main_v89 main_v90
  let main_c_35 : IVec S_ 1 := constantI S_ 1 1#1
  let main_v92 : IVec S_ 1 := (fun x v => Host.reduce IntOp.andi x v reducesTo_S9_S_d0 h_S_) main_v91 main_c_35
  let main_v93 : IVec S_ 1 := andi main_v88 main_v92
  let main_v94 : FVec F S9 .f32 := Host.absf main_arg21
  let main_cst_36 : FVec F S_ .f32 := constant S_ .f32 0x7F800000#32
  let main_v95 : FVec F S9 .f32 := broadcastInDim S9 ![] bcast_S_S9 main_cst_36
  let main_v96 : IVec S9 1 := cmpf .olt main_v94 main_v95
  let main_c_37 : IVec S_ 1 := constantI S_ 1 1#1
  let main_v97 : IVec S_ 1 := (fun x v => Host.reduce IntOp.andi x v reducesTo_S9_S_d0 h_S_) main_v96 main_c_37
  let main_v98 : IVec S_ 1 := andi main_v93 main_v97
  let main_v99 : FVec F S2x9 .f32 := Host.absf main_arg22
  let main_cst_38 : FVec F S_ .f32 := constant S_ .f32 0x7F800000#32
  let main_v100 : FVec F S2x9 .f32 := broadcastInDim S2x9 ![] bcast_S_S2x9 main_cst_38
  let main_v101 : IVec S2x9 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S9x9 .f32) (main_arg17 : FVec F S9 .f32) (main_arg18 : FVec F S9 .f32) (main_arg19 : FVec F S9 .f32) (main_arg20 : FVec F S9 .f32) (main_arg21 : FVec F S9 .f32) (main_arg22 : FVec F S2x9 .f32) (main_arg23 : FVec F S2 .f32) (main_arg24 : FVec F S2x2 .f32) (main_arg25 : FVec F S2 .f32) (main_v63 : IVec S_ 1) (main_v67 : IVec S_ 1) : IVec S_ 1 :=
  let main_v68 : IVec S_ 1 := andi main_v63 main_v67
  let main_v69 : FVec F S9x9 .f32 := Host.absf main_arg16
  let main_cst_26 : FVec F S_ .f32 := constant S_ .f32 0x7F800000#32
  let main_v70 : FVec F S9x9 .f32 := broadcastInDim S9x9 ![] bcast_S_S9x9 main_cst_26
  let main_v71 : IVec S9x9 1 := cmpf .olt main_v69 main_v70
  let main_c_27 : IVec S_ 1 := constantI S_ 1 1#1
  let main_v72 : IVec S_ 1 := (fun x v => Host.reduce IntOp.andi x v reducesTo_S9x9_S_d0_1 h_S_) main_v71 main_c_27
  let main_v73 : IVec S_ 1 := andi main_v68 main_v72
  let main_v74 : FVec F S9 .f32 := Host.absf main_arg17
  let main_cst_28 : FVec F S_ .f32 := constant S_ .f32 0x7F800000#32
  let main_v75 : FVec F S9 .f32 := broadcastInDim S9 ![] bcast_S_S9 main_cst_28
  let main_v76 : IVec S9 1 := cmpf .olt main_v74 main_v75
  let main_c_29 : IVec S_ 1 := constantI S_ 1 1#1
  let main_v77 : IVec S_ 1 := (fun x v => Host.reduce IntOp.andi x v reducesTo_S9_S_d0 h_S_) main_v76 main_c_29
  let main_v78 : IVec S_ 1 := andi main_v73 main_v77
  let main_v79 : FVec F S9 .f32 := Host.absf main_arg18
  let main_cst_30 : FVec F S_ .f32 := constant S_ .f32 0x7F800000#32
  let main_v80 : FVec F S9 .f32 := broadcastInDim S9 ![] bcast_S_S9 main_cst_30
  let main_v81 : IVec S9 1 := cmpf .olt main_v79 main_v80
  let main_c_31 : IVec S_ 1 := constantI S_ 1 1#1
  let main_v82 : IVec S_ 1 := (fun x v => Host.reduce IntOp.andi x v reducesTo_S9_S_d0 h_S_) main_v81 main_c_31
  let main_v83 : IVec S_ 1 := andi main_v78 main_v82
  let main_v84 : FVec F S9 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S3x9 .f32) (main_arg14 : FVec F S3x9 .f32) (main_arg15 : FVec F S3x9 .f32) (main_arg16 : FVec F S9x9 .f32) (main_arg17 : FVec F S9 .f32) (main_arg18 : FVec F S9 .f32) (main_arg19 : FVec F S9 .f32) (main_arg20 : FVec F S9 .f32) (main_arg21 : FVec F S9 .f32) (main_arg22 : FVec F S2x9 .f32) (main_arg23 : FVec F S2 .f32) (main_arg24 : FVec F S2x2 .f32) (main_arg25 : FVec F S2 .f32) (main_v48 : IVec S_ 1) (main_v49 : FVec F S3x9 .f32) (main_v50 : FVec F S3x9 .f32) : IVec S_ 1 :=
  let main_v51 : IVec S3x9 1 := cmpf .olt main_v49 main_v50
  let main_c_19 : IVec S_ 1 := constantI S_ 1 1#1
  let main_v52 : IVec S_ 1 := (fun x v => Host.reduce IntOp.andi x v reducesTo_S3x9_S_d0_1 h_S_) main_v51 main_c_19
  let main_v53 : IVec S_ 1 := andi main_v48 main_v52
  let main_v54 : FVec F S3x9 .f32 := Host.absf main_arg13
  let main_cst_20 : FVec F S_ .f32 := constant S_ .f32 0x7F800000#32
  let main_v55 : FVec F S3x9 .f32 := broadcastInDim S3x9 ![] bcast_S_S3x9 main_cst_20
  let main_v56 : IVec S3x9 1 := cmpf .olt main_v54 main_v55
  let main_c_21 : IVec S_ 1 := constantI S_ 1 1#1
  let main_v57 : IVec S_ 1 := (fun x v => Host.reduce IntOp.andi x v reducesTo_S3x9_S_d0_1 h_S_) main_v56 main_c_21
  let main_v58 : IVec S_ 1 := andi main_v53 main_v57
  let main_v59 : FVec F S3x9 .f32 := Host.absf main_arg14
  let main_cst_22 : FVec F S_ .f32 := constant S_ .f32 0x7F800000#32
  let main_v60 : FVec F S3x9 .f32 := broadcastInDim S3x9 ![] bcast_S_S3x9 main_cst_22
  let main_v61 : IVec S3x9 1 := cmpf .olt main_v59 main_v60
  let main_c_23 : IVec S_ 1 := constantI S_ 1 1#1
  let main_v62 : IVec S_ 1 := (fun x v => Host.reduce IntOp.andi x v reducesTo_S3x9_S_d0_1 h_S_) main_v61 main_c_23
  let main_v63 : IVec S_ 1 := andi main_v58 main_v62
  let main_v64 : FVec F S3x9 .f32 := Host.absf main_arg15
  let main_cst_24 : FVec F S_ .f32 := constant S_ .f32 0x7F800000#32
  let main_v65 : FVec F S3x9 .f32 := broadcastInDim S3x9 ![] bcast_S_S3x9 main_cst_24
  let main_v66 : IVec S3x9 1 := cmpf .olt main_v64 main_v65
  let main_c_25 : IVec S_ 1 := constantI S_ 1 1#1
  let main_v67 : IVec S_ 1 := (fun x v => Host.reduce IntOp.andi x v reducesTo_S3x9_S_d0_1 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S3x9x18 .f32) (main_arg10 : FVec F S3x9 .f32) (main_arg11 : FVec F S3 .f32) (main_arg12 : FVec F S3x9 .f32) (main_arg13 : FVec F S3x9 .f32) (main_arg14 : FVec F S3x9 .f32) (main_arg15 : FVec F S3x9 .f32) (main_arg16 : FVec F S9x9 .f32) (main_arg17 : FVec F S9 .f32) (main_arg18 : FVec F S9 .f32) (main_arg19 : FVec F S9 .f32) (main_arg20 : FVec F S9 .f32) (main_arg21 : FVec F S9 .f32) (main_arg22 : FVec F S2x9 .f32) (main_arg23 : FVec F S2 .f32) (main_arg24 : FVec F S2x2 .f32) (main_arg25 : FVec F S2 .f32) (main_v33 : IVec S_ 1) : IVec S_ 1 :=
  let main_v34 : FVec F S3x9x18 .f32 := Host.absf main_arg9
  let main_cst_12 : FVec F S_ .f32 := constant S_ .f32 0x7F800000#32
  let main_v35 : FVec F S3x9x18 .f32 := broadcastInDim S3x9x18 ![] bcast_S_S3x9x18 main_cst_12
  let main_v36 : IVec S3x9x18 1 := cmpf .olt main_v34 main_v35
  let main_c_13 : IVec S_ 1 := constantI S_ 1 1#1
  let main_v37 : IVec S_ 1 := (fun x v => Host.reduce IntOp.andi x v reducesTo_S3x9x18_S_d0_1_2 h_S_) main_v36 main_c_13
  let main_v38 : IVec S_ 1 := andi main_v33 main_v37
  let main_v39 : FVec F S3x9 .f32 := Host.absf main_arg10
  let main_cst_14 : FVec F S_ .f32 := constant S_ .f32 0x7F800000#32
  let main_v40 : FVec F S3x9 .f32 := broadcastInDim S3x9 ![] bcast_S_S3x9 main_cst_14
  let main_v41 : IVec S3x9 1 := cmpf .olt main_v39 main_v40
  let main_c_15 : IVec S_ 1 := constantI S_ 1 1#1
  let main_v42 : IVec S_ 1 := (fun x v => Host.reduce IntOp.andi x v reducesTo_S3x9_S_d0_1 h_S_) main_v41 main_c_15
  let main_v43 : IVec S_ 1 := andi main_v38 main_v42
  let main_v44 : FVec F S3 .f32 := Host.absf main_arg11
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S3x9 .f32 := Host.absf main_arg12
  let main_cst_18 : FVec F S_ .f32 := constant S_ .f32 0x7F800000#32
  let main_v50 : FVec F S3x9 .f32 := broadcastInDim S3x9 ![] bcast_S_S3x9 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S3x18 .f32) (main_arg7 : FVec F S3x18 .f32) (main_arg8 : FVec F S3x18 .f32) (main_arg9 : FVec F S3x9x18 .f32) (main_arg10 : FVec F S3x9 .f32) (main_arg11 : FVec F S3 .f32) (main_arg12 : FVec F S3x9 .f32) (main_arg13 : FVec F S3x9 .f32) (main_arg14 : FVec F S3x9 .f32) (main_arg15 : FVec F S3x9 .f32) (main_arg16 : FVec F S9x9 .f32) (main_arg17 : FVec F S9 .f32) (main_arg18 : FVec F S9 .f32) (main_arg19 : FVec F S9 .f32) (main_arg20 : FVec F S9 .f32) (main_arg21 : FVec F S9 .f32) (main_arg22 : FVec F S2x9 .f32) (main_arg23 : FVec F S2 .f32) (main_arg24 : FVec F S2x2 .f32) (main_arg25 : FVec F S2 .f32) (main_v13 : IVec S_ 1) (main_v16 : IVec S3x18 1) : IVec S_ 1 :=
  let main_c_5 : IVec S_ 1 := constantI S_ 1 1#1
  let main_v17 : IVec S_ 1 := (fun x v => Host.reduce IntOp.andi x v reducesTo_S3x18_S_d0_1 h_S_) main_v16 main_c_5
  let main_v18 : IVec S_ 1 := andi main_v13 main_v17
  let main_v19 : FVec F S3x18 .f32 := Host.absf main_arg6
  let main_cst_6 : FVec F S_ .f32 := constant S_ .f32 0x7F800000#32
  let main_v20 : FVec F S3x18 .f32 := broadcastInDim S3x18 ![] bcast_S_S3x18 main_cst_6
  let main_v21 : IVec S3x18 1 := cmpf .olt main_v19 main_v20
  let main_c_7 : IVec S_ 1 := constantI S_ 1 1#1
  let main_v22 : IVec S_ 1 := (fun x v => Host.reduce IntOp.andi x v reducesTo_S3x18_S_d0_1 h_S_) main_v21 main_c_7
  let main_v23 : IVec S_ 1 := andi main_v18 main_v22
  let main_v24 : FVec F S3x18 .f32 := Host.absf main_arg7
  let main_cst_8 : FVec F S_ .f32 := constant S_ .f32 0x7F800000#32
  let main_v25 : FVec F S3x18 .f32 := broadcastInDim S3x18 ![] bcast_S_S3x18 main_cst_8
  let main_v26 : IVec S3x18 1 := cmpf .olt main_v24 main_v25
  let main_c_9 : IVec S_ 1 := constantI S_ 1 1#1
  let main_v27 : IVec S_ 1 := (fun x v => Host.reduce IntOp.andi x v reducesTo_S3x18_S_d0_1 h_S_) main_v26 main_c_9
  let main_v28 : IVec S_ 1 := andi main_v23 main_v27
  let main_v29 : FVec F S3x18 .f32 := Host.absf main_arg8
  let main_cst_10 : FVec F S_ .f32 := constant S_ .f32 0x7F800000#32
  let main_v30 : FVec F S3x18 .f32 := broadcastInDim S3x18 ![] bcast_S_S3x18 main_cst_10
  let main_v31 : IVec S3x18 1 := cmpf .olt main_v29 main_v30
  let main_c_11 : IVec S_ 1 := constantI S_ 1 1#1
  let main_v32 : IVec S_ 1 := (fun x v => Host.reduce IntOp.andi x v reducesTo_S3x18_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S500000x9 .f32) (main_arg1 : IVec S2x16000000 32) (main_arg2 : IVec S500000 32) (main_arg3 : FVec F S3x18x9 .f32) (main_arg4 : FVec F S3x18 .f32) (main_arg5 : FVec F S3x18 .f32) (main_arg6 : FVec F S3x18 .f32) (main_arg7 : FVec F S3x18 .f32) (main_arg8 : FVec F S3x18 .f32) (main_arg9 : FVec F S3x9x18 .f32) (main_arg10 : FVec F S3x9 .f32) (main_arg11 : FVec F S3 .f32) (main_arg12 : FVec F S3x9 .f32) (main_arg13 : FVec F S3x9 .f32) (main_arg14 : FVec F S3x9 .f32) (main_arg15 : FVec F S3x9 .f32) (main_arg16 : FVec F S9x9 .f32) (main_arg17 : FVec F S9 .f32) (main_arg18 : FVec F S9 .f32) (main_arg19 : FVec F S9 .f32) (main_arg20 : FVec F S9 .f32) (main_arg21 : FVec F S9 .f32) (main_arg22 : FVec F S2x9 .f32) (main_arg23 : FVec F S2 .f32) (main_arg24 : FVec F S2x2 .f32) (main_arg25 : FVec F S2 .f32) : IVec S_ 1 :=
  let main_v0 : FVec F S500000x9 .f32 := Host.absf main_arg0
  let main_cst : FVec F S_ .f32 := constant S_ .f32 0x7F800000#32
  let main_v1 : FVec F S500000x9 .f32 := broadcastInDim S500000x9 ![] bcast_S_S500000x9 main_cst
  let main_v2 : IVec S500000x9 1 := cmpf .olt main_v0 main_v1
  let main_c : IVec S_ 1 := constantI S_ 1 1#1
  let main_v3 : IVec S_ 1 := (fun x v => Host.reduce IntOp.andi x v reducesTo_S500000x9_S_d0_1 h_S_) main_v2 main_c
  let main_v4 : FVec F S3x18x9 .f32 := Host.absf main_arg3
  let main_cst_0 : FVec F S_ .f32 := constant S_ .f32 0x7F800000#32
  let main_v5 : FVec F S3x18x9 .f32 := broadcastInDim S3x18x9 ![] bcast_S_S3x18x9 main_cst_0
  let main_v6 : IVec S3x18x9 1 := cmpf .olt main_v4 main_v5
  let main_c_1 : IVec S_ 1 := constantI S_ 1 1#1
  let main_v7 : IVec S_ 1 := (fun x v => Host.reduce IntOp.andi x v reducesTo_S3x18x9_S_d0_1_2 h_S_) main_v6 main_c_1
  let main_v8 : IVec S_ 1 := andi main_v3 main_v7
  let main_v9 : FVec F S3x18 .f32 := Host.absf main_arg4
  let main_cst_2 : FVec F S_ .f32 := constant S_ .f32 0x7F800000#32
  let main_v10 : FVec F S3x18 .f32 := broadcastInDim S3x18 ![] bcast_S_S3x18 main_cst_2
  let main_v11 : IVec S3x18 1 := cmpf .olt main_v9 main_v10
  let main_c_3 : IVec S_ 1 := constantI S_ 1 1#1
  let main_v12 : IVec S_ 1 := (fun x v => Host.reduce IntOp.andi x v reducesTo_S3x18_S_d0_1 h_S_) main_v11 main_c_3
  let main_v13 : IVec S_ 1 := andi main_v8 main_v12
  let main_v14 : FVec F S3x18 .f32 := Host.absf main_arg5
  let main_cst_4 : FVec F S_ .f32 := constant S_ .f32 0x7F800000#32
  let main_v15 : FVec F S3x18 .f32 := broadcastInDim S3x18 ![] bcast_S_S3x18 main_cst_4
  let main_v16 : IVec S3x18 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S500000x9 : Shape := ⟨2, ![500000, 9]⟩
abbrev S2x16000000 : Shape := ⟨2, ![2, 16000000]⟩
abbrev S500000 : Shape := ⟨1, ![500000]⟩
abbrev S3x18x9 : Shape := ⟨3, ![3, 18, 9]⟩
abbrev S3x18 : Shape := ⟨2, ![3, 18]⟩
abbrev S3x9x18 : Shape := ⟨3, ![3, 9, 18]⟩
abbrev S3x9 : Shape := ⟨2, ![3, 9]⟩
abbrev S3 : Shape := ⟨1, ![3]⟩
abbrev S9x9 : Shape := ⟨2, ![9, 9]⟩
abbrev S9 : Shape := ⟨1, ![9]⟩
abbrev S2x9 : Shape := ⟨2, ![2, 9]⟩
abbrev S2 : Shape := ⟨1, ![2]⟩
abbrev S2x2 : Shape := ⟨2, ![2, 2]⟩
abbrev S1x16000000 : Shape := ⟨2, ![1, 16000000]⟩
abbrev S16000000 : Shape := ⟨1, ![16000000]⟩
abbrev S500000x1 : Shape := ⟨2, ![500000, 1]⟩
abbrev S_ : Shape := ⟨0, ![]⟩
abbrev S16000000x1 : Shape := ⟨2, ![16000000, 1]⟩
abbrev S16000000x9 : Shape := ⟨2, ![16000000, 9]⟩
abbrev S1 : Shape := ⟨1, ![1]⟩
abbrev S1x18x9 : Shape := ⟨3, ![1, 18, 9]⟩
abbrev S18x9 : Shape := ⟨2, ![18, 9]⟩
abbrev S1x18 : Shape := ⟨2, ![1, 18]⟩
abbrev S18 : Shape := ⟨1, ![18]⟩
abbrev S1x9x18 : Shape := ⟨3, ![1, 9, 18]⟩
abbrev S9x18 : Shape := ⟨2, ![9, 18]⟩
abbrev S1x9 : Shape := ⟨2, ![1, 9]⟩
abbrev S1x1 : Shape := ⟨2, ![1, 1]⟩
abbrev S5000x9 : Shape := ⟨2, ![5000, 9]⟩
abbrev S5000x18 : Shape := ⟨2, ![5000, 18]⟩
abbrev S9x2 : Shape := ⟨2, ![9, 2]⟩
abbrev S1x2 : Shape := ⟨2, ![1, 2]⟩
abbrev S1024x2 : Shape := ⟨2, ![1024, 2]⟩
abbrev S2000x9 : Shape := ⟨2, ![2000, 9]⟩
abbrev S2000x1 : Shape := ⟨2, ![2000, 1]⟩
abbrev S1024x9 : Shape := ⟨2, ![1024, 9]⟩
abbrev S2000x1024 : Shape := ⟨2, ![2000, 1024]⟩

abbrev nBuf : Space → Nat
  | .hbm => 201
  | .vmem => 73
  | .smem => 0
  | _ => 0

abbrev hbmTy0_0 (i : Nat) : BufTy := match i % 128 with
  | 0 => ⟨S500000x9, .f32⟩
  | 1 => ⟨S2x16000000, .i32⟩
  | 2 => ⟨S500000, .i32⟩
  | 3 => ⟨S3x18x9, .f32⟩
  | 4 => ⟨S3x18, .f32⟩
  | 5 => ⟨S3x18, .f32⟩
  | 6 => ⟨S3x18, .f32⟩
  | 7 => ⟨S3x18, .f32⟩
  | 8 => ⟨S3x18, .f32⟩
  | 9 => ⟨S3x9x18, .f32⟩
  | 10 => ⟨S3x9, .f32⟩
  | 11 => ⟨S3, .f32⟩
  | 12 => ⟨S3x9, .f32⟩
  | 13 => ⟨S3x9, .f32⟩
  | 14 => ⟨S3x9, .f32⟩
  | 15 => ⟨S3x9, .f32⟩
  | 16 => ⟨S9x9, .f32⟩
  | 17 => ⟨S9, .f32⟩
  | 18 => ⟨S9, .f32⟩
  | 19 => ⟨S9, .f32⟩
  | 20 => ⟨S9, .f32⟩
  | 21 => ⟨S9, .f32⟩
  | 22 => ⟨S2x9, .f32⟩
  | 23 => ⟨S2, .f32⟩
  | 24 => ⟨S2x2, .f32⟩
  | 25 => ⟨S2, .f32⟩
  | 26 => ⟨S1x16000000, .i32⟩
  | 27 => ⟨S16000000, .i32⟩
  | 28 => ⟨S1x16000000, .i32⟩
  | 29 => ⟨S16000000, .i32⟩
  | 30 => ⟨S500000x1, .i32⟩
  | 31 => ⟨S_, .i32⟩
  | 32 => ⟨S16000000, .i32⟩
  | 33 => ⟨S16000000, .i1⟩
  | 34 => ⟨S_, .i32⟩
  | 35 => ⟨S16000000, .i32⟩
  | 36 => ⟨S16000000, .i32⟩
  | 37 => ⟨S16000000, .i32⟩
  | 38 => ⟨S16000000x1, .i32⟩
  | 39 => ⟨S16000000x9, .f32⟩
  | 40 => ⟨S_, .f32⟩
  | 41 => ⟨S500000x9, .f32⟩
  | 42 => ⟨S16000000x1, .i32⟩
  | 43 => ⟨S500000x9, .f32⟩
  | 44 => ⟨S1, .f32⟩
  | 45 => ⟨S_, .f32⟩
  | 46 => ⟨S1x18x9, .f32⟩
  | 47 => ⟨S18x9, .f32⟩
  | 48 => ⟨S1x18, .f32⟩
  | 49 => ⟨S18, .f32⟩
  | 50 => ⟨S1x18, .f32⟩
  | 51 => ⟨S18, .f32⟩
  | 52 => ⟨S1x18, .f32⟩
  | 53 => ⟨S18, .f32⟩
  | 54 => ⟨S1x18, .f32⟩
  | 55 => ⟨S18, .f32⟩
  | 56 => ⟨S1x18, .f32⟩
  | 57 => ⟨S18, .f32⟩
  | 58 => ⟨S1x9x18, .f32⟩
  | 59 => ⟨S9x18, .f32⟩
  | 60 => ⟨S1x9, .f32⟩
  | 61 => ⟨S9, .f32⟩
  | 62 => ⟨S1x9, .f32⟩
  | 63 => ⟨S9, .f32⟩
  | 64 => ⟨S1x9, .f32⟩
  | 65 => ⟨S9, .f32⟩
  | 66 => ⟨S1x9, .f32⟩
  | 67 => ⟨S9, .f32⟩
  | 68 => ⟨S1x9, .f32⟩
  | 69 => ⟨S9, .f32⟩
  | 70 => ⟨S9x18, .f32⟩
  | 71 => ⟨S18x9, .f32⟩
  | 72 => ⟨S1x1, .f32⟩
  | 73 => ⟨S1x18, .f32⟩
  | 74 => ⟨S1x18, .f32⟩
  | 75 => ⟨S1x18, .f32⟩
  | 76 => ⟨S1x18, .f32⟩
  | 77 => ⟨S1x18, .f32⟩
  | 78 => ⟨S1x9, .f32⟩
  | 79 => ⟨S1x9, .f32⟩
  | 80 => ⟨S1x9, .f32⟩
  | 81 => ⟨S1x9, .f32⟩
  | 82 => ⟨S1x9, .f32⟩
  | 83 => ⟨S500000x9, .f32⟩
  | 84 => ⟨S_, .i32⟩
  | 85 => ⟨S16000000, .i32⟩
  | 86 => ⟨S16000000, .i1⟩
  | 87 => ⟨S_, .i32⟩
  | 88 => ⟨S16000000, .i32⟩
  | 89 => ⟨S16000000, .i32⟩
  | 90 => ⟨S16000000, .i32⟩
  | 91 => ⟨S16000000x1, .i32⟩
  | 92 => ⟨S16000000x9, .f32⟩
  | 93 => ⟨S_, .f32⟩
  | 94 => ⟨S500000x9, .f32⟩
  | 95 => ⟨S16000000x1, .i32⟩
  | 96 => ⟨S500000x9, .f32⟩
  | 97 => ⟨S1, .f32⟩
  | 98 => ⟨S_, .f32⟩
  | 99 => ⟨S1x18x9, .f32⟩
  | 100 => ⟨S18x9, .f32⟩
  | 101 => ⟨S1x18, .f32⟩
  | 102 => ⟨S18, .f32⟩
  | 103 => ⟨S1x18, .f32⟩
  | 104 => ⟨S18, .f32⟩
  | 105 => ⟨S1x18, .f32⟩
  | 106 => ⟨S18, .f32⟩
  | 107 => ⟨S1x18, .f32⟩
  | 108 => ⟨S18, .f32⟩
  | 109 => ⟨S1x18, .f32⟩
  | 110 => ⟨S18, .f32⟩
  | 111 => ⟨S1x9x18, .f32⟩
  | 112 => ⟨S9x18, .f32⟩
  | 113 => ⟨S1x9, .f32⟩
  | 114 => ⟨S9, .f32⟩
  | 115 => ⟨S1x9, .f32⟩
  | 116 => ⟨S9, .f32⟩
  | 117 => ⟨S1x9, .f32⟩
  | 118 => ⟨S9, .f32⟩
  | 119 => ⟨S1x9, .f32⟩
  | 120 => ⟨S9, .f32⟩
  | 121 => ⟨S1x9, .f32⟩
  | 122 => ⟨S9, .f32⟩
  | 123 => ⟨S9x18, .f32⟩
  | 124 => ⟨S18x9, .f32⟩
  | 125 => ⟨S1x1, .f32⟩
  | 126 => ⟨S1x18, .f32⟩
  | 127 => ⟨S1x18, .f32⟩
  | _ => ⟨S500000x9, .f32⟩

abbrev hbmTy0_1 (i : Nat) : BufTy := match i % 128 with
  | 0 => ⟨S1x18, .f32⟩
  | 1 => ⟨S1x18, .f32⟩
  | 2 => ⟨S1x18, .f32⟩
  | 3 => ⟨S1x9, .f32⟩
  | 4 => ⟨S1x9, .f32⟩
  | 5 => ⟨S1x9, .f32⟩
  | 6 => ⟨S1x9, .f32⟩
  | 7 => ⟨S1x9, .f32⟩
  | 8 => ⟨S500000x9, .f32⟩
  | 9 => ⟨S_, .i32⟩
  | 10 => ⟨S16000000, .i32⟩
  | 11 => ⟨S16000000, .i1⟩
  | 12 => ⟨S_, .i32⟩
  | 13 => ⟨S16000000, .i32⟩
  | 14 => ⟨S16000000, .i32⟩
  | 15 => ⟨S16000000, .i32⟩
  | 16 => ⟨S16000000x1, .i32⟩
  | 17 => ⟨S16000000x9, .f32⟩
  | 18 => ⟨S_, .f32⟩
  | 19 => ⟨S500000x9, .f32⟩
  | 20 => ⟨S16000000x1, .i32⟩
  | 21 => ⟨S500000x9, .f32⟩
  | 22 => ⟨S1, .f32⟩
  | 23 => ⟨S_, .f32⟩
  | 24 => ⟨S1x18x9, .f32⟩
  | 25 => ⟨S18x9, .f32⟩
  | 26 => ⟨S1x18, .f32⟩
  | 27 => ⟨S18, .f32⟩
  | 28 => ⟨S1x18, .f32⟩
  | 29 => ⟨S18, .f32⟩
  | 30 => ⟨S1x18, .f32⟩
  | 31 => ⟨S18, .f32⟩
  | 32 => ⟨S1x18, .f32⟩
  | 33 => ⟨S18, .f32⟩
  | 34 => ⟨S1x18, .f32⟩
  | 35 => ⟨S18, .f32⟩
  | 36 => ⟨S1x9x18, .f32⟩
  | 37 => ⟨S9x18, .f32⟩
  | 38 => ⟨S1x9, .f32⟩
  | 39 => ⟨S9, .f32⟩
  | 40 => ⟨S1x9, .f32⟩
  | 41 => ⟨S9, .f32⟩
  | 42 => ⟨S1x9, .f32⟩
  | 43 => ⟨S9, .f32⟩
  | 44 => ⟨S1x9, .f32⟩
  | 45 => ⟨S9, .f32⟩
  | 46 => ⟨S1x9, .f32⟩
  | 47 => ⟨S9, .f32⟩
  | 48 => ⟨S9x18, .f32⟩
  | 49 => ⟨S18x9, .f32⟩
  | 50 => ⟨S1x1, .f32⟩
  | 51 => ⟨S1x18, .f32⟩
  | 52 => ⟨S1x18, .f32⟩
  | 53 => ⟨S1x18, .f32⟩
  | 54 => ⟨S1x18, .f32⟩
  | 55 => ⟨S1x18, .f32⟩
  | 56 => ⟨S1x9, .f32⟩
  | 57 => ⟨S1x9, .f32⟩
  | 58 => ⟨S1x9, .f32⟩
  | 59 => ⟨S1x9, .f32⟩
  | 60 => ⟨S1x9, .f32⟩
  | 61 => ⟨S500000x9, .f32⟩
  | 62 => ⟨S9x9, .f32⟩
  | 63 => ⟨S9x2, .f32⟩
  | 64 => ⟨S2x2, .f32⟩
  | 65 => ⟨S1x9, .f32⟩
  | 66 => ⟨S1x9, .f32⟩
  | 67 => ⟨S1x9, .f32⟩
  | 68 => ⟨S1x9, .f32⟩
  | 69 => ⟨S1x9, .f32⟩
  | 70 => ⟨S1x2, .f32⟩
  | 71 => ⟨S1x2, .f32⟩
  | 72 => ⟨S1024x2, .f32⟩
  | _ => ⟨S500000x9, .f32⟩

abbrev hbmTy (i : Nat) : BufTy := match i / 128 with
  | 0 => hbmTy0_0 i
  | 1 => hbmTy0_1 i
  | _ => ⟨S500000x9, .f32⟩

abbrev bufTy : (tb : Table) → Fin (tcTables nBuf tb) → BufTy
  | .hbm, ⟨i, _⟩ => hbmTy i
  | .local _ .vmem, ⟨0, _⟩ => ⟨S5000x9, .f32⟩
  | .local _ .vmem, ⟨1, _⟩ => ⟨S5000x9, .f32⟩
  | .local _ .vmem, ⟨2, _⟩ => ⟨S5000x9, .f32⟩
  | .local _ .vmem, ⟨3, _⟩ => ⟨S5000x9, .f32⟩
  | .local _ .vmem, ⟨4, _⟩ => ⟨S1x1, .f32⟩
  | .local _ .vmem, ⟨5, _⟩ => ⟨S9x18, .f32⟩
  | .local _ .vmem, ⟨6, _⟩ => ⟨S1x18, .f32⟩
  | .local _ .vmem, ⟨7, _⟩ => ⟨S1x18, .f32⟩
  | .local _ .vmem, ⟨8, _⟩ => ⟨S1x18, .f32⟩
  | .local _ .vmem, ⟨9, _⟩ => ⟨S1x18, .f32⟩
  | .local _ .vmem, ⟨10, _⟩ => ⟨S1x18, .f32⟩
  | .local _ .vmem, ⟨11, _⟩ => ⟨S18x9, .f32⟩
  | .local _ .vmem, ⟨12, _⟩ => ⟨S1x9, .f32⟩
  | .local _ .vmem, ⟨13, _⟩ => ⟨S1x9, .f32⟩
  | .local _ .vmem, ⟨14, _⟩ => ⟨S1x9, .f32⟩
  | .local _ .vmem, ⟨15, _⟩ => ⟨S1x9, .f32⟩
  | .local _ .vmem, ⟨16, _⟩ => ⟨S1x9, .f32⟩
  | .local _ .vmem, ⟨17, _⟩ => ⟨S5000x9, .f32⟩
  | .local _ .vmem, ⟨18, _⟩ => ⟨S5000x9, .f32⟩
  | .local _ .vmem, ⟨19, _⟩ => ⟨S5000x9, .f32⟩
  | .local _ .vmem, ⟨20, _⟩ => ⟨S5000x9, .f32⟩
  | .local _ .vmem, ⟨21, _⟩ => ⟨S5000x9, .f32⟩
  | .local _ .vmem, ⟨22, _⟩ => ⟨S5000x9, .f32⟩
  | .local _ .vmem, ⟨23, _⟩ => ⟨S1x1, .f32⟩
  | .local _ .vmem, ⟨24, _⟩ => ⟨S9x18, .f32⟩
  | .local _ .vmem, ⟨25, _⟩ => ⟨S1x18, .f32⟩
  | .local _ .vmem, ⟨26, _⟩ => ⟨S1x18, .f32⟩
  | .local _ .vmem, ⟨27, _⟩ => ⟨S1x18, .f32⟩
  | .local _ .vmem, ⟨28, _⟩ => ⟨S1x18, .f32⟩
  | .local _ .vmem, ⟨29, _⟩ => ⟨S1x18, .f32⟩
  | .local _ .vmem, ⟨30, _⟩ => ⟨S18x9, .f32⟩
  | .local _ .vmem, ⟨31, _⟩ => ⟨S1x9, .f32⟩
  | .local _ .vmem, ⟨32, _⟩ => ⟨S1x9, .f32⟩
  | .local _ .vmem, ⟨33, _⟩ => ⟨S1x9, .f32⟩
  | .local _ .vmem, ⟨34, _⟩ => ⟨S1x9, .f32⟩
  | .local _ .vmem, ⟨35, _⟩ => ⟨S1x9, .f32⟩
  | .local _ .vmem, ⟨36, _⟩ => ⟨S5000x9, .f32⟩
  | .local _ .vmem, ⟨37, _⟩ => ⟨S5000x9, .f32⟩
  | .local _ .vmem, ⟨38, _⟩ => ⟨S5000x9, .f32⟩
  | .local _ .vmem, ⟨39, _⟩ => ⟨S5000x9, .f32⟩
  | .local _ .vmem, ⟨40, _⟩ => ⟨S5000x9, .f32⟩
  | .local _ .vmem, ⟨41, _⟩ => ⟨S5000x9, .f32⟩
  | .local _ .vmem, ⟨42, _⟩ => ⟨S1x1, .f32⟩
  | .local _ .vmem, ⟨43, _⟩ => ⟨S9x18, .f32⟩
  | .local _ .vmem, ⟨44, _⟩ => ⟨S1x18, .f32⟩
  | .local _ .vmem, ⟨45, _⟩ => ⟨S1x18, .f32⟩
  | .local _ .vmem, ⟨46, _⟩ => ⟨S1x18, .f32⟩
  | .local _ .vmem, ⟨47, _⟩ => ⟨S1x18, .f32⟩
  | .local _ .vmem, ⟨48, _⟩ => ⟨S1x18, .f32⟩
  | .local _ .vmem, ⟨49, _⟩ => ⟨S18x9, .f32⟩
  | .local _ .vmem, ⟨50, _⟩ => ⟨S1x9, .f32⟩
  | .local _ .vmem, ⟨51, _⟩ => ⟨S1x9, .f32⟩
  | .local _ .vmem, ⟨52, _⟩ => ⟨S1x9, .f32⟩
  | .local _ .vmem, ⟨53, _⟩ => ⟨S1x9, .f32⟩
  | .local _ .vmem, ⟨54, _⟩ => ⟨S1x9, .f32⟩
  | .local _ .vmem, ⟨55, _⟩ => ⟨S5000x9, .f32⟩
  | .local _ .vmem, ⟨56, _⟩ => ⟨S5000x9, .f32⟩
  | .local _ .vmem, ⟨57, _⟩ => ⟨S2000x9, .f32⟩
  | .local _ .vmem, ⟨58, _⟩ => ⟨S2000x9, .f32⟩
  | .local _ .vmem, ⟨59, _⟩ => ⟨S2000x1, .i32⟩
  | .local _ .vmem, ⟨60, _⟩ => ⟨S2000x1, .i32⟩
  | .local _ .vmem, ⟨61, _⟩ => ⟨S9x9, .f32⟩
  | .local _ .vmem, ⟨62, _⟩ => ⟨S1x9, .f32⟩
  | .local _ .vmem, ⟨63, _⟩ => ⟨S1x9, .f32⟩
  | .local _ .vmem, ⟨64, _⟩ => ⟨S1x9, .f32⟩
  | .local _ .vmem, ⟨65, _⟩ => ⟨S1x9, .f32⟩
  | .local _ .vmem, ⟨66, _⟩ => ⟨S1x9, .f32⟩
  | .local _ .vmem, ⟨67, _⟩ => ⟨S9x2, .f32⟩
  | .local _ .vmem, ⟨68, _⟩ => ⟨S1x2, .f32⟩
  | .local _ .vmem, ⟨69, _⟩ => ⟨S2x2, .f32⟩
  | .local _ .vmem, ⟨70, _⟩ => ⟨S1x2, .f32⟩
  | .local _ .vmem, ⟨71, _⟩ => ⟨S1024x2, .f32⟩
  | .local _ .vmem, ⟨72, _⟩ => ⟨S1024x9, .f32⟩
  | _, _ => ⟨S500000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_1 : Ref sig .tc := ⟨.hbm, 84, rfl⟩
abbrev main_v55 : Ref sig .tc := ⟨.hbm, 85, rfl⟩
abbrev main_v56 : Ref sig .tc := ⟨.hbm, 86, rfl⟩
abbrev main_c_2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_3 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_4 : Ref sig .tc := ⟨.hbm, 137, rfl⟩
abbrev main_v105 : Ref sig .tc := ⟨.hbm, 138, rfl⟩
abbrev main_v106 : Ref sig .tc := ⟨.hbm, 139, rfl⟩
abbrev main_c_5 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_6 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc1_stg14_0 : Ref sig .tc := ⟨.vmem, 35, rfl⟩
abbrev cc1_stg15_0 : Ref sig .tc := ⟨.vmem, 36, rfl⟩
abbrev cc1_stg15_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg5_0 : Ref sig .tc := ⟨.vmem, 45, rfl⟩
abbrev cc2_stg6_0 : Ref sig .tc := ⟨.vmem, 46, rfl⟩
abbrev cc2_stg7_0 : Ref sig .tc := ⟨.vmem, 47, rfl⟩
abbrev cc2_stg8_0 : Ref sig .tc := ⟨.vmem, 48, rfl⟩
abbrev cc2_stg9_0 : Ref sig .tc := ⟨.vmem, 49, rfl⟩
abbrev cc2_stg10_0 : Ref sig .tc := ⟨.vmem, 50, rfl⟩
abbrev cc2_stg11_0 : Ref sig .tc := ⟨.vmem, 51, rfl⟩
abbrev cc2_stg12_0 : Ref sig .tc := ⟨.vmem, 52, rfl⟩
abbrev cc2_stg13_0 : Ref sig .tc := ⟨.vmem, 53, rfl⟩
abbrev cc2_stg14_0 : Ref sig .tc := ⟨.vmem, 54, rfl⟩
abbrev cc2_stg15_0 : Ref sig .tc := ⟨.vmem, 55, rfl⟩
abbrev cc2_stg15_1 : Ref sig .tc := ⟨.vmem, 56, rfl⟩
abbrev cc3_stg0_0 : Ref sig .tc := ⟨.vmem, 57, rfl⟩
abbrev cc3_stg0_1 : Ref sig .tc := ⟨.vmem, 58, rfl⟩
abbrev cc3_stg1_0 : Ref sig .tc := ⟨.vmem, 59, rfl⟩
abbrev cc3_stg1_1 : Ref sig .tc := ⟨.vmem, 60, rfl⟩
abbrev cc3_stg2_0 : Ref sig .tc := ⟨.vmem, 61, rfl⟩
abbrev cc3_stg3_0 : Ref sig .tc := ⟨.vmem, 62, rfl⟩
abbrev cc3_stg4_0 : Ref sig .tc := ⟨.vmem, 63, rfl⟩
abbrev cc3_stg5_0 : Ref sig .tc := ⟨.vmem, 64, rfl⟩
abbrev cc3_stg6_0 : Ref sig .tc := ⟨.vmem, 65, rfl⟩
abbrev cc3_stg7_0 : Ref sig .tc := ⟨.vmem, 66, rfl⟩
abbrev cc3_stg8_0 : Ref sig .tc := ⟨.vmem, 67, rfl⟩
abbrev cc3_stg9_0 : Ref sig .tc := ⟨.vmem, 68, rfl⟩
abbrev cc3_stg10_0 : Ref sig .tc := ⟨.vmem, 69, rfl⟩
abbrev cc3_stg11_0 : Ref sig .tc := ⟨.vmem, 70, rfl⟩
abbrev cc3_stg12_0 : Ref sig .tc := ⟨.vmem, 71, rfl⟩
abbrev cc3_scratch0 : Ref sig .tc := ⟨.vmem, 72, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc1_sem14_0 : DmaSem sig := 35
abbrev cc1_sem15_0 : DmaSem sig := 36
abbrev cc1_sem15_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem3_0 : DmaSem sig := 43
abbrev cc2_sem4_0 : DmaSem sig := 44
abbrev cc2_sem5_0 : DmaSem sig := 45
abbrev cc2_sem6_0 : DmaSem sig := 46
abbrev cc2_sem7_0 : DmaSem sig := 47
abbrev cc2_sem8_0 : DmaSem sig := 48
abbrev cc2_sem9_0 : DmaSem sig := 49
abbrev cc2_sem10_0 : DmaSem sig := 50
abbrev cc2_sem11_0 : DmaSem sig := 51
abbrev cc2_sem12_0 : DmaSem sig := 52
abbrev cc2_sem13_0 : DmaSem sig := 53
abbrev cc2_sem14_0 : DmaSem sig := 54
abbrev cc2_sem15_0 : DmaSem sig := 55
abbrev cc2_sem15_1 : DmaSem sig := 56
abbrev cc3_sem0_0 : DmaSem sig := 57
abbrev cc3_sem0_1 : DmaSem sig := 58
abbrev cc3_sem1_0 : DmaSem sig := 59
abbrev cc3_sem1_1 : DmaSem sig := 60
abbrev cc3_sem2_0 : DmaSem sig := 61
abbrev cc3_sem3_0 : DmaSem sig := 62
abbrev cc3_sem4_0 : DmaSem sig := 63
abbrev cc3_sem5_0 : DmaSem sig := 64
abbrev cc3_sem6_0 : DmaSem sig := 65
abbrev cc3_sem7_0 : DmaSem sig := 66
abbrev cc3_sem8_0 : DmaSem sig := 67
abbrev cc3_sem9_0 : DmaSem sig := 68
abbrev cc3_sem10_0 : DmaSem sig := 69
abbrev cc3_sem11_0 : DmaSem sig := 70
abbrev cc3_sem12_0 : DmaSem sig := 71

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x18 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x18 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x18 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S18x9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x9 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x9 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x9 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x9 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x9 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S5000x9 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x18 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x18 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x18 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x18 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x18 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x18 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S18x9 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x9 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x9 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x9 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x9 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x9 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S5000x9 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x9 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x9 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S9x18 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x18 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x18 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x18 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x18 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x18 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S18x9 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x9 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x9 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x9 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x9 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x9 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S5000x9 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![250], ![false]⟩

def k3_cond2 (i : grid3.Coords) : BitVec 1 :=
  let arg0 : BitVec 32 := BitVec.ofNat 32 (i 0).val
  let c249_i32 : BitVec 32 := 249#32
  let v20 : BitVec 1 := Scalar.cmpi .eq arg0 c249_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x9 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S9x9 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x9 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x9 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x9 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x9 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x9 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S9x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x2 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S2x2 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x2 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1024x2 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  shapeCasts_S500000_S500000x1 : S500000.ShapeCasts S500000x1
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x9 : S_.BroadcastsInDim S500000x9 (![] : Fin 0 → Fin S500000x9.rank)
  slices_S3_S1_0 : S3.Slices ![0] S1
  shapeCasts_S1_S_ : S1.ShapeCasts S_
  slices_S3x18x9_S1x18x9_0_0_0 : S3x18x9.Slices ![0, 0, 0] S1x18x9
  shapeCasts_S1x18x9_S18x9 : S1x18x9.ShapeCasts S18x9
  slices_S3x18_S1x18_0_0 : S3x18.Slices ![0, 0] S1x18
  shapeCasts_S1x18_S18 : S1x18.ShapeCasts S18
  slices_S3x9x18_S1x9x18_0_0_0 : S3x9x18.Slices ![0, 0, 0] S1x9x18
  shapeCasts_S1x9x18_S9x18 : S1x9x18.ShapeCasts S9x18
  slices_S3x9_S1x9_0_0 : S3x9.Slices ![0, 0] S1x9
  shapeCasts_S1x9_S9 : S1x9.ShapeCasts S9
  transposes_S18x9_S9x18_1_0 : S18x9.Transposes [1, 0] S9x18
  transposes_S9x18_S18x9_1_0 : S9x18.Transposes [1, 0] S18x9
  shapeCasts_S_S1x1 : S_.ShapeCasts S1x1
  shapeCasts_S18_S1x18 : S18.ShapeCasts S1x18
  shapeCasts_S9_S1x9 : S9.ShapeCasts S1x9
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x9_S5000x9_0_0 : ∀ a, (![0, 0] : Fin 2 → Nat) a + S5000x9.size a ≤ S5000x9.size a
  h_S5000x9 : 0 < S5000x9.numel
  broadcasts_S1x1_S5000x9 : S1x1.Broadcasts S5000x9
  shapeCasts_S5000x9_S5000x9 : S5000x9.ShapeCasts S5000x9
  bitsLt_bf16_f32 : FTy.bits .bf16 < FTy.bits .f32
  inb_S9x18_S9x18_0_0 : ∀ a, (![0, 0] : Fin 2 → Nat) a + S9x18.size a ≤ S9x18.size a
  h_S9x18 : 0 < S9x18.numel
  shapeCasts_S9x18_S9x18 : S9x18.ShapeCasts S9x18
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S5000x18 : S1x18.Broadcasts S5000x18
  inb_S18x9_S18x9_0_0 : ∀ a, (![0, 0] : Fin 2 → Nat) a + S18x9.size a ≤ S18x9.size a
  h_S18x9 : 0 < S18x9.numel
  shapeCasts_S18x9_S18x9 : S18x9.ShapeCasts S18x9
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S5000x9 : S1x9.Broadcasts S5000x9
  slices_S3_S1_1 : S3.Slices ![1] S1
  slices_S3x18x9_S1x18x9_1_0_0 : S3x18x9.Slices ![1, 0, 0] S1x18x9
  slices_S3x18_S1x18_1_0 : S3x18.Slices ![1, 0] S1x18
  slices_S3x9x18_S1x9x18_1_0_0 : S3x9x18.Slices ![1, 0, 0] S1x9x18
  slices_S3x9_S1x9_1_0 : S3x9.Slices ![1, 0] S1x9
  slices_S3_S1_2 : S3.Slices ![2] S1
  slices_S3x18x9_S1x18x9_2_0_0 : S3x18x9.Slices ![2, 0, 0] S1x18x9
  slices_S3x18_S1x18_2_0 : S3x18.Slices ![2, 0] S1x18
  slices_S3x9x18_S1x9x18_2_0_0 : S3x9x18.Slices ![2, 0, 0] S1x9x18
  slices_S3x9_S1x9_2_0 : S3x9.Slices ![2, 0] S1x9
  transposes_S9x9_S9x9_1_0 : S9x9.Transposes [1, 0] S9x9
  transposes_S2x9_S9x2_1_0 : S2x9.Transposes [1, 0] S9x2
  transposes_S2x2_S2x2_1_0 : S2x2.Transposes [1, 0] S2x2
  shapeCasts_S2_S1x2 : S2.ShapeCasts S1x2
  inb_S1024x9_S1024x9_0_0 : ∀ a, (![0, 0] : Fin 2 → Nat) a + S1024x9.size a ≤ S1024x9.size a
  h_S1024x9 : 0 < S1024x9.numel
  shapeCasts_S1024x9_S1024x9 : S1024x9.ShapeCasts S1024x9
  iota_S2000x1024_d1_w32 : S2000x1024.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1024 : S2000x1.Broadcasts S2000x1024
  natLt_1_32 : 1 < 32
  inb_S2000x9_S2000x9_0_0 : ∀ a, (![0, 0] : Fin 2 → Nat) a + S2000x9.size a ≤ S2000x9.size a
  h_S2000x9 : 0 < S2000x9.numel
  shapeCasts_S2000x9_S2000x9 : S2000x9.ShapeCasts S2000x9
  inb_S9x9_S9x9_0_0 : ∀ a, (![0, 0] : Fin 2 → Nat) a + S9x9.size a ≤ S9x9.size a
  h_S9x9 : 0 < S9x9.numel
  shapeCasts_S9x9_S9x9 : S9x9.ShapeCasts S9x9
  broadcasts_S1x9_S1024x9 : S1x9.Broadcasts S1024x9
  inb_S9x2_S9x2_0_0 : ∀ a, (![0, 0] : Fin 2 → Nat) a + S9x2.size a ≤ S9x2.size a
  h_S9x2 : 0 < S9x2.numel
  shapeCasts_S9x2_S9x2 : S9x2.ShapeCasts S9x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S2x2_S2x2_0_0 : ∀ a, (![0, 0] : Fin 2 → Nat) a + S2x2.size a ≤ S2x2.size a
  h_S2x2 : 0 < S2x2.numel
  shapeCasts_S2x2_S2x2 : S2x2.ShapeCasts S2x2
  inb_S1024x2_S1024x2_0_0 : ∀ a, (![0, 0] : Fin 2 → Nat) a + S1024x2.size a ≤ S1024x2.size a
  h_S1024x2 : 0 < S1024x2.numel
  gather_S500000x9_S16000000x1_S16000000x9_1_0_n_n_0_1_19_wf : GatherDims.WF S500000x9 S16000000x1 S16000000x9 [1] [0] [] [0] [] 1 ![1, 9]
  scatter_S500000x9_S16000000x1_S16000000x9_1_0_0_1_wf : ScatterDims.WF S500000x9 S16000000x1 S16000000x9 [1] [0] [0] 1
  dot_S5000x9_S9x18_S5000x18_1_0_0_1_n_n_wf : DotDims.WF S5000x9 S9x18 S5000x18 [1] [0] [0] [1] [] []
  dot_S5000x18_S18x9_S5000x9_1_0_0_1_n_n_wf : DotDims.WF S5000x18 S18x9 S5000x9 [1] [0] [0] [1] [] []
  dot_S2000x1024_S2000x9_S1024x9_0_0_1_1_n_n_wf : DotDims.WF S2000x1024 S2000x9 S1024x9 [0] [0] [1] [1] [] []
  dot_S1024x9_S9x9_S1024x9_1_0_0_1_n_n_wf : DotDims.WF S1024x9 S9x9 S1024x9 [1] [0] [0] [1] [] []
  dot_S1024x9_S9x2_S1024x2_1_0_0_1_n_n_wf : DotDims.WF S1024x9 S9x2 S1024x2 [1] [0] [0] [1] [] []
  dot_S1024x2_S2x2_S1024x2_1_0_0_1_n_n_wf : DotDims.WF S1024x2 S2x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S500000x9.size a
  hwx0_0 : ∀ i : grid0.Coords, EltTy.bits .f32 = 32 ∨ (Rect.block (s := S500000x9) S5000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x9.size a ≤ S500000x9.size a
  hwx0_1 : ∀ i : grid0.Coords, EltTy.bits .f32 = 32 ∨ (Rect.block (s := S500000x9) S5000x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x18.size a ≤ S9x18.size a
  hwx0_3 : ∀ i : grid0.Coords, EltTy.bits .f32 = 32 ∨ (Rect.block (s := S9x18) S9x18.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x18.size a ≤ S1x18.size a
  hwx0_4 : ∀ i : grid0.Coords, EltTy.bits .f32 = 32 ∨ (Rect.block (s := S1x18) S1x18.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x18.size a ≤ S1x18.size a
  hwx0_5 : ∀ i : grid0.Coords, EltTy.bits .f32 = 32 ∨ (Rect.block (s := S1x18) S1x18.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x18.size a ≤ S1x18.size a
  hwx0_6 : ∀ i : grid0.Coords, EltTy.bits .f32 = 32 ∨ (Rect.block (s := S1x18) S1x18.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x18.size a ≤ S1x18.size a
  hwx0_7 : ∀ i : grid0.Coords, EltTy.bits .f32 = 32 ∨ (Rect.block (s := S1x18) S1x18.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x18.size a ≤ S1x18.size a
  hwx0_8 : ∀ i : grid0.Coords, EltTy.bits .f32 = 32 ∨ (Rect.block (s := S1x18) S1x18.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S18x9.size a ≤ S18x9.size a
  hwx0_9 : ∀ i : grid0.Coords, EltTy.bits .f32 = 32 ∨ (Rect.block (s := S18x9) S18x9.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x9.size a ≤ S1x9.size a
  hwx0_10 : ∀ i : grid0.Coords, EltTy.bits .f32 = 32 ∨ (Rect.block (s := S1x9) S1x9.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x9.size a ≤ S1x9.size a
  hwx0_11 : ∀ i : grid0.Coords, EltTy.bits .f32 = 32 ∨ (Rect.block (s := S1x9) S1x9.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x9.size a ≤ S1x9.size a
  hwx0_12 : ∀ i : grid0.Coords, EltTy.bits .f32 = 32 ∨ (Rect.block (s := S1x9) S1x9.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x9.size a ≤ S1x9.size a
  hwx0_13 : ∀ i : grid0.Coords, EltTy.bits .f32 = 32 ∨ (Rect.block (s := S1x9) S1x9.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x9.size a ≤ S1x9.size a
  hwx0_14 : ∀ i : grid0.Coords, EltTy.bits .f32 = 32 ∨ (Rect.block (s := S1x9) S1x9.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5000x9.size a ≤ S500000x9.size a
  hwx0_15 : ∀ i : grid0.Coords, EltTy.bits .f32 = 32 ∨ (Rect.block (s := S500000x9) S5000x9.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x9.size a ≤ S500000x9.size a
  hwx1_0 : ∀ i : grid1.Coords, EltTy.bits .f32 = 32 ∨ (Rect.block (s := S500000x9) S5000x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x9.size a ≤ S500000x9.size a
  hwx1_1 : ∀ i : grid1.Coords, EltTy.bits .f32 = 32 ∨ (Rect.block (s := S500000x9) S5000x9.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x18.size a ≤ S9x18.size a
  hwx1_3 : ∀ i : grid1.Coords, EltTy.bits .f32 = 32 ∨ (Rect.block (s := S9x18) S9x18.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x18.size a ≤ S1x18.size a
  hwx1_4 : ∀ i : grid1.Coords, EltTy.bits .f32 = 32 ∨ (Rect.block (s := S1x18) S1x18.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x18.size a ≤ S1x18.size a
  hwx1_5 : ∀ i : grid1.Coords, EltTy.bits .f32 = 32 ∨ (Rect.block (s := S1x18) S1x18.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x18.size a ≤ S1x18.size a
  hwx1_6 : ∀ i : grid1.Coords, EltTy.bits .f32 = 32 ∨ (Rect.block (s := S1x18) S1x18.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x18.size a ≤ S1x18.size a
  hwx1_7 : ∀ i : grid1.Coords, EltTy.bits .f32 = 32 ∨ (Rect.block (s := S1x18) S1x18.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x18.size a ≤ S1x18.size a
  hwx1_8 : ∀ i : grid1.Coords, EltTy.bits .f32 = 32 ∨ (Rect.block (s := S1x18) S1x18.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S18x9.size a ≤ S18x9.size a
  hwx1_9 : ∀ i : grid1.Coords, EltTy.bits .f32 = 32 ∨ (Rect.block (s := S18x9) S18x9.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x9.size a ≤ S1x9.size a
  hwx1_10 : ∀ i : grid1.Coords, EltTy.bits .f32 = 32 ∨ (Rect.block (s := S1x9) S1x9.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x9.size a ≤ S1x9.size a
  hwx1_11 : ∀ i : grid1.Coords, EltTy.bits .f32 = 32 ∨ (Rect.block (s := S1x9) S1x9.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x9.size a ≤ S1x9.size a
  hwx1_12 : ∀ i : grid1.Coords, EltTy.bits .f32 = 32 ∨ (Rect.block (s := S1x9) S1x9.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x9.size a ≤ S1x9.size a
  hwx1_13 : ∀ i : grid1.Coords, EltTy.bits .f32 = 32 ∨ (Rect.block (s := S1x9) S1x9.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x9.size a ≤ S1x9.size a
  hwx1_14 : ∀ i : grid1.Coords, EltTy.bits .f32 = 32 ∨ (Rect.block (s := S1x9) S1x9.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S5000x9.size a ≤ S500000x9.size a
  hwx1_15 : ∀ i : grid1.Coords, EltTy.bits .f32 = 32 ∨ (Rect.block (s := S500000x9) S5000x9.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x9.size a ≤ S500000x9.size a
  hwx2_0 : ∀ i : grid2.Coords, EltTy.bits .f32 = 32 ∨ (Rect.block (s := S500000x9) S5000x9.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x9.size a ≤ S500000x9.size a
  hwx2_1 : ∀ i : grid2.Coords, EltTy.bits .f32 = 32 ∨ (Rect.block (s := S500000x9) S5000x9.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S9x18.size a ≤ S9x18.size a
  hwx2_3 : ∀ i : grid2.Coords, EltTy.bits .f32 = 32 ∨ (Rect.block (s := S9x18) S9x18.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x18.size a ≤ S1x18.size a
  hwx2_4 : ∀ i : grid2.Coords, EltTy.bits .f32 = 32 ∨ (Rect.block (s := S1x18) S1x18.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x18.size a ≤ S1x18.size a
  hwx2_5 : ∀ i : grid2.Coords, EltTy.bits .f32 = 32 ∨ (Rect.block (s := S1x18) S1x18.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x18.size a ≤ S1x18.size a
  hwx2_6 : ∀ i : grid2.Coords, EltTy.bits .f32 = 32 ∨ (Rect.block (s := S1x18) S1x18.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x18.size a ≤ S1x18.size a
  hwx2_7 : ∀ i : grid2.Coords, EltTy.bits .f32 = 32 ∨ (Rect.block (s := S1x18) S1x18.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x18.size a ≤ S1x18.size a
  hwx2_8 : ∀ i : grid2.Coords, EltTy.bits .f32 = 32 ∨ (Rect.block (s := S1x18) S1x18.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S18x9.size a ≤ S18x9.size a
  hwx2_9 : ∀ i : grid2.Coords, EltTy.bits .f32 = 32 ∨ (Rect.block (s := S18x9) S18x9.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x9.size a ≤ S1x9.size a
  hwx2_10 : ∀ i : grid2.Coords, EltTy.bits .f32 = 32 ∨ (Rect.block (s := S1x9) S1x9.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x9.size a ≤ S1x9.size a
  hwx2_11 : ∀ i : grid2.Coords, EltTy.bits .f32 = 32 ∨ (Rect.block (s := S1x9) S1x9.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x9.size a ≤ S1x9.size a
  hwx2_12 : ∀ i : grid2.Coords, EltTy.bits .f32 = 32 ∨ (Rect.block (s := S1x9) S1x9.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x9.size a ≤ S1x9.size a
  hwx2_13 : ∀ i : grid2.Coords, EltTy.bits .f32 = 32 ∨ (Rect.block (s := S1x9) S1x9.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x9.size a ≤ S1x9.size a
  hwx2_14 : ∀ i : grid2.Coords, EltTy.bits .f32 = 32 ∨ (Rect.block (s := S1x9) S1x9.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S5000x9.size a ≤ S500000x9.size a
  hwx2_15 : ∀ i : grid2.Coords, EltTy.bits .f32 = 32 ∨ (Rect.block (s := S500000x9) S5000x9.size (cc2_transform_15 i) (hinb2_15 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x9.size a ≤ S500000x9.size a
  hwx3_0 : ∀ i : grid3.Coords, EltTy.bits .f32 = 32 ∨ (Rect.block (s := S500000x9) S2000x9.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S500000x1.size a
  hwx3_1 : ∀ i : grid3.Coords, EltTy.bits .i32 = 32 ∨ (Rect.block (s := S500000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S9x9.size a ≤ S9x9.size a
  hwx3_2 : ∀ i : grid3.Coords, EltTy.bits .f32 = 32 ∨ (Rect.block (s := S9x9) S9x9.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x9.size a ≤ S1x9.size a
  hwx3_3 : ∀ i : grid3.Coords, EltTy.bits .f32 = 32 ∨ (Rect.block (s := S1x9) S1x9.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x9.size a ≤ S1x9.size a
  hwx3_4 : ∀ i : grid3.Coords, EltTy.bits .f32 = 32 ∨ (Rect.block (s := S1x9) S1x9.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x9.size a ≤ S1x9.size a
  hwx3_5 : ∀ i : grid3.Coords, EltTy.bits .f32 = 32 ∨ (Rect.block (s := S1x9) S1x9.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x9.size a ≤ S1x9.size a
  hwx3_6 : ∀ i : grid3.Coords, EltTy.bits .f32 = 32 ∨ (Rect.block (s := S1x9) S1x9.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x9.size a ≤ S1x9.size a
  hwx3_7 : ∀ i : grid3.Coords, EltTy.bits .f32 = 32 ∨ (Rect.block (s := S1x9) S1x9.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S9x2.size a ≤ S9x2.size a
  hwx3_8 : ∀ i : grid3.Coords, EltTy.bits .f32 = 32 ∨ (Rect.block (s := S9x2) S9x2.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x2.size a ≤ S1x2.size a
  hwx3_9 : ∀ i : grid3.Coords, EltTy.bits .f32 = 32 ∨ (Rect.block (s := S1x2) S1x2.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S2x2.size a ≤ S2x2.size a
  hwx3_10 : ∀ i : grid3.Coords, EltTy.bits .f32 = 32 ∨ (Rect.block (s := S2x2) S2x2.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x2.size a ≤ S1x2.size a
  hwx3_11 : ∀ i : grid3.Coords, EltTy.bits .f32 = 32 ∨ (Rect.block (s := S1x2) S1x2.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1024x2.size a ≤ S1024x2.size a
  hwx3_12 : ∀ i : grid3.Coords, EltTy.bits .f32 = 32 ∨ (Rect.block (s := S1024x2) S1024x2.size (cc3_transform_12 i) (hinb3_12 i)).WholeWords (EltTy.packing .f32)

variable [Facts₀]

def gather_S500000x9_S16000000x1_S16000000x9_1_0_n_n_0_1_19 : GatherDims S500000x9 S16000000x1 S16000000x9 where
  offsetDims := [1]
  collapsedSliceDims := [0]
  operandBatchingDims := []
  startIndicesBatchingDims := []
  startIndexMap := [0]
  indexVectorDim := 1
  sliceSizes := ![1, 9]
  wf := gather_S500000x9_S16000000x1_S16000000x9_1_0_n_n_0_1_19_wf
def scatter_S500000x9_S16000000x1_S16000000x9_1_0_0_1 : ScatterDims S500000x9 S16000000x1 S16000000x9 where
  updateWindowDims := [1]
  insertedWindowDims := [0]
  scatterDimsToOperandDims := [0]
  indexVectorDim := 1
  wf := scatter_S500000x9_S16000000x1_S16000000x9_1_0_0_1_wf
def dot_S5000x9_S9x18_S5000x18_1_0_0_1_n_n : DotDims S5000x9 S9x18 S5000x18 where
  lhsContracting := [1]
  rhsContracting := [0]
  lhsNonContracting := [0]
  rhsNonContracting := [1]
  lhsBatch := []
  rhsBatch := []
  wf := dot_S5000x9_S9x18_S5000x18_1_0_0_1_n_n_wf
def dot_S5000x18_S18x9_S5000x9_1_0_0_1_n_n : DotDims S5000x18 S18x9 S5000x9 where
  lhsContracting := [1]
  rhsContracting := [0]
  lhsNonContracting := [0]
  rhsNonContracting := [1]
  lhsBatch := []
  rhsBatch := []
  wf := dot_S5000x18_S18x9_S5000x9_1_0_0_1_n_n_wf
def dot_S2000x1024_S2000x9_S1024x9_0_0_1_1_n_n : DotDims S2000x1024 S2000x9 S1024x9 where
  lhsContracting := [0]
  rhsContracting := [0]
  lhsNonContracting := [1]
  rhsNonContracting := [1]
  lhsBatch := []
  rhsBatch := []
  wf := dot_S2000x1024_S2000x9_S1024x9_0_0_1_1_n_n_wf
def dot_S1024x9_S9x9_S1024x9_1_0_0_1_n_n : DotDims S1024x9 S9x9 S1024x9 where
  lhsContracting := [1]
  rhsContracting := [0]
  lhsNonContracting := [0]
  rhsNonContracting := [1]
  lhsBatch := []
  rhsBatch := []
  wf := dot_S1024x9_S9x9_S1024x9_1_0_0_1_n_n_wf
def dot_S1024x9_S9x2_S1024x2_1_0_0_1_n_n : DotDims S1024x9 S9x2 S1024x2 where
  lhsContracting := [1]
  rhsContracting := [0]
  lhsNonContracting := [0]
  rhsNonContracting := [1]
  lhsBatch := []
  rhsBatch := []
  wf := dot_S1024x9_S9x2_S1024x2_1_0_0_1_n_n_wf
def dot_S1024x2_S2x2_S1024x2_1_0_0_1_n_n : DotDims S1024x2 S2x2 S1024x2 where
  lhsContracting := [1]
  rhsContracting := [0]
  lhsNonContracting := [0]
  rhsNonContracting := [1]
  lhsBatch := []
  rhsBatch := []
  wf := dot_S1024x2_S2x2_S1024x2_1_0_0_1_n_n_wf

abbrev win0_0 : Pipeline.Window sig grid0 :=
  Pipeline.Window.ofSpec (Memref.whole main_arg0) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S9x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1x18.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x18.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1x18.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x18.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S18x9.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v49) S1x9.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v50) S1x9.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v51) S1x9.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v52) S1x9.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v53) S1x9.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v54) S5000x9.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v54) S5000x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S5000x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v93) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v91) S9x18.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v94) S1x18.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S1x18.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v96) S1x18.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v97) S1x18.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v98) S1x18.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v92) S18x9.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v99) S1x9.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v100) S1x9.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v101) S1x9.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v102) S1x9.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v103) S1x9.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v104) S5000x9.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v104) S5000x9.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v114) S5000x9.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v143) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v141) S9x18.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v144) S1x18.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v145) S1x18.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v146) S1x18.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v147) S1x18.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v148) S1x18.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v142) S18x9.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v149) S1x9.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v150) S1x9.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v151) S1x9.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v152) S1x9.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v153) S1x9.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v154) S5000x9.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_v154) S2000x9.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v155) S9x9.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v158) S1x9.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v159) S1x9.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v160) S1x9.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v161) S1x9.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v162) S1x9.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v156) S9x2.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v163) S1x2.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v157) S2x2.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v164) S1x2.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v165) S1024x2.size cc3_transform_12 reads3_12 true true 1 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev idle3 : Fin 13 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k3_cond2 i == 1#1) | ⟨_ + 13, h⟩ => absurd h (Nat.not_lt.2 (Nat.le_add_left _ _))

class Facts : Prop extends Facts₀ where

variable [Facts]
-- ==== ReferenceIdeal.lean ====
abbrev S500000x9 : Shape := ⟨2, ![500000, 9]⟩
abbrev S2x16000000 : Shape := ⟨2, ![2, 16000000]⟩
abbrev S500000 : Shape := ⟨1, ![500000]⟩
abbrev S3x18x9 : Shape := ⟨3, ![3, 18, 9]⟩
abbrev S3x18 : Shape := ⟨2, ![3, 18]⟩
abbrev S3x9x18 : Shape := ⟨3, ![3, 9, 18]⟩
abbrev S3x9 : Shape := ⟨2, ![3, 9]⟩
abbrev S3 : Shape := ⟨1, ![3]⟩
abbrev S9x9 : Shape := ⟨2, ![9, 9]⟩
abbrev S9 : Shape := ⟨1, ![9]⟩
abbrev S2x9 : Shape := ⟨2, ![2, 9]⟩
abbrev S2 : Shape := ⟨1, ![2]⟩
abbrev S2x2 : Shape := ⟨2, ![2, 2]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x9 : Shape := ⟨2, ![16000000, 9]⟩
abbrev S1 : Shape := ⟨1, ![1]⟩
abbrev S1x18x9 : Shape := ⟨3, ![1, 18, 9]⟩
abbrev S18x9 : Shape := ⟨2, ![18, 9]⟩
abbrev S9x18 : Shape := ⟨2, ![9, 18]⟩
abbrev S500000x18 : Shape := ⟨2, ![500000, 18]⟩
abbrev S1x18 : Shape := ⟨2, ![1, 18]⟩
abbrev S18 : Shape := ⟨1, ![18]⟩
abbrev S1x9x18 : Shape := ⟨3, ![1, 9, 18]⟩
abbrev S1x9 : Shape := ⟨2, ![1, 9]⟩
abbrev S1024x9 : Shape := ⟨2, ![1024, 9]⟩
abbrev S500000x1 : Shape := ⟨2, ![500000, 1]⟩
abbrev S9x2 : Shape := ⟨2, ![9, 2]⟩
abbrev S1024x2 : Shape := ⟨2, ![1024, 2]⟩
abbrev S1x2 : Shape := ⟨2, ![1, 2]⟩

abbrev nBuf : Space → Nat
  | .hbm => 344
  | .vmem => 0
  | .smem => 0
  | _ => 0

abbrev hbmTy0_0 (i : Nat) : BufTy := match i % 128 with
  | 0 => ⟨S500000x9, .f32⟩
  | 1 => ⟨S2x16000000, .i32⟩
  | 2 => ⟨S500000, .i32⟩
  | 3 => ⟨S3x18x9, .f32⟩
  | 4 => ⟨S3x18, .f32⟩
  | 5 => ⟨S3x18, .f32⟩
  | 6 => ⟨S3x18, .f32⟩
  | 7 => ⟨S3x18, .f32⟩
  | 8 => ⟨S3x18, .f32⟩
  | 9 => ⟨S3x9x18, .f32⟩
  | 10 => ⟨S3x9, .f32⟩
  | 11 => ⟨S3, .f32⟩
  | 12 => ⟨S3x9, .f32⟩
  | 13 => ⟨S3x9, .f32⟩
  | 14 => ⟨S3x9, .f32⟩
  | 15 => ⟨S3x9, .f32⟩
  | 16 => ⟨S9x9, .f32⟩
  | 17 => ⟨S9, .f32⟩
  | 18 => ⟨S9, .f32⟩
  | 19 => ⟨S9, .f32⟩
  | 20 => ⟨S9, .f32⟩
  | 21 => ⟨S9, .f32⟩
  | 22 => ⟨S2x9, .f32⟩
  | 23 => ⟨S2, .f32⟩
  | 24 => ⟨S2x2, .f32⟩
  | 25 => ⟨S2, .f32⟩
  | 26 => ⟨S1x16000000, .i32⟩
  | 27 => ⟨S16000000, .i32⟩
  | 28 => ⟨S1x16000000, .i32⟩
  | 29 => ⟨S16000000, .i32⟩
  | 30 => ⟨S_, .i32⟩
  | 31 => ⟨S16000000, .i32⟩
  | 32 => ⟨S16000000, .i1⟩
  | 33 => ⟨S_, .i32⟩
  | 34 => ⟨S16000000, .i32⟩
  | 35 => ⟨S16000000, .i32⟩
  | 36 => ⟨S16000000, .i32⟩
  | 37 => ⟨S16000000x1, .i32⟩
  | 38 => ⟨S16000000x9, .f32⟩
  | 39 => ⟨S_, .f32⟩
  | 40 => ⟨S500000x9, .f32⟩
  | 41 => ⟨S16000000x1, .i32⟩
  | 42 => ⟨S500000x9, .f32⟩
  | 43 => ⟨S1, .f32⟩
  | 44 => ⟨S_, .f32⟩
  | 45 => ⟨S_, .f32⟩
  | 46 => ⟨S_, .f32⟩
  | 47 => ⟨S500000x9, .f32⟩
  | 48 => ⟨S500000x9, .f32⟩
  | 49 => ⟨S500000x9, .f32⟩
  | 50 => ⟨S1x18x9, .f32⟩
  | 51 => ⟨S18x9, .f32⟩
  | 52 => ⟨S9x18, .f32⟩
  | 53 => ⟨S500000x18, .f32⟩
  | 54 => ⟨S1x18, .f32⟩
  | 55 => ⟨S18, .f32⟩
  | 56 => ⟨S1x18, .f32⟩
  | 57 => ⟨S500000x18, .f32⟩
  | 58 => ⟨S500000x18, .f32⟩
  | 59 => ⟨S1x18, .f32⟩
  | 60 => ⟨S18, .f32⟩
  | 61 => ⟨S1x18, .f32⟩
  | 62 => ⟨S18, .f32⟩
  | 63 => ⟨S1x18, .f32⟩
  | 64 => ⟨S18, .f32⟩
  | 65 => ⟨S1x18, .f32⟩
  | 66 => ⟨S18, .f32⟩
  | 67 => ⟨S1x18, .f32⟩
  | 68 => ⟨S500000x18, .f32⟩
  | 69 => ⟨S500000x18, .f32⟩
  | 70 => ⟨S_, .f32⟩
  | 71 => ⟨S18, .f32⟩
  | 72 => ⟨S18, .f32⟩
  | 73 => ⟨S18, .f32⟩
  | 74 => ⟨S1x18, .f32⟩
  | 75 => ⟨S500000x18, .f32⟩
  | 76 => ⟨S500000x18, .f32⟩
  | 77 => ⟨S1x18, .f32⟩
  | 78 => ⟨S500000x18, .f32⟩
  | 79 => ⟨S500000x18, .f32⟩
  | 80 => ⟨S1x18, .f32⟩
  | 81 => ⟨S500000x18, .f32⟩
  | 82 => ⟨S500000x18, .f32⟩
  | 83 => ⟨S_, .f32⟩
  | 84 => ⟨S500000x18, .f32⟩
  | 85 => ⟨S500000x18, .f32⟩
  | 86 => ⟨S1x9x18, .f32⟩
  | 87 => ⟨S9x18, .f32⟩
  | 88 => ⟨S18x9, .f32⟩
  | 89 => ⟨S500000x9, .f32⟩
  | 90 => ⟨S1x9, .f32⟩
  | 91 => ⟨S9, .f32⟩
  | 92 => ⟨S1x9, .f32⟩
  | 93 => ⟨S500000x9, .f32⟩
  | 94 => ⟨S500000x9, .f32⟩
  | 95 => ⟨S1x9, .f32⟩
  | 96 => ⟨S9, .f32⟩
  | 97 => ⟨S1x9, .f32⟩
  | 98 => ⟨S9, .f32⟩
  | 99 => ⟨S1x9, .f32⟩
  | 100 => ⟨S9, .f32⟩
  | 101 => ⟨S1x9, .f32⟩
  | 102 => ⟨S9, .f32⟩
  | 103 => ⟨S1x9, .f32⟩
  | 104 => ⟨S500000x9, .f32⟩
  | 105 => ⟨S500000x9, .f32⟩
  | 106 => ⟨S_, .f32⟩
  | 107 => ⟨S9, .f32⟩
  | 108 => ⟨S9, .f32⟩
  | 109 => ⟨S9, .f32⟩
  | 110 => ⟨S1x9, .f32⟩
  | 111 => ⟨S500000x9, .f32⟩
  | 112 => ⟨S500000x9, .f32⟩
  | 113 => ⟨S1x9, .f32⟩
  | 114 => ⟨S500000x9, .f32⟩
  | 115 => ⟨S500000x9, .f32⟩
  | 116 => ⟨S1x9, .f32⟩
  | 117 => ⟨S500000x9, .f32⟩
  | 118 => ⟨S500000x9, .f32⟩
  | 119 => ⟨S_, .f32⟩
  | 120 => ⟨S500000x9, .f32⟩
  | 121 => ⟨S500000x9, .f32⟩
  | 122 => ⟨S_, .i32⟩
  | 123 => ⟨S16000000, .i32⟩
  | 124 => ⟨S16000000, .i1⟩
  | 125 => ⟨S_, .i32⟩
  | 126 => ⟨S16000000, .i32⟩
  | 127 => ⟨S16000000, .i32⟩
  | _ => ⟨S500000x9, .f32⟩

abbrev hbmTy0_1 (i : Nat) : BufTy := match i % 128 with
  | 0 => ⟨S16000000, .i32⟩
  | 1 => ⟨S16000000x1, .i32⟩
  | 2 => ⟨S16000000x9, .f32⟩
  | 3 => ⟨S_, .f32⟩
  | 4 => ⟨S500000x9, .f32⟩
  | 5 => ⟨S16000000x1, .i32⟩
  | 6 => ⟨S500000x9, .f32⟩
  | 7 => ⟨S1, .f32⟩
  | 8 => ⟨S_, .f32⟩
  | 9 => ⟨S_, .f32⟩
  | 10 => ⟨S_, .f32⟩
  | 11 => ⟨S500000x9, .f32⟩
  | 12 => ⟨S500000x9, .f32⟩
  | 13 => ⟨S500000x9, .f32⟩
  | 14 => ⟨S1x18x9, .f32⟩
  | 15 => ⟨S18x9, .f32⟩
  | 16 => ⟨S9x18, .f32⟩
  | 17 => ⟨S500000x18, .f32⟩
  | 18 => ⟨S1x18, .f32⟩
  | 19 => ⟨S18, .f32⟩
  | 20 => ⟨S1x18, .f32⟩
  | 21 => ⟨S500000x18, .f32⟩
  | 22 => ⟨S500000x18, .f32⟩
  | 23 => ⟨S1x18, .f32⟩
  | 24 => ⟨S18, .f32⟩
  | 25 => ⟨S1x18, .f32⟩
  | 26 => ⟨S18, .f32⟩
  | 27 => ⟨S1x18, .f32⟩
  | 28 => ⟨S18, .f32⟩
  | 29 => ⟨S1x18, .f32⟩
  | 30 => ⟨S18, .f32⟩
  | 31 => ⟨S1x18, .f32⟩
  | 32 => ⟨S500000x18, .f32⟩
  | 33 => ⟨S500000x18, .f32⟩
  | 34 => ⟨S_, .f32⟩
  | 35 => ⟨S18, .f32⟩
  | 36 => ⟨S18, .f32⟩
  | 37 => ⟨S18, .f32⟩
  | 38 => ⟨S1x18, .f32⟩
  | 39 => ⟨S500000x18, .f32⟩
  | 40 => ⟨S500000x18, .f32⟩
  | 41 => ⟨S1x18, .f32⟩
  | 42 => ⟨S500000x18, .f32⟩
  | 43 => ⟨S500000x18, .f32⟩
  | 44 => ⟨S1x18, .f32⟩
  | 45 => ⟨S500000x18, .f32⟩
  | 46 => ⟨S500000x18, .f32⟩
  | 47 => ⟨S_, .f32⟩
  | 48 => ⟨S500000x18, .f32⟩
  | 49 => ⟨S500000x18, .f32⟩
  | 50 => ⟨S1x9x18, .f32⟩
  | 51 => ⟨S9x18, .f32⟩
  | 52 => ⟨S18x9, .f32⟩
  | 53 => ⟨S500000x9, .f32⟩
  | 54 => ⟨S1x9, .f32⟩
  | 55 => ⟨S9, .f32⟩
  | 56 => ⟨S1x9, .f32⟩
  | 57 => ⟨S500000x9, .f32⟩
  | 58 => ⟨S500000x9, .f32⟩
  | 59 => ⟨S1x9, .f32⟩
  | 60 => ⟨S9, .f32⟩
  | 61 => ⟨S1x9, .f32⟩
  | 62 => ⟨S9, .f32⟩
  | 63 => ⟨S1x9, .f32⟩
  | 64 => ⟨S9, .f32⟩
  | 65 => ⟨S1x9, .f32⟩
  | 66 => ⟨S9, .f32⟩
  | 67 => ⟨S1x9, .f32⟩
  | 68 => ⟨S500000x9, .f32⟩
  | 69 => ⟨S500000x9, .f32⟩
  | 70 => ⟨S_, .f32⟩
  | 71 => ⟨S9, .f32⟩
  | 72 => ⟨S9, .f32⟩
  | 73 => ⟨S9, .f32⟩
  | 74 => ⟨S1x9, .f32⟩
  | 75 => ⟨S500000x9, .f32⟩
  | 76 => ⟨S500000x9, .f32⟩
  | 77 => ⟨S1x9, .f32⟩
  | 78 => ⟨S500000x9, .f32⟩
  | 79 => ⟨S500000x9, .f32⟩
  | 80 => ⟨S1x9, .f32⟩
  | 81 => ⟨S500000x9, .f32⟩
  | 82 => ⟨S500000x9, .f32⟩
  | 83 => ⟨S_, .f32⟩
  | 84 => ⟨S500000x9, .f32⟩
  | 85 => ⟨S500000x9, .f32⟩
  | 86 => ⟨S_, .i32⟩
  | 87 => ⟨S16000000, .i32⟩
  | 88 => ⟨S16000000, .i1⟩
  | 89 => ⟨S_, .i32⟩
  | 90 => ⟨S16000000, .i32⟩
  | 91 => ⟨S16000000, .i32⟩
  | 92 => ⟨S16000000, .i32⟩
  | 93 => ⟨S16000000x1, .i32⟩
  | 94 => ⟨S16000000x9, .f32⟩
  | 95 => ⟨S_, .f32⟩
  | 96 => ⟨S500000x9, .f32⟩
  | 97 => ⟨S16000000x1, .i32⟩
  | 98 => ⟨S500000x9, .f32⟩
  | 99 => ⟨S1, .f32⟩
  | 100 => ⟨S_, .f32⟩
  | 101 => ⟨S_, .f32⟩
  | 102 => ⟨S_, .f32⟩
  | 103 => ⟨S500000x9, .f32⟩
  | 104 => ⟨S500000x9, .f32⟩
  | 105 => ⟨S500000x9, .f32⟩
  | 106 => ⟨S1x18x9, .f32⟩
  | 107 => ⟨S18x9, .f32⟩
  | 108 => ⟨S9x18, .f32⟩
  | 109 => ⟨S500000x18, .f32⟩
  | 110 => ⟨S1x18, .f32⟩
  | 111 => ⟨S18, .f32⟩
  | 112 => ⟨S1x18, .f32⟩
  | 113 => ⟨S500000x18, .f32⟩
  | 114 => ⟨S500000x18, .f32⟩
  | 115 => ⟨S1x18, .f32⟩
  | 116 => ⟨S18, .f32⟩
  | 117 => ⟨S1x18, .f32⟩
  | 118 => ⟨S18, .f32⟩
  | 119 => ⟨S1x18, .f32⟩
  | 120 => ⟨S18, .f32⟩
  | 121 => ⟨S1x18, .f32⟩
  | 122 => ⟨S18, .f32⟩
  | 123 => ⟨S1x18, .f32⟩
  | 124 => ⟨S500000x18, .f32⟩
  | 125 => ⟨S500000x18, .f32⟩
  | 126 => ⟨S_, .f32⟩
  | 127 => ⟨S18, .f32⟩
  | _ => ⟨S500000x9, .f32⟩

abbrev hbmTy0_2 (i : Nat) : BufTy := match i % 128 with
  | 0 => ⟨S18, .f32⟩
  | 1 => ⟨S18, .f32⟩
  | 2 => ⟨S1x18, .f32⟩
  | 3 => ⟨S500000x18, .f32⟩
  | 4 => ⟨S500000x18, .f32⟩
  | 5 => ⟨S1x18, .f32⟩
  | 6 => ⟨S500000x18, .f32⟩
  | 7 => ⟨S500000x18, .f32⟩
  | 8 => ⟨S1x18, .f32⟩
  | 9 => ⟨S500000x18, .f32⟩
  | 10 => ⟨S500000x18, .f32⟩
  | 11 => ⟨S_, .f32⟩
  | 12 => ⟨S500000x18, .f32⟩
  | 13 => ⟨S500000x18, .f32⟩
  | 14 => ⟨S1x9x18, .f32⟩
  | 15 => ⟨S9x18, .f32⟩
  | 16 => ⟨S18x9, .f32⟩
  | 17 => ⟨S500000x9, .f32⟩
  | 18 => ⟨S1x9, .f32⟩
  | 19 => ⟨S9, .f32⟩
  | 20 => ⟨S1x9, .f32⟩
  | 21 => ⟨S500000x9, .f32⟩
  | 22 => ⟨S500000x9, .f32⟩
  | 23 => ⟨S1x9, .f32⟩
  | 24 => ⟨S9, .f32⟩
  | 25 => ⟨S1x9, .f32⟩
  | 26 => ⟨S9, .f32⟩
  | 27 => ⟨S1x9, .f32⟩
  | 28 => ⟨S9, .f32⟩
  | 29 => ⟨S1x9, .f32⟩
  | 30 => ⟨S9, .f32⟩
  | 31 => ⟨S1x9, .f32⟩
  | 32 => ⟨S500000x9, .f32⟩
  | 33 => ⟨S500000x9, .f32⟩
  | 34 => ⟨S_, .f32⟩
  | 35 => ⟨S9, .f32⟩
  | 36 => ⟨S9, .f32⟩
  | 37 => ⟨S9, .f32⟩
  | 38 => ⟨S1x9, .f32⟩
  | 39 => ⟨S500000x9, .f32⟩
  | 40 => ⟨S500000x9, .f32⟩
  | 41 => ⟨S1x9, .f32⟩
  | 42 => ⟨S500000x9, .f32⟩
  | 43 => ⟨S500000x9, .f32⟩
  | 44 => ⟨S1x9, .f32⟩
  | 45 => ⟨S500000x9, .f32⟩
  | 46 => ⟨S500000x9, .f32⟩
  | 47 => ⟨S_, .f32⟩
  | 48 => ⟨S500000x9, .f32⟩
  | 49 => ⟨S500000x9, .f32⟩
  | 50 => ⟨S_, .f32⟩
  | 51 => ⟨S1024x9, .f32⟩
  | 52 => ⟨S500000x1, .i32⟩
  | 53 => ⟨S1024x9, .f32⟩
  | 54 => ⟨S9x9, .f32⟩
  | 55 => ⟨S1024x9, .f32⟩
  | 56 => ⟨S1x9, .f32⟩
  | 57 => ⟨S1024x9, .f32⟩
  | 58 => ⟨S1024x9, .f32⟩
  | 59 => ⟨S1x9, .f32⟩
  | 60 => ⟨S1024x9, .f32⟩
  | 61 => ⟨S1024x9, .f32⟩
  | 62 => ⟨S_, .f32⟩
  | 63 => ⟨S9, .f32⟩
  | 64 => ⟨S9, .f32⟩
  | 65 => ⟨S9, .f32⟩
  | 66 => ⟨S1x9, .f32⟩
  | 67 => ⟨S1024x9, .f32⟩
  | 68 => ⟨S1024x9, .f32⟩
  | 69 => ⟨S1x9, .f32⟩
  | 70 => ⟨S1024x9, .f32⟩
  | 71 => ⟨S1024x9, .f32⟩
  | 72 => ⟨S1x9, .f32⟩
  | 73 => ⟨S1024x9, .f32⟩
  | 74 => ⟨S1024x9, .f32⟩
  | 75 => ⟨S_, .f32⟩
  | 76 => ⟨S1024x9, .f32⟩
  | 77 => ⟨S1024x9, .f32⟩
  | 78 => ⟨S9x2, .f32⟩
  | 79 => ⟨S1024x2, .f32⟩
  | 80 => ⟨S1x2, .f32⟩
  | 81 => ⟨S1024x2, .f32⟩
  | 82 => ⟨S1024x2, .f32⟩
  | 83 => ⟨S2x2, .f32⟩
  | 84 => ⟨S1024x2, .f32⟩
  | 85 => ⟨S1x2, .f32⟩
  | 86 => ⟨S1024x2, .f32⟩
  | 87 => ⟨S1024x2, .f32⟩
  | _ => ⟨S500000x9, .f32⟩

abbrev hbmTy (i : Nat) : BufTy := match i / 128 with
  | 0 => hbmTy0_0 i
  | 1 => hbmTy0_1 i
  | 2 => hbmTy0_2 i
  | _ => ⟨S500000x9, .f32⟩

abbrev bufTy : (tb : Table) → Fin (tcTables nBuf tb) → BufTy
  | .hbm, ⟨i, _⟩ => hbmTy i
  | _, _ => ⟨S500000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_2 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call0_cst : Ref sig .tc := ⟨.hbm, 83, rfl⟩
abbrev main_call0_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_3 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call1_cst : Ref sig .tc := ⟨.hbm, 119, rfl⟩
abbrev main_call1_v0 : Ref sig .tc := ⟨.hbm, 120, rfl⟩
abbrev main_v85 : Ref sig .tc := ⟨.hbm, 121, rfl⟩
abbrev main_c_4 : Ref sig .tc := ⟨.hbm, 122, rfl⟩
abbrev main_v86 : Ref sig .tc := ⟨.hbm, 123, rfl⟩
abbrev main_v87 : Ref sig .tc := ⟨.hbm, 124, rfl⟩
abbrev main_c_5 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_6 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_7 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_8 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_call2_cst : Ref sig .tc := ⟨.hbm, 175, rfl⟩
abbrev main_call2_v0 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_9 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_call3_cst : Ref sig .tc := ⟨.hbm, 211, rfl⟩
abbrev main_call3_v0 : Ref sig .tc := ⟨.hbm, 212, rfl⟩
abbrev main_v167 : Ref sig .tc := ⟨.hbm, 213, rfl⟩
abbrev main_c_10 : Ref sig .tc := ⟨.hbm, 214, rfl⟩
abbrev main_v168 : Ref sig .tc := ⟨.hbm, 215, rfl⟩
abbrev main_v169 : Ref sig .tc := ⟨.hbm, 216, rfl⟩
abbrev main_c_11 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_cst_12 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_13 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_cst_14 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_call4_cst : Ref sig .tc := ⟨.hbm, 267, rfl⟩
abbrev main_call4_v0 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_cst_15 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_call5_cst : Ref sig .tc := ⟨.hbm, 303, rfl⟩
abbrev main_call5_v0 : Ref sig .tc := ⟨.hbm, 304, rfl⟩
abbrev main_v249 : Ref sig .tc := ⟨.hbm, 305, rfl⟩
abbrev main_cst_16 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_cst_17 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_call6_cst : Ref sig .tc := ⟨.hbm, 331, rfl⟩
abbrev main_call6_v0 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S500000x9 : S_.BroadcastsInDim S500000x9 (![] : Fin 0 → Fin S500000x9.rank)
  slices_S3_S1_0 : S3.Slices ![0] S1
  shapeCasts_S1_S_ : S1.ShapeCasts S_
  slices_S3x18x9_S1x18x9_0_0_0 : S3x18x9.Slices ![0, 0, 0] S1x18x9
  shapeCasts_S1x18x9_S18x9 : S1x18x9.ShapeCasts S18x9
  transposes_S18x9_S9x18_1_0 : S18x9.Transposes [1, 0] S9x18
  slices_S3x18_S1x18_0_0 : S3x18.Slices ![0, 0] S1x18
  shapeCasts_S1x18_S18 : S1x18.ShapeCasts S18
  bcast_S18_S1x18_1 : S18.BroadcastsInDim S1x18 (![1] : Fin 1 → Fin S1x18.rank)
  bcast_S1x18_S500000x18_0_1 : S1x18.BroadcastsInDim S500000x18 (![0, 1] : Fin 2 → Fin S500000x18.rank)
  bcast_S_S18 : S_.BroadcastsInDim S18 (![] : Fin 0 → Fin S18.rank)
  bcast_S_S500000x18 : S_.BroadcastsInDim S500000x18 (![] : Fin 0 → Fin S500000x18.rank)
  slices_S3x9x18_S1x9x18_0_0_0 : S3x9x18.Slices ![0, 0, 0] S1x9x18
  shapeCasts_S1x9x18_S9x18 : S1x9x18.ShapeCasts S9x18
  transposes_S9x18_S18x9_1_0 : S9x18.Transposes [1, 0] S18x9
  slices_S3x9_S1x9_0_0 : S3x9.Slices ![0, 0] S1x9
  shapeCasts_S1x9_S9 : S1x9.ShapeCasts S9
  bcast_S9_S1x9_1 : S9.BroadcastsInDim S1x9 (![1] : Fin 1 → Fin S1x9.rank)
  bcast_S1x9_S500000x9_0_1 : S1x9.BroadcastsInDim S500000x9 (![0, 1] : Fin 2 → Fin S500000x9.rank)
  bcast_S_S9 : S_.BroadcastsInDim S9 (![] : Fin 0 → Fin S9.rank)
  slices_S3_S1_1 : S3.Slices ![1] S1
  slices_S3x18x9_S1x18x9_1_0_0 : S3x18x9.Slices ![1, 0, 0] S1x18x9
  slices_S3x18_S1x18_1_0 : S3x18.Slices ![1, 0] S1x18
  slices_S3x9x18_S1x9x18_1_0_0 : S3x9x18.Slices ![1, 0, 0] S1x9x18
  slices_S3x9_S1x9_1_0 : S3x9.Slices ![1, 0] S1x9
  slices_S3_S1_2 : S3.Slices ![2] S1
  slices_S3x18x9_S1x18x9_2_0_0 : S3x18x9.Slices ![2, 0, 0] S1x18x9
  slices_S3x18_S1x18_2_0 : S3x18.Slices ![2, 0] S1x18
  slices_S3x9x18_S1x9x18_2_0_0 : S3x9x18.Slices ![2, 0, 0] S1x9x18
  slices_S3x9_S1x9_2_0 : S3x9.Slices ![2, 0] S1x9
  bcast_S_S1024x9 : S_.BroadcastsInDim S1024x9 (![] : Fin 0 → Fin S1024x9.rank)
  bcast_S500000_S500000x1_0 : S500000.BroadcastsInDim S500000x1 (![0] : Fin 1 → Fin S500000x1.rank)
  transposes_S9x9_S9x9_1_0 : S9x9.Transposes [1, 0] S9x9
  bcast_S1x9_S1024x9_0_1 : S1x9.BroadcastsInDim S1024x9 (![0, 1] : Fin 2 → Fin S1024x9.rank)
  transposes_S2x9_S9x2_1_0 : S2x9.Transposes [1, 0] S9x2
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  transposes_S2x2_S2x2_1_0 : S2x2.Transposes [1, 0] S2x2
  gather_S500000x9_S16000000x1_S16000000x9_1_0_n_n_0_1_19_wf : GatherDims.WF S500000x9 S16000000x1 S16000000x9 [1] [0] [] [0] [] 1 ![1, 9]
  scatter_S500000x9_S16000000x1_S16000000x9_1_0_0_1_wf : ScatterDims.WF S500000x9 S16000000x1 S16000000x9 [1] [0] [0] 1
  dot_S500000x9_S9x18_S500000x18_1_0_0_1_n_n_wf : DotDims.WF S500000x9 S9x18 S500000x18 [1] [0] [0] [1] [] []
  dot_S500000x18_S18x9_S500000x9_1_0_0_1_n_n_wf : DotDims.WF S500000x18 S18x9 S500000x9 [1] [0] [0] [1] [] []
  scatter_S1024x9_S500000x1_S500000x9_1_0_0_1_wf : ScatterDims.WF S1024x9 S500000x1 S500000x9 [1] [0] [0] 1
  dot_S1024x9_S9x9_S1024x9_1_0_0_1_n_n_wf : DotDims.WF S1024x9 S9x9 S1024x9 [1] [0] [0] [1] [] []
  dot_S1024x9_S9x2_S1024x2_1_0_0_1_n_n_wf : DotDims.WF S1024x9 S9x2 S1024x2 [1] [0] [0] [1] [] []
  dot_S1024x2_S2x2_S1024x2_1_0_0_1_n_n_wf : DotDims.WF S1024x2 S2x2 S1024x2 [1] [0] [0] [1] [] []

variable [Facts₀]

def gather_S500000x9_S16000000x1_S16000000x9_1_0_n_n_0_1_19 : GatherDims S500000x9 S16000000x1 S16000000x9 where
  offsetDims := [1]
  collapsedSliceDims := [0]
  operandBatchingDims := []
  startIndicesBatchingDims := []
  startIndexMap := [0]
  indexVectorDim := 1
  sliceSizes := ![1, 9]
  wf := gather_S500000x9_S16000000x1_S16000000x9_1_0_n_n_0_1_19_wf
def scatter_S500000x9_S16000000x1_S16000000x9_1_0_0_1 : ScatterDims S500000x9 S16000000x1 S16000000x9 where
  updateWindowDims := [1]
  insertedWindowDims := [0]
  scatterDimsToOperandDims := [0]
  indexVectorDim := 1
  wf := scatter_S500000x9_S16000000x1_S16000000x9_1_0_0_1_wf
def dot_S500000x9_S9x18_S500000x18_1_0_0_1_n_n : DotDims S500000x9 S9x18 S500000x18 where
  lhsContracting := [1]
  rhsContracting := [0]
  lhsNonContracting := [0]
  rhsNonContracting := [1]
  lhsBatch := []
  rhsBatch := []
  wf := dot_S500000x9_S9x18_S500000x18_1_0_0_1_n_n_wf
def dot_S500000x18_S18x9_S500000x9_1_0_0_1_n_n : DotDims S500000x18 S18x9 S500000x9 where
  lhsContracting := [1]
  rhsContracting := [0]
  lhsNonContracting := [0]
  rhsNonContracting := [1]
  lhsBatch := []
  rhsBatch := []
  wf := dot_S500000x18_S18x9_S500000x9_1_0_0_1_n_n_wf
def scatter_S1024x9_S500000x1_S500000x9_1_0_0_1 : ScatterDims S1024x9 S500000x1 S500000x9 where
  updateWindowDims := [1]
  insertedWindowDims := [0]
  scatterDimsToOperandDims := [0]
  indexVectorDim := 1
  wf := scatter_S1024x9_S500000x1_S500000x9_1_0_0_1_wf
def dot_S1024x9_S9x9_S1024x9_1_0_0_1_n_n : DotDims S1024x9 S9x9 S1024x9 where
  lhsContracting := [1]
  rhsContracting := [0]
  lhsNonContracting := [0]
  rhsNonContracting := [1]
  lhsBatch := []
  rhsBatch := []
  wf := dot_S1024x9_S9x9_S1024x9_1_0_0_1_n_n_wf
def dot_S1024x9_S9x2_S1024x2_1_0_0_1_n_n : DotDims S1024x9 S9x2 S1024x2 where
  lhsContracting := [1]
  rhsContracting := [0]
  lhsNonContracting := [0]
  rhsNonContracting := [1]
  lhsBatch := []
  rhsBatch := []
  wf := dot_S1024x9_S9x2_S1024x2_1_0_0_1_n_n_wf
def dot_S1024x2_S2x2_S1024x2_1_0_0_1_n_n : DotDims S1024x2 S2x2 S1024x2 where
  lhsContracting := [1]
  rhsContracting := [0]
  lhsNonContracting := [0]
  rhsNonContracting := [1]
  lhsBatch := []
  rhsBatch := []
  wf := dot_S1024x2_S2x2_S1024x2_1_0_0_1_n_n_wf

class Facts : Prop extends Facts₀ where

variable [Facts]
-- ==== Proof.K.L0.lean ====
import proofs.«418735_j49933289783480_1_alg».proof.Proof.Gen.Kernel.Launch
import proofs.«418735_j49933289783480_1_alg».proof.Proof.Gen.Kernel.Skeleton
import proofs.«418735_j49933289783480_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x1 := Rect.unit (s := S1x1) ![0, 0] S1x1.size inb_S1x1_S1x1_0_0
abbrev r0_1 : Rect S5000x9 := Rect.unit (s := S5000x9) ![0, 0] S5000x9.size inb_S5000x9_S5000x9_0_0
abbrev r0_2 : Rect S9x18 := Rect.unit (s := S9x18) ![0, 0] S9x18.size inb_S9x18_S9x18_0_0
abbrev r0_3 : Rect S1x18 := Rect.unit (s := S1x18) ![0, 0] S1x18.size inb_S1x18_S1x18_0_0
abbrev r0_4 : Rect S18x9 := Rect.unit (s := S18x9) ![0, 0] S18x9.size inb_S18x9_S18x9_0_0
abbrev r0_5 : Rect S1x9 := Rect.unit (s := S1x9) ![0, 0] S1x9.size inb_S1x9_S1x9_0_0

def out0 (x0 x1 : Vec F S5000x9 .f32) (x2 : Vec F S1x1 .f32) (x3 : Vec F S9x18 .f32) (x4 x5 x6 x7 x8 : Vec F S1x18 .f32)
    (x9 : Vec F S18x9 .f32) (x10 x11 x12 x13 x14 : Vec F S1x9 .f32) : Vec F S5000x9 .f32 :=
  View.canon [⟨r0_1, k0_pay1 (k0_pay2 (View.ld x2 r0_0) (View.ld x0 r0_1) (View.ld x1 r0_1) (View.ld x3 r0_2) (View.ld x4 r0_3) (View.ld x5 r0_3) (View.ld x6 r0_3) (View.ld x7 r0_3) (View.ld x8 r0_3)) (View.ld x9 r0_4) (View.ld x10 r0_5) (View.ld x11 r0_5) (View.ld x12 r0_5) (View.ld x13 r0_5) (View.ld x14 r0_5)⟩]

theorem cover0 (p0 : Vec F S5000x9 .f32) (y : S5000x9.Idx) :
    ∃ pc ∈ ([⟨r0_1, p0⟩] : List (View.Piece (Elt F) S5000x9 .f32)), y ∈ pc.1.set :=
  View.cover_of_tiled [⟨r0_1, p0⟩] S5000x9.size (by rfl) y

-- Every load reads its buffer whole and leaves it as it was; the one store covers the output buffer.
theorem sound_kernel0 (c : Dev nD) (E : Set ℕ) (i : grid0.Coords) {arg1 arg2 arg16 : Memref sig .tc .vmem S5000x9 .f32} {arg3 : Memref sig .tc .vmem S1x1 .f32} {arg4 : Memref sig .tc .vmem S9x18 .f32} {arg5 arg6 arg7 arg8 arg9 : Memref sig .tc .vmem S1x18 .f32} {arg10 : Memref sig .tc .vmem S18x9 .f32} {arg11 arg12 arg13 arg14 arg15 : Memref sig .tc .vmem S1x9 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}
    (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ (∃ d, owns c arg16 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ owns c arg16 fullShare (out0 x0 x1 x2 x3 x4 x5 x6 x7 x8 x9 x10 x11 x12 x13 x14)) -∗ K ⟨⟩))
      ⊢ wp frame (wpE (defs₀ (F := F)) Variants.none c none) E (cc0__gin_layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gin_layer_kernel_eq_skeleton]; unfold cc0__gin_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  iexists _; isplitr
  swap; · iexact H15
  ipureintro
  try dsimp only
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_15 (c : Dev nD) (t : Fin cfg0.N) : (dat0 V c).after 15 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]

theorem after0_out (c : Dev nD) (t : Fin cfg0.N) : (dat0 V c).after 15 t = out0 ((dat0 V c).after 0 t) ((dat0 V c).after 1 t) ((dat0 V c).after 2 t) ((dat0 V c).after 3 t) ((dat0 V c).after 4 t) ((dat0 V c).after 5 t) ((dat0 V c).after 6 t) ((dat0 V c).after 7 t) ((dat0 V c).after 8 t) ((dat0 V c).after 9 t) ((dat0 V c).after 10 t) ((dat0 V c).after 11 t) ((dat0 V c).after 12 t) ((dat0 V c).after 13 t) ((dat0 V c).after 14 t) := by dsimp only [dat0]

-- The body leaves every input window as it found it, so what it finds there is what it leaves.
theorem before0_in (c : Dev nD) : ∀ w : Fin cfg0.W, w ≠ 15 → ∀ t d, (dat0 V c).before w t d = (dat0 V c).after w t := by
  intro w; fin_cases w <;> intro hw t d <;> first
    | exact absurd rfl hw
    | exact ((dat0 V c).before_in_eq_fetched _ rfl (fun _ => rfl) (fun _ _ _ => rfl) (fun t => by dsimp only [dat0]; rfl) t d).trans (by unfold Dat.fetched Dat.blockOf; dsimp only [dat0]; rfl)

-- The inputs' buffers hold their blocks, so the body's triple applies; the invariant and what is owed pass through unread.
theorem body_obligation0 (c : Dev nD) : BodyObligation (dat0 (F := F) V c) (defs₀ (F := F)) Variants.none () Set.univ := fun t => by
  rw [bigSep_W0, bigSep_W0]
  simp (disch := decide) only [before0_in V c, after0_out V c]
  rw [show (dat0 V c).Φ t.succ = (dat0 V c).Φ t.castSucc from rfl, show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply sound_kernel0 c Set.univ
  iframe H0 H1 H2 H3 H4 H5 H6 H7 H8 H9 H10 H11 H12 H13 H14
  isplitl [H15]; · iexists _; iexact H15
  iintro H
  iframe HΦ Ho
  iexact H

end Cert.Kernel.Hand

end
-- ==== Proof.K.L1.lean ====
import proofs.«418735_j49933289783480_1_alg».proof.Proof.Gen.Kernel.Launch
import proofs.«418735_j49933289783480_1_alg».proof.Proof.Gen.Kernel.Skeleton
import proofs.«418735_j49933289783480_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rc1_S5000x9 : Rect S5000x9 := Rect.unit (s := S5000x9) ![0, 0] S5000x9.size inb_S5000x9_S5000x9_0_0
abbrev rc1_S1x1 : Rect S1x1 := Rect.unit (s := S1x1) ![0, 0] S1x1.size inb_S1x1_S1x1_0_0
abbrev rc1_S9x18 : Rect S9x18 := Rect.unit (s := S9x18) ![0, 0] S9x18.size inb_S9x18_S9x18_0_0
abbrev rc1_S1x18 : Rect S1x18 := Rect.unit (s := S1x18) ![0, 0] S1x18.size inb_S1x18_S1x18_0_0
abbrev rc1_S18x9 : Rect S18x9 := Rect.unit (s := S18x9) ![0, 0] S18x9.size inb_S18x9_S18x9_0_0
abbrev rc1_S1x9 : Rect S1x9 := Rect.unit (s := S1x9) ![0, 0] S1x9.size inb_S1x9_S1x9_0_0

def out1 (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) : Vec F S5000x9 .f32 :=
  View.canon [⟨rc1_S5000x9, k1_pay1
      (k1_pay2 (View.ld x2 rc1_S1x1) (View.ld x0 rc1_S5000x9) (View.ld x1 rc1_S5000x9) (View.ld x3 rc1_S9x18) (View.ld x4 rc1_S1x18) (View.ld x5 rc1_S1x18) (View.ld x7 rc1_S1x18) (View.ld x8 rc1_S1x18))
      (k1_pay3 (View.ld x6 rc1_S1x18))
      (View.ld x9 rc1_S18x9) (View.ld x10 rc1_S1x9) (View.ld x11 rc1_S1x9) (View.ld x12 rc1_S1x9) (View.ld x13 rc1_S1x9) (View.ld x14 rc1_S1x9)⟩]

theorem cover1 (p0 : Vec F S5000x9 .f32) (y : S5000x9.Idx) :
    ∃ pc ∈ ([⟨rc1_S5000x9, p0⟩] : List (View.Piece (Elt F) S5000x9 .f32)), y ∈ pc.1.set :=
  View.cover_of_tiled [⟨rc1_S5000x9, p0⟩] S5000x9.size (by rfl) y

-- Every load reads its buffer whole and leaves it as it was; the one store covers the output buffer.
theorem sound_kernel1 (c : Dev nD) (E : Set ℕ) (i : grid1.Coords) {arg1 arg2 arg16 : Memref sig .tc .vmem S5000x9 .f32} {arg3 : Memref sig .tc .vmem S1x1 .f32} {arg4 : Memref sig .tc .vmem S9x18 .f32} {arg5 arg6 arg7 arg8 arg9 : Memref sig .tc .vmem S1x18 .f32} {arg10 : Memref sig .tc .vmem S18x9 .f32} {arg11 arg12 arg13 arg14 arg15 : Memref sig .tc .vmem S1x9 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}
    (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ (∃ d, owns c arg16 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ owns c arg16 fullShare (out1 x0 x1 x2 x3 x4 x5 x6 x7 x8 x9 x10 x11 x12 x13 x14)) -∗ K ⟨⟩))
      ⊢ wp frame (wpE (defs₀ (F := F)) Variants.none c none) E (cc1__gin_layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__gin_layer_kernel_eq_skeleton]; unfold cc1__gin_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  iexists _; isplitr
  swap; · iexact H15
  ipureintro
  exact View.read_writes_eq_canon _ _ _ (cover1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_15 (c : Dev nD) (t : Fin cfg1.N) : (dat1 V c).after 15 t = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

theorem after1_out (c : Dev nD) (t : Fin cfg1.N) : (dat1 V c).after 15 t = out1 ((dat1 V c).after 0 t) ((dat1 V c).after 1 t) ((dat1 V c).after 2 t) ((dat1 V c).after 3 t) ((dat1 V c).after 4 t) ((dat1 V c).after 5 t) ((dat1 V c).after 6 t) ((dat1 V c).after 7 t) ((dat1 V c).after 8 t) ((dat1 V c).after 9 t) ((dat1 V c).after 10 t) ((dat1 V c).after 11 t) ((dat1 V c).after 12 t) ((dat1 V c).after 13 t) ((dat1 V c).after 14 t) := by dsimp only [dat1]

-- The body leaves every input window as it found it, so what it finds there is what it leaves.
theorem before1_in (c : Dev nD) : ∀ w : Fin cfg1.W, w ≠ 15 → ∀ t d, (dat1 V c).before w t d = (dat1 V c).after w t := by
  intro w; fin_cases w <;> intro hw t d <;> first
    | exact absurd rfl hw
    | exact ((dat1 V c).before_in_eq_fetched _ rfl (fun _ => rfl) (fun _ _ _ => rfl) (fun t => by dsimp only [dat1]; rfl) t d).trans (by unfold Dat.fetched Dat.blockOf; dsimp only [dat1]; rfl)

-- The inputs' buffers hold their blocks, so the body's triple applies; the invariant and what is owed pass through unread.
theorem body_obligation1 (c : Dev nD) : BodyObligation (dat1 (F := F) V c) (defs₀ (F := F)) Variants.none () Set.univ := fun t => by
  rw [bigSep_W1, bigSep_W1]
  simp (disch := decide) only [before1_in V c, after1_out V c]
  rw [show (dat1 V c).Φ t.succ = (dat1 V c).Φ t.castSucc from rfl, show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply sound_kernel1 c Set.univ
  iframe H0 H1 H2 H3 H4 H5 H6 H7 H8 H9 H10 H11 H12 H13 H14
  isplitl [H15]; · iexists _; iexact H15
  iintro H
  iframe HΦ Ho
  iexact H

end Cert.Kernel.Hand

end
-- ==== Proof.K.L2.lean ====
import proofs.«418735_j49933289783480_1_alg».proof.Proof.Gen.Kernel.Launch
import proofs.«418735_j49933289783480_1_alg».proof.Proof.Gen.Kernel.Skeleton
import proofs.«418735_j49933289783480_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rc2_S5000x9 : Rect S5000x9 := Rect.unit (s := S5000x9) ![0, 0] S5000x9.size inb_S5000x9_S5000x9_0_0
abbrev rc2_S1x1 : Rect S1x1 := Rect.unit (s := S1x1) ![0, 0] S1x1.size inb_S1x1_S1x1_0_0
abbrev rc2_S9x18 : Rect S9x18 := Rect.unit (s := S9x18) ![0, 0] S9x18.size inb_S9x18_S9x18_0_0
abbrev rc2_S1x18 : Rect S1x18 := Rect.unit (s := S1x18) ![0, 0] S1x18.size inb_S1x18_S1x18_0_0
abbrev rc2_S18x9 : Rect S18x9 := Rect.unit (s := S18x9) ![0, 0] S18x9.size inb_S18x9_S18x9_0_0
abbrev rc2_S1x9 : Rect S1x9 := Rect.unit (s := S1x9) ![0, 0] S1x9.size inb_S1x9_S1x9_0_0

def out2 (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) : Vec F S5000x9 .f32 :=
  View.canon [⟨rc2_S5000x9, k2_pay1
      (k2_pay2 (View.ld x2 rc2_S1x1) (View.ld x0 rc2_S5000x9) (View.ld x1 rc2_S5000x9) (View.ld x3 rc2_S9x18) (View.ld x4 rc2_S1x18) (View.ld x5 rc2_S1x18) (View.ld x7 rc2_S1x18) (View.ld x8 rc2_S1x18))
      (k2_pay3 (View.ld x6 rc2_S1x18))
      (View.ld x9 rc2_S18x9) (View.ld x10 rc2_S1x9) (View.ld x11 rc2_S1x9) (View.ld x12 rc2_S1x9) (View.ld x13 rc2_S1x9) (View.ld x14 rc2_S1x9)⟩]

theorem cover2 (p0 : Vec F S5000x9 .f32) (y : S5000x9.Idx) :
    ∃ pc ∈ ([⟨rc2_S5000x9, p0⟩] : List (View.Piece (Elt F) S5000x9 .f32)), y ∈ pc.1.set :=
  View.cover_of_tiled [⟨rc2_S5000x9, p0⟩] S5000x9.size (by rfl) y

-- Every load reads its buffer whole and leaves it as it was; the one store covers the output buffer.
theorem sound_kernel2 (c : Dev nD) (E : Set ℕ) (i : grid2.Coords) {arg1 arg2 arg16 : Memref sig .tc .vmem S5000x9 .f32} {arg3 : Memref sig .tc .vmem S1x1 .f32} {arg4 : Memref sig .tc .vmem S9x18 .f32} {arg5 arg6 arg7 arg8 arg9 : Memref sig .tc .vmem S1x18 .f32} {arg10 : Memref sig .tc .vmem S18x9 .f32} {arg11 arg12 arg13 arg14 arg15 : Memref sig .tc .vmem S1x9 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}
    (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ (∃ d, owns c arg16 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ owns c arg16 fullShare (out2 x0 x1 x2 x3 x4 x5 x6 x7 x8 x9 x10 x11 x12 x13 x14)) -∗ K ⟨⟩))
      ⊢ wp frame (wpE (defs₀ (F := F)) Variants.none c none) E (cc2__gin_layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2__gin_layer_kernel_eq_skeleton]; unfold cc2__gin_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  iexists _; isplitr
  swap; · iexact H15
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t)
    | ⟨_ + 16, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_15 (c : Dev nD) (t : Fin cfg2.N) : (dat2 V c).after 15 t = out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) := by dsimp only [dat2]

theorem after2_out (c : Dev nD) (t : Fin cfg2.N) : (dat2 V c).after 15 t = out2 ((dat2 V c).after 0 t) ((dat2 V c).after 1 t) ((dat2 V c).after 2 t) ((dat2 V c).after 3 t) ((dat2 V c).after 4 t) ((dat2 V c).after 5 t) ((dat2 V c).after 6 t) ((dat2 V c).after 7 t) ((dat2 V c).after 8 t) ((dat2 V c).after 9 t) ((dat2 V c).after 10 t) ((dat2 V c).after 11 t) ((dat2 V c).after 12 t) ((dat2 V c).after 13 t) ((dat2 V c).after 14 t) := by dsimp only [dat2]

-- The body leaves every input window as it found it, so what it finds there is what it leaves.
theorem before2_in (c : Dev nD) : ∀ w : Fin cfg2.W, w ≠ 15 → ∀ t d, (dat2 V c).before w t d = (dat2 V c).after w t := by
  intro w; fin_cases w <;> intro hw t d <;> first
    | exact absurd rfl hw
    | exact ((dat2 V c).before_in_eq_fetched _ rfl (fun _ => rfl) (fun _ _ _ => rfl) (fun t => by dsimp only [dat2]; rfl) t d).trans (by unfold Dat.fetched Dat.blockOf; dsimp only [dat2]; rfl)

-- The inputs' buffers hold their blocks, so the body's triple applies; the invariant and what is owed pass through unread.
theorem body_obligation2 (c : Dev nD) : BodyObligation (dat2 (F := F) V c) (defs₀ (F := F)) Variants.none () Set.univ := fun t => by
  rw [bigSep_W2, bigSep_W2]
  simp (disch := decide) only [before2_in V c, after2_out V c]
  rw [show (dat2 V c).Φ t.succ = (dat2 V c).Φ t.castSucc from rfl, show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply sound_kernel2 c Set.univ
  iframe H0 H1 H2 H3 H4 H5 H6 H7 H8 H9 H10 H11 H12 H13 H14
  isplitl [H15]; · iexists _; iexact H15
  iintro H
  iframe HΦ Ho
  iexact H

end Cert.Kernel.Hand

end
-- ==== Proof.K.PoolRuns.lean ====
import proofs.«418735_j49933289783480_1_alg».proof.Proof.Gen.Kernel.Launch
import proofs.«418735_j49933289783480_1_alg».proof.Proof.Gen.Kernel.Skeleton
import proofs.«418735_j49933289783480_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first conditional's condition holds at point 0 only, -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

/-- the second's at point 249 only. -/
abbrev cond3_1 (i : grid3.Coords) : Prop := k3_cond2 i = 1#1
theorem hcond3_1 : ∀ t : Fin cfg3.N, cond3_1 (grid3.coords t) ↔ t.val = 249 :=
  (by decide +kernel : ∀ t : Fin grid3.N, cond3_1 (grid3.coords t) ↔ t.val = 249)

theorem idleAt3_12 : ∀ t : Fin cfg3.N, ¬cond3_1 (grid3.coords t) → cfg3.idle 12 (grid3.coords t) = true := by decide +kernel
theorem noFlush3_12 : ∀ t : Fin cfg3.N, ¬cond3_1 (grid3.coords t) → (cfg3.win 12).flush t = false := by decide +kernel
theorem liveAt3_12 : ∀ t : Fin cfg3.N, cond3_1 (grid3.coords t) → cfg3.idle 12 (grid3.coords t) = false := by decide +kernel

/-- The output block's buffer and the scratch, as views. -/
abbrev VO3_12 : View sig .tc .vmem S1024x2 .f32 := (Memref.whole cc3_stg12_0 : Memref sig .tc .vmem S1024x2 .f32).view
abbrev scM3_0 : Memref sig .tc .vmem S1024x9 .f32 := Memref.whole cc3_scratch0
abbrev VS3_0 : View sig .tc .vmem S1024x9 .f32 := scM3_0.view

/-- The body's memref arguments at point `t`, each whole. -/
abbrev ms3_0 (t : Fin cfg3.N) : Memref sig .tc .vmem S2000x9 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S9x9 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x9 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x9 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x9 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x9 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x9 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S9x2 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x2 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S2x2 .f32 := win3_10.stage (cfg3.slots t 10)
abbrev hs3_10 (t : Fin cfg3.N) : (ms3_10 t).IsWhole := hstage3_10 ((cfg3.slots t 10).cast nbuf3_10)
abbrev ms3_11 (t : Fin cfg3.N) : Memref sig .tc .vmem S1x2 .f32 := win3_11.stage (cfg3.slots t 11)
abbrev hs3_11 (t : Fin cfg3.N) : (ms3_11 t).IsWhole := hstage3_11 ((cfg3.slots t 11).cast nbuf3_11)
abbrev ms3_12 (t : Fin cfg3.N) : Memref sig .tc .vmem S1024x2 .f32 := win3_12.stage (cfg3.slots t 12)
abbrev hs3_12 (t : Fin cfg3.N) : (ms3_12 t).IsWhole := hstage3_12 ((cfg3.slots t 12).cast nbuf3_12)

/-- A whole memref owned at `X` is its buffer's points-to at the raw contents that read `X`. -/
theorem owns_unread (c : Dev nD) {s : Shape} {e : EltTy} {m : Memref sig .tc .vmem s e} (h : m.IsWhole) (X : Vec F s e) :
    (owns (c : Thread nD τ) m fullShare X : sProp 𝕄) = (m.view.loc (c : Thread nD τ) ↦[m.view.set]{fullShare} h.unread X) := by
  refine BI.equiv_iff.mp ⟨?_, ?_⟩ <;> unfold owns <;> show BIBase.Entails (PROP := sProp 𝕄) _ _
  · iintro ⟨%f, %hf, H⟩; obtain rfl := h.eq_unread hf; iexact H
  · iintro H; iexists _; isplitr
    · ipureintro; exact h.read_unread X
    iexact H

/-- The entry invariant with the scratch split off, owned at some contents. -/
theorem PhiA3_eq (c : Dev nD) :
    (Pipeline.ΦA spec3 c : sProp 𝕄)
      = iprop(iprop((∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Hand

end
-- ==== Proof.K.PoolRunA.lean ====
import proofs.«418735_j49933289783480_1_alg».proof.Proof.K.PoolRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point: the scratch, found at anything, is reset and then accumulated into; the output block goes through untouched. -/
noncomputable def kernelRun3_A (c : Dev nD) (i : grid3.Coords) (arg1 : Memref sig .tc .vmem S2000x9 .f32) (harg1 : arg1.IsWhole) (arg2 : Memref sig .tc .vmem S2000x1 .i32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S1x9 .f32) (harg7 : arg7.IsWhole) (arg8 : Memref sig .tc .vmem S1x9 .f32) (harg8 : arg8.IsWhole) (arg9 : Memref sig .tc .vmem S9x2 .f32) (harg9 : arg9.IsWhole) (arg10 : Memref sig .tc .vmem S1x2 .f32) (harg10 : arg10.IsWhole) (arg11 : Memref sig .tc .vmem S2x2 .f32) (harg11 : arg11.IsWhole) (arg12 : Memref sig .tc .vmem S1x2 .f32) (harg12 : arg12.IsWhole) (arg13 : Memref sig .tc .vmem S1024x2 .f32) (harg13 : arg13.IsWhole) (arg14 : Memref sig .tc .vmem S1024x9 .f32) (harg14 : arg14.IsWhole) (hc0 : cond3_0 i) (hc1 : ¬cond3_1 i)
    (x0 : Vec F S2000x9 .f32) (x1 : Vec F S2000x1 .i32) (x2 : Vec F S9x9 .f32) (x3 : Vec F S1x9 .f32) (x4 : Vec F S1x9 .f32) (x5 : Vec F S1x9 .f32) (x6 : Vec F S1x9 .f32) (x7 : Vec F S1x9 .f32) (x8 : Vec F S9x2 .f32) (x9 : Vec F S1x2 .f32) (x10 : Vec F S2x2 .f32) (x11 : Vec F S1x2 .f32) :
    Σ' (L12 : List (View.Piece (Elt F) S1024x2 .f32)), { LS0 : List (View.Piece (Elt F) S1024x9 .f32) //
      ∀ (xi12 : Vec F S1024x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ f, arg14.view.loc (c : Thread nD τ) ↦[arg14.view.set]{fullShare} arg14.view.writes (Elt F) f LS0)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi12 E K => ?run⟩
  case run =>
    rw [owns_unread c harg1, owns_unread c harg2, owns_unread c harg3, owns_unread c harg4, owns_unread c harg5, owns_unread c harg6, owns_unread c harg7, owns_unread c harg8, owns_unread c harg9, owns_unread c harg10, owns_unread c harg11, owns_unread c harg12, owns_unread c harg13]
    simp only [cc3__pool_mlp_kernel_eq_skeleton]; unfold cc3__pool_mlp_kernel_skel
    unfold owns
    iintro ⟨H0, H1, H2, H3, H4, H5, H6, H7, H8, H9, H10, H11, H12, ⟨%ds0, %fs0, -, HS0⟩, Hk⟩
    sl_exec (disch := first | exact hc0 | exact hc1)
    sl_step
    iapply Hk
    iframe H0 H1 H2 H3 H4 H5 H6 H7 H8 H9 H10 H11 H12
    iexists _; iexact HS0

end Cert.Kernel.Hand

end
-- ==== Proof.K.PoolRunB.lean ====
import proofs.«418735_j49933289783480_1_alg».proof.Proof.K.PoolRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle point: the scratch, found at `xs0`, is accumulated into; the output block goes through untouched. -/
noncomputable def kernelRun3_B (c : Dev nD) (i : grid3.Coords) (arg1 : Memref sig .tc .vmem S2000x9 .f32) (harg1 : arg1.IsWhole) (arg2 : Memref sig .tc .vmem S2000x1 .i32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S1x9 .f32) (harg7 : arg7.IsWhole) (arg8 : Memref sig .tc .vmem S1x9 .f32) (harg8 : arg8.IsWhole) (arg9 : Memref sig .tc .vmem S9x2 .f32) (harg9 : arg9.IsWhole) (arg10 : Memref sig .tc .vmem S1x2 .f32) (harg10 : arg10.IsWhole) (arg11 : Memref sig .tc .vmem S2x2 .f32) (harg11 : arg11.IsWhole) (arg12 : Memref sig .tc .vmem S1x2 .f32) (harg12 : arg12.IsWhole) (arg13 : Memref sig .tc .vmem S1024x2 .f32) (harg13 : arg13.IsWhole) (arg14 : Memref sig .tc .vmem S1024x9 .f32) (harg14 : arg14.IsWhole) (hc0 : ¬cond3_0 i) (hc1 : ¬cond3_1 i)
    (x0 : Vec F S2000x9 .f32) (x1 : Vec F S2000x1 .i32) (x2 : Vec F S9x9 .f32) (x3 : Vec F S1x9 .f32) (x4 : Vec F S1x9 .f32) (x5 : Vec F S1x9 .f32) (x6 : Vec F S1x9 .f32) (x7 : Vec F S1x9 .f32) (x8 : Vec F S9x2 .f32) (x9 : Vec F S1x2 .f32) (x10 : Vec F S2x2 .f32) (x11 : Vec F S1x2 .f32) (xs0 : Vec F S1024x9 .f32) :
    Σ' (L12 : List (View.Piece (Elt F) S1024x2 .f32)), { LS0 : List (View.Piece (Elt F) S1024x9 .f32) //
      ∀ (xi12 : Vec F S1024x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ f, arg14.view.loc (c : Thread nD τ) ↦[arg14.view.set]{fullShare} arg14.view.writes (Elt F) f LS0)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi12 E K => ?run⟩
  case run =>
    rw [owns_unread c harg1, owns_unread c harg2, owns_unread c harg3, owns_unread c harg4, owns_unread c harg5, owns_unread c harg6, owns_unread c harg7, owns_unread c harg8, owns_unread c harg9, owns_unread c harg10, owns_unread c harg11, owns_unread c harg12, owns_unread c harg13, owns_unread c harg14]
    simp only [cc3__pool_mlp_kernel_eq_skeleton]; unfold cc3__pool_mlp_kernel_skel
    iintro ⟨H0, H1, H2, H3, H4, H5, H6, H7, H8, H9, H10, H11, H12, HS0, Hk⟩
    sl_exec (disch := first | exact hc0 | exact hc1)
    sl_step
    iapply Hk
    iframe H0 H1 H2 H3 H4 H5 H6 H7 H8 H9 H10 H11 H12
    iexists _; iexact HS0

end Cert.Kernel.Hand

end
-- ==== Proof.K.PoolRunC.lean ====
import proofs.«418735_j49933289783480_1_alg».proof.Proof.K.PoolRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last point: the scratch is accumulated into, and the head of the accumulator is stored over the output block, found at anything. -/
noncomputable def kernelRun3_C (c : Dev nD) (i : grid3.Coords) (arg1 : Memref sig .tc .vmem S2000x9 .f32) (harg1 : arg1.IsWhole) (arg2 : Memref sig .tc .vmem S2000x1 .i32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S1x9 .f32) (harg7 : arg7.IsWhole) (arg8 : Memref sig .tc .vmem S1x9 .f32) (harg8 : arg8.IsWhole) (arg9 : Memref sig .tc .vmem S9x2 .f32) (harg9 : arg9.IsWhole) (arg10 : Memref sig .tc .vmem S1x2 .f32) (harg10 : arg10.IsWhole) (arg11 : Memref sig .tc .vmem S2x2 .f32) (harg11 : arg11.IsWhole) (arg12 : Memref sig .tc .vmem S1x2 .f32) (harg12 : arg12.IsWhole) (arg13 : Memref sig .tc .vmem S1024x2 .f32) (harg13 : arg13.IsWhole) (arg14 : Memref sig .tc .vmem S1024x9 .f32) (harg14 : arg14.IsWhole) (hc0 : ¬cond3_0 i) (hc1 : cond3_1 i)
    (x0 : Vec F S2000x9 .f32) (x1 : Vec F S2000x1 .i32) (x2 : Vec F S9x9 .f32) (x3 : Vec F S1x9 .f32) (x4 : Vec F S1x9 .f32) (x5 : Vec F S1x9 .f32) (x6 : Vec F S1x9 .f32) (x7 : Vec F S1x9 .f32) (x8 : Vec F S9x2 .f32) (x9 : Vec F S1x2 .f32) (x10 : Vec F S2x2 .f32) (x11 : Vec F S1x2 .f32) (xs0 : Vec F S1024x9 .f32) :
    Σ' (L12 : List (View.Piece (Elt F) S1024x2 .f32)), { LS0 : List (View.Piece (Elt F) S1024x9 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    rw [owns_unread c harg1, owns_unread c harg2, owns_unread c harg3, owns_unread c harg4, owns_unread c harg5, owns_unread c harg6, owns_unread c harg7, owns_unread c harg8, owns_unread c harg9, owns_unread c harg10, owns_unread c harg11, owns_unread c harg12, owns_unread c harg14]
    simp only [cc3__pool_mlp_kernel_eq_skeleton]; unfold cc3__pool_mlp_kernel_skel
    simp only [k3_part1_eq_skeleton]
    unfold owns
    iintro ⟨H0, H1, H2, H3, H4, H5, H6, H7, H8, H9, H10, H11, ⟨%d12, %f12, -, H12⟩, HS0, Hk⟩
    sl_exec (disch := first | exact hc0 | exact hc1)
    sl_step
    iapply Hk
    iframe H0 H1 H2 H3 H4 H5 H6 H7 H8 H9 H10 H11
    isplitl [H12]; · iexists _; iexact H12
    iexists _; iexact HS0

end Cert.Kernel.Hand

end
-- ==== Proof.K.Pool.lean ====
import proofs.«418735_j49933289783480_1_alg».proof.Proof.K.PoolRunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz3 : (![0, 0] : Fin 2 → Nat) = fun _ => 0 := funext fun a => by fin_cases a <;> rfl

section
variable (c : Dev nD) (i : grid3.Coords) (arg1 : Memref sig .tc .vmem S2000x9 .f32) (harg1 : arg1.IsWhole) (arg2 : Memref sig .tc .vmem S2000x1 .i32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S1x9 .f32) (harg7 : arg7.IsWhole) (arg8 : Memref sig .tc .vmem S1x9 .f32) (harg8 : arg8.IsWhole) (arg9 : Memref sig .tc .vmem S9x2 .f32) (harg9 : arg9.IsWhole) (arg10 : Memref sig .tc .vmem S1x2 .f32) (harg10 : arg10.IsWhole) (arg11 : Memref sig .tc .vmem S2x2 .f32) (harg11 : arg11.IsWhole) (arg12 : Memref sig .tc .vmem S1x2 .f32) (harg12 : arg12.IsWhole) (arg13 : Memref sig .tc .vmem S1024x2 .f32) (harg13 : arg13.IsWhole) (arg14 : Memref sig .tc .vmem S1024x9 .f32) (harg14 : arg14.IsWhole)

section
variable (hc0 : ¬cond3_0 i) (hc1 : cond3_1 i) (x0 : Vec F S2000x9 .f32) (x1 : Vec F S2000x1 .i32) (x2 : Vec F S9x9 .f32) (x3 : Vec F S1x9 .f32) (x4 : Vec F S1x9 .f32) (x5 : Vec F S1x9 .f32) (x6 : Vec F S1x9 .f32) (x7 : Vec F S1x9 .f32) (x8 : Vec F S9x2 .f32) (x9 : Vec F S1x2 .f32) (x10 : Vec F S2x2 .f32) (x11 : Vec F S1x2 .f32) (xs0 : Vec F S1024x9 .f32)

theorem sval3_C (v : View sig .tc .vmem S1024x9 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0).2.1) = k3_pay2 x1 x0 xs0 := by
  refine (View.read_writes_eq_canon _ _ _ (View.cover_of_tiledL _ S1024x9.size (by sl_kernel_rfl))).trans ?_
  unfold kernelRun3_C
  dsimp only
  sl_unfold_words
  rw [View.canon_unit_zero hz3]
  simp only [View.readAt_eq_ld, harg1.read_unread, harg2.read_unread, harg14.read_unread, View.ld_unit_zero (S := S2000x9) hz3, View.ld_unit_zero (S := S2000x1) hz3, View.ld_unit_zero (S := S1024x9) hz3]

/-- The head's one piece covers the output block; its load of the scratch reads the accumulation's piece back. -/
theorem oval3_C (v : View sig .tc .vmem S1024x2 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0).1)
      = k3_pay3 (k3_pay4 (k3_pay2 x1 x0 xs0) x2 x3 x4 x5 x6 x7 x8) (k3_pay5 x9) x10 x11 := by
  refine (View.read_writes_eq_canon _ _ _ (View.cover_of_tiledL _ S1024x2.size (by sl_kernel_rfl))).trans ?_
  unfold kernelRun3_C
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, View.readCov_unit_zero (S := S1024x9) _ hz3, View.ld_unit_zero (S := S2000x9) hz3, View.ld_unit_zero (S := S2000x1) hz3, View.ld_unit_zero (S := S9x9) hz3, View.ld_unit_zero (S := S1x9) hz3, View.ld_unit_zero (S := S9x2) hz3, View.ld_unit_zero (S := S1x2) hz3, View.ld_unit_zero (S := S2x2) hz3, View.ld_unit_zero (S := S1024x9) hz3, View.ld_unit_zero (S := S1024x2) hz3]

def out3_C_12 : Vec F S1024x2 .f32 :=
  VO3_12.read (Elt F) (VO3_12.writes (Elt F) VO3_12.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0).1)

def sout3_C : Vec F S1024x9 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0).2.1)

theorem sout3_C_eq : sout3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0 = k3_pay2 x1 x0 xs0 :=
  sval3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0 _ _

theorem out3_C_12_eq : out3_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0
      = k3_pay3 (k3_pay4 (k3_pay2 x1 x0 xs0) x2 x3 x4 x5 x6 x7 x8) (k3_pay5 x9) x10 x11 :=
  oval3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0 _ _

end

variable (x0 : Vec F S2000x9 .f32) (x1 : Vec F S2000x1 .i32) (x2 : Vec F S9x9 .f32) (x3 : Vec F S1x9 .f32) (x4 : Vec F S1x9 .f32) (x5 : Vec F S1x9 .f32) (x6 : Vec F S1x9 .f32) (x7 : Vec F S1x9 .f32) (x8 : Vec F S9x2 .f32) (x9 : Vec F S1x2 .f32) (x10 : Vec F S2x2 .f32) (x11 : Vec F S1x2 .f32) (xs0 : Vec F S1024x9 .f32)

section
variable (hc0 : cond3_0 i) (hc1 : ¬cond3_1 i)

/-- The reset's piece is read back by the accumulation's load, whose own piece covers the scratch: whatever it held. -/
theorem sval3_A (v : View sig .tc .vmem S1024x9 .f32) (f : v.ty.Contents (Elt F)) :
    v.read (Elt F) (v.writes (Elt F) f (kernelRun3_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).2.1) = k3_pay2 x1 x0 (k3_pay1 (F := F)) := by
  refine (View.read_writes_eq_canon _ _ _ (View.cover_of_tiledL _ S1024x9.size (by sl_kernel_rfl))).trans ?_
  unfold kernelRun3_A
  dsimp only
  sl_unfold_words
  rw [View.canon_cons_unit_zero (S := S1024x9) hz3, View.readCov_unit_zero (S := S1024x9) _ hz3]
  simp only [View.readAt_eq_ld, harg1.read_unread, harg2.read_unread, View.ld_unit_zero (S := S2000x9) hz3, View.ld_unit_zero (S := S2000x1) hz3]

end

section
variable (hc0 : ¬cond3_0 i) (hc1 : ¬cond3_1 i)

/-- The one piece covers the scratch: the accumulation over what was found there. -/
theorem sval3_B (v : View sig .tc .vmem S1024x9 .f32) (f : v.ty.Contents (Elt F)) :
    v.read (Elt F) (v.writes (Elt F) f (kernelRun3_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0).2.1) = k3_pay2 x1 x0 xs0 := by
  refine (View.read_writes_eq_canon _ _ _ (View.cover_of_tiledL _ S1024x9.size (by sl_kernel_rfl))).trans ?_
  unfold kernelRun3_B
  dsimp only
  sl_unfold_words
  rw [View.canon_unit_zero hz3]
  simp only [View.readAt_eq_ld, harg1.read_unread, harg2.read_unread, harg14.read_unread, View.ld_unit_zero (S := S2000x9) hz3, View.ld_unit_zero (S := S2000x1) hz3, View.ld_unit_zero (S := S1024x9) hz3]

end
end

/-- The head of an accumulator `s` at point `t`'s parameter blocks. -/
def head3 (c : Dev nD) (t : Fin cfg3.N) (s : Vec F S1024x9 .f32) : Vec F S1024x2 .f32 :=
  k3_pay3 (k3_pay4 s (iblk3 V c 2 t) (iblk3 V c 3 t) (iblk3 V c 4 t) (iblk3 V c 5 t) (iblk3 V c 6 t) (iblk3 V c 7 t) (iblk3 V c 8 t)) (k3_pay5 (iblk3 V c 9 t)) (iblk3 V c 10 t) (iblk3 V c 11 t)

def headOf (c : Dev nD) (t : Fin cfg3.N) (s : Vec F S1024x9 .f32) : Vec F S1024x2 .f32 × Vec F S1024x9 .f32 := (head3 V c t s, s)

/-- After point `n`: the accumulator is the accumulation of the point's blocks over the one before (over zero at first), the output its head. -/
def outsAt3 (c : Dev nD) : (n : ℕ) → n < cfg3.N → Vec F S1024x2 .f32 × Vec F S1024x9 .f32
  | 0, h => headOf V c ⟨0, h⟩ (k3_pay2 (iblk3 V c 1 ⟨0, h⟩) (iblk3 V c 0 ⟨0, h⟩) k3_pay1)
  | n + 1, h => headOf V c ⟨n + 1, h⟩ (k3_pay2 (iblk3 V c 1 ⟨n + 1, h⟩) (iblk3 V c 0 ⟨n + 1, h⟩) (outsAt3 c n (Nat.lt_of_succ_lt h)).2)

theorem scratch_zero (c : Dev nD) (h : 0 < cfg3.N) :
    (outsAt3 V c 0 h).2 = k3_pay2 (iblk3 V c 1 ⟨0, h⟩) (iblk3 V c 0 ⟨0, h⟩) (k3_pay1 (F := F)) := rfl

theorem scratch_succ (c : Dev nD) (n : ℕ) (h : n + 1 < cfg3.N) :
    (outsAt3 V c (n + 1) h).2 = k3_pay2 (iblk3 V c 1 ⟨n + 1, h⟩) (iblk3 V c 0 ⟨n + 1, h⟩) (outsAt3 V c n (Nat.lt_of_succ_lt h)).2 := rfl

theorem scratch_at (c : Dev nD) : ∀ t : Fin cfg3.N, (outsAt3 V c t.val t.isLt).2
    = k3_pay2 (iblk3 V c 1 t) (iblk3 V c 0 t) (if h : t.val = 0 then k3_pay1 else (outsAt3 V c (t.val - 1) (by have := t.isLt; omega)).2)
  | ⟨0, _⟩ => rfl
  | ⟨_ + 1, _⟩ => rfl

theorem out_at (c : Dev nD) : ∀ t : Fin cfg3.N, (outsAt3 V c t.val t.isLt).1 = head3 V c t (outsAt3 V c t.val t.isLt).2
  | ⟨0, _⟩ => rfl
  | ⟨_ + 1, _⟩ => rfl

/-- At the last point both components are what the last case's run leaves, by its two closed forms. -/
theorem outsAt3_C (c : Dev nD) (t : Fin cfg3.N) (h0 : ¬t.val = 0) (h1 : t.val = 249) :
    outsAt3 V c t.val t.isLt = (out3_C_12 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (outsAt3 V c (t.val - 1) (Nat.lt_of_le_of_lt (Nat.sub_le _ _) t.isLt)).2) := by
  obtain ⟨n, hn⟩ := t
  cases n with
  | zero => exact absurd rfl h0
  | succ n => rw [out3_C_12_eq, sout3_C_eq]; rfl

/-- The scratch at `X`, the other scoped buffers unopened, the generator register at some state. -/
def PhiAt3 (c : Dev nD) (X : Vec F S1024x9 .f32) : sProp 𝕄 :=
  iprop(iprop(owns (c : Thread nD τ) scM3_0 fullShare X ∗ Pipeline.scopedRestBut (Ix := Unit) (Name := ℕ) (U := UR sig nD τ) (Lvl := ℕ) (Val := Elt F) spec3 c [cc3_scratch0]) ∗ (∃ r, prngReg c r))

/-- The region's proof data: inputs at their blocks, the output at `outsAt3`'s head, the accumulator carried by the invariant. -/
def dat3 (c : Dev nD) : Dat τ (Elt F) Unit ℕ (UR sig nD τ) ℕ cfg3 c where
  A w := V c (Pipeline.arrRef spec3 w)
  after w t := match w with
    | ⟨0, _⟩ => iblk3 V c 0 t | ⟨1, _⟩ => iblk3 V c 1 t | ⟨2, _⟩ => iblk3 V c 2 t | ⟨3, _⟩ => iblk3 V c 3 t
    | ⟨4, _⟩ => iblk3 V c 4 t | ⟨5, _⟩ => iblk3 V c 5 t | ⟨6, _⟩ => iblk3 V c 6 t | ⟨7, _⟩ => iblk3 V c 7 t
    | ⟨8, _⟩ => iblk3 V c 8 t | ⟨9, _⟩ => iblk3 V c 9 t | ⟨10, _⟩ => iblk3 V c 10 t | ⟨11, _⟩ => iblk3 V c 11 t
    | ⟨12, _⟩ => (outsAt3 V c t.val t.isLt).1
  Φ t := if h : t.val = 0 then Pipeline.ΦA spec3 c else PhiAt3 c (outsAt3 V c (t.val - 1) (by have := t.isLt; omega)).2
  q _ := fullShare
  owed _ := 0

theorem A_eq3 (c : Dev nD) (w : Fin cfg3.W) : (dat3 V c).A w = V c (Pipeline.arrRef spec3 w) := rfl

theorem after3_12 (c : Dev nD) (t : Fin cfg3.N) : (dat3 V c).after 12 t = (outsAt3 V c t.val t.isLt).1 := rfl

theorem Phi3_cast (c : Dev nD) (t : Fin cfg3.N) : (dat3 V c).Φ t.castSucc
    = if h : t.val = 0 then Pipeline.ΦA spec3 c else PhiAt3 c (outsAt3 V c (t.val - 1) (by have := t.isLt; omega)).2 := rfl

theorem Phi3_zero (c : Dev nD) (t : Fin (cfg3.N + 1)) (h : t.val = 0) : (dat3 V c).Φ t = Pipeline.ΦA spec3 c := by
  dsimp only [dat3]; exact dif_pos h

theorem Phi3_pos (c : Dev nD) (t : Fin (cfg3.N + 1)) (h : t.val ≠ 0) :
    (dat3 V c).Φ t = PhiAt3 c (outsAt3 V c (t.val - 1) (by have := t.isLt; omega)).2 := by
  dsimp only [dat3]; exact dif_neg h

theorem Phi3_succ (c : Dev nD) (t : Fin cfg3.N) : (dat3 V c).Φ t.succ = PhiAt3 c (outsAt3 V c t.val t.isLt).2 :=
  Phi3_pos V c t.succ (Nat.succ_ne_zero _)

/-- Every input is handed to the body at its block, -/
theorem before3 (c : Dev nD) (t : Fin cfg3.N) : ∀ w : Fin cfg3.W, w ≠ 12 → ∀ d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ => fun d =>
    ((dat3 V c).before_in_eq_fetched _ rfl (fun _ => rfl) (fun _ _ _ => rfl) (fun _ => rfl) t d).trans rfl
  | ⟨12, _⟩, h => absurd rfl h

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d))
    ∗ (∃ d, owns (c : Thread nD τ) (ms3_11 t) fullShare ((dat3 V c).before 11 t d))
    ∗ (∃ d, owns (c : Thread nD τ) (ms3_12 t) fullShare ((dat3 V c).before 12 t d)))

/-- and what it returns: the inputs as they were. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t)
    ∗ owns (c : Thread nD τ) (ms3_8 t) fullShare ((dat3 V c).after 8 t)
    ∗ owns (c : Thread nD τ) (ms3_9 t) fullShare ((dat3 V c).after 9 t)
    ∗ owns (c : Thread nD τ) (ms3_10 t) fullShare ((dat3 V c).after 10 t)
    ∗ owns (c : Thread nD τ) (ms3_11 t) fullShare ((dat3 V c).after 11 t)
    ∗ (dat3 V c).leavesExact 12 t)

set_option maxHeartbeats 8000000 in
/-- The body at any point: the point's number selects the case, whose run carries the accumulator from the point before to this one. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3 V c t 0 (by decide), before3 V c t 1 (by decide), before3 V c t 2 (by decide), before3 V c t 3 (by decide), before3 V c t 4 (by decide), before3 V c t 5 (by decide), before3 V c t 6 (by decide), before3 V c t 7 (by decide), before3 V c t 8 (by decide), before3 V c t 9 (by decide), before3 V c t 10 (by decide), before3 V c t 11 (by decide)]
  rw [show (dat3 V c).owesAt () t.succ = (dat3 V c).owesAt () t.castSucc from rfl, Phi3_succ, Phi3_cast, scratch_at]
  unfold PhiAt3
  by_cases h0 : t.val = 0
  · have hn1 : ¬cond3_1 (grid3.coords t) := fun h => by have := (hcond3_1 t).mp h; omega
    rw [Dat.leavesExact_idle (dat3 V c) 12 t (idleAt3_12 t hn1) (noFlush3_12 t hn1), dif_pos h0, PhiA3_eq, dif_pos h0]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun3_A c (grid3.coords t) (hc0 := (hcond3_0 t).mpr h0) (hc1 := hn1) ..).2.2 _ Set.univ _)
    iframe H0 H1 H2 H3 H4 H5 H6 H7 H8 H9 H10 H11 H12 HS0
    iintro ⟨H0, H1, H2, H3, H4, H5, H6, H7, H8, H9, H10, H11, H12, ⟨%es0, HS0⟩⟩
    iframe Hr Hg Ho H0 H1 H2 H3 H4 H5 H6 H7 H8 H9 H10 H11
    isplitl [HS0]
    · unfold owns; iexists _; isplitr
      swap; · iexact HS0
      ipureintro; exact sval3_A ..
    iexists _; iexact H12
  · rw [dif_neg h0, dif_neg h0]
    by_cases h1 : t.val = 249
    · rw [show (dat3 V c).leavesExact 12 t = owns (c : Thread nD τ) (ms3_12 t) fullShare ((dat3 V c).after 12 t) from by
        unfold Dat.leavesExact; rw [liveAt3_12 t ((hcond3_1 t).mpr h1)], after3_12, out_at, scratch_at, dif_neg h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun3_C c (grid3.coords t) (hc0 := fun h => h0 ((hcond3_0 t).mp h)) (hc1 := (hcond3_1 t).mpr h1) ..).2.2 Set.univ _)
      iframe H0 H1 H2 H3 H4 H5 H6 H7 H8 H9 H10 H11 HS0
      isplitl [H12]; · iexists _; iexact H12
      iintro ⟨H0, H1, H2, H3, H4, H5, H6, H7, H8, H9, H10, H11, ⟨%e12, H12⟩, ⟨%es0, HS0⟩⟩
      iframe Hr Hg Ho H0 H1 H2 H3 H4 H5 H6 H7 H8 H9 H10 H11
      isplitl [HS0] <;> (unfold owns; iexists _; isplitr; swap)
      · iexact HS0
      · ipureintro; exact sval3_C ..
      · iexact H12
      · ipureintro; exact oval3_C ..
    · have hn1 : ¬cond3_1 (grid3.coords t) := fun h => h1 ((hcond3_1 t).mp h)
      rw [Dat.leavesExact_idle (dat3 V c) 12 t (idleAt3_12 t hn1) (noFlush3_12 t hn1)]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun3_B c (grid3.coords t) (hc0 := fun h => h0 ((hcond3_0 t).mp h)) (hc1 := hn1) ..).2.2 _ Set.univ _)
      iframe H0 H1 H2 H3 H4 H5 H6 H7 H8 H9 H10 H11 H12 HS0
      iintro ⟨H0, H1, H2, H3, H4, H5, H6, H7, H8, H9, H10, H11, H12, ⟨%es0, HS0⟩⟩
      iframe Hr Hg Ho H0 H1 H2 H3 H4 H5 H6 H7 H8 H9 H10 H11
      isplitl [HS0]
      · unfold owns; iexists _; isplitr
        swap; · iexact HS0
        ipureintro; exact sval3_B ..
      iexists _; iexact H12

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [Phi3_zero V c 0 rfl]

/-- After the last point the invariant gives the entry invariant back: the accumulator's contents are forgotten. -/
theorem hout3 (c : Dev nD) : (dat3 V c).Φ (Fin.last cfg3.N) ⊢ Pipeline.ΦA spec3 c := by
  rw [Phi3_pos V c _ (by rw [Fin.val_last]; have : cfg3.N = 250 := N_3; omega), PhiA3_eq]
  unfold PhiAt3
  iintro ⟨⟨HS0, Hr⟩, Hg⟩
  isplitl [HS0 Hr]
  · isplitl [HS0]
    · iexists _; iexact HS0
    iexact Hr
  iexact Hg

end Cert.Kernel.Hand

end
-- ==== Proof.K.Run.lean ====
import proofs.«418735_j49933289783480_1_alg».proof.Proof.Gen.Kernel.Regions
import proofs.«418735_j49933289783480_1_alg».proof.Proof.K.L0
import proofs.«418735_j49933289783480_1_alg».proof.Proof.K.L1
import proofs.«418735_j49933289783480_1_alg».proof.Proof.K.L2
import proofs.«418735_j49933289783480_1_alg».proof.Proof.K.Pool
import Idealize.ShloMosaic.Lib.Pipeline.FrameBody
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
-- Beside the buffers a core carries its generator register at some state and owes nothing.
abbrev R (c : Dev nD) : sProp 𝕄 := iprop((∃ r, prngReg c r) ∗ ∃ W, owes (c : Thread nD τ) (0 : CellTallies nD τ sig Unit) W)

-- One valuation in place of an equal one under a core's state.
theorem held_congr (c : Dev nD) {V V' : Valuation τ sig (Elt F)} (h : V' = V) :
    (iprop(StableHlo.held (c : Thread nD τ) (Pipeline.ucRefs τ sig) V ∗ R c) : sProp 𝕄)
      ⊢ iprop(StableHlo.held (c : Thread nD τ) (Pipeline.ucRefs τ sig) V' ∗ R c) := by rw [h]

section
variable (pd : (p : Fin 4) → (c : Dev nD) → Dat τ (Elt F) Unit ℕ (UR sig nD τ) ℕ (Pipeline.pin (pcfgs (F := F)) Gen.adm p) c)

-- The buffers after region p: as at its entry, but the output window's array holds what the write-backs leave.
abbrev after (p : Fin 4) (V : Dev nD → Valuation τ sig (Elt F)) (o : Fin (cfgs p).W) (c : Dev nD) : Valuation τ sig (Elt F) :=
  Function.update (V c) (Pipeline.arrRef (cfgs p).spec o) ((pd p c).arrAt o (cfgs p).N)

-- Region p as one step of the run: from every unscoped buffer held at V to every one held at `after`.
def reg (p : Fin 4) (lf : Pipeline.LaunchFacts (nD := nD) (τ := τ) cfgs p) (V : Dev nD → Valuation τ sig (Elt F))
    (o : Fin (cfgs p).W)
    (hb : ∀ c, BodyObligation (pd p c) (defs₀ (F := F)) Variants.none () Set.univ)
    (hq : ∀ c w, (pd p c).q w = fullShare) (how : ∀ c t, (pd p c).owed t = 0) (hrec : ∀ c x, x ∈ (pd p c).recorded 0)
    (hA : ∀ c w, (pd p c).A w = V c (Pipeline.arrRef (cfgs p).spec w))
    (hio : ∀ w, w ≠ o → ((cfgs p).win w).isOut = false)
    (hne : ∀ w, w ≠ o → Pipeline.arrRef (cfgs p).spec w ≠ Pipeline.arrRef (cfgs p).spec o)
    (hΦi : ∀ c, (Pipeline.ΦA (cfgs p).spec c : sProp 𝕄) ⊢ (pd p c).Φ 0)
    (hΦo : ∀ c, (pd p c).Φ (Fin.last (cfgs p).N) ⊢ (Pipeline.ΦA (cfgs p).spec c : sProp 𝕄)) :
    Pipeline.RegionSeg (pcfgs (F := F)) Gen.adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p how
  pre c := iprop(StableHlo.held (c : Thread nD τ) (Pipeline.ucRefs τ sig) (V c) ∗ R c)
  post c := iprop(StableHlo.held (c : Thread nD τ) (Pipeline.ucRefs τ sig) (after pd p V o c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    unfold Pipeline.Dat.owesAt Pipeline.owesWithin
    rw [how c]
    have hsplit := Pipeline.arrays_of_unscopedBufs (p := p) (pcfgs (F := F)) Gen.adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c pd ((pd p c).share_full (hq c))
      (fun b => V c b) (fun b => after pd p V o c b) ((pd p c).arrAt · (cfgs p).N)
      (fun w => by
        by_cases h : w = o
        · subst h; exact (Function.update_self (Proc.devRef .tc (Pipeline.arrRef (cfgs p).spec w) : DevRef τ sig) _ (V c)).symm
        · rw [(pd p c).arrAt_in w (hio w h), hA c w]
          exact (Function.update_of_ne (StableHlo.devRef_ne_of_ne (hne w h)) _ _).symm)
      (fun b hb => Function.update_of_ne (StableHlo.devRef_ne_of_ne fun e =>
        hb (Finset.mem_image.mpr ⟨o, Finset.mem_univ _, e.symm⟩)) _ _)
    rw [Pipeline.unscopedBufs_held] at hjoin
    unfold Pipeline.Dat.owesAt Pipeline.owesWithin
    rw [how c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end

abbrev E1 : (c : Dev nD) → (b : Ref sig .tc) → Buf (Elt F) ((c : Thread nD τ).loc b) := fun c b => Gen.V1 m c b
def x1 (c : Dev nD) : Buf (Elt F) ((c : Thread nD τ).loc main_v54) := (dat0 (E1 m) c).arrAt 15 cfg0.N
def W2 (c : Dev nD) : Valuation τ sig (Elt F) := Function.update (Gen.V1 m c) main_v54 (x1 m c)
def W3 (c : Dev nD) : Valuation τ sig (Elt F) := StableHlo.after Gen.hostOps1 (W2 m c)
abbrev E3 : (c : Dev nD) → (b : Ref sig .tc) → Buf (Elt F) ((c : Thread nD τ).loc b) := fun c b => W3 m c b
def x2 (c : Dev nD) : Buf (Elt F) ((c : Thread nD τ).loc main_v104) := (dat1 (E3 m) c).arrAt 15 cfg1.N
def W4 (c : Dev nD) : Valuation τ sig (Elt F) := Function.update (W3 m c) main_v104 (x2 m c)
def W5 (c : Dev nD) : Valuation τ sig (Elt F) := StableHlo.after Gen.hostOps2 (W4 m c)
abbrev E5 : (c : Dev nD) → (b : Ref sig .tc) → Buf (Elt F) ((c : Thread nD τ).loc b) := fun c b => W5 m c b
def x3 (c : Dev nD) : Buf (Elt F) ((c : Thread nD τ).loc main_v154) := (dat2 (E5 m) c).arrAt 15 cfg2.N
def W6 (c : Dev nD) : Valuation τ sig (Elt F) := Function.update (W5 m c) main_v154 (x3 m c)
def W7 (c : Dev nD) : Valuation τ sig (Elt F) := StableHlo.after Gen.hostOps3 (W6 m c)
abbrev E7 : (c : Dev nD) → (b : Ref sig .tc) → Buf (Elt F) ((c : Thread nD τ).loc b) := fun c b => W7 m c b
def res (c : Dev nD) : Buf (Elt F) ((c : Thread nD τ).loc main_v165) := (dat3 (E7 m) c).arrAt 12 cfg3.N
def W8 (c : Dev nD) : Valuation τ sig (Elt F) := Function.update (W7 m c) main_v165 (res m c)

-- What the regions leave, as the generated frame's unknowns: after item J-1 the reference r holds WJ c r.
def outs : Gen.Outs (F := F) := fun J r c => match J with
  | 2 => W2 m c r
  | 4 => W4 m c r
  | 6 => W6 m c r
  | _ => W8 m c r

-- Updating by what an equal valuation's update holds at the place gives that update.
theorem upd_eq {V V' : Valuation τ sig (Elt F)} (b : DevRef τ sig) (x : b.ty.Contents (Elt F)) (h : V = V') :
    Function.update V b (Function.update V' b x b) = Function.update V' b x := by
  rw [h, Function.update_self]
theorem V2_eq (c : Dev nD) : Gen.V2 m (outs m) c = W2 m c := upd_eq _ _ rfl
theorem V3_eq (c : Dev nD) : Gen.V3 m (outs m) c = W3 m c := congrArg (StableHlo.after Gen.hostOps1) (V2_eq m c)
theorem V4_eq (c : Dev nD) : Gen.V4 m (outs m) c = W4 m c := upd_eq _ _ (V3_eq m c)
theorem V5_eq (c : Dev nD) : Gen.V5 m (outs m) c = W5 m c := congrArg (StableHlo.after Gen.hostOps2) (V4_eq m c)
theorem V6_eq (c : Dev nD) : Gen.V6 m (outs m) c = W6 m c := upd_eq _ _ (V5_eq m c)
theorem V7_eq (c : Dev nD) : Gen.V7 m (outs m) c = W7 m c := congrArg (StableHlo.after Gen.hostOps3) (V6_eq m c)
theorem V8_eq (c : Dev nD) : Gen.V8 m (outs m) c = W8 m c := upd_eq _ _ (V7_eq m c)

def pdats : (p : Fin 4) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
abbrev keeps (s : MemSt nD τ sig (Elt F)) (c : Dev nD) (b : Ref sig .tc) : Prop :=
  s.mem ((c.tc : Thread nD τ).loc b) = m ((c.tc : Thread nD τ).loc b)
-- Every argument array holds in s what it held at the launch.
abbrev kept (s : MemSt nD τ sig (Elt F)) (c : Dev nD) : Prop :=
  keeps m s c main_arg0 ∧ keeps m s c main_arg1 ∧ keeps m s c main_arg2 ∧ keeps m s c main_arg3 ∧ keeps m s c main_arg4 ∧ keeps m s c main_arg5 ∧ keeps m s c main_arg6 ∧ keeps m s c main_arg7 ∧ keeps m s c main_arg8 ∧ keeps m s c main_arg9 ∧ keeps m s c main_arg10 ∧ keeps m s c main_arg11 ∧ keeps m s c main_arg12 ∧ keeps m s c main_arg13 ∧ keeps m s c main_arg14 ∧ keeps m s c main_arg15 ∧ keeps m s c main_arg16 ∧ keeps m s c main_arg17 ∧ keeps m s c main_arg18 ∧ keeps m s c main_arg19 ∧ keeps m s c main_arg20 ∧ keeps m s c main_arg21 ∧ keeps m s c main_arg22 ∧ keeps m s c main_arg23 ∧ keeps m s c main_arg24 ∧ keeps m s c main_arg25
def reg0 := reg (pdats m) 0 Gen.launch0 (Gen.V1 m) (15 : Fin 16) (fun c => body_obligation0 (E1 m) c) (fun _ _ => rfl) (fun _ _ => rfl) (fun _ _ => trivial)
  (fun c => A_eq0 (E1 m) c) (by decide : ∀ w : Fin 16, w ≠ 15 → (cfg0.win w).isOut = false)
  (by decide : ∀ w : Fin 16, w ≠ 15 → Pipeline.arrRef spec0 w ≠ main_v54) (fun _ => .rfl) (fun _ => .rfl)
def reg1 := reg (pdats m) 1 Gen.launch1 (W3 m) (15 : Fin 16) (fun c => body_obligation1 (E3 m) c) (fun _ _ => rfl) (fun _ _ => rfl) (fun _ _ => trivial)
  (fun c => A_eq1 (E3 m) c) (by decide : ∀ w : Fin 16, w ≠ 15 → (cfg1.win w).isOut = false)
  (by decide : ∀ w : Fin 16, w ≠ 15 → Pipeline.arrRef spec1 w ≠ main_v104) (fun _ => .rfl) (fun _ => .rfl)
def reg2 := reg (pdats m) 2 Gen.launch2 (W5 m) (15 : Fin 16) (fun c => body_obligation2 (E5 m) c) (fun _ _ => rfl) (fun _ _ => rfl) (fun _ _ => trivial)
  (fun c => A_eq2 (E5 m) c) (by decide : ∀ w : Fin 16, w ≠ 15 → (cfg2.win w).isOut = false)
  (by decide : ∀ w : Fin 16, w ≠ 15 → Pipeline.arrRef spec2 w ≠ main_v154) (fun _ => .rfl) (fun _ => .rfl)
def reg3 := reg (pdats m) 3 Gen.launch3 (W7 m) (12 : Fin 13) (fun c => body_obligation3 (E7 m) c) (fun _ _ => rfl) (fun _ _ => rfl) (fun _ _ => trivial)
  (fun c => A_eq3 (E7 m) c) (by decide : ∀ w : Fin 13, w ≠ 12 → (cfg3.win w).isOut = false)
  (by decide : ∀ w : Fin 13, w ≠ 12 → Pipeline.arrRef spec3 w ≠ main_v165) (hin3 (E7 m)) (hout3 (E7 m))

set_option backward.isDefEq.respectTransparency.types false in
-- Every weakly fair execution of @main ends with `res` in the result array and every argument array as launched: the eight items chain.
theorem run_main : θ_run defs (onTc (τ := τ) (main (F := F))) ⟨m, fun _ => 0, ρ⟩ (fun r => ∀ c : Dev nD,
      r.2.mem ((c.tc : Thread nD τ).loc main_v165) = res m c ∧ kept m r.2 c) := by
  refine Pipeline.θ_run_regions_kit_dev (pcfgs (F := F)) Gen.adm (pdats m) () Gen.cellOf_inj emb₁ defs₀ 𝒱₀ L lv m ρ main
    (Gen.segs m (outs m) 𝒱₀ L lv (fun _ c => R c) () (pdats m) (reg0 m) (reg1 m) (reg2 m) (reg3 m))
    (fun c Q => by
      rewrite [Gen.main_chain c, Seg.run_eq_chain,
        show (Gen.segs m (outs m) 𝒱₀ L lv (fun _ c => R c) () (pdats m) (reg0 m) (reg1 m) (reg2 m) (reg3 m) c).map Seg.prog = [
          StableHlo.seq Gen.hostOps0, Prog.lift (.customCall (Pipeline.entry 0) ()),
          StableHlo.seq Gen.hostOps1, Prog.lift (.customCall (Pipeline.entry 1) ()),
          StableHlo.seq Gen.hostOps2, Prog.lift (.customCall (Pipeline.entry 2) ()),
          StableHlo.seq Gen.hostOps3, Prog.lift (.customCall (Pipeline.entry 3) ()) ] from rfl]
      exact .rfl)
    (fun c => by simp only [Gen.segs, Seg.pipes_host, Seg.pipes_region, Seg.pipes_nil]; decide)
    0 (fun _ _ => rfl) (fun _ => BI.emp) (initOf (Pipeline.cells cfgs Gen.cellOf_inj) (Pipeline.launchToks cfgs Gen.cellOf_inj))
    (by rw [BI.bigSep_emp_const]; iintro Hu; imodintro; isplitl [Hu]
        · iapply (show (ownU (initOf (Pipeline.cells cfgs Gen.cellOf_inj) (Pipeline.launchToks cfgs Gen.cellOf_inj)) : sProp 𝕄) ⊢ BI.own (emb₁ _) from .rfl); iexact Hu
        iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, held_congr c (V2_eq m c), held_congr c (V3_eq m c).symm, held_congr c (V4_eq m c),
      held_congr c (V5_eq m c).symm, held_congr c (V6_eq m c), held_congr c (V7_eq m c).symm,
      (held_congr c (V8_eq m c)).trans (sep_mono .rfl (by iintro ⟨-, H⟩; iexact H))⟩)
    (hinit := Pipeline.initEach L lv fun c => ?_)
    (QY := fun c s => s.mem ((c.tc : Thread nD τ).loc main_v165) = res m c ∧ kept m s c)
    (hfin := fun c s' => ?_) (hQ := fun _ h => h)
  · rw [← Pipeline.unscopedBufs_held (Ix := Unit) (Name := ℕ) (U := UR sig nD τ) (Lvl := ℕ) c (Gen.V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V8 m (outs m) c) s') $$ [Hh HSI]
    · isplitl [Hh] <;> iassumption
    icases Hr with ⟨%h, HSI⟩
    imodintro
    isplitr
    · ipureintro
      have hb (b : Ref sig .tc) (hb : ¬ (Proc.devRef (τ := τ) .tc b).isScoped) :
          s'.mem.mem ((c.tc : Thread nD τ).loc b) = Gen.V8 m (outs m) c b :=
        h _ (Finset.mem_filter.mpr ⟨StableHlo.devRef_mem_tcRefs b, hb⟩)
      exact ⟨(hb main_v165 (by decide)).trans ((congrFun (V8_eq m c) _).trans (Function.update_self _ _ _)),
        (hb main_arg0 (by decide)).trans (Gen.V8_main_arg0 m (outs m) c),
        (hb main_arg1 (by decide)).trans (Gen.V8_main_arg1 m (outs m) c),
        (hb main_arg2 (by decide)).trans (Gen.V8_main_arg2 m (outs m) c),
        (hb main_arg3 (by decide)).trans (Gen.V8_main_arg3 m (outs m) c),
        (hb main_arg4 (by decide)).trans (Gen.V8_main_arg4 m (outs m) c),
        (hb main_arg5 (by decide)).trans (Gen.V8_main_arg5 m (outs m) c),
        (hb main_arg6 (by decide)).trans (Gen.V8_main_arg6 m (outs m) c),
        (hb main_arg7 (by decide)).trans (Gen.V8_main_arg7 m (outs m) c),
        (hb main_arg8 (by decide)).trans (Gen.V8_main_arg8 m (outs m) c),
        (hb main_arg9 (by decide)).trans (Gen.V8_main_arg9 m (outs m) c),
        (hb main_arg10 (by decide)).trans (Gen.V8_main_arg10 m (outs m) c),
        (hb main_arg11 (by decide)).trans (Gen.V8_main_arg11 m (outs m) c),
        (hb main_arg12 (by decide)).trans (Gen.V8_main_arg12 m (outs m) c),
        (hb main_arg13 (by decide)).trans (Gen.V8_main_arg13 m (outs m) c),
        (hb main_arg14 (by decide)).trans (Gen.V8_main_arg14 m (outs m) c),
        (hb main_arg15 (by decide)).trans (Gen.V8_main_arg15 m (outs m) c),
        (hb main_arg16 (by decide)).trans (Gen.V8_main_arg16 m (outs m) c),
        (hb main_arg17 (by decide)).trans (Gen.V8_main_arg17 m (outs m) c),
        (hb main_arg18 (by decide)).trans (Gen.V8_main_arg18 m (outs m) c),
        (hb main_arg19 (by decide)).trans (Gen.V8_main_arg19 m (outs m) c),
        (hb main_arg20 (by decide)).trans (Gen.V8_main_arg20 m (outs m) c),
        (hb main_arg21 (by decide)).trans (Gen.V8_main_arg21 m (outs m) c),
        (hb main_arg22 (by decide)).trans (Gen.V8_main_arg22 m (outs m) c),
        (hb main_arg23 (by decide)).trans (Gen.V8_main_arg23 m (outs m) c),
        (hb main_arg24 (by decide)).trans (Gen.V8_main_arg24 m (outs m) c),
        (hb main_arg25 (by decide)).trans (Gen.V8_main_arg25 m (outs m) c)⟩
    · iexact HSI

-- The run, its first conjunct dropped.
theorem frame : θ_run defs (onTc (τ := τ) (main (F := F))) ⟨m, fun _ => 0, ρ⟩ (fun r => ∀ c : Dev nD, kept m r.2 c) :=
  (θ_run defs _ _).mono (fun _ h c => (h c).2) (run_main m ρ)

end Cert.Kernel.Hand

end
-- ==== Proof.KI.L0.lean ====
import proofs.«418735_j49933289783480_1_alg».proof.Proof.Gen.KernelIdeal.Launch
import proofs.«418735_j49933289783480_1_alg».proof.Proof.Gen.KernelIdeal.Skeleton
import proofs.«418735_j49933289783480_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x1 := Rect.unit (s := S1x1) ![0, 0] S1x1.size inb_S1x1_S1x1_0_0
abbrev r0_1 : Rect S5000x9 := Rect.unit (s := S5000x9) ![0, 0] S5000x9.size inb_S5000x9_S5000x9_0_0
abbrev r0_2 : Rect S9x18 := Rect.unit (s := S9x18) ![0, 0] S9x18.size inb_S9x18_S9x18_0_0
abbrev r0_3 : Rect S1x18 := Rect.unit (s := S1x18) ![0, 0] S1x18.size inb_S1x18_S1x18_0_0
abbrev r0_4 : Rect S18x9 := Rect.unit (s := S18x9) ![0, 0] S18x9.size inb_S18x9_S18x9_0_0
abbrev r0_5 : Rect S1x9 := Rect.unit (s := S1x9) ![0, 0] S1x9.size inb_S1x9_S1x9_0_0

def out0 (x0 x1 : Vec F S5000x9 .f32) (x2 : Vec F S1x1 .f32) (x3 : Vec F S9x18 .f32) (x4 x5 x6 x7 x8 : Vec F S1x18 .f32)
    (x9 : Vec F S18x9 .f32) (x10 x11 x12 x13 x14 : Vec F S1x9 .f32) : Vec F S5000x9 .f32 :=
  View.canon [⟨r0_1, k0_pay1 (k0_pay2 (View.ld x2 r0_0) (View.ld x0 r0_1) (View.ld x1 r0_1) (View.ld x3 r0_2) (View.ld x4 r0_3) (View.ld x5 r0_3) (View.ld x6 r0_3) (View.ld x7 r0_3) (View.ld x8 r0_3)) (View.ld x9 r0_4) (View.ld x10 r0_5) (View.ld x11 r0_5) (View.ld x12 r0_5) (View.ld x13 r0_5) (View.ld x14 r0_5)⟩]

theorem cover0 (p0 : Vec F S5000x9 .f32) (y : S5000x9.Idx) :
    ∃ pc ∈ ([⟨r0_1, p0⟩] : List (View.Piece (Elt F) S5000x9 .f32)), y ∈ pc.1.set :=
  View.cover_of_tiled [⟨r0_1, p0⟩] S5000x9.size (by rfl) y

-- Every load reads its buffer whole and leaves it as it was; the one store covers the output buffer.
theorem sound_kernel0 (c : Dev nD) (E : Set ℕ) (i : grid0.Coords) {arg1 arg2 arg16 : Memref sig .tc .vmem S5000x9 .f32} {arg3 : Memref sig .tc .vmem S1x1 .f32} {arg4 : Memref sig .tc .vmem S9x18 .f32} {arg5 arg6 arg7 arg8 arg9 : Memref sig .tc .vmem S1x18 .f32} {arg10 : Memref sig .tc .vmem S18x9 .f32} {arg11 arg12 arg13 arg14 arg15 : Memref sig .tc .vmem S1x9 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}
    (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ (∃ d, owns c arg16 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ owns c arg16 fullShare (out0 x0 x1 x2 x3 x4 x5 x6 x7 x8 x9 x10 x11 x12 x13 x14)) -∗ K ⟨⟩))
      ⊢ wp frame (wpE (defs₀ (F := F)) Variants.none c none) E (cc0__gin_layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gin_layer_kernel_eq_skeleton]; unfold cc0__gin_layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  iexists _; isplitr
  swap; · iexact H15
  ipureintro
  try dsimp only
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 16, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_15 (c : Dev nD) (t : Fin cfg0.N) : (dat0 V c).after 15 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]

theorem after0_out (c : Dev nD) (t : Fin cfg0.N) : (dat0 V c).after 15 t = out0 ((dat0 V c).after 0 t) ((dat0 V c).after 1 t) ((dat0 V c).after 2 t) ((dat0 V c).after 3 t) ((dat0 V c).after 4 t) ((dat0 V c).after 5 t) ((dat0 V c).after 6 t) ((dat0 V c).after 7 t) ((dat0 V c).after 8 t) ((dat0 V c).after 9 t) ((dat0 V c).after 10 t) ((dat0 V c).after 11 t) ((dat0 V c).after 12 t) ((dat0 V c).after 13 t) ((dat0 V c).after 14 t) := by dsimp only [dat0]

-- The body leaves every input window as it found it, so what it finds there is what it leaves.
theorem before0_in (c : Dev nD) : ∀ w : Fin cfg0.W, w ≠ 15 → ∀ t d, (dat0 V c).before w t d = (dat0 V c).after w t := by
  intro w; fin_cases w <;> intro hw t d <;> first
    | exact absurd rfl hw
    | exact ((dat0 V c).before_in_eq_fetched _ rfl (fun _ => rfl) (fun _ _ _ => rfl) (fun t => by dsimp only [dat0]; rfl) t d).trans (by unfold Dat.fetched Dat.blockOf; dsimp only [dat0]; rfl)

-- The inputs' buffers hold their blocks, so the body's triple applies; the invariant and what is owed pass through unread.
theorem body_obligation0 (c : Dev nD) : BodyObligation (dat0 (F := F) V c) (defs₀ (F := F)) Variants.none () Set.univ := fun t => by
  rw [bigSep_W0, bigSep_W0]
  simp (disch := decide) only [before0_in V c, after0_out V c]
  rw [show (dat0 V c).Φ t.succ = (dat0 V c).Φ t.castSucc from rfl, show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply sound_kernel0 c Set.univ
  iframe H0 H1 H2 H3 H4 H5 H6 H7 H8 H9 H10 H11 H12 H13 H14
  isplitl [H15]; · iexists _; iexact H15
  iintro H
  iframe HΦ Ho
  iexact H

end Cert.KernelIdeal.Hand

end
-- ==== Proof.KI.L1.lean ====
import proofs.«418735_j49933289783480_1_alg».proof.Proof.Gen.KernelIdeal.Launch
import proofs.«418735_j49933289783480_1_alg».proof.Proof.Gen.KernelIdeal.Skeleton
import proofs.«418735_j49933289783480_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rc1_S5000x9 : Rect S5000x9 := Rect.unit (s := S5000x9) ![0, 0] S5000x9.size inb_S5000x9_S5000x9_0_0
abbrev rc1_S1x1 : Rect S1x1 := Rect.unit (s := S1x1) ![0, 0] S1x1.size inb_S1x1_S1x1_0_0
abbrev rc1_S9x18 : Rect S9x18 := Rect.unit (s := S9x18) ![0, 0] S9x18.size inb_S9x18_S9x18_0_0
abbrev rc1_S1x18 : Rect S1x18 := Rect.unit (s := S1x18) ![0, 0] S1x18.size inb_S1x18_S1x18_0_0
abbrev rc1_S18x9 : Rect S18x9 := Rect.unit (s := S18x9) ![0, 0] S18x9.size inb_S18x9_S18x9_0_0
abbrev rc1_S1x9 : Rect S1x9 := Rect.unit (s := S1x9) ![0, 0] S1x9.size inb_S1x9_S1x9_0_0

def out1 (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) : Vec F S5000x9 .f32 :=
  View.canon [⟨rc1_S5000x9, k1_pay1
      (k1_pay2 (View.ld x2 rc1_S1x1) (View.ld x0 rc1_S5000x9) (View.ld x1 rc1_S5000x9) (View.ld x3 rc1_S9x18) (View.ld x4 rc1_S1x18) (View.ld x5 rc1_S1x18) (View.ld x7 rc1_S1x18) (View.ld x8 rc1_S1x18))
      (k1_pay3 (View.ld x6 rc1_S1x18))
      (View.ld x9 rc1_S18x9) (View.ld x10 rc1_S1x9) (View.ld x11 rc1_S1x9) (View.ld x12 rc1_S1x9) (View.ld x13 rc1_S1x9) (View.ld x14 rc1_S1x9)⟩]

theorem cover1 (p0 : Vec F S5000x9 .f32) (y : S5000x9.Idx) :
    ∃ pc ∈ ([⟨rc1_S5000x9, p0⟩] : List (View.Piece (Elt F) S5000x9 .f32)), y ∈ pc.1.set :=
  View.cover_of_tiled [⟨rc1_S5000x9, p0⟩] S5000x9.size (by rfl) y

-- Every load reads its buffer whole and leaves it as it was; the one store covers the output buffer.
theorem sound_kernel1 (c : Dev nD) (E : Set ℕ) (i : grid1.Coords) {arg1 arg2 arg16 : Memref sig .tc .vmem S5000x9 .f32} {arg3 : Memref sig .tc .vmem S1x1 .f32} {arg4 : Memref sig .tc .vmem S9x18 .f32} {arg5 arg6 arg7 arg8 arg9 : Memref sig .tc .vmem S1x18 .f32} {arg10 : Memref sig .tc .vmem S18x9 .f32} {arg11 arg12 arg13 arg14 arg15 : Memref sig .tc .vmem S1x9 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}
    (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ (∃ d, owns c arg16 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ owns c arg16 fullShare (out1 x0 x1 x2 x3 x4 x5 x6 x7 x8 x9 x10 x11 x12 x13 x14)) -∗ K ⟨⟩))
      ⊢ wp frame (wpE (defs₀ (F := F)) Variants.none c none) E (cc1__gin_layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__gin_layer_kernel_eq_skeleton]; unfold cc1__gin_layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  iexists _; isplitr
  swap; · iexact H15
  ipureintro
  exact View.read_writes_eq_canon _ _ _ (cover1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_15 (c : Dev nD) (t : Fin cfg1.N) : (dat1 V c).after 15 t = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

theorem after1_out (c : Dev nD) (t : Fin cfg1.N) : (dat1 V c).after 15 t = out1 ((dat1 V c).after 0 t) ((dat1 V c).after 1 t) ((dat1 V c).after 2 t) ((dat1 V c).after 3 t) ((dat1 V c).after 4 t) ((dat1 V c).after 5 t) ((dat1 V c).after 6 t) ((dat1 V c).after 7 t) ((dat1 V c).after 8 t) ((dat1 V c).after 9 t) ((dat1 V c).after 10 t) ((dat1 V c).after 11 t) ((dat1 V c).after 12 t) ((dat1 V c).after 13 t) ((dat1 V c).after 14 t) := by dsimp only [dat1]

-- The body leaves every input window as it found it, so what it finds there is what it leaves.
theorem before1_in (c : Dev nD) : ∀ w : Fin cfg1.W, w ≠ 15 → ∀ t d, (dat1 V c).before w t d = (dat1 V c).after w t := by
  intro w; fin_cases w <;> intro hw t d <;> first
    | exact absurd rfl hw
    | exact ((dat1 V c).before_in_eq_fetched _ rfl (fun _ => rfl) (fun _ _ _ => rfl) (fun t => by dsimp only [dat1]; rfl) t d).trans (by unfold Dat.fetched Dat.blockOf; dsimp only [dat1]; rfl)

-- The inputs' buffers hold their blocks, so the body's triple applies; the invariant and what is owed pass through unread.
theorem body_obligation1 (c : Dev nD) : BodyObligation (dat1 (F := F) V c) (defs₀ (F := F)) Variants.none () Set.univ := fun t => by
  rw [bigSep_W1, bigSep_W1]
  simp (disch := decide) only [before1_in V c, after1_out V c]
  rw [show (dat1 V c).Φ t.succ = (dat1 V c).Φ t.castSucc from rfl, show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply sound_kernel1 c Set.univ
  iframe H0 H1 H2 H3 H4 H5 H6 H7 H8 H9 H10 H11 H12 H13 H14
  isplitl [H15]; · iexists _; iexact H15
  iintro H
  iframe HΦ Ho
  iexact H

end Cert.KernelIdeal.Hand

end
-- ==== Proof.KI.L2.lean ====
import proofs.«418735_j49933289783480_1_alg».proof.Proof.Gen.KernelIdeal.Launch
import proofs.«418735_j49933289783480_1_alg».proof.Proof.Gen.KernelIdeal.Skeleton
import proofs.«418735_j49933289783480_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rc2_S5000x9 : Rect S5000x9 := Rect.unit (s := S5000x9) ![0, 0] S5000x9.size inb_S5000x9_S5000x9_0_0
abbrev rc2_S1x1 : Rect S1x1 := Rect.unit (s := S1x1) ![0, 0] S1x1.size inb_S1x1_S1x1_0_0
abbrev rc2_S9x18 : Rect S9x18 := Rect.unit (s := S9x18) ![0, 0] S9x18.size inb_S9x18_S9x18_0_0
abbrev rc2_S1x18 : Rect S1x18 := Rect.unit (s := S1x18) ![0, 0] S1x18.size inb_S1x18_S1x18_0_0
abbrev rc2_S18x9 : Rect S18x9 := Rect.unit (s := S18x9) ![0, 0] S18x9.size inb_S18x9_S18x9_0_0
abbrev rc2_S1x9 : Rect S1x9 := Rect.unit (s := S1x9) ![0, 0] S1x9.size inb_S1x9_S1x9_0_0

def out2 (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) : Vec F S5000x9 .f32 :=
  View.canon [⟨rc2_S5000x9, k2_pay1
      (k2_pay2 (View.ld x2 rc2_S1x1) (View.ld x0 rc2_S5000x9) (View.ld x1 rc2_S5000x9) (View.ld x3 rc2_S9x18) (View.ld x4 rc2_S1x18) (View.ld x5 rc2_S1x18) (View.ld x7 rc2_S1x18) (View.ld x8 rc2_S1x18))
      (k2_pay3 (View.ld x6 rc2_S1x18))
      (View.ld x9 rc2_S18x9) (View.ld x10 rc2_S1x9) (View.ld x11 rc2_S1x9) (View.ld x12 rc2_S1x9) (View.ld x13 rc2_S1x9) (View.ld x14 rc2_S1x9)⟩]

theorem cover2 (p0 : Vec F S5000x9 .f32) (y : S5000x9.Idx) :
    ∃ pc ∈ ([⟨rc2_S5000x9, p0⟩] : List (View.Piece (Elt F) S5000x9 .f32)), y ∈ pc.1.set :=
  View.cover_of_tiled [⟨rc2_S5000x9, p0⟩] S5000x9.size (by rfl) y

-- Every load reads its buffer whole and leaves it as it was; the one store covers the output buffer.
theorem sound_kernel2 (c : Dev nD) (E : Set ℕ) (i : grid2.Coords) {arg1 arg2 arg16 : Memref sig .tc .vmem S5000x9 .f32} {arg3 : Memref sig .tc .vmem S1x1 .f32} {arg4 : Memref sig .tc .vmem S9x18 .f32} {arg5 arg6 arg7 arg8 arg9 : Memref sig .tc .vmem S1x18 .f32} {arg10 : Memref sig .tc .vmem S18x9 .f32} {arg11 arg12 arg13 arg14 arg15 : Memref sig .tc .vmem S1x9 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole}
    (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ (∃ d, owns c arg16 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14 ∗ owns c arg16 fullShare (out2 x0 x1 x2 x3 x4 x5 x6 x7 x8 x9 x10 x11 x12 x13 x14)) -∗ K ⟨⟩))
      ⊢ wp frame (wpE (defs₀ (F := F)) Variants.none c none) E (cc2__gin_layer_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2__gin_layer_kernel_eq_skeleton]; unfold cc2__gin_layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  iexists _; isplitr
  swap; · iexact H15
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t)
    | ⟨_ + 16, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_15 (c : Dev nD) (t : Fin cfg2.N) : (dat2 V c).after 15 t = out2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) := by dsimp only [dat2]

theorem after2_out (c : Dev nD) (t : Fin cfg2.N) : (dat2 V c).after 15 t = out2 ((dat2 V c).after 0 t) ((dat2 V c).after 1 t) ((dat2 V c).after 2 t) ((dat2 V c).after 3 t) ((dat2 V c).after 4 t) ((dat2 V c).after 5 t) ((dat2 V c).after 6 t) ((dat2 V c).after 7 t) ((dat2 V c).after 8 t) ((dat2 V c).after 9 t) ((dat2 V c).after 10 t) ((dat2 V c).after 11 t) ((dat2 V c).after 12 t) ((dat2 V c).after 13 t) ((dat2 V c).after 14 t) := by dsimp only [dat2]

-- The body leaves every input window as it found it, so what it finds there is what it leaves.
theorem before2_in (c : Dev nD) : ∀ w : Fin cfg2.W, w ≠ 15 → ∀ t d, (dat2 V c).before w t d = (dat2 V c).after w t := by
  intro w; fin_cases w <;> intro hw t d <;> first
    | exact absurd rfl hw
    | exact ((dat2 V c).before_in_eq_fetched _ rfl (fun _ => rfl) (fun _ _ _ => rfl) (fun t => by dsimp only [dat2]; rfl) t d).trans (by unfold Dat.fetched Dat.blockOf; dsimp only [dat2]; rfl)

-- The inputs' buffers hold their blocks, so the body's triple applies; the invariant and what is owed pass through unread.
theorem body_obligation2 (c : Dev nD) : BodyObligation (dat2 (F := F) V c) (defs₀ (F := F)) Variants.none () Set.univ := fun t => by
  rw [bigSep_W2, bigSep_W2]
  simp (disch := decide) only [before2_in V c, after2_out V c]
  rw [show (dat2 V c).Φ t.succ = (dat2 V c).Φ t.castSucc from rfl, show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply sound_kernel2 c Set.univ
  iframe H0 H1 H2 H3 H4 H5 H6 H7 H8 H9 H10 H11 H12 H13 H14
  isplitl [H15]; · iexists _; iexact H15
  iintro H
  iframe HΦ Ho
  iexact H

end Cert.KernelIdeal.Hand

end
-- ==== Proof.KI.PoolRuns.lean ====
import proofs.«418735_j49933289783480_1_alg».proof.Proof.Gen.KernelIdeal.Launch
import proofs.«418735_j49933289783480_1_alg».proof.Proof.Gen.KernelIdeal.Skeleton
import proofs.«418735_j49933289783480_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first conditional's condition holds at point 0 only, -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

/-- the second's at point 249 only. -/
abbrev cond3_1 (i : grid3.Coords) : Prop := k3_cond2 i = 1#1
theorem hcond3_1 : ∀ t : Fin cfg3.N, cond3_1 (grid3.coords t) ↔ t.val = 249 :=
  (by decide +kernel : ∀ t : Fin grid3.N, cond3_1 (grid3.coords t) ↔ t.val = 249)

theorem idleAt3_12 : ∀ t : Fin cfg3.N, ¬cond3_1 (grid3.coords t) → cfg3.idle 12 (grid3.coords t) = true := by decide +kernel
theorem noFlush3_12 : ∀ t : Fin cfg3.N, ¬cond3_1 (grid3.coords t) → (cfg3.win 12).flush t = false := by decide +kernel
theorem liveAt3_12 : ∀ t : Fin cfg3.N, cond3_1 (grid3.coords t) → cfg3.idle 12 (grid3.coords t) = false := by decide +kernel

/-- The output block's buffer and the scratch, as views. -/
abbrev VO3_12 : View sig .tc .vmem S1024x2 .f32 := (Memref.whole cc3_stg12_0 : Memref sig .tc .vmem S1024x2 .f32).view
abbrev scM3_0 : Memref sig .tc .vmem S1024x9 .f32 := Memref.whole cc3_scratch0
abbrev VS3_0 : View sig .tc .vmem S1024x9 .f32 := scM3_0.view

/-- The body's memref arguments at point `t`, each whole. -/
abbrev ms3_0 (t : Fin cfg3.N) : Memref sig .tc .vmem S2000x9 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S9x9 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x9 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x9 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x9 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x9 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x9 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S9x2 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x2 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S2x2 .f32 := win3_10.stage (cfg3.slots t 10)
abbrev hs3_10 (t : Fin cfg3.N) : (ms3_10 t).IsWhole := hstage3_10 ((cfg3.slots t 10).cast nbuf3_10)
abbrev ms3_11 (t : Fin cfg3.N) : Memref sig .tc .vmem S1x2 .f32 := win3_11.stage (cfg3.slots t 11)
abbrev hs3_11 (t : Fin cfg3.N) : (ms3_11 t).IsWhole := hstage3_11 ((cfg3.slots t 11).cast nbuf3_11)
abbrev ms3_12 (t : Fin cfg3.N) : Memref sig .tc .vmem S1024x2 .f32 := win3_12.stage (cfg3.slots t 12)
abbrev hs3_12 (t : Fin cfg3.N) : (ms3_12 t).IsWhole := hstage3_12 ((cfg3.slots t 12).cast nbuf3_12)

/-- A whole memref owned at `X` is its buffer's points-to at the raw contents that read `X`. -/
theorem owns_unread (c : Dev nD) {s : Shape} {e : EltTy} {m : Memref sig .tc .vmem s e} (h : m.IsWhole) (X : Vec F s e) :
    (owns (c : Thread nD τ) m fullShare X : sProp 𝕄) = (m.view.loc (c : Thread nD τ) ↦[m.view.set]{fullShare} h.unread X) := by
  refine BI.equiv_iff.mp ⟨?_, ?_⟩ <;> unfold owns <;> show BIBase.Entails (PROP := sProp 𝕄) _ _
  · iintro ⟨%f, %hf, H⟩; obtain rfl := h.eq_unread hf; iexact H
  · iintro H; iexists _; isplitr
    · ipureintro; exact h.read_unread X
    iexact H

/-- The entry invariant with the scratch split off, owned at some contents. -/
theorem PhiA3_eq (c : Dev nD) :
    (Pipeline.ΦA spec3 c : sProp 𝕄)
      = iprop(iprop((∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Hand

end
-- ==== Proof.KI.PoolRunA.lean ====
import proofs.«418735_j49933289783480_1_alg».proof.Proof.KI.PoolRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point: the scratch, found at anything, is reset and then accumulated into; the output block goes through untouched. -/
noncomputable def kernelRun3_A (c : Dev nD) (i : grid3.Coords) (arg1 : Memref sig .tc .vmem S2000x9 .f32) (harg1 : arg1.IsWhole) (arg2 : Memref sig .tc .vmem S2000x1 .i32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S1x9 .f32) (harg7 : arg7.IsWhole) (arg8 : Memref sig .tc .vmem S1x9 .f32) (harg8 : arg8.IsWhole) (arg9 : Memref sig .tc .vmem S9x2 .f32) (harg9 : arg9.IsWhole) (arg10 : Memref sig .tc .vmem S1x2 .f32) (harg10 : arg10.IsWhole) (arg11 : Memref sig .tc .vmem S2x2 .f32) (harg11 : arg11.IsWhole) (arg12 : Memref sig .tc .vmem S1x2 .f32) (harg12 : arg12.IsWhole) (arg13 : Memref sig .tc .vmem S1024x2 .f32) (harg13 : arg13.IsWhole) (arg14 : Memref sig .tc .vmem S1024x9 .f32) (harg14 : arg14.IsWhole) (hc0 : cond3_0 i) (hc1 : ¬cond3_1 i)
    (x0 : Vec F S2000x9 .f32) (x1 : Vec F S2000x1 .i32) (x2 : Vec F S9x9 .f32) (x3 : Vec F S1x9 .f32) (x4 : Vec F S1x9 .f32) (x5 : Vec F S1x9 .f32) (x6 : Vec F S1x9 .f32) (x7 : Vec F S1x9 .f32) (x8 : Vec F S9x2 .f32) (x9 : Vec F S1x2 .f32) (x10 : Vec F S2x2 .f32) (x11 : Vec F S1x2 .f32) :
    Σ' (L12 : List (View.Piece (Elt F) S1024x2 .f32)), { LS0 : List (View.Piece (Elt F) S1024x9 .f32) //
      ∀ (xi12 : Vec F S1024x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ f, arg14.view.loc (c : Thread nD τ) ↦[arg14.view.set]{fullShare} arg14.view.writes (Elt F) f LS0)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi12 E K => ?run⟩
  case run =>
    rw [owns_unread c harg1, owns_unread c harg2, owns_unread c harg3, owns_unread c harg4, owns_unread c harg5, owns_unread c harg6, owns_unread c harg7, owns_unread c harg8, owns_unread c harg9, owns_unread c harg10, owns_unread c harg11, owns_unread c harg12, owns_unread c harg13]
    simp only [cc3__pool_mlp_kernel_eq_skeleton]; unfold cc3__pool_mlp_kernel_skel
    unfold owns
    iintro ⟨H0, H1, H2, H3, H4, H5, H6, H7, H8, H9, H10, H11, H12, ⟨%ds0, %fs0, -, HS0⟩, Hk⟩
    sl_exec (disch := first | exact hc0 | exact hc1)
    sl_step
    iapply Hk
    iframe H0 H1 H2 H3 H4 H5 H6 H7 H8 H9 H10 H11 H12
    iexists _; iexact HS0

end Cert.KernelIdeal.Hand

end
-- ==== Proof.KI.PoolRunB.lean ====
import proofs.«418735_j49933289783480_1_alg».proof.Proof.KI.PoolRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle point: the scratch, found at `xs0`, is accumulated into; the output block goes through untouched. -/
noncomputable def kernelRun3_B (c : Dev nD) (i : grid3.Coords) (arg1 : Memref sig .tc .vmem S2000x9 .f32) (harg1 : arg1.IsWhole) (arg2 : Memref sig .tc .vmem S2000x1 .i32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S1x9 .f32) (harg7 : arg7.IsWhole) (arg8 : Memref sig .tc .vmem S1x9 .f32) (harg8 : arg8.IsWhole) (arg9 : Memref sig .tc .vmem S9x2 .f32) (harg9 : arg9.IsWhole) (arg10 : Memref sig .tc .vmem S1x2 .f32) (harg10 : arg10.IsWhole) (arg11 : Memref sig .tc .vmem S2x2 .f32) (harg11 : arg11.IsWhole) (arg12 : Memref sig .tc .vmem S1x2 .f32) (harg12 : arg12.IsWhole) (arg13 : Memref sig .tc .vmem S1024x2 .f32) (harg13 : arg13.IsWhole) (arg14 : Memref sig .tc .vmem S1024x9 .f32) (harg14 : arg14.IsWhole) (hc0 : ¬cond3_0 i) (hc1 : ¬cond3_1 i)
    (x0 : Vec F S2000x9 .f32) (x1 : Vec F S2000x1 .i32) (x2 : Vec F S9x9 .f32) (x3 : Vec F S1x9 .f32) (x4 : Vec F S1x9 .f32) (x5 : Vec F S1x9 .f32) (x6 : Vec F S1x9 .f32) (x7 : Vec F S1x9 .f32) (x8 : Vec F S9x2 .f32) (x9 : Vec F S1x2 .f32) (x10 : Vec F S2x2 .f32) (x11 : Vec F S1x2 .f32) (xs0 : Vec F S1024x9 .f32) :
    Σ' (L12 : List (View.Piece (Elt F) S1024x2 .f32)), { LS0 : List (View.Piece (Elt F) S1024x9 .f32) //
      ∀ (xi12 : Vec F S1024x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (∃ f, arg14.view.loc (c : Thread nD τ) ↦[arg14.view.set]{fullShare} arg14.view.writes (Elt F) f LS0)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], ?_, fun xi12 E K => ?run⟩
  case run =>
    rw [owns_unread c harg1, owns_unread c harg2, owns_unread c harg3, owns_unread c harg4, owns_unread c harg5, owns_unread c harg6, owns_unread c harg7, owns_unread c harg8, owns_unread c harg9, owns_unread c harg10, owns_unread c harg11, owns_unread c harg12, owns_unread c harg13, owns_unread c harg14]
    simp only [cc3__pool_mlp_kernel_eq_skeleton]; unfold cc3__pool_mlp_kernel_skel
    iintro ⟨H0, H1, H2, H3, H4, H5, H6, H7, H8, H9, H10, H11, H12, HS0, Hk⟩
    sl_exec (disch := first | exact hc0 | exact hc1)
    sl_step
    iapply Hk
    iframe H0 H1 H2 H3 H4 H5 H6 H7 H8 H9 H10 H11 H12
    iexists _; iexact HS0

end Cert.KernelIdeal.Hand

end
-- ==== Proof.KI.PoolRunC.lean ====
import proofs.«418735_j49933289783480_1_alg».proof.Proof.KI.PoolRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last point: the scratch is accumulated into, and the head of the accumulator is stored over the output block, found at anything. -/
noncomputable def kernelRun3_C (c : Dev nD) (i : grid3.Coords) (arg1 : Memref sig .tc .vmem S2000x9 .f32) (harg1 : arg1.IsWhole) (arg2 : Memref sig .tc .vmem S2000x1 .i32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S1x9 .f32) (harg7 : arg7.IsWhole) (arg8 : Memref sig .tc .vmem S1x9 .f32) (harg8 : arg8.IsWhole) (arg9 : Memref sig .tc .vmem S9x2 .f32) (harg9 : arg9.IsWhole) (arg10 : Memref sig .tc .vmem S1x2 .f32) (harg10 : arg10.IsWhole) (arg11 : Memref sig .tc .vmem S2x2 .f32) (harg11 : arg11.IsWhole) (arg12 : Memref sig .tc .vmem S1x2 .f32) (harg12 : arg12.IsWhole) (arg13 : Memref sig .tc .vmem S1024x2 .f32) (harg13 : arg13.IsWhole) (arg14 : Memref sig .tc .vmem S1024x9 .f32) (harg14 : arg14.IsWhole) (hc0 : ¬cond3_0 i) (hc1 : cond3_1 i)
    (x0 : Vec F S2000x9 .f32) (x1 : Vec F S2000x1 .i32) (x2 : Vec F S9x9 .f32) (x3 : Vec F S1x9 .f32) (x4 : Vec F S1x9 .f32) (x5 : Vec F S1x9 .f32) (x6 : Vec F S1x9 .f32) (x7 : Vec F S1x9 .f32) (x8 : Vec F S9x2 .f32) (x9 : Vec F S1x2 .f32) (x10 : Vec F S2x2 .f32) (x11 : Vec F S1x2 .f32) (xs0 : Vec F S1024x9 .f32) :
    Σ' (L12 : List (View.Piece (Elt F) S1024x2 .f32)), { LS0 : List (View.Piece (Elt F) S1024x9 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0)) -∗ K ⟨⟩))
          ⊢ wp frame (wpE (defs₀ (F := F)) Variants.none c none) E (cc3__pool_mlp_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    rw [owns_unread c harg1, owns_unread c harg2, owns_unread c harg3, owns_unread c harg4, owns_unread c harg5, owns_unread c harg6, owns_unread c harg7, owns_unread c harg8, owns_unread c harg9, owns_unread c harg10, owns_unread c harg11, owns_unread c harg12, owns_unread c harg14]
    simp only [cc3__pool_mlp_kernel_eq_skeleton]; unfold cc3__pool_mlp_kernel_skel
    simp only [k3_part1_eq_skeleton]
    unfold owns
    iintro ⟨H0, H1, H2, H3, H4, H5, H6, H7, H8, H9, H10, H11, ⟨%d12, %f12, -, H12⟩, HS0, Hk⟩
    sl_exec (disch := first | exact hc0 | exact hc1)
    sl_step
    iapply Hk
    iframe H0 H1 H2 H3 H4 H5 H6 H7 H8 H9 H10 H11
    isplitl [H12]; · iexists _; iexact H12
    iexists _; iexact HS0

end Cert.KernelIdeal.Hand

end
-- ==== Proof.KI.Pool.lean ====
import proofs.«418735_j49933289783480_1_alg».proof.Proof.KI.PoolRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz3 : (![0, 0] : Fin 2 → Nat) = fun _ => 0 := funext fun a => by fin_cases a <;> rfl

section
variable (c : Dev nD) (i : grid3.Coords) (arg1 : Memref sig .tc .vmem S2000x9 .f32) (harg1 : arg1.IsWhole) (arg2 : Memref sig .tc .vmem S2000x1 .i32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S1x9 .f32) (harg7 : arg7.IsWhole) (arg8 : Memref sig .tc .vmem S1x9 .f32) (harg8 : arg8.IsWhole) (arg9 : Memref sig .tc .vmem S9x2 .f32) (harg9 : arg9.IsWhole) (arg10 : Memref sig .tc .vmem S1x2 .f32) (harg10 : arg10.IsWhole) (arg11 : Memref sig .tc .vmem S2x2 .f32) (harg11 : arg11.IsWhole) (arg12 : Memref sig .tc .vmem S1x2 .f32) (harg12 : arg12.IsWhole) (arg13 : Memref sig .tc .vmem S1024x2 .f32) (harg13 : arg13.IsWhole) (arg14 : Memref sig .tc .vmem S1024x9 .f32) (harg14 : arg14.IsWhole)

section
variable (hc0 : ¬cond3_0 i) (hc1 : cond3_1 i) (x0 : Vec F S2000x9 .f32) (x1 : Vec F S2000x1 .i32) (x2 : Vec F S9x9 .f32) (x3 : Vec F S1x9 .f32) (x4 : Vec F S1x9 .f32) (x5 : Vec F S1x9 .f32) (x6 : Vec F S1x9 .f32) (x7 : Vec F S1x9 .f32) (x8 : Vec F S9x2 .f32) (x9 : Vec F S1x2 .f32) (x10 : Vec F S2x2 .f32) (x11 : Vec F S1x2 .f32) (xs0 : Vec F S1024x9 .f32)

theorem sval3_C (v : View sig .tc .vmem S1024x9 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0).2.1) = k3_pay2 x1 x0 xs0 := by
  refine (View.read_writes_eq_canon _ _ _ (View.cover_of_tiledL _ S1024x9.size (by sl_kernel_rfl))).trans ?_
  unfold kernelRun3_C
  dsimp only
  sl_unfold_words
  rw [View.canon_unit_zero hz3]
  simp only [View.readAt_eq_ld, harg1.read_unread, harg2.read_unread, harg14.read_unread, View.ld_unit_zero (S := S2000x9) hz3, View.ld_unit_zero (S := S2000x1) hz3, View.ld_unit_zero (S := S1024x9) hz3]

/-- The head's one piece covers the output block; its load of the scratch reads the accumulation's piece back. -/
theorem oval3_C (v : View sig .tc .vmem S1024x2 .f32) (f : v.ty.Contents (Elt F)) :
    v.read (Elt F) (v.writes (Elt F) f (kernelRun3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0).1)
      = k3_pay3 (k3_pay4 (k3_pay2 x1 x0 xs0) x2 x3 x4 x5 x6 x7 x8) (k3_pay5 x9) x10 x11 := by
  refine (View.read_writes_eq_canon _ _ _ (View.cover_of_tiledL _ S1024x2.size (by sl_kernel_rfl))).trans ?_
  unfold kernelRun3_C
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, View.readCov_unit_zero (S := S1024x9) _ hz3, View.ld_unit_zero (S := S2000x9) hz3, View.ld_unit_zero (S := S2000x1) hz3, View.ld_unit_zero (S := S9x9) hz3, View.ld_unit_zero (S := S1x9) hz3, View.ld_unit_zero (S := S9x2) hz3, View.ld_unit_zero (S := S1x2) hz3, View.ld_unit_zero (S := S2x2) hz3, View.ld_unit_zero (S := S1024x9) hz3, View.ld_unit_zero (S := S1024x2) hz3]

def out3_C_12 : Vec F S1024x2 .f32 :=
  VO3_12.read (Elt F) (VO3_12.writes (Elt F) VO3_12.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0).1)

def sout3_C : Vec F S1024x9 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0).2.1)

theorem sout3_C_eq : sout3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0 = k3_pay2 x1 x0 xs0 :=
  sval3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0 _ _

theorem out3_C_12_eq : out3_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0
      = k3_pay3 (k3_pay4 (k3_pay2 x1 x0 xs0) x2 x3 x4 x5 x6 x7 x8) (k3_pay5 x9) x10 x11 :=
  oval3_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0 _ _

end

variable (x0 : Vec F S2000x9 .f32) (x1 : Vec F S2000x1 .i32) (x2 : Vec F S9x9 .f32) (x3 : Vec F S1x9 .f32) (x4 : Vec F S1x9 .f32) (x5 : Vec F S1x9 .f32) (x6 : Vec F S1x9 .f32) (x7 : Vec F S1x9 .f32) (x8 : Vec F S9x2 .f32) (x9 : Vec F S1x2 .f32) (x10 : Vec F S2x2 .f32) (x11 : Vec F S1x2 .f32) (xs0 : Vec F S1024x9 .f32)

section
variable (hc0 : cond3_0 i) (hc1 : ¬cond3_1 i)

/-- The reset's piece is read back by the accumulation's load, whose own piece covers the scratch: whatever it held. -/
theorem sval3_A (v : View sig .tc .vmem S1024x9 .f32) (f : v.ty.Contents (Elt F)) :
    v.read (Elt F) (v.writes (Elt F) f (kernelRun3_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11).2.1) = k3_pay2 x1 x0 (k3_pay1 (F := F)) := by
  refine (View.read_writes_eq_canon _ _ _ (View.cover_of_tiledL _ S1024x9.size (by sl_kernel_rfl))).trans ?_
  unfold kernelRun3_A
  dsimp only
  sl_unfold_words
  rw [View.canon_cons_unit_zero (S := S1024x9) hz3, View.readCov_unit_zero (S := S1024x9) _ hz3]
  simp only [View.readAt_eq_ld, harg1.read_unread, harg2.read_unread, View.ld_unit_zero (S := S2000x9) hz3, View.ld_unit_zero (S := S2000x1) hz3]

end

section
variable (hc0 : ¬cond3_0 i) (hc1 : ¬cond3_1 i)

/-- The one piece covers the scratch: the accumulation over what was found there. -/
theorem sval3_B (v : View sig .tc .vmem S1024x9 .f32) (f : v.ty.Contents (Elt F)) :
    v.read (Elt F) (v.writes (Elt F) f (kernelRun3_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0).2.1) = k3_pay2 x1 x0 xs0 := by
  refine (View.read_writes_eq_canon _ _ _ (View.cover_of_tiledL _ S1024x9.size (by sl_kernel_rfl))).trans ?_
  unfold kernelRun3_B
  dsimp only
  sl_unfold_words
  rw [View.canon_unit_zero hz3]
  simp only [View.readAt_eq_ld, harg1.read_unread, harg2.read_unread, harg14.read_unread, View.ld_unit_zero (S := S2000x9) hz3, View.ld_unit_zero (S := S2000x1) hz3, View.ld_unit_zero (S := S1024x9) hz3]

end
end

/-- The head of an accumulator `s` at point `t`'s parameter blocks. -/
def head3 (c : Dev nD) (t : Fin cfg3.N) (s : Vec F S1024x9 .f32) : Vec F S1024x2 .f32 :=
  k3_pay3 (k3_pay4 s (iblk3 V c 2 t) (iblk3 V c 3 t) (iblk3 V c 4 t) (iblk3 V c 5 t) (iblk3 V c 6 t) (iblk3 V c 7 t) (iblk3 V c 8 t)) (k3_pay5 (iblk3 V c 9 t)) (iblk3 V c 10 t) (iblk3 V c 11 t)

def headOf (c : Dev nD) (t : Fin cfg3.N) (s : Vec F S1024x9 .f32) : Vec F S1024x2 .f32 × Vec F S1024x9 .f32 := (head3 V c t s, s)

/-- After point `n`: the accumulator is the accumulation of the point's blocks over the one before (over zero at first), the output its head. -/
def outsAt3 (c : Dev nD) : (n : ℕ) → n < cfg3.N → Vec F S1024x2 .f32 × Vec F S1024x9 .f32
  | 0, h => headOf V c ⟨0, h⟩ (k3_pay2 (iblk3 V c 1 ⟨0, h⟩) (iblk3 V c 0 ⟨0, h⟩) k3_pay1)
  | n + 1, h => headOf V c ⟨n + 1, h⟩ (k3_pay2 (iblk3 V c 1 ⟨n + 1, h⟩) (iblk3 V c 0 ⟨n + 1, h⟩) (outsAt3 c n (Nat.lt_of_succ_lt h)).2)

theorem scratch_zero (c : Dev nD) (h : 0 < cfg3.N) :
    (outsAt3 V c 0 h).2 = k3_pay2 (iblk3 V c 1 ⟨0, h⟩) (iblk3 V c 0 ⟨0, h⟩) (k3_pay1 (F := F)) := rfl

theorem scratch_succ (c : Dev nD) (n : ℕ) (h : n + 1 < cfg3.N) :
    (outsAt3 V c (n + 1) h).2 = k3_pay2 (iblk3 V c 1 ⟨n + 1, h⟩) (iblk3 V c 0 ⟨n + 1, h⟩) (outsAt3 V c n (Nat.lt_of_succ_lt h)).2 := rfl

theorem scratch_at (c : Dev nD) : ∀ t : Fin cfg3.N, (outsAt3 V c t.val t.isLt).2
    = k3_pay2 (iblk3 V c 1 t) (iblk3 V c 0 t) (if h : t.val = 0 then k3_pay1 else (outsAt3 V c (t.val - 1) (by have := t.isLt; omega)).2)
  | ⟨0, _⟩ => rfl
  | ⟨_ + 1, _⟩ => rfl

theorem out_at (c : Dev nD) : ∀ t : Fin cfg3.N, (outsAt3 V c t.val t.isLt).1 = head3 V c t (outsAt3 V c t.val t.isLt).2
  | ⟨0, _⟩ => rfl
  | ⟨_ + 1, _⟩ => rfl

/-- At the last point both components are what the last case's run leaves, by its two closed forms. -/
theorem outsAt3_C (c : Dev nD) (t : Fin cfg3.N) (h0 : ¬t.val = 0) (h1 : t.val = 249) :
    outsAt3 V c t.val t.isLt = (out3_C_12 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (outsAt3 V c (t.val - 1) (Nat.lt_of_le_of_lt (Nat.sub_le _ _) t.isLt)).2) := by
  obtain ⟨n, hn⟩ := t
  cases n with
  | zero => exact absurd rfl h0
  | succ n => rw [out3_C_12_eq, sout3_C_eq]; rfl

/-- The scratch at `X`, the other scoped buffers unopened, the generator register at some state. -/
def PhiAt3 (c : Dev nD) (X : Vec F S1024x9 .f32) : sProp 𝕄 :=
  iprop(iprop(owns (c : Thread nD τ) scM3_0 fullShare X ∗ Pipeline.scopedRestBut (Ix := Unit) (Name := ℕ) (U := UR sig nD τ) (Lvl := ℕ) (Val := Elt F) spec3 c [cc3_scratch0]) ∗ (∃ r, prngReg c r))

/-- The region's proof data: inputs at their blocks, the output at `outsAt3`'s head, the accumulator carried by the invariant. -/
def dat3 (c : Dev nD) : Dat τ (Elt F) Unit ℕ (UR sig nD τ) ℕ cfg3 c where
  A w := V c (Pipeline.arrRef spec3 w)
  after w t := match w with
    | ⟨0, _⟩ => iblk3 V c 0 t | ⟨1, _⟩ => iblk3 V c 1 t | ⟨2, _⟩ => iblk3 V c 2 t | ⟨3, _⟩ => iblk3 V c 3 t
    | ⟨4, _⟩ => iblk3 V c 4 t | ⟨5, _⟩ => iblk3 V c 5 t | ⟨6, _⟩ => iblk3 V c 6 t | ⟨7, _⟩ => iblk3 V c 7 t
    | ⟨8, _⟩ => iblk3 V c 8 t | ⟨9, _⟩ => iblk3 V c 9 t | ⟨10, _⟩ => iblk3 V c 10 t | ⟨11, _⟩ => iblk3 V c 11 t
    | ⟨12, _⟩ => (outsAt3 V c t.val t.isLt).1
  Φ t := if h : t.val = 0 then Pipeline.ΦA spec3 c else PhiAt3 c (outsAt3 V c (t.val - 1) (by have := t.isLt; omega)).2
  q _ := fullShare
  owed _ := 0

theorem A_eq3 (c : Dev nD) (w : Fin cfg3.W) : (dat3 V c).A w = V c (Pipeline.arrRef spec3 w) := rfl

theorem after3_12 (c : Dev nD) (t : Fin cfg3.N) : (dat3 V c).after 12 t = (outsAt3 V c t.val t.isLt).1 := rfl

theorem Phi3_cast (c : Dev nD) (t : Fin cfg3.N) : (dat3 V c).Φ t.castSucc
    = if h : t.val = 0 then Pipeline.ΦA spec3 c else PhiAt3 c (outsAt3 V c (t.val - 1) (by have := t.isLt; omega)).2 := rfl

theorem Phi3_zero (c : Dev nD) (t : Fin (cfg3.N + 1)) (h : t.val = 0) : (dat3 V c).Φ t = Pipeline.ΦA spec3 c := by
  dsimp only [dat3]; exact dif_pos h

theorem Phi3_pos (c : Dev nD) (t : Fin (cfg3.N + 1)) (h : t.val ≠ 0) :
    (dat3 V c).Φ t = PhiAt3 c (outsAt3 V c (t.val - 1) (by have := t.isLt; omega)).2 := by
  dsimp only [dat3]; exact dif_neg h

theorem Phi3_succ (c : Dev nD) (t : Fin cfg3.N) : (dat3 V c).Φ t.succ = PhiAt3 c (outsAt3 V c t.val t.isLt).2 :=
  Phi3_pos V c t.succ (Nat.succ_ne_zero _)

/-- Every input is handed to the body at its block, -/
theorem before3 (c : Dev nD) (t : Fin cfg3.N) : ∀ w : Fin cfg3.W, w ≠ 12 → ∀ d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ => fun d =>
    ((dat3 V c).before_in_eq_fetched _ rfl (fun _ => rfl) (fun _ _ _ => rfl) (fun _ => rfl) t d).trans rfl
  | ⟨12, _⟩, h => absurd rfl h

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d))
    ∗ (∃ d, owns (c : Thread nD τ) (ms3_11 t) fullShare ((dat3 V c).before 11 t d))
    ∗ (∃ d, owns (c : Thread nD τ) (ms3_12 t) fullShare ((dat3 V c).before 12 t d)))

/-- and what it returns: the inputs as they were. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t)
    ∗ owns (c : Thread nD τ) (ms3_8 t) fullShare ((dat3 V c).after 8 t)
    ∗ owns (c : Thread nD τ) (ms3_9 t) fullShare ((dat3 V c).after 9 t)
    ∗ owns (c : Thread nD τ) (ms3_10 t) fullShare ((dat3 V c).after 10 t)
    ∗ owns (c : Thread nD τ) (ms3_11 t) fullShare ((dat3 V c).after 11 t)
    ∗ (dat3 V c).leavesExact 12 t)

set_option maxHeartbeats 8000000 in
/-- The body at any point: the point's number selects the case, whose run carries the accumulator from the point before to this one. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3 V c t 0 (by decide), before3 V c t 1 (by decide), before3 V c t 2 (by decide), before3 V c t 3 (by decide), before3 V c t 4 (by decide), before3 V c t 5 (by decide), before3 V c t 6 (by decide), before3 V c t 7 (by decide), before3 V c t 8 (by decide), before3 V c t 9 (by decide), before3 V c t 10 (by decide), before3 V c t 11 (by decide)]
  rw [show (dat3 V c).owesAt () t.succ = (dat3 V c).owesAt () t.castSucc from rfl, Phi3_succ, Phi3_cast, scratch_at]
  unfold PhiAt3
  by_cases h0 : t.val = 0
  · have hn1 : ¬cond3_1 (grid3.coords t) := fun h => by have := (hcond3_1 t).mp h; omega
    rw [Dat.leavesExact_idle (dat3 V c) 12 t (idleAt3_12 t hn1) (noFlush3_12 t hn1), dif_pos h0, PhiA3_eq, dif_pos h0]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun3_A c (grid3.coords t) (hc0 := (hcond3_0 t).mpr h0) (hc1 := hn1) ..).2.2 _ Set.univ _)
    iframe H0 H1 H2 H3 H4 H5 H6 H7 H8 H9 H10 H11 H12 HS0
    iintro ⟨H0, H1, H2, H3, H4, H5, H6, H7, H8, H9, H10, H11, H12, ⟨%es0, HS0⟩⟩
    iframe Hr Hg Ho H0 H1 H2 H3 H4 H5 H6 H7 H8 H9 H10 H11
    isplitl [HS0]
    · unfold owns; iexists _; isplitr
      swap; · iexact HS0
      ipureintro; exact sval3_A ..
    iexists _; iexact H12
  · rw [dif_neg h0, dif_neg h0]
    by_cases h1 : t.val = 249
    · rw [show (dat3 V c).leavesExact 12 t = owns (c : Thread nD τ) (ms3_12 t) fullShare ((dat3 V c).after 12 t) from by
        unfold Dat.leavesExact; rw [liveAt3_12 t ((hcond3_1 t).mpr h1)], after3_12, out_at, scratch_at, dif_neg h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun3_C c (grid3.coords t) (hc0 := fun h => h0 ((hcond3_0 t).mp h)) (hc1 := (hcond3_1 t).mpr h1) ..).2.2 Set.univ _)
      iframe H0 H1 H2 H3 H4 H5 H6 H7 H8 H9 H10 H11 HS0
      isplitl [H12]; · iexists _; iexact H12
      iintro ⟨H0, H1, H2, H3, H4, H5, H6, H7, H8, H9, H10, H11, ⟨%e12, H12⟩, ⟨%es0, HS0⟩⟩
      iframe Hr Hg Ho H0 H1 H2 H3 H4 H5 H6 H7 H8 H9 H10 H11
      isplitl [HS0] <;> (unfold owns; iexists _; isplitr; swap)
      · iexact HS0
      · ipureintro; exact sval3_C ..
      · iexact H12
      · ipureintro; exact oval3_C ..
    · have hn1 : ¬cond3_1 (grid3.coords t) := fun h => h1 ((hcond3_1 t).mp h)
      rw [Dat.leavesExact_idle (dat3 V c) 12 t (idleAt3_12 t hn1) (noFlush3_12 t hn1)]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun3_B c (grid3.coords t) (hc0 := fun h => h0 ((hcond3_0 t).mp h)) (hc1 := hn1) ..).2.2 _ Set.univ _)
      iframe H0 H1 H2 H3 H4 H5 H6 H7 H8 H9 H10 H11 H12 HS0
      iintro ⟨H0, H1, H2, H3, H4, H5, H6, H7, H8, H9, H10, H11, H12, ⟨%es0, HS0⟩⟩
      iframe Hr Hg Ho H0 H1 H2 H3 H4 H5 H6 H7 H8 H9 H10 H11
      isplitl [HS0]
      · unfold owns; iexists _; isplitr
        swap; · iexact HS0
        ipureintro; exact sval3_B ..
      iexists _; iexact H12

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [Phi3_zero V c 0 rfl]

/-- After the last point the invariant gives the entry invariant back: the accumulator's contents are forgotten. -/
theorem hout3 (c : Dev nD) : (dat3 V c).Φ (Fin.last cfg3.N) ⊢ Pipeline.ΦA spec3 c := by
  rw [Phi3_pos V c _ (by rw [Fin.val_last]; have : cfg3.N = 250 := N_3; omega), PhiA3_eq]
  unfold PhiAt3
  iintro ⟨⟨HS0, Hr⟩, Hg⟩
  isplitl [HS0 Hr]
  · isplitl [HS0]
    · iexists _; iexact HS0
    iexact Hr
  iexact Hg

end Cert.KernelIdeal.Hand

end
-- ==== Proof.KI.Run.lean ====
import proofs.«418735_j49933289783480_1_alg».proof.Proof.Gen.KernelIdeal.Regions
import proofs.«418735_j49933289783480_1_alg».proof.Proof.KI.L0
import proofs.«418735_j49933289783480_1_alg».proof.Proof.KI.L1
import proofs.«418735_j49933289783480_1_alg».proof.Proof.KI.L2
import proofs.«418735_j49933289783480_1_alg».proof.Proof.KI.Pool
import Idealize.ShloMosaic.Lib.Pipeline.FrameBody
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
-- Beside the buffers a core carries its generator register at some state and owes nothing.
abbrev R (c : Dev nD) : sProp 𝕄 := iprop((∃ r, prngReg c r) ∗ ∃ W, owes (c : Thread nD τ) (0 : CellTallies nD τ sig Unit) W)

-- One valuation in place of an equal one under a core's state.
theorem held_congr (c : Dev nD) {V V' : Valuation τ sig (Elt F)} (h : V' = V) :
    (iprop(StableHlo.held (c : Thread nD τ) (Pipeline.ucRefs τ sig) V ∗ R c) : sProp 𝕄)
      ⊢ iprop(StableHlo.held (c : Thread nD τ) (Pipeline.ucRefs τ sig) V' ∗ R c) := by rw [h]

section
variable (pd : (p : Fin 4) → (c : Dev nD) → Dat τ (Elt F) Unit ℕ (UR sig nD τ) ℕ (Pipeline.pin (pcfgs (F := F)) Gen.adm p) c)

-- The buffers after region p: as at its entry, but the output window's array holds what the write-backs leave.
abbrev after (p : Fin 4) (V : Dev nD → Valuation τ sig (Elt F)) (o : Fin (cfgs p).W) (c : Dev nD) : Valuation τ sig (Elt F) :=
  Function.update (V c) (Pipeline.arrRef (cfgs p).spec o) ((pd p c).arrAt o (cfgs p).N)

-- Region p as one step of the run: from every unscoped buffer held at V to every one held at `after`.
def reg (p : Fin 4) (lf : Pipeline.LaunchFacts (nD := nD) (τ := τ) cfgs p) (V : Dev nD → Valuation τ sig (Elt F))
    (o : Fin (cfgs p).W)
    (hb : ∀ c, BodyObligation (pd p c) (defs₀ (F := F)) Variants.none () Set.univ)
    (hq : ∀ c w, (pd p c).q w = fullShare) (how : ∀ c t, (pd p c).owed t = 0) (hrec : ∀ c x, x ∈ (pd p c).recorded 0)
    (hA : ∀ c w, (pd p c).A w = V c (Pipeline.arrRef (cfgs p).spec w))
    (hio : ∀ w, w ≠ o → ((cfgs p).win w).isOut = false)
    (hne : ∀ w, w ≠ o → Pipeline.arrRef (cfgs p).spec w ≠ Pipeline.arrRef (cfgs p).spec o)
    (hΦi : ∀ c, (Pipeline.ΦA (cfgs p).spec c : sProp 𝕄) ⊢ (pd p c).Φ 0)
    (hΦo : ∀ c, (pd p c).Φ (Fin.last (cfgs p).N) ⊢ (Pipeline.ΦA (cfgs p).spec c : sProp 𝕄)) :
    Pipeline.RegionSeg (pcfgs (F := F)) Gen.adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p how
  pre c := iprop(StableHlo.held (c : Thread nD τ) (Pipeline.ucRefs τ sig) (V c) ∗ R c)
  post c := iprop(StableHlo.held (c : Thread nD τ) (Pipeline.ucRefs τ sig) (after pd p V o c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    unfold Pipeline.Dat.owesAt Pipeline.owesWithin
    rw [how c]
    have hsplit := Pipeline.arrays_of_unscopedBufs (p := p) (pcfgs (F := F)) Gen.adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c pd ((pd p c).share_full (hq c))
      (fun b => V c b) (fun b => after pd p V o c b) ((pd p c).arrAt · (cfgs p).N)
      (fun w => by
        by_cases h : w = o
        · subst h; exact (Function.update_self (Proc.devRef .tc (Pipeline.arrRef (cfgs p).spec w) : DevRef τ sig) _ (V c)).symm
        · rw [(pd p c).arrAt_in w (hio w h), hA c w]
          exact (Function.update_of_ne (StableHlo.devRef_ne_of_ne (hne w h)) _ _).symm)
      (fun b hb => Function.update_of_ne (StableHlo.devRef_ne_of_ne fun e =>
        hb (Finset.mem_image.mpr ⟨o, Finset.mem_univ _, e.symm⟩)) _ _)
    rw [Pipeline.unscopedBufs_held] at hjoin
    unfold Pipeline.Dat.owesAt Pipeline.owesWithin
    rw [how c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end

abbrev E1 : (c : Dev nD) → (b : Ref sig .tc) → Buf (Elt F) ((c : Thread nD τ).loc b) := fun c b => Gen.V1 m c b
def x1 (c : Dev nD) : Buf (Elt F) ((c : Thread nD τ).loc main_v54) := (dat0 (E1 m) c).arrAt 15 cfg0.N
def W2 (c : Dev nD) : Valuation τ sig (Elt F) := Function.update (Gen.V1 m c) main_v54 (x1 m c)
def W3 (c : Dev nD) : Valuation τ sig (Elt F) := StableHlo.after Gen.hostOps1 (W2 m c)
abbrev E3 : (c : Dev nD) → (b : Ref sig .tc) → Buf (Elt F) ((c : Thread nD τ).loc b) := fun c b => W3 m c b
def x2 (c : Dev nD) : Buf (Elt F) ((c : Thread nD τ).loc main_v104) := (dat1 (E3 m) c).arrAt 15 cfg1.N
def W4 (c : Dev nD) : Valuation τ sig (Elt F) := Function.update (W3 m c) main_v104 (x2 m c)
def W5 (c : Dev nD) : Valuation τ sig (Elt F) := StableHlo.after Gen.hostOps2 (W4 m c)
abbrev E5 : (c : Dev nD) → (b : Ref sig .tc) → Buf (Elt F) ((c : Thread nD τ).loc b) := fun c b => W5 m c b
def x3 (c : Dev nD) : Buf (Elt F) ((c : Thread nD τ).loc main_v154) := (dat2 (E5 m) c).arrAt 15 cfg2.N
def W6 (c : Dev nD) : Valuation τ sig (Elt F) := Function.update (W5 m c) main_v154 (x3 m c)
def W7 (c : Dev nD) : Valuation τ sig (Elt F) := StableHlo.after Gen.hostOps3 (W6 m c)
abbrev E7 : (c : Dev nD) → (b : Ref sig .tc) → Buf (Elt F) ((c : Thread nD τ).loc b) := fun c b => W7 m c b
def res (c : Dev nD) : Buf (Elt F) ((c : Thread nD τ).loc main_v165) := (dat3 (E7 m) c).arrAt 12 cfg3.N
def W8 (c : Dev nD) : Valuation τ sig (Elt F) := Function.update (W7 m c) main_v165 (res m c)

-- What the regions leave, as the generated frame's unknowns: after item J-1 the reference r holds WJ c r.
def outs : Gen.Outs (F := F) := fun J r c => match J with
  | 2 => W2 m c r
  | 4 => W4 m c r
  | 6 => W6 m c r
  | _ => W8 m c r

-- Updating by what an equal valuation's update holds at the place gives that update.
theorem upd_eq {V V' : Valuation τ sig (Elt F)} (b : DevRef τ sig) (x : b.ty.Contents (Elt F)) (h : V = V') :
    Function.update V b (Function.update V' b x b) = Function.update V' b x := by
  rw [h, Function.update_self]
theorem V2_eq (c : Dev nD) : Gen.V2 m (outs m) c = W2 m c := upd_eq _ _ rfl
theorem V3_eq (c : Dev nD) : Gen.V3 m (outs m) c = W3 m c := congrArg (StableHlo.after Gen.hostOps1) (V2_eq m c)
theorem V4_eq (c : Dev nD) : Gen.V4 m (outs m) c = W4 m c := upd_eq _ _ (V3_eq m c)
theorem V5_eq (c : Dev nD) : Gen.V5 m (outs m) c = W5 m c := congrArg (StableHlo.after Gen.hostOps2) (V4_eq m c)
theorem V6_eq (c : Dev nD) : Gen.V6 m (outs m) c = W6 m c := upd_eq _ _ (V5_eq m c)
theorem V7_eq (c : Dev nD) : Gen.V7 m (outs m) c = W7 m c := congrArg (StableHlo.after Gen.hostOps3) (V6_eq m c)
theorem V8_eq (c : Dev nD) : Gen.V8 m (outs m) c = W8 m c := upd_eq _ _ (V7_eq m c)

def pdats : (p : Fin 4) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c
  | ⟨2, _⟩ => fun c => dat2 (E5 m) c
  | ⟨3, _⟩ => fun c => dat3 (E7 m) c
abbrev keeps (s : MemSt nD τ sig (Elt F)) (c : Dev nD) (b : Ref sig .tc) : Prop :=
  s.mem ((c.tc : Thread nD τ).loc b) = m ((c.tc : Thread nD τ).loc b)
-- Every argument array holds in s what it held at the launch.
abbrev kept (s : MemSt nD τ sig (Elt F)) (c : Dev nD) : Prop :=
  keeps m s c main_arg0 ∧ keeps m s c main_arg1 ∧ keeps m s c main_arg2 ∧ keeps m s c main_arg3 ∧ keeps m s c main_arg4 ∧ keeps m s c main_arg5 ∧ keeps m s c main_arg6 ∧ keeps m s c main_arg7 ∧ keeps m s c main_arg8 ∧ keeps m s c main_arg9 ∧ keeps m s c main_arg10 ∧ keeps m s c main_arg11 ∧ keeps m s c main_arg12 ∧ keeps m s c main_arg13 ∧ keeps m s c main_arg14 ∧ keeps m s c main_arg15 ∧ keeps m s c main_arg16 ∧ keeps m s c main_arg17 ∧ keeps m s c main_arg18 ∧ keeps m s c main_arg19 ∧ keeps m s c main_arg20 ∧ keeps m s c main_arg21 ∧ keeps m s c main_arg22 ∧ keeps m s c main_arg23 ∧ keeps m s c main_arg24 ∧ keeps m s c main_arg25
def reg0 := reg (pdats m) 0 Gen.launch0 (Gen.V1 m) (15 : Fin 16) (fun c => body_obligation0 (E1 m) c) (fun _ _ => rfl) (fun _ _ => rfl) (fun _ _ => trivial)
  (fun c => A_eq0 (E1 m) c) (by decide : ∀ w : Fin 16, w ≠ 15 → (cfg0.win w).isOut = false)
  (by decide : ∀ w : Fin 16, w ≠ 15 → Pipeline.arrRef spec0 w ≠ main_v54) (fun _ => .rfl) (fun _ => .rfl)
def reg1 := reg (pdats m) 1 Gen.launch1 (W3 m) (15 : Fin 16) (fun c => body_obligation1 (E3 m) c) (fun _ _ => rfl) (fun _ _ => rfl) (fun _ _ => trivial)
  (fun c => A_eq1 (E3 m) c) (by decide : ∀ w : Fin 16, w ≠ 15 → (cfg1.win w).isOut = false)
  (by decide : ∀ w : Fin 16, w ≠ 15 → Pipeline.arrRef spec1 w ≠ main_v104) (fun _ => .rfl) (fun _ => .rfl)
def reg2 := reg (pdats m) 2 Gen.launch2 (W5 m) (15 : Fin 16) (fun c => body_obligation2 (E5 m) c) (fun _ _ => rfl) (fun _ _ => rfl) (fun _ _ => trivial)
  (fun c => A_eq2 (E5 m) c) (by decide : ∀ w : Fin 16, w ≠ 15 → (cfg2.win w).isOut = false)
  (by decide : ∀ w : Fin 16, w ≠ 15 → Pipeline.arrRef spec2 w ≠ main_v154) (fun _ => .rfl) (fun _ => .rfl)
def reg3 := reg (pdats m) 3 Gen.launch3 (W7 m) (12 : Fin 13) (fun c => body_obligation3 (E7 m) c) (fun _ _ => rfl) (fun _ _ => rfl) (fun _ _ => trivial)
  (fun c => A_eq3 (E7 m) c) (by decide : ∀ w : Fin 13, w ≠ 12 → (cfg3.win w).isOut = false)
  (by decide : ∀ w : Fin 13, w ≠ 12 → Pipeline.arrRef spec3 w ≠ main_v165) (hin3 (E7 m)) (hout3 (E7 m))

set_option backward.isDefEq.respectTransparency.types false in
-- Every weakly fair execution of @main ends with `res` in the result array and every argument array as launched: the eight items chain.
theorem run_main : θ_run defs (onTc (τ := τ) (main (F := F))) ⟨m, fun _ => 0, ρ⟩ (fun r => ∀ c : Dev nD,
      r.2.mem ((c.tc : Thread nD τ).loc main_v165) = res m c ∧ kept m r.2 c) := by
  refine Pipeline.θ_run_regions_kit_dev (pcfgs (F := F)) Gen.adm (pdats m) () Gen.cellOf_inj emb₁ defs₀ 𝒱₀ L lv m ρ main
    (Gen.segs m (outs m) 𝒱₀ L lv (fun _ c => R c) () (pdats m) (reg0 m) (reg1 m) (reg2 m) (reg3 m))
    (fun c Q => by
      rewrite [Gen.main_chain c, Seg.run_eq_chain,
        show (Gen.segs m (outs m) 𝒱₀ L lv (fun _ c => R c) () (pdats m) (reg0 m) (reg1 m) (reg2 m) (reg3 m) c).map Seg.prog = [
          StableHlo.seq Gen.hostOps0, Prog.lift (.customCall (Pipeline.entry 0) ()),
          StableHlo.seq Gen.hostOps1, Prog.lift (.customCall (Pipeline.entry 1) ()),
          StableHlo.seq Gen.hostOps2, Prog.lift (.customCall (Pipeline.entry 2) ()),
          StableHlo.seq Gen.hostOps3, Prog.lift (.customCall (Pipeline.entry 3) ()) ] from rfl]
      exact .rfl)
    (fun c => by simp only [Gen.segs, Seg.pipes_host, Seg.pipes_region, Seg.pipes_nil]; decide)
    0 (fun _ _ => rfl) (fun _ => BI.emp) (initOf (Pipeline.cells cfgs Gen.cellOf_inj) (Pipeline.launchToks cfgs Gen.cellOf_inj))
    (by rw [BI.bigSep_emp_const]; iintro Hu; imodintro; isplitl [Hu]
        · iapply (show (ownU (initOf (Pipeline.cells cfgs Gen.cellOf_inj) (Pipeline.launchToks cfgs Gen.cellOf_inj)) : sProp 𝕄) ⊢ BI.own (emb₁ _) from .rfl); iexact Hu
        iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, held_congr c (V2_eq m c), held_congr c (V3_eq m c).symm, held_congr c (V4_eq m c),
      held_congr c (V5_eq m c).symm, held_congr c (V6_eq m c), held_congr c (V7_eq m c).symm,
      (held_congr c (V8_eq m c)).trans (sep_mono .rfl (by iintro ⟨-, H⟩; iexact H))⟩)
    (hinit := Pipeline.initEach L lv fun c => ?_)
    (QY := fun c s => s.mem ((c.tc : Thread nD τ).loc main_v165) = res m c ∧ kept m s c)
    (hfin := fun c s' => ?_) (hQ := fun _ h => h)
  · rw [← Pipeline.unscopedBufs_held (Ix := Unit) (Name := ℕ) (U := UR sig nD τ) (Lvl := ℕ) c (Gen.V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (Gen.V8 m (outs m) c) s') $$ [Hh HSI]
    · isplitl [Hh] <;> iassumption
    icases Hr with ⟨%h, HSI⟩
    imodintro
    isplitr
    · ipureintro
      have hb (b : Ref sig .tc) (hb : ¬ (Proc.devRef (τ := τ) .tc b).isScoped) :
          s'.mem.mem ((c.tc : Thread nD τ).loc b) = Gen.V8 m (outs m) c b :=
        h _ (Finset.mem_filter.mpr ⟨StableHlo.devRef_mem_tcRefs b, hb⟩)
      exact ⟨(hb main_v165 (by decide)).trans ((congrFun (V8_eq m c) _).trans (Function.update_self _ _ _)),
        (hb main_arg0 (by decide)).trans (Gen.V8_main_arg0 m (outs m) c),
        (hb main_arg1 (by decide)).trans (Gen.V8_main_arg1 m (outs m) c),
        (hb main_arg2 (by decide)).trans (Gen.V8_main_arg2 m (outs m) c),
        (hb main_arg3 (by decide)).trans (Gen.V8_main_arg3 m (outs m) c),
        (hb main_arg4 (by decide)).trans (Gen.V8_main_arg4 m (outs m) c),
        (hb main_arg5 (by decide)).trans (Gen.V8_main_arg5 m (outs m) c),
        (hb main_arg6 (by decide)).trans (Gen.V8_main_arg6 m (outs m) c),
        (hb main_arg7 (by decide)).trans (Gen.V8_main_arg7 m (outs m) c),
        (hb main_arg8 (by decide)).trans (Gen.V8_main_arg8 m (outs m) c),
        (hb main_arg9 (by decide)).trans (Gen.V8_main_arg9 m (outs m) c),
        (hb main_arg10 (by decide)).trans (Gen.V8_main_arg10 m (outs m) c),
        (hb main_arg11 (by decide)).trans (Gen.V8_main_arg11 m (outs m) c),
        (hb main_arg12 (by decide)).trans (Gen.V8_main_arg12 m (outs m) c),
        (hb main_arg13 (by decide)).trans (Gen.V8_main_arg13 m (outs m) c),
        (hb main_arg14 (by decide)).trans (Gen.V8_main_arg14 m (outs m) c),
        (hb main_arg15 (by decide)).trans (Gen.V8_main_arg15 m (outs m) c),
        (hb main_arg16 (by decide)).trans (Gen.V8_main_arg16 m (outs m) c),
        (hb main_arg17 (by decide)).trans (Gen.V8_main_arg17 m (outs m) c),
        (hb main_arg18 (by decide)).trans (Gen.V8_main_arg18 m (outs m) c),
        (hb main_arg19 (by decide)).trans (Gen.V8_main_arg19 m (outs m) c),
        (hb main_arg20 (by decide)).trans (Gen.V8_main_arg20 m (outs m) c),
        (hb main_arg21 (by decide)).trans (Gen.V8_main_arg21 m (outs m) c),
        (hb main_arg22 (by decide)).trans (Gen.V8_main_arg22 m (outs m) c),
        (hb main_arg23 (by decide)).trans (Gen.V8_main_arg23 m (outs m) c),
        (hb main_arg24 (by decide)).trans (Gen.V8_main_arg24 m (outs m) c),
        (hb main_arg25 (by decide)).trans (Gen.V8_main_arg25 m (outs m) c)⟩
    · iexact HSI

-- The run, its first conjunct dropped.
theorem frame : θ_run defs (onTc (τ := τ) (main (F := F))) ⟨m, fun _ => 0, ρ⟩ (fun r => ∀ c : Dev nD, kept m r.2 c) :=
  (θ_run defs _ _).mono (fun _ h c => (h c).2) (run_main m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev oneLit : EReal := Ideal.ofBits .f32 0x3F800000#32
abbrev epsLit : EReal := Ideal.ofBits .f32 0x3727C5AC#32
abbrev zeroLit : EReal := Ideal.ofBits .f32 0x00000000#32

def bn (t mu var g be : EReal) : EReal := (t - mu) * Ideal.rsqrt (var + epsLit) * g + be

def bnrelu (t mu var g be : EReal) : EReal := max (bn t mu var g be) zeroLit

def hidden (e : EReal) (xr ar : Fin 9 → EReal) (W1 : Fin 18 → Fin 9 → EReal) (b1 g1 be1 mu1 var1 : Fin 18 → EReal)
    (k : Fin 18) : EReal :=
  bnrelu ((∑ i : Fin 9, ((oneLit + e) * xr i + ar i) * W1 k i) + b1 k) (mu1 k) (var1 k) (g1 k) (be1 k)

def layerRow (e : EReal) (xr ar : Fin 9 → EReal) (W1 : Fin 18 → Fin 9 → EReal) (b1 g1 be1 mu1 var1 : Fin 18 → EReal)
    (W2 : Fin 9 → Fin 18 → EReal) (b2 g2 be2 mu2 var2 : Fin 9 → EReal) (j : Fin 9) : EReal :=
  bnrelu ((∑ k : Fin 18, hidden e xr ar W1 b1 g1 be1 mu1 var1 k * W2 j k) + b2 j) (mu2 j) (var2 j) (g2 j) (be2 j)

abbrev SN9 : Shape := ⟨2, ![500000, 9]⟩
abbrev S3x18x9 : Shape := ⟨3, ![3, 18, 9]⟩
abbrev S3x18 : Shape := ⟨2, ![3, 18]⟩
abbrev S3x9x18 : Shape := ⟨3, ![3, 9, 18]⟩
abbrev S3x9 : Shape := ⟨2, ![3, 9]⟩
abbrev S3 : Shape := ⟨1, ![3]⟩
abbrev SN : Shape := ⟨1, ![500000]⟩
abbrev SG9 : Shape := ⟨2, ![1024, 9]⟩
abbrev SG2 : Shape := ⟨2, ![1024, 2]⟩
abbrev S9x9 : Shape := ⟨2, ![9, 9]⟩
abbrev S9 : Shape := ⟨1, ![9]⟩
abbrev S2x9 : Shape := ⟨2, ![2, 9]⟩
abbrev S2 : Shape := ⟨1, ![2]⟩
abbrev S2x2 : Shape := ⟨2, ![2, 2]⟩

def layer (l : Fin 3) (x agg : SN9.Idx → EReal) (w1 : S3x18x9.Idx → EReal) (b1 g1 be1 mu1 var1 : S3x18.Idx → EReal)
    (w2 : S3x9x18.Idx → EReal) (b2 : S3x9.Idx → EReal) (eps : S3.Idx → EReal) (g2 be2 mu2 var2 : S3x9.Idx → EReal) :
    SN9.Idx → EReal := fun i =>
  layerRow (eps (ix1 l)) (fun a => x (ix2 (i 0) a)) (fun a => agg (ix2 (i 0) a))
    (fun k a => w1 (ix3 l k a)) (fun k => b1 (ix2 l k)) (fun k => g1 (ix2 l k)) (fun k => be1 (ix2 l k))
    (fun k => mu1 (ix2 l k)) (fun k => var1 (ix2 l k))
    (fun j k => w2 (ix3 l j k)) (fun j => b2 (ix2 l j)) (fun j => g2 (ix2 l j)) (fun j => be2 (ix2 l j))
    (fun j => mu2 (ix2 l j)) (fun j => var2 (ix2 l j)) (i 1)

def pool (x : SN9.Idx → EReal) (batch : SN.Idx → BitVec 32) : SG9.Idx → EReal := fun i =>
  ∑ n : Fin 500000, if batch (ix1 n) = BitVec.ofNat 32 (i 0).val then x (ix2 n (i 1)) else 0

def headRow (s : Fin 9 → EReal) (W1 : Fin 9 → Fin 9 → EReal) (b1 g be mu var : Fin 9 → EReal)
    (W2 : Fin 2 → Fin 9 → EReal) (b2 : Fin 2 → EReal) (W3 : Fin 2 → Fin 2 → EReal) (b3 : Fin 2 → EReal) (o : Fin 2) : EReal :=
  (∑ q : Fin 2, ((∑ k : Fin 9, bnrelu ((∑ i : Fin 9, s i * W1 k i) + b1 k) (mu k) (var k) (g k) (be k) * W2 q k) + b2 q) * W3 o q) + b3 o

def head (s : SG9.Idx → EReal) (w1 : S9x9.Idx → EReal) (b1 g be mu var : S9.Idx → EReal) (w2 : S2x9.Idx → EReal)
    (b2 : S2.Idx → EReal) (w3 : S2x2.Idx → EReal) (b3 : S2.Idx → EReal) : SG2.Idx → EReal := fun i =>
  headRow (fun a => s (ix2 (i 0) a)) (fun k a => w1 (ix2 k a)) (fun k => b1 (ix1 k)) (fun k => g (ix1 k))
    (fun k => be (ix1 k)) (fun k => mu (ix1 k)) (fun k => var (ix1 k)) (fun q k => w2 (ix2 q k)) (fun q => b2 (ix1 q))
    (fun o q => w3 (ix2 o q)) (fun o => b3 (ix1 o)) (i 1)

end Cert.Spec

end
-- ==== Proof.KI.L0Pay.lean ====
import proofs.«418735_j49933289783480_1_alg».proof.Proof.Gen.KernelIdeal.Skeleton
import proofs.«418735_j49933289783480_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

-- A free axis of the left operand reads the result index at that axis's place among the batch and free axes.
theorem lhsIdx_free {sl sr so : Shape} (D : DotDims sl sr so) {a : Fin sl.rank} (r : Fin so.rank) (hb : a ∉ D.lhsBatch)
    (hn : a ∈ D.lhsNonContracting) (hp : D.lhsBatch.length + D.lhsNonContracting.idxOf a = r.val) (i : so.Idx) (q : D.contr.Idx) :
    (D.lhsIdx i q a).val = (i r).val := by
  unfold DotDims.lhsIdx
  rw [dif_neg hb, dif_pos hn]
  exact congrArg (fun x => (i x).val) (Fin.ext hp)

-- A free axis of the right operand comes after the left operand's free axes.
theorem rhsIdx_free {sl sr so : Shape} (D : DotDims sl sr so) {a : Fin sr.rank} (r : Fin so.rank) (hb : a ∉ D.rhsBatch)
    (hn : a ∈ D.rhsNonContracting) (hp : D.lhsBatch.length + D.lhsNonContracting.length + D.rhsNonContracting.idxOf a = r.val)
    (i : so.Idx) (q : D.contr.Idx) : (D.rhsIdx i q a).val = (i r).val := by
  unfold DotDims.rhsIdx
  rw [dif_neg hb, dif_pos hn]
  exact congrArg (fun x => (i x).val) (Fin.ext hp)

-- A product of two matrices with one contracted axis, into a zero accumulator, is at each entry the sum over that axis;
-- which entries of the operands are multiplied is read off the index maps axis by axis.
theorem mm_apply {m₁ m₂ n₁ n₂ : ℕ} {so : Shape} (D : DotDims ⟨2, ![m₁, m₂]⟩ ⟨2, ![n₁, n₂]⟩ so) (k : ℕ) (hr : D.contr.rank = 1)
    (hs : D.contr.size ⟨0, by omega⟩ = k) (j : so.Idx) (l0 : Fin k → Fin m₁) (l1 : Fin k → Fin m₂) (r0 : Fin k → Fin n₁) (r1 : Fin k → Fin n₂)
    (hl0 : ∀ q, (D.lhsIdx j q 0).val = (l0 (contrEquiv1 D k hr hs q)).val) (hl1 : ∀ q, (D.lhsIdx j q 1).val = (l1 (contrEquiv1 D k hr hs q)).val)
    (hr0 : ∀ q, (D.rhsIdx j q 0).val = (r0 (contrEquiv1 D k hr hs q)).val) (hr1 : ∀ q, (D.rhsIdx j q 1).val = (r1 (contrEquiv1 D k hr hs q)).val)
    (x : FVec Ideal ⟨2, ![m₁, m₂]⟩ .bf16) (y : FVec Ideal ⟨2, ![n₁, n₂]⟩ .bf16) :
    matmul D none x y (constant (F := Ideal) so .f32 0x00000000#32) j = ∑ i : Fin k, x (ix2 (l0 i) (l1 i)) * y (ix2 (r0 i) (r1 i)) := by
  show FloatOps.matmul D none x y _ j = _
  rw [Ideal.matmul_constant_zero_apply, ← Equiv.sum_comp (contrEquiv1 D k hr hs).symm]
  refine Finset.sum_congr rfl fun i _ => ?_
  have e := (contrEquiv1 D k hr hs).apply_symm_apply i
  have el : D.lhsIdx j ((contrEquiv1 D k hr hs).symm i) = ix2 (l0 i) (l1 i) := funext fun a => Fin.ext (by
    match a with
    | ⟨0, _⟩ => exact (hl0 _).trans (by rw [e])
    | ⟨1, _⟩ => exact (hl1 _).trans (by rw [e]))
  have er : D.rhsIdx j ((contrEquiv1 D k hr hs).symm i) = ix2 (r0 i) (r1 i) := funext fun a => Fin.ext (by
    match a with
    | ⟨0, _⟩ => exact (hr0 _).trans (by rw [e])
    | ⟨1, _⟩ => exact (hr1 _).trans (by rw [e]))
  rw [el, er]

-- The usual product, the left's second axis against the right's first: the record's axis lists are decided at the call.
theorem mm_std {m k n : ℕ} (D : DotDims ⟨2, ![m, k]⟩ ⟨2, ![k, n]⟩ ⟨2, ![m, n]⟩) (hr : D.contr.rank = 1) (hs : D.contr.size ⟨0, by omega⟩ = k)
    (h : D.lhsContracting = [1] ∧ D.rhsContracting = [0] ∧ (0 : Fin 2) ∉ D.lhsBatch ∧ (0 : Fin 2) ∈ D.lhsNonContracting
      ∧ D.lhsBatch.length + D.lhsNonContracting.idxOf 0 = 0 ∧ (1 : Fin 2) ∉ D.rhsBatch ∧ (1 : Fin 2) ∈ D.rhsNonContracting
      ∧ D.lhsBatch.length + D.lhsNonContracting.length + D.rhsNonContracting.idxOf 1 = 1)
    (x : FVec Ideal ⟨2, ![m, k]⟩ .bf16) (y : FVec Ideal ⟨2, ![k, n]⟩ .bf16) (p : Fin m) (c : Fin n) :
    matmul D none x y (constant (F := Ideal) ⟨2, ![m, n]⟩ .f32 0x00000000#32) (ix2 p c) = ∑ i : Fin k, x (ix2 p i) * y (ix2 i c) :=
  mm_apply D k hr hs (ix2 p c) (fun _ => p) id id (fun _ => c) (lhsIdx_free D 0 h.2.2.1 h.2.2.2.1 h.2.2.2.2.1 _) (D.lhsIdx_val_of_single h.1 _)
    (D.rhsIdx_val_of_single h.2.1 _) (rhsIdx_free D 1 h.2.2.2.2.2.1 h.2.2.2.2.2.2.1 h.2.2.2.2.2.2.2 _) x y

-- The first product, at row p and hidden unit c: the sum over the 9 features.
theorem mm1_apply (l : FVec Ideal S5000x9 .bf16) (r : FVec Ideal S9x18 .bf16) (p : Fin 5000) (c : Fin 18) :
    matmul dot_S5000x9_S9x18_S5000x18_1_0_0_1_n_n none l r (constant (F := Ideal) S5000x18 .f32 0x00000000#32) (ix2 p c) = ∑ a : Fin 9, l (ix2 p a) * r (ix2 a c) :=
  mm_std dot_S5000x9_S9x18_S5000x18_1_0_0_1_n_n rfl rfl (by decide) l r p c

-- The second product, at row p and feature c: the sum over the 18 hidden units.
theorem mm2_apply (l : FVec Ideal S5000x18 .bf16) (r : FVec Ideal S18x9 .bf16) (p : Fin 5000) (c : Fin 9) :
    matmul dot_S5000x18_S18x9_S5000x9_1_0_0_1_n_n none l r (constant (F := Ideal) S5000x9 .f32 0x00000000#32) (ix2 p c) = ∑ a : Fin 18, l (ix2 p a) * r (ix2 a c) :=
  mm_std dot_S5000x18_S18x9_S5000x9_1_0_0_1_n_n rfl rfl (by decide) l r p c
-- A one-entry array broadcast over a block reads its one entry everywhere.
theorem bcast_eps_apply (v : FVec Ideal S1x1 .f32) (p : Fin 5000) (a : Fin 9) :
    broadcastTo S5000x9 v broadcasts_S1x1_S5000x9 (ix2 p a) = v (ix2 0 0) := by
  refine broadcastTo_apply v broadcasts_S1x1_S5000x9 (ix2 p a) (ix2 0 0) fun ax => ?_
  match ax with
  | ⟨0, _⟩ => rfl
  | ⟨1, _⟩ => rfl

theorem rsqrt_apply {s : Shape} {φ : FTy} (a : FVec Ideal s φ) (i : s.Idx) : rsqrt a i = Ideal.rsqrt (a i) := rfl

-- Every step but the two products and the broadcasts is entrywise, so the hidden block before its rectifier is read off entry by entry.
theorem k0_pay2_apply (x0 x1 : Vec Ideal S5000x9 .f32) (x2 : Vec Ideal S1x1 .f32) (x3 : Vec Ideal S9x18 .f32)
    (x4 x5 x6 x7 x8 : Vec Ideal S1x18 .f32) (p : Fin 5000) (k : Fin 18) :
    k0_pay2 (F := Ideal) x2 x0 x1 x3 x4 x5 x6 x7 x8 (ix2 p k)
      = Cert.Spec.bn ((∑ a : Fin 9, ((Cert.Spec.oneLit + x2 (ix2 0 0)) * x0 (ix2 p a) + x1 (ix2 p a)) * x3 (ix2 a k)) + x4 (ix2 0 k))
          (x7 (ix2 0 k)) (x8 (ix2 0 k)) (x5 (ix2 0 k)) (x6 (ix2 0 k)) := by
  unfold k0_pay2 Cert.Spec.bn
  simp only [shapeCast_self, addf_apply, mulf_apply, subf_apply, truncf_apply, broadcast_apply, rsqrt_apply,
    broadcastTo_1b_ab_apply, bcast_eps_apply, mm1_apply, Ideal.ofBits_def]

-- The stored block of region 0 at row p, feature q, is one layer of the specification on that row.
theorem pay0_apply (x0 x1 : Vec Ideal S5000x9 .f32) (x2 : Vec Ideal S1x1 .f32) (x3 : Vec Ideal S9x18 .f32) (x4 x5 x6 x7 x8 : Vec Ideal S1x18 .f32) (x9 : Vec Ideal S18x9 .f32) (x10 x11 x12 x13 x14 : Vec Ideal S1x9 .f32) (p : Fin 5000) (q : Fin 9) :
    k0_pay1 (F := Ideal) (k0_pay2 (F := Ideal) x2 x0 x1 x3 x4 x5 x6 x7 x8) x9 x10 x11 x12 x13 x14 (ix2 p q)
      = Cert.Spec.layerRow (x2 (ix2 0 0)) (fun a => x0 (ix2 p a)) (fun a => x1 (ix2 p a)) (fun k a => x3 (ix2 a k)) (fun k => x4 (ix2 0 k)) (fun k => x5 (ix2 0 k)) (fun k => x6 (ix2 0 k)) (fun k => x7 (ix2 0 k)) (fun k => x8 (ix2 0 k)) (fun j k => x9 (ix2 k j)) (fun j => x10 (ix2 0 j)) (fun j => x11 (ix2 0 j)) (fun j => x12 (ix2 0 j)) (fun j => x13 (ix2 0 j)) (fun j => x14 (ix2 0 j)) q := by
  unfold k0_pay1
  simp only [shapeCast_self, addf_apply, mulf_apply, subf_apply, maximumf_apply, truncf_apply, broadcast_apply,
    rsqrt_apply, broadcastTo_1b_ab_apply, mm2_apply, Ideal.ofBits_def, k0_pay2_apply]
  rfl

end Cert.KernelIdeal.Hand

end
-- ==== Proof.KI.L0Arr.lean ====
import proofs.«418735_j49933289783480_1_alg».proof.Proof.KI.L0
import proofs.«418735_j49933289783480_1_alg».proof.Proof.KI.L0Pay
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem zz0 : (![0, 0] : Fin 2 → Nat) = fun _ => 0 := funext fun a => by fin_cases a <;> rfl

-- The layer on every row, from the arrays region 0 reads.
def G0 (c : Dev nD) : S500000x9.Idx → EReal := fun i =>
  Cert.Spec.layerRow (V c main_v43 (ix2 0 0)) (fun a => V c main_arg0 (ix2 (i 0) a)) (fun a => V c main_v14 (ix2 (i 0) a))
    (fun k a => V c main_v41 (ix2 a k)) (fun k => V c main_v44 (ix2 0 k)) (fun k => V c main_v45 (ix2 0 k)) (fun k => V c main_v46 (ix2 0 k))
    (fun k => V c main_v47 (ix2 0 k)) (fun k => V c main_v48 (ix2 0 k))
    (fun j k => V c main_v42 (ix2 k j)) (fun j => V c main_v49 (ix2 0 j)) (fun j => V c main_v50 (ix2 0 j)) (fun j => V c main_v51 (ix2 0 j))
    (fun j => V c main_v52 (ix2 0 j)) (fun j => V c main_v53 (ix2 0 j)) (i 1)

-- The index maps, evaluated at each of the 100 points.
theorem idx_facts0 : ∀ t : Fin cfg0.N, (win0_0.index t 0 = t.val ∧ win0_1.index t 0 = t.val ∧ win0_15.index t 0 = t.val
      ∧ win0_0.index t 1 = 0 ∧ win0_1.index t 1 = 0 ∧ win0_15.index t 1 = 0)
    ∧ ∀ w : Fin cfg0.W, 2 ≤ w.val → w.val ≤ 14 → ∀ a, (cfg0.win w).index t a = 0 :=
  (by decide +kernel : ∀ t : Fin grid0.N, _)

-- Row p of block t of a row input is row 5000 t + p of its array.
theorem rows0_0 (c : Dev nD) (t : Fin cfg0.N) (p : Fin 5000) (a : Fin 9) (r : Fin 500000) (hr : r.val = t.val * 5000 + p.val) :
    iblk0 V c 0 t (ix2 p a) = V c main_arg0 (ix2 r a) := by
  obtain ⟨⟨e0, e1, -, f0, f1, -⟩, -⟩ := idx_facts0 t
  refine congrArg _ (funext fun d => Fin.ext ((win0_0.rect_emb_val t (ix2 p a) d).trans ?_))
  match d with
  | ⟨0, _⟩ => show win0_0.index t 0 * 5000 + p.val = r.val; omega
  | ⟨1, _⟩ => show win0_0.index t 1 * 9 + a.val = a.val; omega
theorem rows0_1 (c : Dev nD) (t : Fin cfg0.N) (p : Fin 5000) (a : Fin 9) (r : Fin 500000) (hr : r.val = t.val * 5000 + p.val) :
    iblk0 V c 1 t (ix2 p a) = V c main_v14 (ix2 r a) := by
  obtain ⟨⟨e0, e1, -, f0, f1, -⟩, -⟩ := idx_facts0 t
  refine congrArg _ (funext fun d => Fin.ext ((win0_1.rect_emb_val t (ix2 p a) d).trans ?_))
  match d with
  | ⟨0, _⟩ => show win0_1.index t 0 * 5000 + p.val = r.val; omega
  | ⟨1, _⟩ => show win0_1.index t 1 * 9 + a.val = a.val; omega

-- A parameter window's one block is its whole array.
theorem par0_2 (c : Dev nD) (t : Fin cfg0.N) (y) : iblk0 V c 2 t y = V c main_v43 y :=
  congrArg _ (funext fun d => Fin.ext (win0_2.rect_emb_val_of_index_zero t d ((idx_facts0 t).2 2 (by decide) (by decide) d) y))
theorem par0_3 (c : Dev nD) (t : Fin cfg0.N) (y) : iblk0 V c 3 t y = V c main_v41 y :=
  congrArg _ (funext fun d => Fin.ext (win0_3.rect_emb_val_of_index_zero t d ((idx_facts0 t).2 3 (by decide) (by decide) d) y))
theorem par0_4 (c : Dev nD) (t : Fin cfg0.N) (y) : iblk0 V c 4 t y = V c main_v44 y :=
  congrArg _ (funext fun d => Fin.ext (win0_4.rect_emb_val_of_index_zero t d ((idx_facts0 t).2 4 (by decide) (by decide) d) y))
theorem par0_5 (c : Dev nD) (t : Fin cfg0.N) (y) : iblk0 V c 5 t y = V c main_v45 y :=
  congrArg _ (funext fun d => Fin.ext (win0_5.rect_emb_val_of_index_zero t d ((idx_facts0 t).2 5 (by decide) (by decide) d) y))
theorem par0_6 (c : Dev nD) (t : Fin cfg0.N) (y) : iblk0 V c 6 t y = V c main_v46 y :=
  congrArg _ (funext fun d => Fin.ext (win0_6.rect_emb_val_of_index_zero t d ((idx_facts0 t).2 6 (by decide) (by decide) d) y))
theorem par0_7 (c : Dev nD) (t : Fin cfg0.N) (y) : iblk0 V c 7 t y = V c main_v47 y :=
  congrArg _ (funext fun d => Fin.ext (win0_7.rect_emb_val_of_index_zero t d ((idx_facts0 t).2 7 (by decide) (by decide) d) y))
theorem par0_8 (c : Dev nD) (t : Fin cfg0.N) (y) : iblk0 V c 8 t y = V c main_v48 y :=
  congrArg _ (funext fun d => Fin.ext (win0_8.rect_emb_val_of_index_zero t d ((idx_facts0 t).2 8 (by decide) (by decide) d) y))
theorem par0_9 (c : Dev nD) (t : Fin cfg0.N) (y) : iblk0 V c 9 t y = V c main_v42 y :=
  congrArg _ (funext fun d => Fin.ext (win0_9.rect_emb_val_of_index_zero t d ((idx_facts0 t).2 9 (by decide) (by decide) d) y))
theorem par0_10 (c : Dev nD) (t : Fin cfg0.N) (y) : iblk0 V c 10 t y = V c main_v49 y :=
  congrArg _ (funext fun d => Fin.ext (win0_10.rect_emb_val_of_index_zero t d ((idx_facts0 t).2 10 (by decide) (by decide) d) y))
theorem par0_11 (c : Dev nD) (t : Fin cfg0.N) (y) : iblk0 V c 11 t y = V c main_v50 y :=
  congrArg _ (funext fun d => Fin.ext (win0_11.rect_emb_val_of_index_zero t d ((idx_facts0 t).2 11 (by decide) (by decide) d) y))
theorem par0_12 (c : Dev nD) (t : Fin cfg0.N) (y) : iblk0 V c 12 t y = V c main_v51 y :=
  congrArg _ (funext fun d => Fin.ext (win0_12.rect_emb_val_of_index_zero t d ((idx_facts0 t).2 12 (by decide) (by decide) d) y))
theorem par0_13 (c : Dev nD) (t : Fin cfg0.N) (y) : iblk0 V c 13 t y = V c main_v52 y :=
  congrArg _ (funext fun d => Fin.ext (win0_13.rect_emb_val_of_index_zero t d ((idx_facts0 t).2 13 (by decide) (by decide) d) y))
theorem par0_14 (c : Dev nD) (t : Fin cfg0.N) (y) : iblk0 V c 14 t y = V c main_v53 y :=
  congrArg _ (funext fun d => Fin.ext (win0_14.rect_emb_val_of_index_zero t d ((idx_facts0 t).2 14 (by decide) (by decide) d) y))

-- What point t writes back is block t of the layer on every row.
theorem flushed0_eq (c : Dev nD) (t : Fin cfg0.N) :
    (dat0 V c).flushed 15 t = ((cfg0.win 15).blk t).view.read (Elt Ideal) (G0 V c) := by
  show (cfg0.win 15).cut (grid0.coords t) ((dat0 V c).after 15 t) = _
  rw [after0_15]
  unfold out0
  rw [View.canon_unit_zero zz0]
  simp only [View.ld_unit_zero (S := S5000x9) zz0, View.ld_unit_zero (S := S1x1) zz0, View.ld_unit_zero (S := S9x18) zz0,
    View.ld_unit_zero (S := S1x18) zz0, View.ld_unit_zero (S := S18x9) zz0, View.ld_unit_zero (S := S1x9) zz0]
  funext j
  obtain ⟨p, q, rfl⟩ : ∃ (p : Fin 5000) (q : Fin 9), j = ix2 p q := ⟨j 0, j 1, eq_ix2 j⟩
  refine (pay0_apply _ _ _ _ _ _ _ _ _ _ _ _ _ _ _ p q).trans ?_
  obtain ⟨⟨-, -, e, -, -, f⟩, -⟩ := idx_facts0 t
  have hr : ((((cfg0.win 15).blk t).view.emb (ix2 p q)) 0).val = t.val * 5000 + p.val := by
    show win0_15.index t 0 * 5000 + 1 * p.val = _; omega
  have hq : (((cfg0.win 15).blk t).view.emb (ix2 p q)) 1 = q := by
    apply Fin.ext; show win0_15.index t 1 * 9 + 1 * q.val = _; omega
  show _ = G0 V c (((cfg0.win 15).blk t).view.emb (ix2 p q))
  unfold G0
  rw [hq]
  simp only [rows0_0 V c t p _ _ hr, rows0_1 V c t p _ _ hr, par0_2 V c t, par0_3 V c t, par0_4 V c t, par0_5 V c t, par0_6 V c t, par0_7 V c t, par0_8 V c t, par0_9 V c t, par0_10 V c t, par0_11 V c t, par0_12 V c t, par0_13 V c t, par0_14 V c t]

theorem arr0 (c : Dev nD) : (dat0 V c).arrAt 15 cfg0.N = G0 V c :=
  (dat0 V c).arrAt_eq_of_cover 15 (G0 V c) (fun t _ => flushed0_eq V c t) fun i => by
    have hN : cfg0.N = 100 := N_0
    have hi0 : (i 0).val < 500000 := (i 0).isLt
    have hi1 : (i 1).val < 9 := (i 1).isLt
    have hlt : (i 0).val / 5000 < cfg0.N := by rw [hN]; omega
    refine ⟨⟨(i 0).val / 5000, hlt⟩, flush0_15 _, ?_⟩
    obtain ⟨⟨-, -, e, -, -, f⟩, -⟩ := idx_facts0 ⟨(i 0).val / 5000, hlt⟩
    show i ∈ ((View.whole main_v54).slice (win0_15.rect ⟨(i 0).val / 5000, hlt⟩)).set
    rw [View.set_slice_whole, Rect.mem_set_unit]
    intro a
    match a with
    | ⟨0, _⟩ => show win0_15.index _ 0 * 5000 ≤ (i 0).val ∧ (i 0).val < win0_15.index _ 0 * 5000 + 5000; rw [e]; dsimp only; omega
    | ⟨1, _⟩ => show win0_15.index _ 1 * 9 ≤ (i 1).val ∧ (i 1).val < win0_15.index _ 1 * 9 + 9; rw [f]; omega

end Cert.KernelIdeal.Hand

end
-- ==== Proof.KI.L1Pay.lean ====
import proofs.«418735_j49933289783480_1_alg».proof.Proof.KI.L0Pay

noncomputable section

namespace Cert.KernelIdeal.Hand

open Cert.KernelIdeal Cert.KernelIdeal.Gen Idealize.ShloMosaic Idealize.ShloMosaic.ValueIdx

def pay1 {F : FTy → Type} [FloatOps F] (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) : FVec F S5000x9 .f32 :=
  k1_pay1 (k1_pay2 x2 x0 x1 x3 x4 x5 x7 x8) (k1_pay3 x6) x9 x10 x11 x12 x13 x14

-- Region 1 forms the first normalisation in two pieces, the scaled part and the shift, and adds them afterwards: the same stored term as region 0's.
theorem pay1_eq (x0 x1 : Vec Ideal S5000x9 .f32) (x2 : Vec Ideal S1x1 .f32) (x3 : Vec Ideal S9x18 .f32) (x4 x5 x6 x7 x8 : Vec Ideal S1x18 .f32) (x9 : Vec Ideal S18x9 .f32) (x10 x11 x12 x13 x14 : Vec Ideal S1x9 .f32) :
    pay1 (F := Ideal) x0 x1 x2 x3 x4 x5 x6 x7 x8 x9 x10 x11 x12 x13 x14 = k0_pay1 (k0_pay2 x2 x0 x1 x3 x4 x5 x6 x7 x8) x9 x10 x11 x12 x13 x14 := by
  have h : addf (k1_pay2 (F := Ideal) x2 x0 x1 x3 x4 x5 x7 x8) (k1_pay3 x6) = k0_pay2 x2 x0 x1 x3 x4 x5 x6 x7 x8 := by
    unfold k1_pay2 k1_pay3 k0_pay2
    simp only [shapeCast_self]
  exact congrArg (fun v => k0_pay1 v x9 x10 x11 x12 x13 x14) h

theorem pay1_apply (x0 x1 : Vec Ideal S5000x9 .f32) (x2 : Vec Ideal S1x1 .f32) (x3 : Vec Ideal S9x18 .f32) (x4 x5 x6 x7 x8 : Vec Ideal S1x18 .f32) (x9 : Vec Ideal S18x9 .f32) (x10 x11 x12 x13 x14 : Vec Ideal S1x9 .f32) (p : Fin 5000) (q : Fin 9) :
    pay1 (F := Ideal) x0 x1 x2 x3 x4 x5 x6 x7 x8 x9 x10 x11 x12 x13 x14 (ix2 p q)
      = Cert.Spec.layerRow (x2 (ix2 0 0)) (fun a => x0 (ix2 p a)) (fun a => x1 (ix2 p a)) (fun k a => x3 (ix2 a k)) (fun k => x4 (ix2 0 k)) (fun k => x5 (ix2 0 k)) (fun k => x6 (ix2 0 k)) (fun k => x7 (ix2 0 k)) (fun k => x8 (ix2 0 k)) (fun j k => x9 (ix2 k j)) (fun j => x10 (ix2 0 j)) (fun j => x11 (ix2 0 j)) (fun j => x12 (ix2 0 j)) (fun j => x13 (ix2 0 j)) (fun j => x14 (ix2 0 j)) q := by
  rw [pay1_eq]
  exact pay0_apply x0 x1 x2 x3 x4 x5 x6 x7 x8 x9 x10 x11 x12 x13 x14 p q

end Cert.KernelIdeal.Hand

end
-- ==== Proof.KI.L1Arr.lean ====
import proofs.«418735_j49933289783480_1_alg».proof.Proof.KI.L1
import proofs.«418735_j49933289783480_1_alg».proof.Proof.KI.L1Pay
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem zz1 : (![0, 0] : Fin 2 → Nat) = fun _ => 0 := funext fun a => by fin_cases a <;> rfl

-- The layer on every row, from the arrays region 1 reads.
def G1 (c : Dev nD) : S500000x9.Idx → EReal := fun i =>
  Cert.Spec.layerRow (V c main_v93 (ix2 0 0)) (fun a => V c main_v54 (ix2 (i 0) a)) (fun a => V c main_v64 (ix2 (i 0) a))
    (fun k a => V c main_v91 (ix2 a k)) (fun k => V c main_v94 (ix2 0 k)) (fun k => V c main_v95 (ix2 0 k)) (fun k => V c main_v96 (ix2 0 k))
    (fun k => V c main_v97 (ix2 0 k)) (fun k => V c main_v98 (ix2 0 k))
    (fun j k => V c main_v92 (ix2 k j)) (fun j => V c main_v99 (ix2 0 j)) (fun j => V c main_v100 (ix2 0 j)) (fun j => V c main_v101 (ix2 0 j))
    (fun j => V c main_v102 (ix2 0 j)) (fun j => V c main_v103 (ix2 0 j)) (i 1)

-- The index maps, evaluated at each of the 100 points.
theorem idx_facts1 : ∀ t : Fin cfg1.N, (win1_0.index t 0 = t.val ∧ win1_1.index t 0 = t.val ∧ win1_15.index t 0 = t.val
      ∧ win1_0.index t 1 = 0 ∧ win1_1.index t 1 = 0 ∧ win1_15.index t 1 = 0)
    ∧ ∀ w : Fin cfg1.W, 2 ≤ w.val → w.val ≤ 14 → ∀ a, (cfg1.win w).index t a = 0 :=
  (by decide +kernel : ∀ t : Fin grid1.N, _)

-- Row p of block t of a row input is row 5000 t + p of its array.
theorem rows1_0 (c : Dev nD) (t : Fin cfg1.N) (p : Fin 5000) (a : Fin 9) (r : Fin 500000) (hr : r.val = t.val * 5000 + p.val) :
    iblk1 V c 0 t (ix2 p a) = V c main_v54 (ix2 r a) := by
  obtain ⟨⟨e0, e1, -, f0, f1, -⟩, -⟩ := idx_facts1 t
  refine congrArg _ (funext fun d => Fin.ext ((win1_0.rect_emb_val t (ix2 p a) d).trans ?_))
  match d with
  | ⟨0, _⟩ => show win1_0.index t 0 * 5000 + p.val = r.val; omega
  | ⟨1, _⟩ => show win1_0.index t 1 * 9 + a.val = a.val; omega
theorem rows1_1 (c : Dev nD) (t : Fin cfg1.N) (p : Fin 5000) (a : Fin 9) (r : Fin 500000) (hr : r.val = t.val * 5000 + p.val) :
    iblk1 V c 1 t (ix2 p a) = V c main_v64 (ix2 r a) := by
  obtain ⟨⟨e0, e1, -, f0, f1, -⟩, -⟩ := idx_facts1 t
  refine congrArg _ (funext fun d => Fin.ext ((win1_1.rect_emb_val t (ix2 p a) d).trans ?_))
  match d with
  | ⟨0, _⟩ => show win1_1.index t 0 * 5000 + p.val = r.val; omega
  | ⟨1, _⟩ => show win1_1.index t 1 * 9 + a.val = a.val; omega

-- A parameter window's one block is its whole array.
theorem par1_2 (c : Dev nD) (t : Fin cfg1.N) (y) : iblk1 V c 2 t y = V c main_v93 y :=
  congrArg _ (funext fun d => Fin.ext (win1_2.rect_emb_val_of_index_zero t d ((idx_facts1 t).2 2 (by decide) (by decide) d) y))
theorem par1_3 (c : Dev nD) (t : Fin cfg1.N) (y) : iblk1 V c 3 t y = V c main_v91 y :=
  congrArg _ (funext fun d => Fin.ext (win1_3.rect_emb_val_of_index_zero t d ((idx_facts1 t).2 3 (by decide) (by decide) d) y))
theorem par1_4 (c : Dev nD) (t : Fin cfg1.N) (y) : iblk1 V c 4 t y = V c main_v94 y :=
  congrArg _ (funext fun d => Fin.ext (win1_4.rect_emb_val_of_index_zero t d ((idx_facts1 t).2 4 (by decide) (by decide) d) y))
theorem par1_5 (c : Dev nD) (t : Fin cfg1.N) (y) : iblk1 V c 5 t y = V c main_v95 y :=
  congrArg _ (funext fun d => Fin.ext (win1_5.rect_emb_val_of_index_zero t d ((idx_facts1 t).2 5 (by decide) (by decide) d) y))
theorem par1_6 (c : Dev nD) (t : Fin cfg1.N) (y) : iblk1 V c 6 t y = V c main_v96 y :=
  congrArg _ (funext fun d => Fin.ext (win1_6.rect_emb_val_of_index_zero t d ((idx_facts1 t).2 6 (by decide) (by decide) d) y))
theorem par1_7 (c : Dev nD) (t : Fin cfg1.N) (y) : iblk1 V c 7 t y = V c main_v97 y :=
  congrArg _ (funext fun d => Fin.ext (win1_7.rect_emb_val_of_index_zero t d ((idx_facts1 t).2 7 (by decide) (by decide) d) y))
theorem par1_8 (c : Dev nD) (t : Fin cfg1.N) (y) : iblk1 V c 8 t y = V c main_v98 y :=
  congrArg _ (funext fun d => Fin.ext (win1_8.rect_emb_val_of_index_zero t d ((idx_facts1 t).2 8 (by decide) (by decide) d) y))
theorem par1_9 (c : Dev nD) (t : Fin cfg1.N) (y) : iblk1 V c 9 t y = V c main_v92 y :=
  congrArg _ (funext fun d => Fin.ext (win1_9.rect_emb_val_of_index_zero t d ((idx_facts1 t).2 9 (by decide) (by decide) d) y))
theorem par1_10 (c : Dev nD) (t : Fin cfg1.N) (y) : iblk1 V c 10 t y = V c main_v99 y :=
  congrArg _ (funext fun d => Fin.ext (win1_10.rect_emb_val_of_index_zero t d ((idx_facts1 t).2 10 (by decide) (by decide) d) y))
theorem par1_11 (c : Dev nD) (t : Fin cfg1.N) (y) : iblk1 V c 11 t y = V c main_v100 y :=
  congrArg _ (funext fun d => Fin.ext (win1_11.rect_emb_val_of_index_zero t d ((idx_facts1 t).2 11 (by decide) (by decide) d) y))
theorem par1_12 (c : Dev nD) (t : Fin cfg1.N) (y) : iblk1 V c 12 t y = V c main_v101 y :=
  congrArg _ (funext fun d => Fin.ext (win1_12.rect_emb_val_of_index_zero t d ((idx_facts1 t).2 12 (by decide) (by decide) d) y))
theorem par1_13 (c : Dev nD) (t : Fin cfg1.N) (y) : iblk1 V c 13 t y = V c main_v102 y :=
  congrArg _ (funext fun d => Fin.ext (win1_13.rect_emb_val_of_index_zero t d ((idx_facts1 t).2 13 (by decide) (by decide) d) y))
theorem par1_14 (c : Dev nD) (t : Fin cfg1.N) (y) : iblk1 V c 14 t y = V c main_v103 y :=
  congrArg _ (funext fun d => Fin.ext (win1_14.rect_emb_val_of_index_zero t d ((idx_facts1 t).2 14 (by decide) (by decide) d) y))

-- What point t writes back is block t of the layer on every row.
theorem flushed1_eq (c : Dev nD) (t : Fin cfg1.N) :
    (dat1 V c).flushed 15 t = ((cfg1.win 15).blk t).view.read (Elt Ideal) (G1 V c) := by
  show (cfg1.win 15).cut (grid1.coords t) ((dat1 V c).after 15 t) = _
  rw [after1_15]
  unfold out1
  rw [View.canon_unit_zero zz1]
  simp only [View.ld_unit_zero (S := S5000x9) zz1, View.ld_unit_zero (S := S1x1) zz1, View.ld_unit_zero (S := S9x18) zz1,
    View.ld_unit_zero (S := S1x18) zz1, View.ld_unit_zero (S := S18x9) zz1, View.ld_unit_zero (S := S1x9) zz1]
  funext j
  obtain ⟨p, q, rfl⟩ : ∃ (p : Fin 5000) (q : Fin 9), j = ix2 p q := ⟨j 0, j 1, eq_ix2 j⟩
  refine (pay1_apply _ _ _ _ _ _ _ _ _ _ _ _ _ _ _ p q).trans ?_
  obtain ⟨⟨-, -, e, -, -, f⟩, -⟩ := idx_facts1 t
  have hr : ((((cfg1.win 15).blk t).view.emb (ix2 p q)) 0).val = t.val * 5000 + p.val := by
    show win1_15.index t 0 * 5000 + 1 * p.val = _; omega
  have hq : (((cfg1.win 15).blk t).view.emb (ix2 p q)) 1 = q := by
    apply Fin.ext; show win1_15.index t 1 * 9 + 1 * q.val = _; omega
  show _ = G1 V c (((cfg1.win 15).blk t).view.emb (ix2 p q))
  unfold G1
  rw [hq]
  simp only [rows1_0 V c t p _ _ hr, rows1_1 V c t p _ _ hr, par1_2 V c t, par1_3 V c t, par1_4 V c t, par1_5 V c t, par1_6 V c t, par1_7 V c t, par1_8 V c t, par1_9 V c t, par1_10 V c t, par1_11 V c t, par1_12 V c t, par1_13 V c t, par1_14 V c t]

theorem arr1 (c : Dev nD) : (dat1 V c).arrAt 15 cfg1.N = G1 V c :=
  (dat1 V c).arrAt_eq_of_cover 15 (G1 V c) (fun t _ => flushed1_eq V c t) fun i => by
    have hN : cfg1.N = 100 := N_1
    have hi0 : (i 0).val < 500000 := (i 0).isLt
    have hi1 : (i 1).val < 9 := (i 1).isLt
    have hlt : (i 0).val / 5000 < cfg1.N := by rw [hN]; omega
    refine ⟨⟨(i 0).val / 5000, hlt⟩, flush1_15 _, ?_⟩
    obtain ⟨⟨-, -, e, -, -, f⟩, -⟩ := idx_facts1 ⟨(i 0).val / 5000, hlt⟩
    show i ∈ ((View.whole main_v104).slice (win1_15.rect ⟨(i 0).val / 5000, hlt⟩)).set
    rw [View.set_slice_whole, Rect.mem_set_unit]
    intro a
    match a with
    | ⟨0, _⟩ => show win1_15.index _ 0 * 5000 ≤ (i 0).val ∧ (i 0).val < win1_15.index _ 0 * 5000 + 5000; rw [e]; dsimp only; omega
    | ⟨1, _⟩ => show win1_15.index _ 1 * 9 ≤ (i 1).val ∧ (i 1).val < win1_15.index _ 1 * 9 + 9; rw [f]; omega

end Cert.KernelIdeal.Hand

end
-- ==== Proof.KI.L2Pay.lean ====
import proofs.«418735_j49933289783480_1_alg».proof.Proof.KI.L1Pay

noncomputable section

namespace Cert.KernelIdeal.Hand

open Cert.KernelIdeal Cert.KernelIdeal.Gen Idealize.ShloMosaic Idealize.ShloMosaic.ValueIdx

def pay2 {F : FTy → Type} [FloatOps F] (x0 x1 : Vec F S5000x9 .f32) (x2 : Vec F S1x1 .f32) (x3 : Vec F S9x18 .f32) (x4 x5 x6 x7 x8 : Vec F S1x18 .f32) (x9 : Vec F S18x9 .f32) (x10 x11 x12 x13 x14 : Vec F S1x9 .f32) : FVec F S5000x9 .f32 :=
  k2_pay1 (k2_pay2 x2 x0 x1 x3 x4 x5 x7 x8) (k2_pay3 x6) x9 x10 x11 x12 x13 x14

-- Region 2's stored term is, word for word, region 1's.
theorem pay2_eq : @pay2 = @pay1 := rfl

theorem pay2_apply (x0 x1 : Vec Ideal S5000x9 .f32) (x2 : Vec Ideal S1x1 .f32) (x3 : Vec Ideal S9x18 .f32) (x4 x5 x6 x7 x8 : Vec Ideal S1x18 .f32) (x9 : Vec Ideal S18x9 .f32) (x10 x11 x12 x13 x14 : Vec Ideal S1x9 .f32) (p : Fin 5000) (q : Fin 9) :
    pay2 (F := Ideal) x0 x1 x2 x3 x4 x5 x6 x7 x8 x9 x10 x11 x12 x13 x14 (ix2 p q)
      = Cert.Spec.layerRow (x2 (ix2 0 0)) (fun a => x0 (ix2 p a)) (fun a => x1 (ix2 p a)) (fun k a => x3 (ix2 a k)) (fun k => x4 (ix2 0 k)) (fun k => x5 (ix2 0 k)) (fun k => x6 (ix2 0 k)) (fun k => x7 (ix2 0 k)) (fun k => x8 (ix2 0 k)) (fun j k => x9 (ix2 k j)) (fun j => x10 (ix2 0 j)) (fun j => x11 (ix2 0 j)) (fun j => x12 (ix2 0 j)) (fun j => x13 (ix2 0 j)) (fun j => x14 (ix2 0 j)) q :=
  pay2_eq ▸ pay1_apply x0 x1 x2 x3 x4 x5 x6 x7 x8 x9 x10 x11 x12 x13 x14 p q

end Cert.KernelIdeal.Hand

end
-- ==== Proof.KI.L2Arr.lean ====
import proofs.«418735_j49933289783480_1_alg».proof.Proof.KI.L2
import proofs.«418735_j49933289783480_1_alg».proof.Proof.KI.L2Pay
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem zz2 : (![0, 0] : Fin 2 → Nat) = fun _ => 0 := funext fun a => by fin_cases a <;> rfl

-- The layer on every row, from the arrays region 2 reads.
def G2 (c : Dev nD) : S500000x9.Idx → EReal := fun i =>
  Cert.Spec.layerRow (V c main_v143 (ix2 0 0)) (fun a => V c main_v104 (ix2 (i 0) a)) (fun a => V c main_v114 (ix2 (i 0) a))
    (fun k a => V c main_v141 (ix2 a k)) (fun k => V c main_v144 (ix2 0 k)) (fun k => V c main_v145 (ix2 0 k)) (fun k => V c main_v146 (ix2 0 k))
    (fun k => V c main_v147 (ix2 0 k)) (fun k => V c main_v148 (ix2 0 k))
    (fun j k => V c main_v142 (ix2 k j)) (fun j => V c main_v149 (ix2 0 j)) (fun j => V c main_v150 (ix2 0 j)) (fun j => V c main_v151 (ix2 0 j))
    (fun j => V c main_v152 (ix2 0 j)) (fun j => V c main_v153 (ix2 0 j)) (i 1)

-- The index maps, evaluated at each of the 100 points.
theorem idx_facts2 : ∀ t : Fin cfg2.N, (win2_0.index t 0 = t.val ∧ win2_1.index t 0 = t.val ∧ win2_15.index t 0 = t.val
      ∧ win2_0.index t 1 = 0 ∧ win2_1.index t 1 = 0 ∧ win2_15.index t 1 = 0)
    ∧ ∀ w : Fin cfg2.W, 2 ≤ w.val → w.val ≤ 14 → ∀ a, (cfg2.win w).index t a = 0 :=
  (by decide +kernel : ∀ t : Fin grid2.N, _)

-- Row p of block t of a row input is row 5000 t + p of its array.
theorem rows2_0 (c : Dev nD) (t : Fin cfg2.N) (p : Fin 5000) (a : Fin 9) (r : Fin 500000) (hr : r.val = t.val * 5000 + p.val) :
    iblk2 V c 0 t (ix2 p a) = V c main_v104 (ix2 r a) := by
  obtain ⟨⟨e0, e1, -, f0, f1, -⟩, -⟩ := idx_facts2 t
  refine congrArg _ (funext fun d => Fin.ext ((win2_0.rect_emb_val t (ix2 p a) d).trans ?_))
  match d with
  | ⟨0, _⟩ => show win2_0.index t 0 * 5000 + p.val = r.val; omega
  | ⟨1, _⟩ => show win2_0.index t 1 * 9 + a.val = a.val; omega
theorem rows2_1 (c : Dev nD) (t : Fin cfg2.N) (p : Fin 5000) (a : Fin 9) (r : Fin 500000) (hr : r.val = t.val * 5000 + p.val) :
    iblk2 V c 1 t (ix2 p a) = V c main_v114 (ix2 r a) := by
  obtain ⟨⟨e0, e1, -, f0, f1, -⟩, -⟩ := idx_facts2 t
  refine congrArg _ (funext fun d => Fin.ext ((win2_1.rect_emb_val t (ix2 p a) d).trans ?_))
  match d with
  | ⟨0, _⟩ => show win2_1.index t 0 * 5000 + p.val = r.val; omega
  | ⟨1, _⟩ => show win2_1.index t 1 * 9 + a.val = a.val; omega

-- A parameter window's one block is its whole array.
theorem par2_2 (c : Dev nD) (t : Fin cfg2.N) (y) : iblk2 V c 2 t y = V c main_v143 y :=
  congrArg _ (funext fun d => Fin.ext (win2_2.rect_emb_val_of_index_zero t d ((idx_facts2 t).2 2 (by decide) (by decide) d) y))
theorem par2_3 (c : Dev nD) (t : Fin cfg2.N) (y) : iblk2 V c 3 t y = V c main_v141 y :=
  congrArg _ (funext fun d => Fin.ext (win2_3.rect_emb_val_of_index_zero t d ((idx_facts2 t).2 3 (by decide) (by decide) d) y))
theorem par2_4 (c : Dev nD) (t : Fin cfg2.N) (y) : iblk2 V c 4 t y = V c main_v144 y :=
  congrArg _ (funext fun d => Fin.ext (win2_4.rect_emb_val_of_index_zero t d ((idx_facts2 t).2 4 (by decide) (by decide) d) y))
theorem par2_5 (c : Dev nD) (t : Fin cfg2.N) (y) : iblk2 V c 5 t y = V c main_v145 y :=
  congrArg _ (funext fun d => Fin.ext (win2_5.rect_emb_val_of_index_zero t d ((idx_facts2 t).2 5 (by decide) (by decide) d) y))
theorem par2_6 (c : Dev nD) (t : Fin cfg2.N) (y) : iblk2 V c 6 t y = V c main_v146 y :=
  congrArg _ (funext fun d => Fin.ext (win2_6.rect_emb_val_of_index_zero t d ((idx_facts2 t).2 6 (by decide) (by decide) d) y))
theorem par2_7 (c : Dev nD) (t : Fin cfg2.N) (y) : iblk2 V c 7 t y = V c main_v147 y :=
  congrArg _ (funext fun d => Fin.ext (win2_7.rect_emb_val_of_index_zero t d ((idx_facts2 t).2 7 (by decide) (by decide) d) y))
theorem par2_8 (c : Dev nD) (t : Fin cfg2.N) (y) : iblk2 V c 8 t y = V c main_v148 y :=
  congrArg _ (funext fun d => Fin.ext (win2_8.rect_emb_val_of_index_zero t d ((idx_facts2 t).2 8 (by decide) (by decide) d) y))
theorem par2_9 (c : Dev nD) (t : Fin cfg2.N) (y) : iblk2 V c 9 t y = V c main_v142 y :=
  congrArg _ (funext fun d => Fin.ext (win2_9.rect_emb_val_of_index_zero t d ((idx_facts2 t).2 9 (by decide) (by decide) d) y))
theorem par2_10 (c : Dev nD) (t : Fin cfg2.N) (y) : iblk2 V c 10 t y = V c main_v149 y :=
  congrArg _ (funext fun d => Fin.ext (win2_10.rect_emb_val_of_index_zero t d ((idx_facts2 t).2 10 (by decide) (by decide) d) y))
theorem par2_11 (c : Dev nD) (t : Fin cfg2.N) (y) : iblk2 V c 11 t y = V c main_v150 y :=
  congrArg _ (funext fun d => Fin.ext (win2_11.rect_emb_val_of_index_zero t d ((idx_facts2 t).2 11 (by decide) (by decide) d) y))
theorem par2_12 (c : Dev nD) (t : Fin cfg2.N) (y) : iblk2 V c 12 t y = V c main_v151 y :=
  congrArg _ (funext fun d => Fin.ext (win2_12.rect_emb_val_of_index_zero t d ((idx_facts2 t).2 12 (by decide) (by decide) d) y))
theorem par2_13 (c : Dev nD) (t : Fin cfg2.N) (y) : iblk2 V c 13 t y = V c main_v152 y :=
  congrArg _ (funext fun d => Fin.ext (win2_13.rect_emb_val_of_index_zero t d ((idx_facts2 t).2 13 (by decide) (by decide) d) y))
theorem par2_14 (c : Dev nD) (t : Fin cfg2.N) (y) : iblk2 V c 14 t y = V c main_v153 y :=
  congrArg _ (funext fun d => Fin.ext (win2_14.rect_emb_val_of_index_zero t d ((idx_facts2 t).2 14 (by decide) (by decide) d) y))

-- What point t writes back is block t of the layer on every row.
theorem flushed2_eq (c : Dev nD) (t : Fin cfg2.N) :
    (dat2 V c).flushed 15 t = ((cfg2.win 15).blk t).view.read (Elt Ideal) (G2 V c) := by
  show (cfg2.win 15).cut (grid2.coords t) ((dat2 V c).after 15 t) = _
  rw [after2_15]
  unfold out2
  rw [View.canon_unit_zero zz2]
  simp only [View.ld_unit_zero (S := S5000x9) zz2, View.ld_unit_zero (S := S1x1) zz2, View.ld_unit_zero (S := S9x18) zz2,
    View.ld_unit_zero (S := S1x18) zz2, View.ld_unit_zero (S := S18x9) zz2, View.ld_unit_zero (S := S1x9) zz2]
  funext j
  obtain ⟨p, q, rfl⟩ : ∃ (p : Fin 5000) (q : Fin 9), j = ix2 p q := ⟨j 0, j 1, eq_ix2 j⟩
  refine (pay2_apply _ _ _ _ _ _ _ _ _ _ _ _ _ _ _ p q).trans ?_
  obtain ⟨⟨-, -, e, -, -, f⟩, -⟩ := idx_facts2 t
  have hr : ((((cfg2.win 15).blk t).view.emb (ix2 p q)) 0).val = t.val * 5000 + p.val := by
    show win2_15.index t 0 * 5000 + 1 * p.val = _; omega
  have hq : (((cfg2.win 15).blk t).view.emb (ix2 p q)) 1 = q := by
    apply Fin.ext; show win2_15.index t 1 * 9 + 1 * q.val = _; omega
  show _ = G2 V c (((cfg2.win 15).blk t).view.emb (ix2 p q))
  unfold G2
  rw [hq]
  simp only [rows2_0 V c t p _ _ hr, rows2_1 V c t p _ _ hr, par2_2 V c t, par2_3 V c t, par2_4 V c t, par2_5 V c t, par2_6 V c t, par2_7 V c t, par2_8 V c t, par2_9 V c t, par2_10 V c t, par2_11 V c t, par2_12 V c t, par2_13 V c t, par2_14 V c t]

theorem arr2 (c : Dev nD) : (dat2 V c).arrAt 15 cfg2.N = G2 V c :=
  (dat2 V c).arrAt_eq_of_cover 15 (G2 V c) (fun t _ => flushed2_eq V c t) fun i => by
    have hN : cfg2.N = 100 := N_2
    have hi0 : (i 0).val < 500000 := (i 0).isLt
    have hi1 : (i 1).val < 9 := (i 1).isLt
    have hlt : (i 0).val / 5000 < cfg2.N := by rw [hN]; omega
    refine ⟨⟨(i 0).val / 5000, hlt⟩, flush2_15 _, ?_⟩
    obtain ⟨⟨-, -, e, -, -, f⟩, -⟩ := idx_facts2 ⟨(i 0).val / 5000, hlt⟩
    show i ∈ ((View.whole main_v154).slice (win2_15.rect ⟨(i 0).val / 5000, hlt⟩)).set
    rw [View.set_slice_whole, Rect.mem_set_unit]
    intro a
    match a with
    | ⟨0, _⟩ => show win2_15.index _ 0 * 5000 ≤ (i 0).val ∧ (i 0).val < win2_15.index _ 0 * 5000 + 5000; rw [e]; dsimp only; omega
    | ⟨1, _⟩ => show win2_15.index _ 1 * 9 ≤ (i 1).val ∧ (i 1).val < win2_15.index _ 1 * 9 + 9; rw [f]; omega

end Cert.KernelIdeal.Hand

end
-- ==== Proof.KI.PoolPay.lean ====
import proofs.«418735_j49933289783480_1_alg».proof.Proof.KI.L0Pay

noncomputable section

namespace Cert.KernelIdeal.Hand

open Cert.KernelIdeal Cert.KernelIdeal.Gen Idealize.ShloMosaic Idealize.ShloMosaic.ValueIdx

theorem pay_reset (g : Fin 1024) (d : Fin 9) : k3_pay1 (F := Ideal) (ix2 g d) = 0 := by
  unfold k3_pay1
  simp only [shapeCast_self, broadcast_apply]
  exact Ideal.ofBits_zero_f32

-- The pooling product contracts the 2000 rows of both operands.
theorem pool_matmul_tg_apply (L : FVec Ideal S2000x1024 .bf16) (R : FVec Ideal S2000x9 .bf16) (g : Fin 1024) (d : Fin 9) :
    matmul dot_S2000x1024_S2000x9_S1024x9_0_0_1_1_n_n none L R (constant (F := Ideal) S1024x9 .f32 0x00000000#32) (ix2 g d) = ∑ t : Fin 2000, L (ix2 t g) * R (ix2 t d) :=
  mm_apply dot_S2000x1024_S2000x9_S1024x9_0_0_1_1_n_n 2000 rfl rfl (ix2 g d) id (fun _ => g) id (fun _ => d) (dot_S2000x1024_S2000x9_S1024x9_0_0_1_1_n_n.lhsIdx_val_of_single rfl _)
    (lhsIdx_free dot_S2000x1024_S2000x9_S1024x9_0_0_1_1_n_n 0 (by decide) (by decide) (by decide) _) (dot_S2000x1024_S2000x9_S1024x9_0_0_1_1_n_n.rhsIdx_val_of_single rfl _)
    (rhsIdx_free dot_S2000x1024_S2000x9_S1024x9_0_0_1_1_n_n 1 (by decide) (by decide) (by decide) _) L R

theorem pool_onehot_val (w v : BitVec 32) :
    (FloatOps.sitofp (F := Ideal) .f32 ((IntOp.cmpi .eq w v).setWidth 32) : EReal) = if w = v then 1 else 0 := by
  by_cases h : w = v
  · have hc : IntOp.cmpi .eq w v = 1#1 := IntOp.cmpi_eq.mpr h
    rw [hc, if_pos h]
    show (((((1#1 : BitVec 1).setWidth 32).toInt : ℤ) : ℝ) : EReal) = 1
    have : ((1#1 : BitVec 1).setWidth 32).toInt = 1 := by decide
    rw [this]; simp
  · have hc : IntOp.cmpi .eq w v = 0#1 := eq_zero_of_ne_one fun hh => h (IntOp.cmpi_eq.mp hh)
    rw [hc, if_neg h]
    show (((((0#1 : BitVec 1).setWidth 32).toInt : ℤ) : ℝ) : EReal) = 0
    have : ((0#1 : BitVec 1).setWidth 32).toInt = 0 := by decide
    rw [this]; simp

theorem pool_broadcastTo_col_apply {α : Type} (v : S2000x1.Idx → α) (h : S2000x1.Broadcasts S2000x1024) (t : Fin 2000) (g : Fin 1024) :
    broadcastTo S2000x1024 v h (ix2 t g) = v (ix2 t (0 : Fin 1)) := by
  refine broadcastTo_apply v h (ix2 t g) (ix2 t (0 : Fin 1)) fun ax => ?_
  match ax with
  | ⟨0, _⟩ =>
    show t.val = if (2000 : ℕ) = 1 then 0 else t.val
    rw [if_neg (by decide)]
  | ⟨1, _⟩ =>
    show (0 : ℕ) = if (1 : ℕ) = 1 then 0 else g.val
    rw [if_pos rfl]

theorem pool_iota_col_apply (h : S2000x1024.Iotas .tc 32 [1]) (t : Fin 2000) (g : Fin 1024) :
    iota .tc S2000x1024 32 [1] h (ix2 t g) = BitVec.ofNat 32 g.val := by
  rw [iota_single_apply]

theorem pay_acc (b : Vec Ideal S2000x1 .i32) (x : Vec Ideal S2000x9 .f32) (acc : Vec Ideal S1024x9 .f32) (g : Fin 1024) (d : Fin 9) :
    k3_pay2 (F := Ideal) b x acc (ix2 g d)
      = acc (ix2 g d) + ∑ t : Fin 2000, if b (ix2 t 0) = BitVec.ofNat 32 g.val then x (ix2 t d) else 0 := by
  unfold k3_pay2
  simp only [shapeCast_self]
  rw [addf_apply, pool_matmul_tg_apply]
  refine congrArg (acc (ix2 g d) + ·) (Finset.sum_congr rfl fun t _ => ?_)
  rw [truncf_apply, truncf_apply, sitofp_apply, extui_apply]
  show FloatOps.sitofp (F := Ideal) .f32 ((IntOp.cmpi .eq (broadcastTo S2000x1024 b broadcasts_S2000x1_S2000x1024 (ix2 t g)) (iota .tc S2000x1024 32 [1] iota_S2000x1024_d1_w32 (ix2 t g))).setWidth 32) * x (ix2 t d) = _
  rw [pool_broadcastTo_col_apply, pool_iota_col_apply, pool_onehot_val]
  by_cases h : b (ix2 t 0) = BitVec.ofNat 32 g.val
  · rw [if_pos h, if_pos h, one_mul]
  · rw [if_neg h, if_neg h, zero_mul]

theorem pool_matmul_h1_apply (L : FVec Ideal S1024x9 .bf16) (R : FVec Ideal S9x9 .bf16) (g : Fin 1024) (c : Fin 9) :
    matmul dot_S1024x9_S9x9_S1024x9_1_0_0_1_n_n none L R (constant (F := Ideal) S1024x9 .f32 0x00000000#32) (ix2 g c) = ∑ k : Fin 9, L (ix2 g k) * R (ix2 k c) :=
  mm_std dot_S1024x9_S9x9_S1024x9_1_0_0_1_n_n rfl rfl (by decide) L R g c
theorem pool_matmul_h2_apply (L : FVec Ideal S1024x9 .bf16) (R : FVec Ideal S9x2 .bf16) (g : Fin 1024) (c : Fin 2) :
    matmul dot_S1024x9_S9x2_S1024x2_1_0_0_1_n_n none L R (constant (F := Ideal) S1024x2 .f32 0x00000000#32) (ix2 g c) = ∑ k : Fin 9, L (ix2 g k) * R (ix2 k c) :=
  mm_std dot_S1024x9_S9x2_S1024x2_1_0_0_1_n_n rfl rfl (by decide) L R g c
theorem pool_matmul_h3_apply (L : FVec Ideal S1024x2 .bf16) (R : FVec Ideal S2x2 .bf16) (g : Fin 1024) (c : Fin 2) :
    matmul dot_S1024x2_S2x2_S1024x2_1_0_0_1_n_n none L R (constant (F := Ideal) S1024x2 .f32 0x00000000#32) (ix2 g c) = ∑ k : Fin 2, L (ix2 g k) * R (ix2 k c) :=
  mm_std dot_S1024x2_S2x2_S1024x2_1_0_0_1_n_n rfl rfl (by decide) L R g c

theorem pool_pay4_apply (acc : Vec Ideal S1024x9 .f32) (w1t : Vec Ideal S9x9 .f32) (b1 ga be mu va : Vec Ideal S1x9 .f32)
    (w2t : Vec Ideal S9x2 .f32) (g : Fin 1024) (q : Fin 2) :
    k3_pay4 (F := Ideal) acc w1t b1 ga be mu va w2t (ix2 g q)
      = ∑ k : Fin 9, Cert.Spec.bnrelu ((∑ i : Fin 9, acc (ix2 g i) * w1t (ix2 i k)) + b1 (ix2 0 k))
          (mu (ix2 0 k)) (va (ix2 0 k)) (ga (ix2 0 k)) (be (ix2 0 k)) * w2t (ix2 k q) := by
  unfold k3_pay4
  simp only [shapeCast_self]
  rw [pool_matmul_h2_apply]
  refine Finset.sum_congr rfl fun k _ => ?_
  simp only [truncf_apply, maximumf_apply, addf_apply, mulf_apply, subf_apply, broadcastTo_1b_ab_apply,
    broadcast_apply, rsqrt_apply, pool_matmul_h1_apply]
  rfl

theorem pay_head (acc : Vec Ideal S1024x9 .f32) (w1t : Vec Ideal S9x9 .f32) (b1 ga be mu va : Vec Ideal S1x9 .f32)
    (w2t : Vec Ideal S9x2 .f32) (b2 : Vec Ideal S1x2 .f32) (w3t : Vec Ideal S2x2 .f32) (b3 : Vec Ideal S1x2 .f32)
    (g : Fin 1024) (o : Fin 2) :
    k3_pay3 (F := Ideal) (k3_pay4 (F := Ideal) acc w1t b1 ga be mu va w2t) (k3_pay5 (F := Ideal) b2) w3t b3 (ix2 g o)
      = Cert.Spec.headRow (fun a => acc (ix2 g a)) (fun k a => w1t (ix2 a k)) (fun k => b1 (ix2 0 k)) (fun k => ga (ix2 0 k))
          (fun k => be (ix2 0 k)) (fun k => mu (ix2 0 k)) (fun k => va (ix2 0 k)) (fun q k => w2t (ix2 k q))
          (fun q => b2 (ix2 0 q)) (fun o' q => w3t (ix2 q o')) (fun o' => b3 (ix2 0 o')) o := by
  unfold k3_pay3 k3_pay5 Cert.Spec.headRow
  simp only [shapeCast_self]
  rw [addf_apply, pool_matmul_h3_apply, broadcastTo_1b_ab_apply]
  refine congrArg (· + b3 (ix2 0 o)) (Finset.sum_congr rfl fun q _ => ?_)
  rw [truncf_apply, truncf_apply, addf_apply, broadcastTo_1b_ab_apply, pool_pay4_apply]

end Cert.KernelIdeal.Hand

end
-- ==== Proof.KI.PoolArr.lean ====
import proofs.«418735_j49933289783480_1_alg».proof.Proof.KI.Pool
import proofs.«418735_j49933289783480_1_alg».proof.Proof.KI.PoolPay
import Idealize.ShloMosaic.Lib.Pipeline.Value
import Mathlib.Algebra.BigOperators.Fin

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

-- The index maps, evaluated at each of the 250 points.
theorem idx_facts3 : ∀ t : Fin cfg3.N, (win3_0.index t 0 = t.val ∧ win3_0.index t 1 = 0 ∧ win3_1.index t 0 = t.val ∧ win3_1.index t 1 = 0)
    ∧ ∀ w : Fin cfg3.W, 2 ≤ w.val → w.val ≤ 12 → ∀ a, (cfg3.win w).index t a = 0 :=
  (by decide +kernel : ∀ t : Fin grid3.N, _)

-- Row s of block t of the rows, and of the segment ids, is row 2000 t + s of the array.
theorem xrows3 (c : Dev nD) (t : Fin cfg3.N) (s : Fin 2000) (d : Fin 9) (n : Fin 500000) (hn : n.val = t.val * 2000 + s.val) :
    iblk3 V c 0 t (ix2 s d) = V c main_v154 (ix2 n d) := by
  obtain ⟨⟨e0, e1, -, -⟩, -⟩ := idx_facts3 t
  refine congrArg _ (funext fun a => Fin.ext ((win3_0.rect_emb_val t (ix2 s d) a).trans ?_))
  match a with
  | ⟨0, _⟩ => show win3_0.index t 0 * 2000 + s.val = n.val; omega
  | ⟨1, _⟩ => show win3_0.index t 1 * 9 + d.val = d.val; omega
theorem brows3 (c : Dev nD) (t : Fin cfg3.N) (s : Fin 2000) (n : Fin 500000) (hn : n.val = t.val * 2000 + s.val) :
    iblk3 V c 1 t (ix2 s 0) = V c main_v4 (ix2 n 0) := by
  obtain ⟨⟨-, -, e2, e3⟩, -⟩ := idx_facts3 t
  refine congrArg _ (funext fun a => Fin.ext ((win3_1.rect_emb_val t (ix2 s 0) a).trans ?_))
  match a with
  | ⟨0, _⟩ => show win3_1.index t 0 * 2000 + s.val = n.val; omega
  | ⟨1, _⟩ => show win3_1.index t 1 * 1 + 0 = 0; omega

-- A parameter window's one block is its whole array.
theorem par3_2 (c : Dev nD) (t : Fin cfg3.N) (y) : iblk3 V c 2 t y = V c main_v155 y :=
  congrArg _ (funext fun d => Fin.ext (win3_2.rect_emb_val_of_index_zero t d ((idx_facts3 t).2 2 (by decide) (by decide) d) y))
theorem par3_3 (c : Dev nD) (t : Fin cfg3.N) (y) : iblk3 V c 3 t y = V c main_v158 y :=
  congrArg _ (funext fun d => Fin.ext (win3_3.rect_emb_val_of_index_zero t d ((idx_facts3 t).2 3 (by decide) (by decide) d) y))
theorem par3_4 (c : Dev nD) (t : Fin cfg3.N) (y) : iblk3 V c 4 t y = V c main_v159 y :=
  congrArg _ (funext fun d => Fin.ext (win3_4.rect_emb_val_of_index_zero t d ((idx_facts3 t).2 4 (by decide) (by decide) d) y))
theorem par3_5 (c : Dev nD) (t : Fin cfg3.N) (y) : iblk3 V c 5 t y = V c main_v160 y :=
  congrArg _ (funext fun d => Fin.ext (win3_5.rect_emb_val_of_index_zero t d ((idx_facts3 t).2 5 (by decide) (by decide) d) y))
theorem par3_6 (c : Dev nD) (t : Fin cfg3.N) (y) : iblk3 V c 6 t y = V c main_v161 y :=
  congrArg _ (funext fun d => Fin.ext (win3_6.rect_emb_val_of_index_zero t d ((idx_facts3 t).2 6 (by decide) (by decide) d) y))
theorem par3_7 (c : Dev nD) (t : Fin cfg3.N) (y) : iblk3 V c 7 t y = V c main_v162 y :=
  congrArg _ (funext fun d => Fin.ext (win3_7.rect_emb_val_of_index_zero t d ((idx_facts3 t).2 7 (by decide) (by decide) d) y))
theorem par3_8 (c : Dev nD) (t : Fin cfg3.N) (y) : iblk3 V c 8 t y = V c main_v156 y :=
  congrArg _ (funext fun d => Fin.ext (win3_8.rect_emb_val_of_index_zero t d ((idx_facts3 t).2 8 (by decide) (by decide) d) y))
theorem par3_9 (c : Dev nD) (t : Fin cfg3.N) (y) : iblk3 V c 9 t y = V c main_v163 y :=
  congrArg _ (funext fun d => Fin.ext (win3_9.rect_emb_val_of_index_zero t d ((idx_facts3 t).2 9 (by decide) (by decide) d) y))
theorem par3_10 (c : Dev nD) (t : Fin cfg3.N) (y) : iblk3 V c 10 t y = V c main_v157 y :=
  congrArg _ (funext fun d => Fin.ext (win3_10.rect_emb_val_of_index_zero t d ((idx_facts3 t).2 10 (by decide) (by decide) d) y))
theorem par3_11 (c : Dev nD) (t : Fin cfg3.N) (y) : iblk3 V c 11 t y = V c main_v164 y :=
  congrArg _ (funext fun d => Fin.ext (win3_11.rect_emb_val_of_index_zero t d ((idx_facts3 t).2 11 (by decide) (by decide) d) y))

def share (X : Vec Ideal S500000x9 .f32) (B : Vec Ideal S500000x1 .i32) (g : Fin 1024) (d : Fin 9) (n : ℕ) : EReal :=
  if h : n < 500000 then (if B (ix2 ⟨n, h⟩ 0) = BitVec.ofNat 32 g.val then X (ix2 ⟨n, h⟩ d) else 0) else 0

def poolAt (X : Vec Ideal S500000x9 .f32) (B : Vec Ideal S500000x1 .i32) (g : Fin 1024) (d : Fin 9) : EReal :=
  ∑ n : Fin 500000, if B (ix2 n 0) = BitVec.ofNat 32 g.val then X (ix2 n d) else 0

theorem block_sum (X : Vec Ideal S500000x9 .f32) (B : Vec Ideal S500000x1 .i32) (x' : Vec Ideal S2000x9 .f32) (b' : Vec Ideal S2000x1 .i32)
    (t : ℕ) (ht : t < 250)
    (hb : ∀ (s : Fin 2000) (h : t * 2000 + s.val < 500000), b' (ix2 s 0) = B (ix2 ⟨t * 2000 + s.val, h⟩ 0))
    (hx : ∀ (s : Fin 2000) (d : Fin 9) (h : t * 2000 + s.val < 500000), x' (ix2 s d) = X (ix2 ⟨t * 2000 + s.val, h⟩ d))
    (g : Fin 1024) (d : Fin 9) :
    (∑ s : Fin 2000, if b' (ix2 s 0) = BitVec.ofNat 32 g.val then x' (ix2 s d) else 0)
      = ∑ k ∈ Finset.range 2000, share X B g d (t * 2000 + k) := by
  rw [← Fin.sum_univ_eq_sum_range (fun k => share X B g d (t * 2000 + k)) 2000]
  refine Finset.sum_congr rfl fun s _ => ?_
  have hs : t * 2000 + s.val < 500000 := by have := s.isLt; omega
  unfold share
  rw [dif_pos hs, hb s hs, hx s d hs]

theorem acc_eq (c : Dev nD) (g : Fin 1024) (d : Fin 9) : ∀ (n : ℕ) (h : n < cfg3.N),
    (outsAt3 V c n h).2 (ix2 g d) = ∑ k ∈ Finset.range ((n + 1) * 2000), share (V c main_v154) (V c main_v4) g d k
  | 0, h => by
    refine (congrFun (scratch_zero V c h) (ix2 g d)).trans ?_
    refine (pay_acc (iblk3 V c 1 ⟨0, h⟩) (iblk3 V c 0 ⟨0, h⟩) (k3_pay1 (F := Ideal)) g d).trans ?_
    rw [pay_reset g d, zero_add]
    refine (block_sum (V c main_v154) (V c main_v4) (iblk3 V c 0 ⟨0, h⟩) (iblk3 V c 1 ⟨0, h⟩) 0 (by omega)
      (fun s hs => brows3 V c ⟨0, h⟩ s ⟨0 * 2000 + s.val, hs⟩ rfl) (fun s d hs => xrows3 V c ⟨0, h⟩ s d ⟨0 * 2000 + s.val, hs⟩ rfl) g d).trans ?_
    simp only [Nat.zero_mul, Nat.zero_add, Nat.one_mul]
  | n + 1, h => by
    have hN : cfg3.N = 250 := N_3
    refine (congrFun (scratch_succ V c n h) (ix2 g d)).trans ?_
    refine (pay_acc (iblk3 V c 1 ⟨n + 1, h⟩) (iblk3 V c 0 ⟨n + 1, h⟩) (outsAt3 V c n (Nat.lt_of_succ_lt h)).2 g d).trans ?_
    rw [acc_eq c g d n (Nat.lt_of_succ_lt h), show (n + 1 + 1) * 2000 = (n + 1) * 2000 + 2000 from by ring, Finset.sum_range_add]
    congr 1
    exact block_sum (V c main_v154) (V c main_v4) (iblk3 V c 0 ⟨n + 1, h⟩) (iblk3 V c 1 ⟨n + 1, h⟩) (n + 1) (by omega)
      (fun s hs => brows3 V c ⟨n + 1, h⟩ s ⟨(n + 1) * 2000 + s.val, hs⟩ rfl) (fun s d hs => xrows3 V c ⟨n + 1, h⟩ s d ⟨(n + 1) * 2000 + s.val, hs⟩ rfl) g d

theorem acc_at_last (c : Dev nD) (t : Fin cfg3.N) (ht : t.val = 249) (g : Fin 1024) (d : Fin 9) :
    (outsAt3 V c t.val t.isLt).2 (ix2 g d) = poolAt (V c main_v154) (V c main_v4) g d := by
  rw [acc_eq V c g d t.val t.isLt, ht, show (249 + 1) * 2000 = 500000 from rfl]
  unfold poolAt
  rw [← Fin.sum_univ_eq_sum_range (fun k => share (V c main_v154) (V c main_v4) g d k) 500000]
  refine Finset.sum_congr rfl fun n _ => ?_
  unfold share
  rw [dif_pos n.isLt]

def G3 (c : Dev nD) : S1024x2.Idx → EReal := fun i =>
  Cert.Spec.headRow (fun a => poolAt (V c main_v154) (V c main_v4) (i 0) a)
    (fun k a => V c main_v155 (ix2 a k)) (fun k => V c main_v158 (ix2 0 k)) (fun k => V c main_v159 (ix2 0 k)) (fun k => V c main_v160 (ix2 0 k))
    (fun k => V c main_v161 (ix2 0 k)) (fun k => V c main_v162 (ix2 0 k)) (fun q k => V c main_v156 (ix2 k q)) (fun q => V c main_v163 (ix2 0 q))
    (fun o q => V c main_v157 (ix2 q o)) (fun o => V c main_v164 (ix2 0 o)) (i 1)

theorem zz3 : (![0, 0] : Fin 2 → Nat) = fun _ => 0 := funext fun a => by fin_cases a <;> rfl

theorem out_at_last (c : Dev nD) (t : Fin cfg3.N) (ht : t.val = 249) :
    (outsAt3 V c t.val t.isLt).1 = k3_pay3 (k3_pay4 (outsAt3 V c t.val t.isLt).2 (iblk3 V c 2 t) (iblk3 V c 3 t) (iblk3 V c 4 t) (iblk3 V c 5 t) (iblk3 V c 6 t) (iblk3 V c 7 t) (iblk3 V c 8 t)) (k3_pay5 (iblk3 V c 9 t)) (iblk3 V c 10 t) (iblk3 V c 11 t) := by
  have h0 : ¬t.val = 0 := by omega
  rw [outsAt3_C V c t h0 ht]
  dsimp only
  rw [sout3_C_eq]
  apply out3_C_12_eq

theorem G3_at (c : Dev nD) (i : S1024x2.Idx) (g : Fin 1024) (o : Fin 2) (hg : i 0 = g) (ho : i 1 = o) :
    G3 V c i = Cert.Spec.headRow (fun a => poolAt (V c main_v154) (V c main_v4) g a)
      (fun k a => V c main_v155 (ix2 a k)) (fun k => V c main_v158 (ix2 0 k)) (fun k => V c main_v159 (ix2 0 k)) (fun k => V c main_v160 (ix2 0 k))
      (fun k => V c main_v161 (ix2 0 k)) (fun k => V c main_v162 (ix2 0 k)) (fun q k => V c main_v156 (ix2 k q)) (fun q => V c main_v163 (ix2 0 q))
      (fun o' q => V c main_v157 (ix2 q o')) (fun o' => V c main_v164 (ix2 0 o')) o := by
  subst hg ho
  rfl

attribute [local irreducible] outsAt3 poolAt

-- At the last point the stored block is the head on the pooled sums, read off the arrays.
theorem out_fun (c : Dev nD) (t : Fin cfg3.N) (ht : t.val = 249) : (outsAt3 V c t.val t.isLt).1 = G3 V c := by
  funext j
  obtain ⟨g, o, rfl⟩ : ∃ (g : Fin 1024) (o : Fin 2), j = ix2 g o := ⟨j 0, j 1, eq_ix2 j⟩
  refine (congrFun (out_at_last V c t ht) (ix2 g o)).trans ((pay_head _ _ _ _ _ _ _ _ _ _ _ g o).trans ?_)
  rw [G3_at V c (ix2 g o) g o rfl rfl, show (fun a => (outsAt3 V c t.val t.isLt).2 (ix2 g a)) = fun a => poolAt (V c main_v154) (V c main_v4) g a
    from funext fun a => acc_at_last V c t ht g a]
  simp only [par3_2 V c t, par3_3 V c t, par3_4 V c t, par3_5 V c t, par3_6 V c t, par3_7 V c t, par3_8 V c t, par3_9 V c t, par3_10 V c t, par3_11 V c t]

theorem flushed3_eq (c : Dev nD) (t : Fin cfg3.N) (hf : (cfg3.win 12).flush t = true) :
    (dat3 V c).flushed 12 t = ((cfg3.win 12).blk t).view.read (Elt Ideal) (G3 V c) := by
  have hN : cfg3.N = 250 := N_3
  have h1 : t.val = 249 := by have := (flush3_12 t).mp hf; have := t.isLt; omega
  have h12 : ∀ a, win3_12.index t a = 0 := (idx_facts3 t).2 12 (by decide) (by decide)
  show (cfg3.win 12).cut (grid3.coords t) ((dat3 V c).after 12 t) = _
  rw [after3_12, out_fun V c t h1]
  have hz' : (fun a => win3_12.index t a * main_v165.ty.shape.size a) = fun _ => 0 := funext fun a => by rw [h12 a]; exact Nat.zero_mul _
  exact (Memref.read_access_unit_zero (Elt Ideal) main_v165 hz' (fun a => by rw [congrFun hz' a]; simp) (G3 V c)).symm

theorem arr3 (c : Dev nD) : (dat3 V c).arrAt 12 cfg3.N = G3 V c :=
  (dat3 V c).arrAt_eq_of_cover 12 (G3 V c) (flushed3_eq V c) fun i => by
    have hN : cfg3.N = 250 := N_3
    obtain ⟨t, ht⟩ : ∃ t : Fin cfg3.N, t.val = 249 := ⟨⟨249, by rw [hN]; omega⟩, rfl⟩
    have hi0 : (i 0).val < 1024 := (i 0).isLt
    have hi1 : (i 1).val < 2 := (i 1).isLt
    refine ⟨t, (flush3_12 t).mpr (by rw [ht]), ?_⟩
    have h12 : ∀ a, win3_12.index t a = 0 := (idx_facts3 t).2 12 (by decide) (by decide)
    show i ∈ ((View.whole main_v165).slice (win3_12.rect t)).set
    rw [View.set_slice_whole, Rect.mem_set_unit]
    intro a
    match a with
    | ⟨0, _⟩ => show win3_12.index t (0 : Fin 2) * 1024 ≤ (i 0).val ∧ (i 0).val < win3_12.index t (0 : Fin 2) * 1024 + 1024; rw [h12 0]; omega
    | ⟨1, _⟩ => show win3_12.index t (1 : Fin 2) * 2 ≤ (i 1).val ∧ (i 1).val < win3_12.index t (1 : Fin 2) * 2 + 2; rw [h12 1]; omega

end Cert.KernelIdeal.Hand

end
-- ==== Proof.KI.HostVals.lean ====
import proofs.«418735_j49933289783480_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx Idealize.ShloMosaic.StableHlo

open Idealize.ShloMosaic.TcCoe

variable {F : FTy → Type} [FloatOps F]

section Chains

variable {α : Type}

theorem hostRowMajor_scalar_val (i : (⟨0, ![]⟩ : Shape).Idx) : ((⟨0, ![]⟩ : Shape).rowMajor i).val = 0 := by
  have h := ((⟨0, ![]⟩ : Shape).rowMajor i).isLt
  have h1 : (⟨0, ![]⟩ : Shape).numel = 1 := Shape.numel_eq_one fun a => a.elim0
  omega

theorem hostRow3_apply {n : ℕ} (o : Fin 3) (x : (⟨2, ![3, n]⟩ : Shape).Idx → α)
    (hs : (⟨2, ![3, n]⟩ : Shape).Slices ![o.val, 0] ⟨2, ![1, n]⟩)
    (h1 : (⟨2, ![1, n]⟩ : Shape).ShapeCasts ⟨1, ![n]⟩) (h2 : (⟨1, ![n]⟩ : Shape).ShapeCasts ⟨2, ![1, n]⟩)
    (u : Fin 1) (k : Fin n) :
    shapeCast ⟨2, ![1, n]⟩ (shapeCast ⟨1, ![n]⟩ (extractStridedSlice ⟨2, ![1, n]⟩ ![o.val, 0] x hs) h1) h2 (ix2 u k)
      = x (ix2 o k) := by
  rw [shapeCast_a_1a_apply, shapeCast_1a_a_apply]
  exact extractStridedSlice_apply _ x hs _ _ fun c => match c with
    | ⟨0, _⟩ => (Nat.add_zero _).symm
    | ⟨1, _⟩ => (Nat.zero_add _).symm

theorem hostMat3T_apply {a b : ℕ} (o : Fin 3) (x : (⟨3, ![3, a, b]⟩ : Shape).Idx → α)
    (hs : (⟨3, ![3, a, b]⟩ : Shape).Slices ![o.val, 0, 0] ⟨3, ![1, a, b]⟩)
    (h1 : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![o.val, 0, 0] x hs) h1) ht (ix2 j i)
      = x (ix3 o i j) := by
  rw [transpose_ix2_apply, shapeCast_1ab_ab_apply]
  exact extractStridedSlice_apply _ x hs _ _ fun c => match c with
    | ⟨0, _⟩ => (Nat.add_zero _).symm
    | ⟨1, _⟩ => (Nat.zero_add _).symm
    | ⟨2, _⟩ => (Nat.zero_add _).symm

theorem hostScal3_apply (o : Fin 3) (x : (⟨1, ![3]⟩ : Shape).Idx → α)
    (hs : (⟨1, ![3]⟩ : Shape).Slices ![o.val] ⟨1, ![1]⟩)
    (h1 : (⟨1, ![1]⟩ : Shape).ShapeCasts ⟨0, ![]⟩) (h2 : (⟨0, ![]⟩ : Shape).ShapeCasts ⟨2, ![1, 1]⟩) (u v : Fin 1) :
    shapeCast ⟨2, ![1, 1]⟩ (shapeCast ⟨0, ![]⟩ (extractStridedSlice ⟨1, ![1]⟩ ![o.val] x hs) h1) h2 (ix2 u v)
      = x (ix1 o) := by
  refine (shapeCast_apply _ h2 (ix2 u v) ix0 ?_).trans ((shapeCast_apply _ h1 ix0 (ix1 (0 : Fin 1)) ?_).trans ?_)
  · rw [hostRowMajor_scalar_val, Shape.rowMajor_val_two]
    have hu : u.val = 0 := by omega
    have hv : v.val = 0 := by omega
    show 0 = u.val * 1 + v.val
    omega
  · rw [hostRowMajor_scalar_val, Shape.rowMajor_val_one]
    rfl
  · exact extractStridedSlice_apply _ x hs _ _ fun c => match c with
      | ⟨0, _⟩ => (Nat.add_zero _).symm

end Chains

def aggK (x : (⟨S500000x9, .f32⟩ : BufTy).Contents (Elt F)) (src dst : (⟨S16000000, .i32⟩ : BufTy).Contents (Elt F)) :
    (⟨S500000x9, .f32⟩ : BufTy).Contents (Elt F) :=
  Host.scatterAdd scatter_S500000x9_S16000000x1_S16000000x9_1_0_0_1
    (broadcastInDim S500000x9 ![] bcast_S_S500000x9 (constant (F := F) S_ .f32 0x00000000#32))
    (broadcastInDim S16000000x1 ![0] bcast_S16000000_S16000000x1_0 dst)
    (Host.gather gather_S500000x9_S16000000x1_S16000000x9_1_0_n_n_0_1_19 x
      (broadcastInDim S16000000x1 ![0] bcast_S16000000_S16000000x1_0
        (select (cmpi .slt src (broadcastInDim S16000000 ![] bcast_S_S16000000 (constantI S_ 32 0#32)))
          (addi src (broadcastInDim S16000000 ![] bcast_S_S16000000 (constantI S_ 32 500000#32)))
          src)))

theorem host0_v1 (W : Valuation τ sig (Elt F)) :
    (StableHlo.after hostOps0 W main_v1 : S16000000.Idx → _)
      = shapeCast S16000000 (extractStridedSlice S1x16000000 ![0, 0] (W main_arg1 : S2x16000000.Idx → _) slices_S2x16000000_S1x16000000_0_0) shapeCasts_S1x16000000_S16000000 := by
  simp only [hostOps0]; after_results; rfl

theorem host0_v3 (W : Valuation τ sig (Elt F)) :
    (StableHlo.after hostOps0 W main_v3 : S16000000.Idx → _)
      = shapeCast S16000000 (extractStridedSlice S1x16000000 ![1, 0] (W main_arg1 : S2x16000000.Idx → _) slices_S2x16000000_S1x16000000_1_0) shapeCasts_S1x16000000_S16000000 := by
  simp only [hostOps0]; after_results; rfl

theorem host0_v4_apply (W : Valuation τ sig (Elt F)) (n : Fin 500000) :
    (StableHlo.after hostOps0 W main_v4 : S500000x1.Idx → _) (ix2 n 0) = (W main_arg2 : S500000.Idx → _) (ix1 n) := by
  simp only [hostOps0]; after_results
  exact shapeCast_apply (s := S500000) (t := S500000x1) _ shapeCasts_S500000_S500000x1 (ix2 n 0) (ix1 n) (by
    rw [Shape.rowMajor_val_one, Shape.rowMajor_val_two]
    show n.val = n.val * 1 + 0
    omega)

theorem host0_v14 (W : Valuation τ sig (Elt F)) :
    (StableHlo.after hostOps0 W main_v14 : S500000x9.Idx → _)
      = aggK (W main_arg0) (StableHlo.after hostOps0 W main_v1) (StableHlo.after hostOps0 W main_v3) := by
  rw [host0_v1, host0_v3]
  simp only [hostOps0]; after_results_simp; rfl

theorem host1_v64 (W : Valuation τ sig (Elt F)) :
    (StableHlo.after hostOps1 W main_v64 : S500000x9.Idx → _) = aggK (W main_v54) (W main_v1) (W main_v3) := by
  simp only [hostOps1]; after_results_simp; rfl

theorem host2_v114 (W : Valuation τ sig (Elt F)) :
    (StableHlo.after hostOps2 W main_v114 : S500000x9.Idx → _) = aggK (W main_v104) (W main_v1) (W main_v3) := by
  simp only [hostOps2]; after_results_simp; rfl

theorem host0_v43_apply (W : Valuation τ sig (Elt F)) :
    (StableHlo.after hostOps0 W main_v43 : S1x1.Idx → _) (ix2 0 0) = (W main_arg11 : S3.Idx → _) (ix1 0) := by
  simp only [hostOps0]; after_results; exact hostScal3_apply 0 _ _ _ _ 0 0

theorem host0_v41_apply (W : Valuation τ sig (Elt F)) (a : Fin 9) (k : Fin 18) :
    (StableHlo.after hostOps0 W main_v41 : S9x18.Idx → _) (ix2 a k) = (W main_arg3 : S3x18x9.Idx → _) (ix3 0 k a) := by
  simp only [hostOps0]; after_results; exact hostMat3T_apply 0 _ _ _ _ a k

theorem host0_v44_apply (W : Valuation τ sig (Elt F)) (k : Fin 18) :
    (StableHlo.after hostOps0 W main_v44 : S1x18.Idx → _) (ix2 0 k) = (W main_arg4 : S3x18.Idx → _) (ix2 0 k) := by
  simp only [hostOps0]; after_results; exact hostRow3_apply 0 _ _ _ _ 0 k

theorem host0_v45_apply (W : Valuation τ sig (Elt F)) (k : Fin 18) :
    (StableHlo.after hostOps0 W main_v45 : S1x18.Idx → _) (ix2 0 k) = (W main_arg5 : S3x18.Idx → _) (ix2 0 k) := by
  simp only [hostOps0]; after_results; exact hostRow3_apply 0 _ _ _ _ 0 k

theorem host0_v46_apply (W : Valuation τ sig (Elt F)) (k : Fin 18) :
    (StableHlo.after hostOps0 W main_v46 : S1x18.Idx → _) (ix2 0 k) = (W main_arg6 : S3x18.Idx → _) (ix2 0 k) := by
  simp only [hostOps0]; after_results; exact hostRow3_apply 0 _ _ _ _ 0 k

theorem host0_v47_apply (W : Valuation τ sig (Elt F)) (k : Fin 18) :
    (StableHlo.after hostOps0 W main_v47 : S1x18.Idx → _) (ix2 0 k) = (W main_arg7 : S3x18.Idx → _) (ix2 0 k) := by
  simp only [hostOps0]; after_results; exact hostRow3_apply 0 _ _ _ _ 0 k

theorem host0_v48_apply (W : Valuation τ sig (Elt F)) (k : Fin 18) :
    (StableHlo.after hostOps0 W main_v48 : S1x18.Idx → _) (ix2 0 k) = (W main_arg8 : S3x18.Idx → _) (ix2 0 k) := by
  simp only [hostOps0]; after_results; exact hostRow3_apply 0 _ _ _ _ 0 k

theorem host0_v42_apply (W : Valuation τ sig (Elt F)) (k : Fin 18) (q : Fin 9) :
    (StableHlo.after hostOps0 W main_v42 : S18x9.Idx → _) (ix2 k q) = (W main_arg9 : S3x9x18.Idx → _) (ix3 0 q k) := by
  simp only [hostOps0]; after_results; exact hostMat3T_apply 0 _ _ _ _ k q

theorem host0_v49_apply (W : Valuation τ sig (Elt F)) (q : Fin 9) :
    (StableHlo.after hostOps0 W main_v49 : S1x9.Idx → _) (ix2 0 q) = (W main_arg10 : S3x9.Idx → _) (ix2 0 q) := by
  simp only [hostOps0]; after_results; exact hostRow3_apply 0 _ _ _ _ 0 q

theorem host0_v50_apply (W : Valuation τ sig (Elt F)) (q : Fin 9) :
    (StableHlo.after hostOps0 W main_v50 : S1x9.Idx → _) (ix2 0 q) = (W main_arg12 : S3x9.Idx → _) (ix2 0 q) := by
  simp only [hostOps0]; after_results; exact hostRow3_apply 0 _ _ _ _ 0 q

theorem host0_v51_apply (W : Valuation τ sig (Elt F)) (q : Fin 9) :
    (StableHlo.after hostOps0 W main_v51 : S1x9.Idx → _) (ix2 0 q) = (W main_arg13 : S3x9.Idx → _) (ix2 0 q) := by
  simp only [hostOps0]; after_results; exact hostRow3_apply 0 _ _ _ _ 0 q

theorem host0_v52_apply (W : Valuation τ sig (Elt F)) (q : Fin 9) :
    (StableHlo.after hostOps0 W main_v52 : S1x9.Idx → _) (ix2 0 q) = (W main_arg14 : S3x9.Idx → _) (ix2 0 q) := by
  simp only [hostOps0]; after_results; exact hostRow3_apply 0 _ _ _ _ 0 q

theorem host0_v53_apply (W : Valuation τ sig (Elt F)) (q : Fin 9) :
    (StableHlo.after hostOps0 W main_v53 : S1x9.Idx → _) (ix2 0 q) = (W main_arg15 : S3x9.Idx → _) (ix2 0 q) := by
  simp only [hostOps0]; after_results; exact hostRow3_apply 0 _ _ _ _ 0 q

theorem host1_v93_apply (W : Valuation τ sig (Elt F)) :
    (StableHlo.after hostOps1 W main_v93 : S1x1.Idx → _) (ix2 0 0) = (W main_arg11 : S3.Idx → _) (ix1 1) := by
  simp only [hostOps1]; after_results; exact hostScal3_apply 1 _ _ _ _ 0 0

theorem host1_v91_apply (W : Valuation τ sig (Elt F)) (a : Fin 9) (k : Fin 18) :
    (StableHlo.after hostOps1 W main_v91 : S9x18.Idx → _) (ix2 a k) = (W main_arg3 : S3x18x9.Idx → _) (ix3 1 k a) := by
  simp only [hostOps1]; after_results; exact hostMat3T_apply 1 _ _ _ _ a k

theorem host1_v94_apply (W : Valuation τ sig (Elt F)) (k : Fin 18) :
    (StableHlo.after hostOps1 W main_v94 : S1x18.Idx → _) (ix2 0 k) = (W main_arg4 : S3x18.Idx → _) (ix2 1 k) := by
  simp only [hostOps1]; after_results; exact hostRow3_apply 1 _ _ _ _ 0 k

theorem host1_v95_apply (W : Valuation τ sig (Elt F)) (k : Fin 18) :
    (StableHlo.after hostOps1 W main_v95 : S1x18.Idx → _) (ix2 0 k) = (W main_arg5 : S3x18.Idx → _) (ix2 1 k) := by
  simp only [hostOps1]; after_results; exact hostRow3_apply 1 _ _ _ _ 0 k

theorem host1_v96_apply (W : Valuation τ sig (Elt F)) (k : Fin 18) :
    (StableHlo.after hostOps1 W main_v96 : S1x18.Idx → _) (ix2 0 k) = (W main_arg6 : S3x18.Idx → _) (ix2 1 k) := by
  simp only [hostOps1]; after_results; exact hostRow3_apply 1 _ _ _ _ 0 k

theorem host1_v97_apply (W : Valuation τ sig (Elt F)) (k : Fin 18) :
    (StableHlo.after hostOps1 W main_v97 : S1x18.Idx → _) (ix2 0 k) = (W main_arg7 : S3x18.Idx → _) (ix2 1 k) := by
  simp only [hostOps1]; after_results; exact hostRow3_apply 1 _ _ _ _ 0 k

theorem host1_v98_apply (W : Valuation τ sig (Elt F)) (k : Fin 18) :
    (StableHlo.after hostOps1 W main_v98 : S1x18.Idx → _) (ix2 0 k) = (W main_arg8 : S3x18.Idx → _) (ix2 1 k) := by
  simp only [hostOps1]; after_results; exact hostRow3_apply 1 _ _ _ _ 0 k

theorem host1_v92_apply (W : Valuation τ sig (Elt F)) (k : Fin 18) (q : Fin 9) :
    (StableHlo.after hostOps1 W main_v92 : S18x9.Idx → _) (ix2 k q) = (W main_arg9 : S3x9x18.Idx → _) (ix3 1 q k) := by
  simp only [hostOps1]; after_results; exact hostMat3T_apply 1 _ _ _ _ k q

theorem host1_v99_apply (W : Valuation τ sig (Elt F)) (q : Fin 9) :
    (StableHlo.after hostOps1 W main_v99 : S1x9.Idx → _) (ix2 0 q) = (W main_arg10 : S3x9.Idx → _) (ix2 1 q) := by
  simp only [hostOps1]; after_results; exact hostRow3_apply 1 _ _ _ _ 0 q

theorem host1_v100_apply (W : Valuation τ sig (Elt F)) (q : Fin 9) :
    (StableHlo.after hostOps1 W main_v100 : S1x9.Idx → _) (ix2 0 q) = (W main_arg12 : S3x9.Idx → _) (ix2 1 q) := by
  simp only [hostOps1]; after_results; exact hostRow3_apply 1 _ _ _ _ 0 q

theorem host1_v101_apply (W : Valuation τ sig (Elt F)) (q : Fin 9) :
    (StableHlo.after hostOps1 W main_v101 : S1x9.Idx → _) (ix2 0 q) = (W main_arg13 : S3x9.Idx → _) (ix2 1 q) := by
  simp only [hostOps1]; after_results; exact hostRow3_apply 1 _ _ _ _ 0 q

theorem host1_v102_apply (W : Valuation τ sig (Elt F)) (q : Fin 9) :
    (StableHlo.after hostOps1 W main_v102 : S1x9.Idx → _) (ix2 0 q) = (W main_arg14 : S3x9.Idx → _) (ix2 1 q) := by
  simp only [hostOps1]; after_results; exact hostRow3_apply 1 _ _ _ _ 0 q

theorem host1_v103_apply (W : Valuation τ sig (Elt F)) (q : Fin 9) :
    (StableHlo.after hostOps1 W main_v103 : S1x9.Idx → _) (ix2 0 q) = (W main_arg15 : S3x9.Idx → _) (ix2 1 q) := by
  simp only [hostOps1]; after_results; exact hostRow3_apply 1 _ _ _ _ 0 q

theorem host2_v143_apply (W : Valuation τ sig (Elt F)) :
    (StableHlo.after hostOps2 W main_v143 : S1x1.Idx → _) (ix2 0 0) = (W main_arg11 : S3.Idx → _) (ix1 2) := by
  simp only [hostOps2]; after_results; exact hostScal3_apply 2 _ _ _ _ 0 0

theorem host2_v141_apply (W : Valuation τ sig (Elt F)) (a : Fin 9) (k : Fin 18) :
    (StableHlo.after hostOps2 W main_v141 : S9x18.Idx → _) (ix2 a k) = (W main_arg3 : S3x18x9.Idx → _) (ix3 2 k a) := by
  simp only [hostOps2]; after_results; exact hostMat3T_apply 2 _ _ _ _ a k

theorem host2_v144_apply (W : Valuation τ sig (Elt F)) (k : Fin 18) :
    (StableHlo.after hostOps2 W main_v144 : S1x18.Idx → _) (ix2 0 k) = (W main_arg4 : S3x18.Idx → _) (ix2 2 k) := by
  simp only [hostOps2]; after_results; exact hostRow3_apply 2 _ _ _ _ 0 k

theorem host2_v145_apply (W : Valuation τ sig (Elt F)) (k : Fin 18) :
    (StableHlo.after hostOps2 W main_v145 : S1x18.Idx → _) (ix2 0 k) = (W main_arg5 : S3x18.Idx → _) (ix2 2 k) := by
  simp only [hostOps2]; after_results; exact hostRow3_apply 2 _ _ _ _ 0 k

theorem host2_v146_apply (W : Valuation τ sig (Elt F)) (k : Fin 18) :
    (StableHlo.after hostOps2 W main_v146 : S1x18.Idx → _) (ix2 0 k) = (W main_arg6 : S3x18.Idx → _) (ix2 2 k) := by
  simp only [hostOps2]; after_results; exact hostRow3_apply 2 _ _ _ _ 0 k

theorem host2_v147_apply (W : Valuation τ sig (Elt F)) (k : Fin 18) :
    (StableHlo.after hostOps2 W main_v147 : S1x18.Idx → _) (ix2 0 k) = (W main_arg7 : S3x18.Idx → _) (ix2 2 k) := by
  simp only [hostOps2]; after_results; exact hostRow3_apply 2 _ _ _ _ 0 k

theorem host2_v148_apply (W : Valuation τ sig (Elt F)) (k : Fin 18) :
    (StableHlo.after hostOps2 W main_v148 : S1x18.Idx → _) (ix2 0 k) = (W main_arg8 : S3x18.Idx → _) (ix2 2 k) := by
  simp only [hostOps2]; after_results; exact hostRow3_apply 2 _ _ _ _ 0 k

theorem host2_v142_apply (W : Valuation τ sig (Elt F)) (k : Fin 18) (q : Fin 9) :
    (StableHlo.after hostOps2 W main_v142 : S18x9.Idx → _) (ix2 k q) = (W main_arg9 : S3x9x18.Idx → _) (ix3 2 q k) := by
  simp only [hostOps2]; after_results; exact hostMat3T_apply 2 _ _ _ _ k q

theorem host2_v149_apply (W : Valuation τ sig (Elt F)) (q : Fin 9) :
    (StableHlo.after hostOps2 W main_v149 : S1x9.Idx → _) (ix2 0 q) = (W main_arg10 : S3x9.Idx → _) (ix2 2 q) := by
  simp only [hostOps2]; after_results; exact hostRow3_apply 2 _ _ _ _ 0 q

theorem host2_v150_apply (W : Valuation τ sig (Elt F)) (q : Fin 9) :
    (StableHlo.after hostOps2 W main_v150 : S1x9.Idx → _) (ix2 0 q) = (W main_arg12 : S3x9.Idx → _) (ix2 2 q) := by
  simp only [hostOps2]; after_results; exact hostRow3_apply 2 _ _ _ _ 0 q

theorem host2_v151_apply (W : Valuation τ sig (Elt F)) (q : Fin 9) :
    (StableHlo.after hostOps2 W main_v151 : S1x9.Idx → _) (ix2 0 q) = (W main_arg13 : S3x9.Idx → _) (ix2 2 q) := by
  simp only [hostOps2]; after_results; exact hostRow3_apply 2 _ _ _ _ 0 q

theorem host2_v152_apply (W : Valuation τ sig (Elt F)) (q : Fin 9) :
    (StableHlo.after hostOps2 W main_v152 : S1x9.Idx → _) (ix2 0 q) = (W main_arg14 : S3x9.Idx → _) (ix2 2 q) := by
  simp only [hostOps2]; after_results; exact hostRow3_apply 2 _ _ _ _ 0 q

theorem host2_v153_apply (W : Valuation τ sig (Elt F)) (q : Fin 9) :
    (StableHlo.after hostOps2 W main_v153 : S1x9.Idx → _) (ix2 0 q) = (W main_arg15 : S3x9.Idx → _) (ix2 2 q) := by
  simp only [hostOps2]; after_results; exact hostRow3_apply 2 _ _ _ _ 0 q

theorem host3_v155_apply (W : Valuation τ sig (Elt F)) (a k : Fin 9) :
    (StableHlo.after hostOps3 W main_v155 : S9x9.Idx → _) (ix2 a k) = (W main_arg16 : S9x9.Idx → _) (ix2 k a) := by
  simp only [hostOps3]; after_results; exact transpose_ix2_apply _ _ a k

theorem host3_v156_apply (W : Valuation τ sig (Elt F)) (k : Fin 9) (q : Fin 2) :
    (StableHlo.after hostOps3 W main_v156 : S9x2.Idx → _) (ix2 k q) = (W main_arg22 : S2x9.Idx → _) (ix2 q k) := by
  simp only [hostOps3]; after_results; exact transpose_ix2_apply _ _ k q

theorem host3_v157_apply (W : Valuation τ sig (Elt F)) (q o : Fin 2) :
    (StableHlo.after hostOps3 W main_v157 : S2x2.Idx → _) (ix2 q o) = (W main_arg24 : S2x2.Idx → _) (ix2 o q) := by
  simp only [hostOps3]; after_results; exact transpose_ix2_apply _ _ q o

theorem host3_v158_apply (W : Valuation τ sig (Elt F)) (k : Fin 9) :
    (StableHlo.after hostOps3 W main_v158 : S1x9.Idx → _) (ix2 0 k) = (W main_arg17 : S9.Idx → _) (ix1 k) := by
  simp only [hostOps3]; after_results; exact shapeCast_a_1a_apply _ _ 0 k

theorem host3_v159_apply (W : Valuation τ sig (Elt F)) (k : Fin 9) :
    (StableHlo.after hostOps3 W main_v159 : S1x9.Idx → _) (ix2 0 k) = (W main_arg18 : S9.Idx → _) (ix1 k) := by
  simp only [hostOps3]; after_results; exact shapeCast_a_1a_apply _ _ 0 k

theorem host3_v160_apply (W : Valuation τ sig (Elt F)) (k : Fin 9) :
    (StableHlo.after hostOps3 W main_v160 : S1x9.Idx → _) (ix2 0 k) = (W main_arg19 : S9.Idx → _) (ix1 k) := by
  simp only [hostOps3]; after_results; exact shapeCast_a_1a_apply _ _ 0 k

theorem host3_v161_apply (W : Valuation τ sig (Elt F)) (k : Fin 9) :
    (StableHlo.after hostOps3 W main_v161 : S1x9.Idx → _) (ix2 0 k) = (W main_arg20 : S9.Idx → _) (ix1 k) := by
  simp only [hostOps3]; after_results; exact shapeCast_a_1a_apply _ _ 0 k

theorem host3_v162_apply (W : Valuation τ sig (Elt F)) (k : Fin 9) :
    (StableHlo.after hostOps3 W main_v162 : S1x9.Idx → _) (ix2 0 k) = (W main_arg21 : S9.Idx → _) (ix1 k) := by
  simp only [hostOps3]; after_results; exact shapeCast_a_1a_apply _ _ 0 k

theorem host3_v163_apply (W : Valuation τ sig (Elt F)) (q : Fin 2) :
    (StableHlo.after hostOps3 W main_v163 : S1x2.Idx → _) (ix2 0 q) = (W main_arg23 : S2.Idx → _) (ix1 q) := by
  simp only [hostOps3]; after_results; exact shapeCast_a_1a_apply _ _ 0 q

theorem host3_v164_apply (W : Valuation τ sig (Elt F)) (o : Fin 2) :
    (StableHlo.after hostOps3 W main_v164 : S1x2.Idx → _) (ix2 0 o) = (W main_arg25 : S2.Idx → _) (ix1 o) := by
  simp only [hostOps3]; after_results; exact shapeCast_a_1a_apply _ _ 0 o

end Cert.KernelIdeal.Hand
-- ==== Proof.Ref.Layers.lean ====
import proofs.«418735_j49933289783480_1_alg».proof.Proof.Ref.Stages
import proofs.«418735_j49933289783480_1_alg».proof.Proof.Spec
import Idealize.ShloMosaic.Lib.StackMember

noncomputable section

namespace Cert.ReferenceIdeal.Hand

open Cert.ReferenceIdeal Cert.ReferenceIdeal.Gen Cert.ReferenceIdeal.Stages Idealize.ShloMosaic Idealize.ShloMosaic.ValueIdx

namespace LayerOps

variable {α : Type} {m n a : Nat} {l : Fin 3}

/-- A coordinate below `n` is itself, or `0` when `n = 1`. -/
theorem val_eq_ite (k : Fin n) : k.val = if n = 1 then 0 else k.val := by
  have := k.isLt; split <;> omega

section Rows
variable (h1 : (⟨1, ![n]⟩ : Shape).BroadcastsInDim ⟨2, ![1, n]⟩ ![1])
  (h2 : (⟨2, ![1, n]⟩ : Shape).BroadcastsInDim ⟨2, ![m, n]⟩ ![0, 1])
  (ht : (⟨2, ![n, a]⟩ : Shape).Transposes [1, 0] ⟨2, ![a, n]⟩)
  (he : (⟨0, ![]⟩ : Shape).BroadcastsInDim ⟨1, ![n]⟩ ![]) (hz : (⟨0, ![]⟩ : Shape).BroadcastsInDim ⟨2, ![m, n]⟩ ![])
  (v : (⟨1, ![n]⟩ : Shape).Idx → α)
  (A : FVec Ideal ⟨2, ![m, a]⟩ .f32) (W : FVec Ideal ⟨2, ![n, a]⟩ .f32) (pb pg pbe pmu pvar : FVec Ideal ⟨1, ![n]⟩ .f32)

/-- A vector copied into every row of an `[m, n]` array. -/
def alongRows : (⟨2, ![m, n]⟩ : Shape).Idx → α :=
  broadcastInDim ⟨2, ![m, n]⟩ ![0, 1] h2 (broadcastInDim ⟨2, ![1, n]⟩ ![1] h1 v)

theorem alongRows_apply (r : Fin m) (k : Fin n) : alongRows h1 h2 v (ix2 r k) = v (ix1 k) :=
  (broadcastInDim_apply _ h2 _ (ix2 r k) (ix2 0 k) fun c => match c with
    | ⟨0, _⟩ => (if_pos rfl).symm
    | ⟨1, _⟩ => val_eq_ite k).trans
  (broadcastInDim_apply _ h1 v (ix2 0 k) (ix1 k) fun c => match c with
    | ⟨0, _⟩ => val_eq_ite k)

/-- A dense map as the reference runs it: the rows times the transposed weights, plus the bias along the rows. -/
def dense : FVec Ideal ⟨2, ![m, n]⟩ .f32 :=
  addf (Host.dotGeneral (DotDims.plain m a n) none A (transpose ⟨2, ![a, n]⟩ [1, 0] W ht)) (alongRows h1 h2 pb)

theorem dense_apply (r : Fin m) (k : Fin n) :
    dense h1 h2 ht A W pb (ix2 r k) = (∑ i : Fin a, A (ix2 r i) * W (ix2 k i)) + pb (ix1 k) := by
  unfold dense
  rw [addf_apply, StackMember.dotGeneral_plain_apply, alongRows_apply]
  exact congrArg (· + pb (ix1 k)) (Finset.sum_congr rfl fun i _ => congrArg (A (ix2 r i) * ·)
    (transpose_apply _ W ht (ix2 i k) (ix2 k i) fun c => match c with
      | ⟨0, _⟩ => rfl
      | ⟨1, _⟩ => rfl))

/-- Half a layer as the reference runs it: a dense map, the normalisation with running statistics, the rectifier. -/
def half : FVec Ideal ⟨2, ![m, n]⟩ .f32 :=
  maximumf (addf (mulf (mulf (subf (dense h1 h2 ht A W pb) (alongRows h1 h2 pmu))
    (alongRows h1 h2 (Host.rsqrt (addf pvar (broadcastInDim ⟨1, ![n]⟩ ![] he (constant (F := Ideal) ⟨0, ![]⟩ .f32 0x3727C5AC#32))))))
    (alongRows h1 h2 pg)) (alongRows h1 h2 pbe))
    (broadcastInDim ⟨2, ![m, n]⟩ ![] hz (constant (F := Ideal) ⟨0, ![]⟩ .f32 0x00000000#32))

theorem half_apply (r : Fin m) (k : Fin n) :
    half h1 h2 ht he hz A W pb pg pbe pmu pvar (ix2 r k)
      = Cert.Spec.bnrelu ((∑ i : Fin a, A (ix2 r i) * W (ix2 k i)) + pb (ix1 k)) (pmu (ix1 k)) (pvar (ix1 k)) (pg (ix1 k))
          (pbe (ix1 k)) := by
  unfold half
  rw [maximumf_apply, addf_apply, mulf_apply, mulf_apply, subf_apply, dense_apply]
  simp only [alongRows_apply]
  rfl

end Rows

section Row
variable (h1 : (⟨2, ![3, n]⟩ : Shape).Slices ![l.val, 0] ⟨2, ![1, n]⟩) (h2 : (⟨2, ![1, n]⟩ : Shape).ShapeCasts ⟨1, ![n]⟩)
  (p : (⟨2, ![3, n]⟩ : Shape).Idx → α)

/-- Row `l` of a stacked `[3, n]` parameter, sliced out and reshaped to a vector. -/
def rowOf : (⟨1, ![n]⟩ : Shape).Idx → α :=
  shapeCast ⟨1, ![n]⟩ (extractStridedSlice ⟨2, ![1, n]⟩ ![l.val, 0] p h1) h2

theorem rowOf_apply (k : Fin n) : rowOf h1 h2 p (ix1 k) = p (ix2 l k) :=
  (shapeCast_apply _ h2 (ix1 k) (ix2 0 k) (by
    rw [Shape.rowMajor_val_two, Shape.rowMajor_val_one]; show 0 * n + k.val = k.val; omega)).trans
  (extractStridedSlice_apply _ p h1 (ix2 0 k) (ix2 l k) fun c => match c with
    | ⟨0, _⟩ => rfl
    | ⟨1, _⟩ => (Nat.zero_add _).symm)

end Row

section Mat
variable (h1 : (⟨3, ![3, a, n]⟩ : Shape).Slices ![l.val, 0, 0] ⟨3, ![1, a, n]⟩)
  (h2 : (⟨3, ![1, a, n]⟩ : Shape).ShapeCasts ⟨2, ![a, n]⟩) (p : (⟨3, ![3, a, n]⟩ : Shape).Idx → α)

/-- Matrix `l` of a stacked `[3, a, n]` parameter, sliced out and reshaped to a matrix. -/
def matOf : (⟨2, ![a, n]⟩ : Shape).Idx → α :=
  shapeCast ⟨2, ![a, n]⟩ (extractStridedSlice ⟨3, ![1, a, n]⟩ ![l.val, 0, 0] p h1) h2

theorem matOf_apply (k : Fin a) (i : Fin n) : matOf h1 h2 p (ix2 k i) = p (ix3 l k i) :=
  (shapeCast_apply _ h2 (ix2 k i) (ix3 0 k i) (by
    rw [Shape.rowMajor_val_three, Shape.rowMajor_val_two]
    show (0 * a + k.val) * n + i.val = k.val * n + i.val
    rw [Nat.zero_mul, Nat.zero_add])).trans
  (extractStridedSlice_apply _ p h1 (ix3 0 k i) (ix3 l k i) fun c => match c with
    | ⟨0, _⟩ => rfl
    | ⟨1, _⟩ => (Nat.zero_add _).symm
    | ⟨2, _⟩ => (Nat.zero_add _).symm)

end Mat

section Scale
variable (h : S3.Slices ![l.val] S1) (p : FVec Ideal S3 .f32)

/-- The factor `1 + p l` of a `[3]` parameter, at every entry of the rows. -/
def scaleOf : FVec Ideal S500000x9 .f32 :=
  broadcastInDim S500000x9 ![] bcast_S_S500000x9 (addf (constant (F := Ideal) S_ .f32 0x3F800000#32)
    (shapeCast S_ (extractStridedSlice S1 ![l.val] p h) shapeCasts_S1_S_))

theorem scaleOf_apply (i : S500000x9.Idx) : scaleOf h p i = Cert.Spec.oneLit + p (ix1 l) :=
  (broadcastInDim_apply _ _ _ i ix0 fun c => c.elim0).trans <| congrArg (Cert.Spec.oneLit + ·) <|
  (shapeCast_apply _ shapeCasts_S1_S_ ix0 (ix1 0) (by
    rw [Shape.rowMajor_val_one]; exact (Shape.rowMajorPi_zero _ _).symm)).trans
  (extractStridedSlice_apply _ p h (ix1 0) (ix1 l) fun c => match c with
    | ⟨0, _⟩ => rfl)

end Scale

/-- The reference's layer `l`, written over the stacked parameters, is the specification's layer `l`, entry by entry. -/
theorem layer_ops (l : Fin 3) (x agg : FVec Ideal S500000x9 .f32) (x3 : FVec Ideal S3x18x9 .f32)
    (x4 x5 x6 x7 x8 : FVec Ideal S3x18 .f32) (x9 : FVec Ideal S3x9x18 .f32) (x10 : FVec Ideal S3x9 .f32)
    (x11 : FVec Ideal S3 .f32) (x12 x13 x14 x15 : FVec Ideal S3x9 .f32)
    (g1 : S3.Slices ![l.val] S1) (g3 : S3x18x9.Slices ![l.val, 0, 0] S1x18x9) (g18 : S3x18.Slices ![l.val, 0] S1x18)
    (g9x18 : S3x9x18.Slices ![l.val, 0, 0] S1x9x18) (g9 : S3x9.Slices ![l.val, 0] S1x9) :
    half bcast_S9_S1x9_1 bcast_S1x9_S500000x9_0_1 transposes_S9x18_S18x9_1_0 bcast_S_S9 bcast_S_S500000x9
      (half bcast_S18_S1x18_1 bcast_S1x18_S500000x18_0_1 transposes_S18x9_S9x18_1_0 bcast_S_S18 bcast_S_S500000x18
        (addf (mulf (scaleOf g1 x11) x) agg) (matOf g3 shapeCasts_S1x18x9_S18x9 x3)
        (rowOf g18 shapeCasts_S1x18_S18 x4) (rowOf g18 shapeCasts_S1x18_S18 x5) (rowOf g18 shapeCasts_S1x18_S18 x6)
        (rowOf g18 shapeCasts_S1x18_S18 x7) (rowOf g18 shapeCasts_S1x18_S18 x8))
      (matOf g9x18 shapeCasts_S1x9x18_S9x18 x9)
      (rowOf g9 shapeCasts_S1x9_S9 x10) (rowOf g9 shapeCasts_S1x9_S9 x12) (rowOf g9 shapeCasts_S1x9_S9 x13)
      (rowOf g9 shapeCasts_S1x9_S9 x14) (rowOf g9 shapeCasts_S1x9_S9 x15)
      = Cert.Spec.layer l x agg x3 x4 x5 x6 x7 x8 x9 x10 x11 x12 x13 x14 x15 := by
  funext i
  obtain ⟨r, j, rfl⟩ : ∃ (r : Fin 500000) (j : Fin 9), i = ix2 r j := ⟨i 0, i 1, eq_ix2 i⟩
  simp only [half_apply, rowOf_apply, matOf_apply, addf_apply, mulf_apply, scaleOf_apply]
  rfl

end LayerOps

variable (x0 : (⟨S500000x9, .f32⟩ : BufTy).Contents (Elt Ideal))
  (x1 : (⟨S2x16000000, .i32⟩ : BufTy).Contents (Elt Ideal))
  (x3 : (⟨S3x18x9, .f32⟩ : BufTy).Contents (Elt Ideal))
  (x4 x5 x6 x7 x8 : (⟨S3x18, .f32⟩ : BufTy).Contents (Elt Ideal))
  (x9 : (⟨S3x9x18, .f32⟩ : BufTy).Contents (Elt Ideal))
  (x10 : (⟨S3x9, .f32⟩ : BufTy).Contents (Elt Ideal))
  (x11 : (⟨S3, .f32⟩ : BufTy).Contents (Elt Ideal))
  (x12 x13 x14 x15 : (⟨S3x9, .f32⟩ : BufTy).Contents (Elt Ideal))

/-- The first layer's stages unfold to `layer_ops` at `l = 0`. -/
theorem layer0_ref :
    val_main_v85 (F := Ideal) x0 x1 x3 x4 x5 x6 x7 x8 x9 x10 x11 x12 x13 x14 x15
      = Cert.Spec.layer (0 : Fin 3) x0 (val_main_v13 (F := Ideal) x0 x1)
          x3 x4 x5 x6 x7 x8 x9 x10 x11 x12 x13 x14 x15 :=
  LayerOps.layer_ops 0 _ _ x3 x4 x5 x6 x7 x8 x9 x10 x11 x12 x13 x14 x15 _ _ _ _ _

end Cert.ReferenceIdeal.Hand

end
-- ==== Proof.Ref.Layers1.lean ====
import proofs.«418735_j49933289783480_1_alg».proof.Proof.Ref.Layers

noncomputable section

namespace Cert.ReferenceIdeal.Hand

open Cert.ReferenceIdeal Cert.ReferenceIdeal.Stages Idealize.ShloMosaic

variable (x0 : (⟨S500000x9, .f32⟩ : BufTy).Contents (Elt Ideal))
  (x1 : (⟨S2x16000000, .i32⟩ : BufTy).Contents (Elt Ideal))
  (x3 : (⟨S3x18x9, .f32⟩ : BufTy).Contents (Elt Ideal))
  (x4 x5 x6 x7 x8 : (⟨S3x18, .f32⟩ : BufTy).Contents (Elt Ideal))
  (x9 : (⟨S3x9x18, .f32⟩ : BufTy).Contents (Elt Ideal))
  (x10 : (⟨S3x9, .f32⟩ : BufTy).Contents (Elt Ideal))
  (x11 : (⟨S3, .f32⟩ : BufTy).Contents (Elt Ideal))
  (x12 x13 x14 x15 : (⟨S3x9, .f32⟩ : BufTy).Contents (Elt Ideal))

/-- The second layer's stages unfold to `layer_ops` at `l = 1`. -/
theorem layer1_ref :
    val_main_v167 (F := Ideal) x0 x1 x3 x4 x5 x6 x7 x8 x9 x10 x11 x12 x13 x14 x15
      = Cert.Spec.layer (1 : Fin 3) (val_main_v85 (F := Ideal) x0 x1 x3 x4 x5 x6 x7 x8 x9 x10 x11 x12 x13 x14 x15) (val_main_v95 (F := Ideal) x0 x1 x3 x4 x5 x6 x7 x8 x9 x10 x11 x12 x13 x14 x15)
          x3 x4 x5 x6 x7 x8 x9 x10 x11 x12 x13 x14 x15 :=
  LayerOps.layer_ops 1 _ _ x3 x4 x5 x6 x7 x8 x9 x10 x11 x12 x13 x14 x15 _ _ _ _ _

end Cert.ReferenceIdeal.Hand

end
-- ==== Proof.Ref.Layers2.lean ====
import proofs.«418735_j49933289783480_1_alg».proof.Proof.Ref.Layers

noncomputable section

namespace Cert.ReferenceIdeal.Hand

open Cert.ReferenceIdeal Cert.ReferenceIdeal.Stages Idealize.ShloMosaic

variable (x0 : (⟨S500000x9, .f32⟩ : BufTy).Contents (Elt Ideal))
  (x1 : (⟨S2x16000000, .i32⟩ : BufTy).Contents (Elt Ideal))
  (x3 : (⟨S3x18x9, .f32⟩ : BufTy).Contents (Elt Ideal))
  (x4 x5 x6 x7 x8 : (⟨S3x18, .f32⟩ : BufTy).Contents (Elt Ideal))
  (x9 : (⟨S3x9x18, .f32⟩ : BufTy).Contents (Elt Ideal))
  (x10 : (⟨S3x9, .f32⟩ : BufTy).Contents (Elt Ideal))
  (x11 : (⟨S3, .f32⟩ : BufTy).Contents (Elt Ideal))
  (x12 x13 x14 x15 : (⟨S3x9, .f32⟩ : BufTy).Contents (Elt Ideal))

/-- The third layer's stages unfold to `layer_ops` at `l = 2`. -/
theorem layer2_ref :
    val_main_v249 (F := Ideal) x0 x1 x3 x4 x5 x6 x7 x8 x9 x10 x11 x12 x13 x14 x15
      = Cert.Spec.layer (2 : Fin 3) (val_main_v167 (F := Ideal) x0 x1 x3 x4 x5 x6 x7 x8 x9 x10 x11 x12 x13 x14 x15) (val_main_v177 (F := Ideal) x0 x1 x3 x4 x5 x6 x7 x8 x9 x10 x11 x12 x13 x14 x15)
          x3 x4 x5 x6 x7 x8 x9 x10 x11 x12 x13 x14 x15 :=
  LayerOps.layer_ops 2 _ _ x3 x4 x5 x6 x7 x8 x9 x10 x11 x12 x13 x14 x15 _ _ _ _ _

end Cert.ReferenceIdeal.Hand

end
-- ==== Proof.Ref.Head.lean ====
import proofs.«418735_j49933289783480_1_alg».proof.Proof.Ref.Layers
import Idealize.ShloMosaic.PureOps.Ideal.Laws
import Idealize.ShloMosaic.Lib.WordArith

noncomputable section

namespace Cert.ReferenceIdeal.Hand

open Cert.ReferenceIdeal Cert.ReferenceIdeal.Gen Cert.ReferenceIdeal.Stages Idealize.ShloMosaic Idealize.ShloMosaic.ValueIdx
  Cert.ReferenceIdeal.Hand.LayerOps

/-- An update lands on `i` exactly when, on every axis, its start plus its window coordinate is `i`'s coordinate. -/
theorem LayerOps.resultIdx?_eq_some_iff {s si u : Shape} (d : ScatterDims s si u) {w : Nat} (j : u.Idx) (idx : IVec si w)
    (i : s.Idx) : d.resultIdx? j idx = some i ↔ ∀ a, d.start j idx a + (d.window j a : Int) = ((i a).val : Int) := by
  unfold ScatterDims.resultIdx?
  split
  · rename_i h
    rw [Option.some.injEq]
    refine ⟨?_, fun e => funext fun a => Fin.ext ?_⟩
    · rintro rfl a
      exact (Int.toNat_of_nonneg (h a).1).symm
    · show (d.start j idx a + (d.window j a : Int)).toNat = (i a).val
      rw [e a]; rfl
  · rename_i h
    refine ⟨nofun, fun e => (h fun a => ?_).elim⟩
    rw [e a]
    exact ⟨Int.natCast_nonneg _, Int.ofNat_lt.2 (i a).isLt⟩

private abbrev poolSc := scatter_S1024x9_S500000x1_S500000x9_1_0_0_1

private theorem poolSc_start0 (j : S500000x9.Idx) (idx : IVec S500000x1 32) :
    poolSc.start j idx 0 = (idx (ix2 (j 0) 0)).toInt := by
  unfold ScatterDims.start
  rw [dif_pos (show (0 : Fin S1024x9.rank) ∈ poolSc.scatterDimsToOperandDims by decide)]
  congr 2
  funext b
  match b with
  | ⟨0, _⟩ => exact Fin.ext rfl
  | ⟨1, _⟩ => exact Fin.ext rfl

private theorem poolSc_start1 (j : S500000x9.Idx) (idx : IVec S500000x1 32) : poolSc.start j idx 1 = 0 := by
  unfold ScatterDims.start
  rw [dif_neg (show ¬ (1 : Fin S1024x9.rank) ∈ poolSc.scatterDimsToOperandDims by decide)]

private theorem poolSc_window0 (j : S500000x9.Idx) : poolSc.window j 0 = 0 := by
  unfold ScatterDims.window
  rw [dif_neg (show ¬ (0 : Fin S1024x9.rank) ∈ poolSc.sKept by decide)]

private theorem poolSc_window1 (j : S500000x9.Idx) : poolSc.window j 1 = (j 1).val := by
  unfold ScatterDims.window
  rw [dif_pos (show (1 : Fin S1024x9.rank) ∈ poolSc.sKept by decide)]
  rfl

/-- With the graph words as index words, update `(n, d')` reaches `(g, d)` iff the columns agree and row `n` is in graph `g`. -/
private theorem poolSc_lands_iff (b : (⟨S500000, .i32⟩ : BufTy).Contents (Elt Ideal)) (n : Fin 500000) (d' : Fin 9)
    (g : Fin 1024) (d : Fin 9) :
    poolSc.resultIdx? (ix2 n d') (val_main_v251 (F := Ideal) b) = some (ix2 g d) ↔
      d' = d ∧ b (ix1 n) = BitVec.ofNat 32 g.val := by
  have hw : val_main_v251 (F := Ideal) b (ix2 n 0) = b (ix1 n) :=
    broadcastInDim_apply _ _ b (ix2 n 0) (ix1 n) fun c => match c with
      | ⟨0, _⟩ => val_eq_ite n
  have hg := WordArith.toInt_ofNat_small g.val (by have := g.isLt; omega)
  rw [LayerOps.resultIdx?_eq_some_iff, Fin.forall_fin_two, poolSc_start0, poolSc_window0, poolSc_start1, poolSc_window1]
  show (val_main_v251 (F := Ideal) b (ix2 n 0)).toInt + ((0 : Nat) : Int) = (g.val : Int) ∧
    (0 : Int) + (d'.val : Int) = (d.val : Int) ↔ _
  rw [hw]
  constructor
  · rintro ⟨e0, e1⟩
    exact ⟨Fin.ext (by omega), BitVec.eq_of_toInt_eq (by omega)⟩
  · rintro ⟨rfl, e⟩
    rw [e]
    exact ⟨by omega, by omega⟩

/-- Adding each row into the row its graph word names leaves, per graph, the sum of that graph's rows. -/
theorem pool_ref (y : (⟨S500000x9, .f32⟩ : BufTy).Contents (Elt Ideal)) (b : (⟨S500000, .i32⟩ : BufTy).Contents (Elt Ideal)) :
    Host.scatterAdd (F := Ideal) (φ := .f32) scatter_S1024x9_S500000x1_S500000x9_1_0_0_1 (val_main_v250 (F := Ideal))
      (val_main_v251 (F := Ideal) b) y = Cert.Spec.pool y b := by
  funext i
  obtain ⟨g, d, rfl⟩ : ∃ (g : Fin 1024) (d : Fin 9), i = ix2 g d := ⟨i 0, i 1, eq_ix2 i⟩
  show val_main_v250 (F := Ideal) (ix2 g d) +
      ∑ j ∈ Finset.univ.filter (fun j => poolSc.resultIdx? j (val_main_v251 (F := Ideal) b) = some (ix2 g d)), y j =
    ∑ n : Fin 500000, if b (ix1 n) = BitVec.ofNat 32 g.val then y (ix2 n d) else 0
  rw [val_main_v250_apply, val_main_cst_16_apply, Ideal.ofBits_def, Ideal.ofBits_zero_f32, zero_add, Finset.sum_filter,
    sum_idx2]
  refine Finset.sum_congr rfl fun n _ => ?_
  rw [Finset.sum_eq_single d]
  · by_cases hb : b (ix1 n) = BitVec.ofNat 32 g.val
    · rw [if_pos ((poolSc_lands_iff b n d g d).2 ⟨rfl, hb⟩), if_pos hb]
    · rw [if_neg (fun h => hb ((poolSc_lands_iff b n d g d).1 h).2), if_neg hb]
  · intro d' _ hne
    rw [if_neg (fun h => hne ((poolSc_lands_iff b n d' g d).1 h).1)]
  · intro h
    exact absurd (Finset.mem_univ d) h

/-- The reference's head, written over its parameters, is the specification's head on the pooled rows `s`, entry by entry. -/
theorem LayerOps.head_ops (s : FVec Ideal S1024x9 .f32) (x16 : FVec Ideal S9x9 .f32) (x17 x18 x19 x20 x21 : FVec Ideal S9 .f32)
    (x22 : FVec Ideal S2x9 .f32) (x23 : FVec Ideal S2 .f32) (x24 : FVec Ideal S2x2 .f32) (x25 : FVec Ideal S2 .f32) :
    dense bcast_S2_S1x2_1 bcast_S1x2_S1024x2_0_1 transposes_S2x2_S2x2_1_0
      (dense bcast_S2_S1x2_1 bcast_S1x2_S1024x2_0_1 transposes_S2x9_S9x2_1_0
        (half bcast_S9_S1x9_1 bcast_S1x9_S1024x9_0_1 transposes_S9x9_S9x9_1_0 bcast_S_S9 bcast_S_S1024x9 s x16 x17 x18 x19 x20 x21)
        x22 x23) x24 x25
      = Cert.Spec.head s x16 x17 x18 x19 x20 x21 x22 x23 x24 x25 := by
  funext i
  obtain ⟨r, o, rfl⟩ : ∃ (r : Fin 1024) (o : Fin 2), i = ix2 r o := ⟨i 0, i 1, eq_ix2 i⟩
  simp only [dense_apply, half_apply]
  rfl

variable (x0 : (⟨S500000x9, .f32⟩ : BufTy).Contents (Elt Ideal)) (x1 : (⟨S2x16000000, .i32⟩ : BufTy).Contents (Elt Ideal)) (x2 : (⟨S500000, .i32⟩ : BufTy).Contents (Elt Ideal)) (x3 : (⟨S3x18x9, .f32⟩ : BufTy).Contents (Elt Ideal)) (x4 x5 x6 x7 x8 : (⟨S3x18, .f32⟩ : BufTy).Contents (Elt Ideal)) (x9 : (⟨S3x9x18, .f32⟩ : BufTy).Contents (Elt Ideal)) (x10 : (⟨S3x9, .f32⟩ : BufTy).Contents (Elt Ideal)) (x11 : (⟨S3, .f32⟩ : BufTy).Contents (Elt Ideal)) (x12 x13 x14 x15 : (⟨S3x9, .f32⟩ : BufTy).Contents (Elt Ideal))
  (x16 : (⟨S9x9, .f32⟩ : BufTy).Contents (Elt Ideal)) (x17 x18 x19 x20 x21 : (⟨S9, .f32⟩ : BufTy).Contents (Elt Ideal)) (x22 : (⟨S2x9, .f32⟩ : BufTy).Contents (Elt Ideal)) (x23 : (⟨S2, .f32⟩ : BufTy).Contents (Elt Ideal)) (x24 : (⟨S2x2, .f32⟩ : BufTy).Contents (Elt Ideal)) (x25 : (⟨S2, .f32⟩ : BufTy).Contents (Elt Ideal))

/-- The last stages unfold to `head_ops` on the pooling scatter, which is the sum of each graph's rows. -/
theorem head_ref :
    val_main_v283 (F := Ideal) x0 x1 x2 x3 x4 x5 x6 x7 x8 x9 x10 x11 x12 x13 x14 x15 x16 x17 x18 x19 x20 x21 x22 x23 x24 x25 =
      Cert.Spec.head (Cert.Spec.pool (val_main_v249 (F := Ideal) x0 x1 x3 x4 x5 x6 x7 x8 x9 x10 x11 x12 x13 x14 x15) x2) x16 x17 x18 x19 x20 x21 x22 x23 x24 x25 :=
  (LayerOps.head_ops _ x16 x17 x18 x19 x20 x21 x22 x23 x24 x25).trans
    (congrArg (Cert.Spec.head · x16 x17 x18 x19 x20 x21 x22 x23 x24 x25) (pool_ref _ x2))

end Cert.ReferenceIdeal.Hand

end
-- ==== Proof.KI.Value.lean ====
import proofs.«418735_j49933289783480_1_alg».proof.Proof.KI.Run
import proofs.«418735_j49933289783480_1_alg».proof.Proof.KI.L0Arr
import proofs.«418735_j49933289783480_1_alg».proof.Proof.KI.L1Arr
import proofs.«418735_j49933289783480_1_alg».proof.Proof.KI.L2Arr
import proofs.«418735_j49933289783480_1_alg».proof.Proof.KI.PoolArr
import proofs.«418735_j49933289783480_1_alg».proof.Proof.KI.HostVals
import proofs.«418735_j49933289783480_1_alg».proof.Proof.Ref.Layers
import proofs.«418735_j49933289783480_1_alg».proof.Proof.Ref.Layers1
import proofs.«418735_j49933289783480_1_alg».proof.Proof.Ref.Layers2
import proofs.«418735_j49933289783480_1_alg».proof.Proof.Ref.Head

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Cert.ReferenceIdeal.Stages

variable (m : (ℓ : Loc nD τ sig) → Buf (Elt Ideal) ℓ)

abbrev arg (c : Dev nD) (r : Ref sig .tc) : Buf (Elt Ideal) ((c.tc : Thread nD τ).loc r) := m ((c.tc : Thread nD τ).loc r)

-- The reference's three layer outputs and its second and third neighbour sums, at the arguments.
abbrev at15 (f : type_of% (val_main_v85 (F := Ideal))) (c : Dev nD) := f (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15)
abbrev ref1 (c : Dev nD) := at15 m (val_main_v85 (F := Ideal)) c
abbrev ref2 (c : Dev nD) := at15 m (val_main_v167 (F := Ideal)) c
abbrev ref3 (c : Dev nD) := at15 m (val_main_v249 (F := Ideal)) c
abbrev agg1 (c : Dev nD) := at15 m (val_main_v95 (F := Ideal)) c
abbrev agg2 (c : Dev nD) := at15 m (val_main_v177 (F := Ideal)) c

theorem src_eq (W : Valuation τ sig (Elt Ideal)) : StableHlo.after hostOps0 W main_v1 = val_main_v1 (F := Ideal) (W main_arg1) := by
  rw [host0_v1]; unfold val_main_v1 val_main_v0; rfl
theorem dst_eq (W : Valuation τ sig (Elt Ideal)) : StableHlo.after hostOps0 W main_v3 = val_main_v3 (F := Ideal) (W main_arg1) := by
  rw [host0_v3]; unfold val_main_v3 val_main_v2; rfl
-- Both programs sum over neighbours by the same operations.
theorem aggK_eq (x : (⟨S500000x9, .f32⟩ : BufTy).Contents (Elt Ideal)) (idx : (⟨S2x16000000, .i32⟩ : BufTy).Contents (Elt Ideal)) :
    aggK x (val_main_v1 (F := Ideal) idx) (val_main_v3 (F := Ideal) idx) = val_main_v13 (F := Ideal) x idx := by
  unfold aggK val_main_v13 val_main_v12 val_main_v11 val_main_v10 val_main_v9 val_main_v8 val_main_v7 val_main_v6 val_main_v5 val_main_v4 val_main_c val_main_c_0 val_main_cst
  rfl

theorem val1 (c : Dev nD) : x1 m c = ref1 m c := by
  unfold x1 ref1 at15
  rw [arr0 (E1 m) c, Cert.ReferenceIdeal.Hand.layer0_ref]
  have hx : E1 m c main_arg0 = arg m c main_arg0 := Gen.V1_of m c main_arg0 (by decide)
  have hagg : E1 m c main_v14 = val_main_v13 (F := Ideal) (arg m c main_arg0) (arg m c main_arg1) := by
    show StableHlo.after hostOps0 (Gen.V0 m c) main_v14 = _
    rw [host0_v14, src_eq, dst_eq]
    exact aggK_eq _ _
  funext i
  unfold G0 Cert.Spec.layer
  rw [hx, hagg]
  simp only [host0_v43_apply (Gen.V0 m c), host0_v41_apply (Gen.V0 m c), host0_v44_apply (Gen.V0 m c), host0_v45_apply (Gen.V0 m c), host0_v46_apply (Gen.V0 m c), host0_v47_apply (Gen.V0 m c), host0_v48_apply (Gen.V0 m c), host0_v42_apply (Gen.V0 m c), host0_v49_apply (Gen.V0 m c), host0_v50_apply (Gen.V0 m c), host0_v51_apply (Gen.V0 m c), host0_v52_apply (Gen.V0 m c), host0_v53_apply (Gen.V0 m c)]

theorem w2_self (c : Dev nD) : W2 m c main_v54 = x1 m c := by
  unfold W2; exact Function.update_self _ _ _
theorem w4_self (c : Dev nD) : W4 m c main_v104 = x2 m c := by
  unfold W4; exact Function.update_self _ _ _
theorem w6_self (c : Dev nD) : W6 m c main_v154 = x3 m c := by
  unfold W6; exact Function.update_self _ _ _

theorem w3_of (c : Dev nD) (r : Ref sig .tc) (h : r ∉ hostOps1_W) : W3 m c r = W2 m c r := by
  rw [← V3_eq m c, ← V2_eq m c]; exact Gen.V3_of m (outs m) c r h
theorem w5_of (c : Dev nD) (r : Ref sig .tc) (h : r ∉ hostOps2_W) : W5 m c r = W4 m c r := by
  rw [← V5_eq m c, ← V4_eq m c]; exact Gen.V5_of m (outs m) c r h
theorem w7_of (c : Dev nD) (r : Ref sig .tc) (h : r ∉ hostOps3_W) : W7 m c r = W6 m c r := by
  rw [← V7_eq m c, ← V6_eq m c]; exact Gen.V7_of m (outs m) c r h

-- A buffer that only the first stretch may have written still holds, at a later region's exit, what that stretch left.
theorem w2_v (c : Dev nD) (r : Ref sig .tc) (h1 : r ∉ ([main_v54] : List (Ref sig .tc)) := by decide) : W2 m c r = Gen.V1 m c r := by
  rw [← V2_eq m c]; exact Gen.V2_of m (outs m) c r h1
theorem w4_v (c : Dev nD) (r : Ref sig .tc) (h1 : r ∉ ([main_v54] : List (Ref sig .tc)) := by decide) (h2 : r ∉ hostOps1_W := by decide)
    (h3 : r ∉ ([main_v104] : List (Ref sig .tc)) := by decide) : W4 m c r = Gen.V1 m c r := by
  rw [← V4_eq m c, Gen.V4_of m (outs m) c r h3, Gen.V3_of m (outs m) c r h2, Gen.V2_of m (outs m) c r h1]
theorem w6_v (c : Dev nD) (r : Ref sig .tc) (h1 : r ∉ ([main_v54] : List (Ref sig .tc)) := by decide) (h2 : r ∉ hostOps1_W := by decide)
    (h3 : r ∉ ([main_v104] : List (Ref sig .tc)) := by decide) (h4 : r ∉ hostOps2_W := by decide) (h5 : r ∉ ([main_v154] : List (Ref sig .tc)) := by decide) :
    W6 m c r = Gen.V1 m c r := by
  rw [← V6_eq m c, Gen.V6_of m (outs m) c r h5, Gen.V5_of m (outs m) c r h4, Gen.V4_of m (outs m) c r h3,
    Gen.V3_of m (outs m) c r h2, Gen.V2_of m (outs m) c r h1]
-- An argument is never written.
theorem v1_arg (c : Dev nD) (r : Ref sig .tc) (h : r ∉ hostOps0_W := by decide) : Gen.V1 m c r = arg m c r := Gen.V1_of m c r h

theorem v1_src (c : Dev nD) : Gen.V1 m c main_v1 = val_main_v1 (F := Ideal) (arg m c main_arg1) := src_eq (Gen.V0 m c)
theorem v1_dst (c : Dev nD) : Gen.V1 m c main_v3 = val_main_v3 (F := Ideal) (arg m c main_arg1) := dst_eq (Gen.V0 m c)

theorem ref_agg1 (c : Dev nD) : agg1 m c = val_main_v13 (F := Ideal) (ref1 m c) (arg m c main_arg1) := by
  unfold agg1 ref1 at15 val_main_v95 val_main_v94 val_main_v93 val_main_v92 val_main_v91 val_main_v90 val_main_v89 val_main_v88 val_main_v87 val_main_v86 val_main_c_4 val_main_c_5 val_main_cst_6
    val_main_v13 val_main_v12 val_main_v11 val_main_v10 val_main_v9 val_main_v8 val_main_v7 val_main_v6 val_main_v5 val_main_v4 val_main_c val_main_c_0 val_main_cst
  rfl
theorem ref_agg2 (c : Dev nD) : agg2 m c = val_main_v13 (F := Ideal) (ref2 m c) (arg m c main_arg1) := by
  unfold agg2 ref2 at15 val_main_v177 val_main_v176 val_main_v175 val_main_v174 val_main_v173 val_main_v172 val_main_v171 val_main_v170 val_main_v169 val_main_v168 val_main_c_10 val_main_c_11 val_main_cst_12
    val_main_v13 val_main_v12 val_main_v11 val_main_v10 val_main_v9 val_main_v8 val_main_v7 val_main_v6 val_main_v5 val_main_v4 val_main_c val_main_c_0 val_main_cst
  rfl

theorem val2 (c : Dev nD) : x2 m c = ref2 m c := by
  unfold x2 ref2 at15
  rw [arr1 (E3 m) c, Cert.ReferenceIdeal.Hand.layer1_ref]
  have hx : E3 m c main_v54 = ref1 m c := by
    show W3 m c main_v54 = _
    rw [w3_of m c main_v54 (by decide), w2_self, val1]
  have hagg : E3 m c main_v64 = agg1 m c := by
    show StableHlo.after hostOps1 (W2 m c) main_v64 = _
    rw [host1_v64, w2_self, val1, w2_v m c main_v1, w2_v m c main_v3, v1_src, v1_dst, aggK_eq, ref_agg1]
  funext i
  unfold G1 Cert.Spec.layer
  rw [hx, hagg]
  unfold E3 W3
  simp only [ref1, agg1, at15, host1_v93_apply (W2 m c), host1_v91_apply (W2 m c), host1_v94_apply (W2 m c), host1_v95_apply (W2 m c), host1_v96_apply (W2 m c), host1_v97_apply (W2 m c), host1_v98_apply (W2 m c), host1_v92_apply (W2 m c), host1_v99_apply (W2 m c), host1_v100_apply (W2 m c), host1_v101_apply (W2 m c), host1_v102_apply (W2 m c), host1_v103_apply (W2 m c),
    w2_v m c main_arg11, v1_arg m c main_arg11, w2_v m c main_arg3, v1_arg m c main_arg3, w2_v m c main_arg4, v1_arg m c main_arg4, w2_v m c main_arg5, v1_arg m c main_arg5, w2_v m c main_arg6, v1_arg m c main_arg6, w2_v m c main_arg7, v1_arg m c main_arg7, w2_v m c main_arg8, v1_arg m c main_arg8, w2_v m c main_arg9, v1_arg m c main_arg9, w2_v m c main_arg10, v1_arg m c main_arg10, w2_v m c main_arg12, v1_arg m c main_arg12, w2_v m c main_arg13, v1_arg m c main_arg13, w2_v m c main_arg14, v1_arg m c main_arg14, w2_v m c main_arg15, v1_arg m c main_arg15]

theorem val3 (c : Dev nD) : x3 m c = ref3 m c := by
  unfold x3 ref3 at15
  rw [arr2 (E5 m) c, Cert.ReferenceIdeal.Hand.layer2_ref]
  have hx : E5 m c main_v104 = ref2 m c := by
    show W5 m c main_v104 = _
    rw [w5_of m c main_v104 (by decide), w4_self, val2]
  have hagg : E5 m c main_v114 = agg2 m c := by
    show StableHlo.after hostOps2 (W4 m c) main_v114 = _
    rw [host2_v114, w4_self, val2, w4_v m c main_v1, w4_v m c main_v3, v1_src, v1_dst, aggK_eq, ref_agg2]
  funext i
  unfold G2 Cert.Spec.layer
  rw [hx, hagg]
  unfold E5 W5
  simp only [ref2, agg2, at15, host2_v143_apply (W4 m c), host2_v141_apply (W4 m c), host2_v144_apply (W4 m c), host2_v145_apply (W4 m c), host2_v146_apply (W4 m c), host2_v147_apply (W4 m c), host2_v148_apply (W4 m c), host2_v142_apply (W4 m c), host2_v149_apply (W4 m c), host2_v150_apply (W4 m c), host2_v151_apply (W4 m c), host2_v152_apply (W4 m c), host2_v153_apply (W4 m c),
    w4_v m c main_arg11, v1_arg m c main_arg11, w4_v m c main_arg3, v1_arg m c main_arg3, w4_v m c main_arg4, v1_arg m c main_arg4, w4_v m c main_arg5, v1_arg m c main_arg5, w4_v m c main_arg6, v1_arg m c main_arg6, w4_v m c main_arg7, v1_arg m c main_arg7, w4_v m c main_arg8, v1_arg m c main_arg8, w4_v m c main_arg9, v1_arg m c main_arg9, w4_v m c main_arg10, v1_arg m c main_arg10, w4_v m c main_arg12, v1_arg m c main_arg12, w4_v m c main_arg13, v1_arg m c main_arg13, w4_v m c main_arg14, v1_arg m c main_arg14, w4_v m c main_arg15, v1_arg m c main_arg15]

theorem val_res (c : Dev nD) : res m c = val_main_v283 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) := by
  unfold res
  rw [arr3 (E7 m) c, Cert.ReferenceIdeal.Hand.head_ref]
  have hx : E7 m c main_v154 = ref3 m c := by
    show W7 m c main_v154 = _
    rw [w7_of m c main_v154 (by decide), w6_self, val3]
  have hb : ∀ n : Fin 500000, E7 m c main_v4 (ix2 n 0) = arg m c main_arg2 (ix1 n) := fun n => by
    show W7 m c main_v4 (ix2 n 0) = _
    rw [w7_of m c main_v4 (by decide), w6_v m c main_v4]
    exact host0_v4_apply (Gen.V0 m c) n
  have hpool : ∀ (g : Fin 1024) (a : Fin 9), poolAt (E7 m c main_v154) (E7 m c main_v4) g a
      = Cert.Spec.pool (ref3 m c) (arg m c main_arg2) (ix2 g a) := by
    intro g a
    unfold poolAt Cert.Spec.pool
    rw [hx]
    refine Finset.sum_congr rfl fun n _ => ?_
    rw [hb n]
  funext i
  obtain ⟨g, o, rfl⟩ : ∃ (g : Fin 1024) (o : Fin 2), i = ix2 g o := ⟨i 0, i 1, eq_ix2 i⟩
  rw [G3_at (E7 m) c (ix2 g o) g o rfl rfl]
  unfold Cert.Spec.head
  simp only [hpool]
  unfold E7 W7
  simp only [ref3, at15, host3_v155_apply (W6 m c), host3_v158_apply (W6 m c), host3_v159_apply (W6 m c), host3_v160_apply (W6 m c), host3_v161_apply (W6 m c), host3_v162_apply (W6 m c), host3_v156_apply (W6 m c), host3_v163_apply (W6 m c), host3_v157_apply (W6 m c), host3_v164_apply (W6 m c),
    w6_v m c main_arg16, v1_arg m c main_arg16, w6_v m c main_arg17, v1_arg m c main_arg17, w6_v m c main_arg18, v1_arg m c main_arg18, w6_v m c main_arg19, v1_arg m c main_arg19, w6_v m c main_arg20, v1_arg m c main_arg20, w6_v m c main_arg21, v1_arg m c main_arg21, w6_v m c main_arg22, v1_arg m c main_arg22, w6_v m c main_arg23, v1_arg m c main_arg23, w6_v m c main_arg24, v1_arg m c main_arg24, w6_v m c main_arg25, v1_arg m c main_arg25]

end Cert.KernelIdeal.Hand

end
-- ==== Proof.Ref.RunLib.lean ====
import proofs.«418735_j49933289783480_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem writes_sub {W : List (Ref sig .tc)} {op : HloOp τ sig (Elt F)} (y : Ref sig .tc)
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18,
   main_arg19, main_arg20, main_arg21, main_arg22, main_arg23, main_arg24, main_arg25]

theorem keeps_args {l : List (HloOp τ sig (Elt F))} {W : List (Ref sig .tc)}
    (hW : l.Forall fun op => op.writes ⊆ (W.map (Proc.devRef (τ := τ) .tc)).toFinset)
    (hd : ∀ r ∈ argRefs, r ∉ W) (V : Valuation τ sig (Elt F)) :
    ∀ r ∈ argRefs, after l V (r : DevRef τ sig) = V (r : DevRef τ sig) :=
  fun r hr => after_of_writes_sub l V hW (hd r hr)

end Cert.ReferenceIdeal.Hand

end
-- ==== Proof.Ref.RunChunks.lean ====
/- A table, no argument: the reference program's 318 host operations (a called function's operations in its call's
   place) as eleven consecutive chunks c0 … c10, cut at operations 28, 62, 96, 124, 152, 188, 217, 250, 280, 314, so
   that each printed window of @main is two chunks and the last window one. Per chunk: the tuple of its operations'
   facts that every buffer touched is a TensorCore reference; the list of the references its operations write, in
   order; and, one row per operation, that the operation's one written buffer is a member of that list. -/
import proofs.«418735_j49933289783480_1_alg».proof.Proof.Ref.RunLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 28 of 318. -/
abbrev c0 : List (HloOp τ sig (Elt F)) :=
  [ unary main_arg1 main_v0 ((extractStridedSlice S1x16000000 ![0, 0] · slices_S2x16000000_S1x16000000_0_0) : (⟨S2x16000000, .i32⟩ : BufTy).Contents (Elt F) → (⟨S1x16000000, .i32⟩ : BufTy).Contents (Elt F)),
    reshape main_v0 main_v1 rfl shapeCasts_S1x16000000_S16000000,
    unary main_arg1 main_v2 ((extractStridedSlice S1x16000000 ![1, 0] · slices_S2x16000000_S1x16000000_1_0) : (⟨S2x16000000, .i32⟩ : BufTy).Contents (Elt F) → (⟨S1x16000000, .i32⟩ : BufTy).Contents (Elt F)),
    reshape main_v2 main_v3 rfl shapeCasts_S1x16000000_S16000000,
    nullary main_c (constantI S_ 32 0#32),
    unary main_c main_v4 (broadcastInDim S16000000 ![] bcast_S_S16000000 : (⟨S_, .i32⟩ : BufTy).Contents (Elt F) → (⟨S16000000, .i32⟩ : BufTy).Contents (Elt F)),
    binary main_v1 main_v4 main_v5 (cmpi .slt : (⟨S16000000, .i32⟩ : BufTy).Contents (Elt F) → (⟨S16000000, .i32⟩ : BufTy).Contents (Elt F) → (⟨S16000000, .i1⟩ : BufTy).Contents (Elt F)),
    nullary main_c_0 (constantI S_ 32 500000#32),
    unary main_c_0 main_v6 (broadcastInDim S16000000 ![] bcast_S_S16000000 : (⟨S_, .i32⟩ : BufTy).Contents (Elt F) → (⟨S16000000, .i32⟩ : BufTy).Contents (Elt F)),
    binary main_v1 main_v6 main_v7 (addi : (⟨S16000000, .i32⟩ : BufTy).Contents (Elt F) → (⟨S16000000, .i32⟩ : BufTy).Contents (Elt F) → (⟨S16000000, .i32⟩ : BufTy).Contents (Elt F)),
    ternary main_v5 main_v7 main_v1 main_v8 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    unary main_v8 main_v9 (broadcastInDim S16000000x1 ![0] bcast_S16000000_S16000000x1_0 : (⟨S16000000, .i32⟩ : BufTy).Contents (Elt F) → (⟨S16000000x1, .i32⟩ : BufTy).Contents (Elt F)),
    binary main_arg0 main_v9 main_v10 ((fun x i => Host.gather gather_S500000x9_S16000000x1_S16000000x9_1_0_n_n_0_1_19 x i) : (⟨S500000x9, .f32⟩ : BufTy).Contents (Elt F) → (⟨S16000000x1, .i32⟩ : BufTy).Contents (Elt F) → (⟨S16000000x9, .f32⟩ : BufTy).Contents (Elt F)),
    nullary main_cst (constant S_ .f32 0x00000000#32),
    unary main_cst main_v11 (broadcastInDim S500000x9 ![] bcast_S_S500000x9 : (⟨S_, .f32⟩ : BufTy).Contents (Elt F) → (⟨S500000x9, .f32⟩ : BufTy).Contents (Elt F)),
    unary main_v3 main_v12 (broadcastInDim S16000000x1 ![0] bcast_S16000000_S16000000x1_0 : (⟨S16000000, .i32⟩ : BufTy).Contents (Elt F) → (⟨S16000000x1, .i32⟩ : BufTy).Contents (Elt F)),
    ternary main_v11 main_v12 main_v10 main_v13 ((fun x i u => Host.scatterAdd scatter_S500000x9_S16000000x1_S16000000x9_1_0_0_1 x i u) : (⟨S500000x9, .f32⟩ : BufTy).Contents (Elt F) → (⟨S16000000x1, .i32⟩ : BufTy).Contents (Elt F) → (⟨S16000000x9, .f32⟩ : BufTy).Contents (Elt F) → (⟨S500000x9, .f32⟩ : BufTy).Contents (Elt F)),
    unary main_arg11 main_v14 ((extractStridedSlice S1 ![0] · slices_S3_S1_0) : (⟨S3, .f32⟩ : BufTy).Contents (Elt F) → (⟨S1, .f32⟩ : BufTy).Contents (Elt F)),
    reshape main_v14 main_v15 rfl shapeCasts_S1_S_,
    nullary main_cst_1 (constant S_ .f32 0x3F800000#32),
    binary main_cst_1 main_v15 main_v16 (addf : (⟨S_, .f32⟩ : BufTy).Contents (Elt F) → (⟨S_, .f32⟩ : BufTy).Contents (Elt F) → (⟨S_, .f32⟩ : BufTy).Contents (Elt F)),
    unary main_v16 main_v17 (broadcastInDim S500000x9 ![] bcast_S_S500000x9 : (⟨S_, .f32⟩ : BufTy).Contents (Elt F) → (⟨S500000x9, .f32⟩ : BufTy).Contents (Elt F)),
    binary main_v17 main_arg0 main_v18 (mulf : (⟨S500000x9, .f32⟩ : BufTy).Contents (Elt F) → (⟨S500000x9, .f32⟩ : BufTy).Contents (Elt F) → (⟨S500000x9, .f32⟩ : BufTy).Contents (Elt F)),
    binary main_v18 main_v13 main_v19 (addf : (⟨S500000x9, .f32⟩ : BufTy).Contents (Elt F) → (⟨S500000x9, .f32⟩ : BufTy).Contents (Elt F) → (⟨S500000x9, .f32⟩ : BufTy).Contents (Elt F)),
    unary main_arg3 main_v20 ((extractStridedSlice S1x18x9 ![0, 0, 0] · slices_S3x18x9_S1x18x9_0_0_0) : (⟨S3x18x9, .f32⟩ : BufTy).Contents (Elt F) → (⟨S1x18x9, .f32⟩ : BufTy).Contents (Elt F)),
    reshape main_v20 main_v21 rfl shapeCasts_S1x18x9_S18x9,
    unary main_v21 main_v22 ((transpose S9x18 [1, 0] · transposes_S18x9_S9x18_1_0) : (⟨S18x9, .f32⟩ : BufTy).Contents (Elt F) → (⟨S9x18, .f32⟩ : BufTy).Contents (Elt F)),
    binary main_v19 main_v22 main_v23 ((fun l r => Host.dotGeneral dot_S500000x9_S9x18_S500000x18_1_0_0_1_n_n none l r) : (⟨S500000x9, .f32⟩ : BufTy).Contents (Elt F) → (⟨S9x18, .f32⟩ : BufTy).Contents (Elt F) → (⟨S500000x18, .f32⟩ : BufTy).Contents (Elt F)) ]

theorem c0_sub : (c0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., unary_bufs_sub .., binary_bufs_sub ..⟩

/-- The references chunk 0 writes, in order. -/
abbrev c0_W : List (Ref sig .tc) := [main_v0, main_v1, main_v2, main_v3, main_c, main_v4, main_v5, main_c_0, main_v6, main_v7, main_v8, main_v9, main_v10, main_cst, main_v11, main_v12, main_v13, main_v14, main_v15, main_cst_1, main_v16, main_v17, main_v18, main_v19, main_v20, main_v21, main_v22, main_v23]

theorem c0_writes : (c0 : List (HloOp τ sig (Elt F))).Forall fun op =>
    op.writes ⊆ (c0_W.map (Proc.devRef (τ := τ) .tc)).toFinset :=
  ⟨writes_sub main_v0 rfl (by decide),
   writes_sub main_v1 rfl (by decide),
   writes_sub main_v2 rfl (by decide),
   writes_sub main_v3 rfl (by decide),
   writes_sub main_c rfl (by decide),
   writes_sub main_v4 rfl (by decide),
   writes_sub main_v5 rfl (by decide),
   writes_sub main_c_0 rfl (by decide),
   writes_sub main_v6 rfl (by decide),
   writes_sub main_v7 rfl (by decide),
   writes_sub main_v8 rfl (by decide),
   writes_sub main_v9 rfl (by decide),
   writes_sub main_v10 rfl (by decide),
   writes_sub main_cst rfl (by decide),
   writes_sub main_v11 rfl (by decide),
   writes_sub main_v12 rfl (by decide),
   writes_sub main_v13 rfl (by decide),
   writes_sub main_v14 rfl (by decide),
   writes_sub main_v15 rfl (by decide),
   writes_sub main_cst_1 rfl (by decide),
   writes_sub main_v16 rfl (by decide),
   writes_sub main_v17 rfl (by decide),
   writes_sub main_v18 rfl (by decide),
   writes_sub main_v19 rfl (by decide),
   writes_sub main_v20 rfl (by decide),
   writes_sub main_v21 rfl (by decide),
   writes_sub main_v22 rfl (by decide),
   writes_sub main_v23 rfl (by decide)⟩

/-- Operations 29 … 62 of 318. -/
abbrev c1 : List (HloOp τ sig (Elt F)) :=
  [ unary main_arg4 main_v24 ((extractStridedSlice S1x18 ![0, 0] · slices_S3x18_S1x18_0_0) : (⟨S3x18, .f32⟩ : BufTy).Contents (Elt F) → (⟨S1x18, .f32⟩ : BufTy).Contents (Elt F)),
    reshape main_v24 main_v25 rfl shapeCasts_S1x18_S18,
    unary main_v25 main_v26 (broadcastInDim S1x18 ![1] bcast_S18_S1x18_1 : (⟨S18, .f32⟩ : BufTy).Contents (Elt F) → (⟨S1x18, .f32⟩ : BufTy).Contents (Elt F)),
    unary main_v26 main_v27 (broadcastInDim S500000x18 ![0, 1] bcast_S1x18_S500000x18_0_1 : (⟨S1x18, .f32⟩ : BufTy).Contents (Elt F) → (⟨S500000x18, .f32⟩ : BufTy).Contents (Elt F)),
    binary main_v23 main_v27 main_v28 (addf : (⟨S500000x18, .f32⟩ : BufTy).Contents (Elt F) → (⟨S500000x18, .f32⟩ : BufTy).Contents (Elt F) → (⟨S500000x18, .f32⟩ : BufTy).Contents (Elt F)),
    unary main_arg5 main_v29 ((extractStridedSlice S1x18 ![0, 0] · slices_S3x18_S1x18_0_0) : (⟨S3x18, .f32⟩ : BufTy).Contents (Elt F) → (⟨S1x18, .f32⟩ : BufTy).Contents (Elt F)),
    reshape main_v29 main_v30 rfl shapeCasts_S1x18_S18,
    unary main_arg6 main_v31 ((extractStridedSlice S1x18 ![0, 0] · slices_S3x18_S1x18_0_0) : (⟨S3x18, .f32⟩ : BufTy).Contents (Elt F) → (⟨S1x18, .f32⟩ : BufTy).Contents (Elt F)),
    reshape main_v31 main_v32 rfl shapeCasts_S1x18_S18,
    unary main_arg7 main_v33 ((extractStridedSlice S1x18 ![0, 0] · slices_S3x18_S1x18_0_0) : (⟨S3x18, .f32⟩ : BufTy).Contents (Elt F) → (⟨S1x18, .f32⟩ : BufTy).Contents (Elt F)),
    reshape main_v33 main_v34 rfl shapeCasts_S1x18_S18,
    unary main_arg8 main_v35 ((extractStridedSlice S1x18 ![0, 0] · slices_S3x18_S1x18_0_0) : (⟨S3x18, .f32⟩ : BufTy).Contents (Elt F) → (⟨S1x18, .f32⟩ : BufTy).Contents (Elt F)),
    reshape main_v35 main_v36 rfl shapeCasts_S1x18_S18,
    unary main_v34 main_v37 (broadcastInDim S1x18 ![1] bcast_S18_S1x18_1 : (⟨S18, .f32⟩ : BufTy).Contents (Elt F) → (⟨S1x18, .f32⟩ : BufTy).Contents (Elt F)),
    unary main_v37 main_v38 (broadcastInDim S500000x18 ![0, 1] bcast_S1x18_S500000x18_0_1 : (⟨S1x18, .f32⟩ : BufTy).Contents (Elt F) → (⟨S500000x18, .f32⟩ : BufTy).Contents (Elt F)),
    binary main_v28 main_v38 main_v39 (subf : (⟨S500000x18, .f32⟩ : BufTy).Contents (Elt F) → (⟨S500000x18, .f32⟩ : BufTy).Contents (Elt F) → (⟨S500000x18, .f32⟩ : BufTy).Contents (Elt F)),
    nullary main_cst_2 (constant S_ .f32 0x3727C5AC#32),
    unary main_cst_2 main_v40 (broadcastInDim S18 ![] bcast_S_S18 : (⟨S_, .f32⟩ : BufTy).Contents (Elt F) → (⟨S18, .f32⟩ : BufTy).Contents (Elt F)),
    binary main_v36 main_v40 main_v41 (addf : (⟨S18, .f32⟩ : BufTy).Contents (Elt F) → (⟨S18, .f32⟩ : BufTy).Contents (Elt F) → (⟨S18, .f32⟩ : BufTy).Contents (Elt F)),
    unary main_v41 main_v42 (Host.rsqrt : (⟨S18, .f32⟩ : BufTy).Contents (Elt F) → (⟨S18, .f32⟩ : BufTy).Contents (Elt F)),
    unary main_v42 main_v43 (broadcastInDim S1x18 ![1] bcast_S18_S1x18_1 : (⟨S18, .f32⟩ : BufTy).Contents (Elt F) → (⟨S1x18, .f32⟩ : BufTy).Contents (Elt F)),
    unary main_v43 main_v44 (broadcastInDim S500000x18 ![0, 1] bcast_S1x18_S500000x18_0_1 : (⟨S1x18, .f32⟩ : BufTy).Contents (Elt F) → (⟨S500000x18, .f32⟩ : BufTy).Contents (Elt F)),
    binary main_v39 main_v44 main_v45 (mulf : (⟨S500000x18, .f32⟩ : BufTy).Contents (Elt F) → (⟨S500000x18, .f32⟩ : BufTy).Contents (Elt F) → (⟨S500000x18, .f32⟩ : BufTy).Contents (Elt F)),
    unary main_v30 main_v46 (broadcastInDim S1x18 ![1] bcast_S18_S1x18_1 : (⟨S18, .f32⟩ : BufTy).Contents (Elt F) → (⟨S1x18, .f32⟩ : BufTy).Contents (Elt F)),
    unary main_v46 main_v47 (broadcastInDim S500000x18 ![0, 1] bcast_S1x18_S500000x18_0_1 : (⟨S1x18, .f32⟩ : BufTy).Contents (Elt F) → (⟨S500000x18, .f32⟩ : BufTy).Contents (Elt F)),
    binary main_v45 main_v47 main_v48 (mulf : (⟨S500000x18, .f32⟩ : BufTy).Contents (Elt F) → (⟨S500000x18, .f32⟩ : BufTy).Contents (Elt F) → (⟨S500000x18, .f32⟩ : BufTy).Contents (Elt F)),
    unary main_v32 main_v49 (broadcastInDim S1x18 ![1] bcast_S18_S1x18_1 : (⟨S18, .f32⟩ : BufTy).Contents (Elt F) → (⟨S1x18, .f32⟩ : BufTy).Contents (Elt F)),
    unary main_v49 main_v50 (broadcastInDim S500000x18 ![0, 1] bcast_S1x18_S500000x18_0_1 : (⟨S1x18, .f32⟩ : BufTy).Contents (Elt F) → (⟨S500000x18, .f32⟩ : BufTy).Contents (Elt F)),
    binary main_v48 main_v50 main_v51 (addf : (⟨S500000x18, .f32⟩ : BufTy).Contents (Elt F) → (⟨S500000x18, .f32⟩ : BufTy).Contents (Elt F) → (⟨S500000x18, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S500000x18, .f32⟩) main_call0_v0) (broadcastInDim S500000x18 ![] bcast_S_S500000x18),
    TRef.binary (TRef.of (T := ⟨S500000x18, .f32⟩) main_v51) (TRef.of (T := ⟨S500000x18, .f32⟩) main_call0_v0) (TRef.of (T := ⟨S500000x18, .f32⟩) main_v52) maximumf,
    unary main_arg9 main_v53 ((extractStridedSlice S1x9x18 ![0, 0, 0] · slices_S3x9x18_S1x9x18_0_0_0) : (⟨S3x9x18, .f32⟩ : BufTy).Contents (Elt F) → (⟨S1x9x18, .f32⟩ : BufTy).Contents (Elt F)),
    reshape main_v53 main_v54 rfl shapeCasts_S1x9x18_S9x18 ]

theorem c1_sub : (c1 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub ..⟩

/-- The references chunk 1 writes, in order. -/
abbrev c1_W : List (Ref sig .tc) := [main_v24, main_v25, main_v26, main_v27, main_v28, main_v29, main_v30, main_v31, main_v32, main_v33, main_v34, main_v35, main_v36, main_v37, main_v38, main_v39, main_cst_2, main_v40, main_v41, main_v42, main_v43, main_v44, main_v45, main_v46, main_v47, main_v48, main_v49, main_v50, main_v51, main_call0_cst, main_call0_v0, main_v52, main_v53, main_v54]

theorem c1_writes : (c1 : List (HloOp τ sig (Elt F))).Forall fun op =>
    op.writes ⊆ (c1_W.map (Proc.devRef (τ := τ) .tc)).toFinset :=
  ⟨writes_sub main_v24 rfl (by decide),
   writes_sub main_v25 rfl (by decide),
   writes_sub main_v26 rfl (by decide),
   writes_sub main_v27 rfl (by decide),
   writes_sub main_v28 rfl (by decide),
   writes_sub main_v29 rfl (by decide),
   writes_sub main_v30 rfl (by decide),
   writes_sub main_v31 rfl (by decide),
   writes_sub main_v32 rfl (by decide),
   writes_sub main_v33 rfl (by decide),
   writes_sub main_v34 rfl (by decide),
   writes_sub main_v35 rfl (by decide),
   writes_sub main_v36 rfl (by decide),
   writes_sub main_v37 rfl (by decide),
   writes_sub main_v38 rfl (by decide),
   writes_sub main_v39 rfl (by decide),
   writes_sub main_cst_2 rfl (by decide),
   writes_sub main_v40 rfl (by decide),
   writes_sub main_v41 rfl (by decide),
   writes_sub main_v42 rfl (by decide),
   writes_sub main_v43 rfl (by decide),
   writes_sub main_v44 rfl (by decide),
   writes_sub main_v45 rfl (by decide),
   writes_sub main_v46 rfl (by decide),
   writes_sub main_v47 rfl (by decide),
   writes_sub main_v48 rfl (by decide),
   writes_sub main_v49 rfl (by decide),
   writes_sub main_v50 rfl (by decide),
   writes_sub main_v51 rfl (by decide),
   writes_sub main_call0_cst rfl (by decide),
   writes_sub main_call0_v0 rfl (by decide),
   writes_sub main_v52 rfl (by decide),
   writes_sub main_v53 rfl (by decide),
   writes_sub main_v54 rfl (by decide)⟩

/-- Operations 63 … 96 of 318. -/
abbrev c2 : List (HloOp τ sig (Elt F)) :=
  [ unary main_v54 main_v55 ((transpose S18x9 [1, 0] · transposes_S9x18_S18x9_1_0) : (⟨S9x18, .f32⟩ : BufTy).Contents (Elt F) → (⟨S18x9, .f32⟩ : BufTy).Contents (Elt F)),
    binary main_v52 main_v55 main_v56 ((fun l r => Host.dotGeneral dot_S500000x18_S18x9_S500000x9_1_0_0_1_n_n none l r) : (⟨S500000x18, .f32⟩ : BufTy).Contents (Elt F) → (⟨S18x9, .f32⟩ : BufTy).Contents (Elt F) → (⟨S500000x9, .f32⟩ : BufTy).Contents (Elt F)),
    unary main_arg10 main_v57 ((extractStridedSlice S1x9 ![0, 0] · slices_S3x9_S1x9_0_0) : (⟨S3x9, .f32⟩ : BufTy).Contents (Elt F) → (⟨S1x9, .f32⟩ : BufTy).Contents (Elt F)),
    reshape main_v57 main_v58 rfl shapeCasts_S1x9_S9,
    unary main_v58 main_v59 (broadcastInDim S1x9 ![1] bcast_S9_S1x9_1 : (⟨S9, .f32⟩ : BufTy).Contents (Elt F) → (⟨S1x9, .f32⟩ : BufTy).Contents (Elt F)),
    unary main_v59 main_v60 (broadcastInDim S500000x9 ![0, 1] bcast_S1x9_S500000x9_0_1 : (⟨S1x9, .f32⟩ : BufTy).Contents (Elt F) → (⟨S500000x9, .f32⟩ : BufTy).Contents (Elt F)),
    binary main_v56 main_v60 main_v61 (addf : (⟨S500000x9, .f32⟩ : BufTy).Contents (Elt F) → (⟨S500000x9, .f32⟩ : BufTy).Contents (Elt F) → (⟨S500000x9, .f32⟩ : BufTy).Contents (Elt F)),
    unary main_arg12 main_v62 ((extractStridedSlice S1x9 ![0, 0] · slices_S3x9_S1x9_0_0) : (⟨S3x9, .f32⟩ : BufTy).Contents (Elt F) → (⟨S1x9, .f32⟩ : BufTy).Contents (Elt F)),
    reshape main_v62 main_v63 rfl shapeCasts_S1x9_S9,
    unary main_arg13 main_v64 ((extractStridedSlice S1x9 ![0, 0] · slices_S3x9_S1x9_0_0) : (⟨S3x9, .f32⟩ : BufTy).Contents (Elt F) → (⟨S1x9, .f32⟩ : BufTy).Contents (Elt F)),
    reshape main_v64 main_v65 rfl shapeCasts_S1x9_S9,
    unary main_arg14 main_v66 ((extractStridedSlice S1x9 ![0, 0] · slices_S3x9_S1x9_0_0) : (⟨S3x9, .f32⟩ : BufTy).Contents (Elt F) → (⟨S1x9, .f32⟩ : BufTy).Contents (Elt F)),
    reshape main_v66 main_v67 rfl shapeCasts_S1x9_S9,
    unary main_arg15 main_v68 ((extractStridedSlice S1x9 ![0, 0] · slices_S3x9_S1x9_0_0) : (⟨S3x9, .f32⟩ : BufTy).Contents (Elt F) → (⟨S1x9, .f32⟩ : BufTy).Contents (Elt F)),
    reshape main_v68 main_v69 rfl shapeCasts_S1x9_S9,
    unary main_v67 main_v70 (broadcastInDim S1x9 ![1] bcast_S9_S1x9_1 : (⟨S9, .f32⟩ : BufTy).Contents (Elt F) → (⟨S1x9, .f32⟩ : BufTy).Contents (Elt F)),
    unary main_v70 main_v71 (broadcastInDim S500000x9 ![0, 1] bcast_S1x9_S500000x9_0_1 : (⟨S1x9, .f32⟩ : BufTy).Contents (Elt F) → (⟨S500000x9, .f32⟩ : BufTy).Contents (Elt F)),
    binary main_v61 main_v71 main_v72 (subf : (⟨S500000x9, .f32⟩ : BufTy).Contents (Elt F) → (⟨S500000x9, .f32⟩ : BufTy).Contents (Elt F) → (⟨S500000x9, .f32⟩ : BufTy).Contents (Elt F)),
    nullary main_cst_3 (constant S_ .f32 0x3727C5AC#32),
    unary main_cst_3 main_v73 (broadcastInDim S9 ![] bcast_S_S9 : (⟨S_, .f32⟩ : BufTy).Contents (Elt F) → (⟨S9, .f32⟩ : BufTy).Contents (Elt F)),
    binary main_v69 main_v73 main_v74 (addf : (⟨S9, .f32⟩ : BufTy).Contents (Elt F) → (⟨S9, .f32⟩ : BufTy).Contents (Elt F) → (⟨S9, .f32⟩ : BufTy).Contents (Elt F)),
    unary main_v74 main_v75 (Host.rsqrt : (⟨S9, .f32⟩ : BufTy).Contents (Elt F) → (⟨S9, .f32⟩ : BufTy).Contents (Elt F)),
    unary main_v75 main_v76 (broadcastInDim S1x9 ![1] bcast_S9_S1x9_1 : (⟨S9, .f32⟩ : BufTy).Contents (Elt F) → (⟨S1x9, .f32⟩ : BufTy).Contents (Elt F)),
    unary main_v76 main_v77 (broadcastInDim S500000x9 ![0, 1] bcast_S1x9_S500000x9_0_1 : (⟨S1x9, .f32⟩ : BufTy).Contents (Elt F) → (⟨S500000x9, .f32⟩ : BufTy).Contents (Elt F)),
    binary main_v72 main_v77 main_v78 (mulf : (⟨S500000x9, .f32⟩ : BufTy).Contents (Elt F) → (⟨S500000x9, .f32⟩ : BufTy).Contents (Elt F) → (⟨S500000x9, .f32⟩ : BufTy).Contents (Elt F)),
    unary main_v63 main_v79 (broadcastInDim S1x9 ![1] bcast_S9_S1x9_1 : (⟨S9, .f32⟩ : BufTy).Contents (Elt F) → (⟨S1x9, .f32⟩ : BufTy).Contents (Elt F)),
    unary main_v79 main_v80 (broadcastInDim S500000x9 ![0, 1] bcast_S1x9_S500000x9_0_1 : (⟨S1x9, .f32⟩ : BufTy).Contents (Elt F) → (⟨S500000x9, .f32⟩ : BufTy).Contents (Elt F)),
    binary main_v78 main_v80 main_v81 (mulf : (⟨S500000x9, .f32⟩ : BufTy).Contents (Elt F) → (⟨S500000x9, .f32⟩ : BufTy).Contents (Elt F) → (⟨S500000x9, .f32⟩ : BufTy).Contents (Elt F)),
    unary main_v65 main_v82 (broadcastInDim S1x9 ![1] bcast_S9_S1x9_1 : (⟨S9, .f32⟩ : BufTy).Contents (Elt F) → (⟨S1x9, .f32⟩ : BufTy).Contents (Elt F)),
    unary main_v82 main_v83 (broadcastInDim S500000x9 ![0, 1] bcast_S1x9_S500000x9_0_1 : (⟨S1x9, .f32⟩ : BufTy).Contents (Elt F) → (⟨S500000x9, .f32⟩ : BufTy).Contents (Elt F)),
    binary main_v81 main_v83 main_v84 (addf : (⟨S500000x9, .f32⟩ : BufTy).Contents (Elt F) → (⟨S500000x9, .f32⟩ : BufTy).Contents (Elt F) → (⟨S500000x9, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x9, .f32⟩) main_call1_v0) (broadcastInDim S500000x9 ![] bcast_S_S500000x9),
    TRef.binary (TRef.of (T := ⟨S500000x9, .f32⟩) main_v84) (TRef.of (T := ⟨S500000x9, .f32⟩) main_call1_v0) (TRef.of (T := ⟨S500000x9, .f32⟩) main_v85) maximumf ]

theorem c2_sub : (c2 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The references chunk 2 writes, in order. -/
abbrev c2_W : List (Ref sig .tc) := [main_v55, main_v56, main_v57, main_v58, main_v59, main_v60, main_v61, main_v62, main_v63, main_v64, main_v65, main_v66, main_v67, main_v68, main_v69, main_v70, main_v71, main_v72, main_cst_3, main_v73, main_v74, main_v75, main_v76, main_v77, main_v78, main_v79, main_v80, main_v81, main_v82, main_v83, main_v84, main_call1_cst, main_call1_v0, main_v85]

theorem c2_writes : (c2 : List (HloOp τ sig (Elt F))).Forall fun op =>
    op.writes ⊆ (c2_W.map (Proc.devRef (τ := τ) .tc)).toFinset :=
  ⟨writes_sub main_v55 rfl (by decide),
   writes_sub main_v56 rfl (by decide),
   writes_sub main_v57 rfl (by decide),
   writes_sub main_v58 rfl (by decide),
   writes_sub main_v59 rfl (by decide),
   writes_sub main_v60 rfl (by decide),
   writes_sub main_v61 rfl (by decide),
   writes_sub main_v62 rfl (by decide),
   writes_sub main_v63 rfl (by decide),
   writes_sub main_v64 rfl (by decide),
   writes_sub main_v65 rfl (by decide),
   writes_sub main_v66 rfl (by decide),
   writes_sub main_v67 rfl (by decide),
   writes_sub main_v68 rfl (by decide),
   writes_sub main_v69 rfl (by decide),
   writes_sub main_v70 rfl (by decide),
   writes_sub main_v71 rfl (by decide),
   writes_sub main_v72 rfl (by decide),
   writes_sub main_cst_3 rfl (by decide),
   writes_sub main_v73 rfl (by decide),
   writes_sub main_v74 rfl (by decide),
   writes_sub main_v75 rfl (by decide),
   writes_sub main_v76 rfl (by decide),
   writes_sub main_v77 rfl (by decide),
   writes_sub main_v78 rfl (by decide),
   writes_sub main_v79 rfl (by decide),
   writes_sub main_v80 rfl (by decide),
   writes_sub main_v81 rfl (by decide),
   writes_sub main_v82 rfl (by decide),
   writes_sub main_v83 rfl (by decide),
   writes_sub main_v84 rfl (by decide),
   writes_sub main_call1_cst rfl (by decide),
   writes_sub main_call1_v0 rfl (by decide),
   writes_sub main_v85 rfl (by decide)⟩

/-- Operations 97 … 124 of 318. -/
abbrev c3 : List (HloOp τ sig (Elt F)) :=
  [ nullary main_c_4 (constantI S_ 32 0#32),
    unary main_c_4 main_v86 (broadcastInDim S16000000 ![] bcast_S_S16000000 : (⟨S_, .i32⟩ : BufTy).Contents (Elt F) → (⟨S16000000, .i32⟩ : BufTy).Contents (Elt F)),
    binary main_v1 main_v86 main_v87 (cmpi .slt : (⟨S16000000, .i32⟩ : BufTy).Contents (Elt F) → (⟨S16000000, .i32⟩ : BufTy).Contents (Elt F) → (⟨S16000000, .i1⟩ : BufTy).Contents (Elt F)),
    nullary main_c_5 (constantI S_ 32 500000#32),
    unary main_c_5 main_v88 (broadcastInDim S16000000 ![] bcast_S_S16000000 : (⟨S_, .i32⟩ : BufTy).Contents (Elt F) → (⟨S16000000, .i32⟩ : BufTy).Contents (Elt F)),
    binary main_v1 main_v88 main_v89 (addi : (⟨S16000000, .i32⟩ : BufTy).Contents (Elt F) → (⟨S16000000, .i32⟩ : BufTy).Contents (Elt F) → (⟨S16000000, .i32⟩ : BufTy).Contents (Elt F)),
    ternary main_v87 main_v89 main_v1 main_v90 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    unary main_v90 main_v91 (broadcastInDim S16000000x1 ![0] bcast_S16000000_S16000000x1_0 : (⟨S16000000, .i32⟩ : BufTy).Contents (Elt F) → (⟨S16000000x1, .i32⟩ : BufTy).Contents (Elt F)),
    binary main_v85 main_v91 main_v92 ((fun x i => Host.gather gather_S500000x9_S16000000x1_S16000000x9_1_0_n_n_0_1_19 x i) : (⟨S500000x9, .f32⟩ : BufTy).Contents (Elt F) → (⟨S16000000x1, .i32⟩ : BufTy).Contents (Elt F) → (⟨S16000000x9, .f32⟩ : BufTy).Contents (Elt F)),
    nullary main_cst_6 (constant S_ .f32 0x00000000#32),
    unary main_cst_6 main_v93 (broadcastInDim S500000x9 ![] bcast_S_S500000x9 : (⟨S_, .f32⟩ : BufTy).Contents (Elt F) → (⟨S500000x9, .f32⟩ : BufTy).Contents (Elt F)),
    unary main_v3 main_v94 (broadcastInDim S16000000x1 ![0] bcast_S16000000_S16000000x1_0 : (⟨S16000000, .i32⟩ : BufTy).Contents (Elt F) → (⟨S16000000x1, .i32⟩ : BufTy).Contents (Elt F)),
    ternary main_v93 main_v94 main_v92 main_v95 ((fun x i u => Host.scatterAdd scatter_S500000x9_S16000000x1_S16000000x9_1_0_0_1 x i u) : (⟨S500000x9, .f32⟩ : BufTy).Contents (Elt F) → (⟨S16000000x1, .i32⟩ : BufTy).Contents (Elt F) → (⟨S16000000x9, .f32⟩ : BufTy).Contents (Elt F) → (⟨S500000x9, .f32⟩ : BufTy).Contents (Elt F)),
    unary main_arg11 main_v96 ((extractStridedSlice S1 ![1] · slices_S3_S1_1) : (⟨S3, .f32⟩ : BufTy).Contents (Elt F) → (⟨S1, .f32⟩ : BufTy).Contents (Elt F)),
    reshape main_v96 main_v97 rfl shapeCasts_S1_S_,
    nullary main_cst_7 (constant S_ .f32 0x3F800000#32),
    binary main_cst_7 main_v97 main_v98 (addf : (⟨S_, .f32⟩ : BufTy).Contents (Elt F) → (⟨S_, .f32⟩ : BufTy).Contents (Elt F) → (⟨S_, .f32⟩ : BufTy).Contents (Elt F)),
    unary main_v98 main_v99 (broadcastInDim S500000x9 ![] bcast_S_S500000x9 : (⟨S_, .f32⟩ : BufTy).Contents (Elt F) → (⟨S500000x9, .f32⟩ : BufTy).Contents (Elt F)),
    binary main_v99 main_v85 main_v100 (mulf : (⟨S500000x9, .f32⟩ : BufTy).Contents (Elt F) → (⟨S500000x9, .f32⟩ : BufTy).Contents (Elt F) → (⟨S500000x9, .f32⟩ : BufTy).Contents (Elt F)),
    binary main_v100 main_v95 main_v101 (addf : (⟨S500000x9, .f32⟩ : BufTy).Contents (Elt F) → (⟨S500000x9, .f32⟩ : BufTy).Contents (Elt F) → (⟨S500000x9, .f32⟩ : BufTy).Contents (Elt F)),
    unary main_arg3 main_v102 ((extractStridedSlice S1x18x9 ![1, 0, 0] · slices_S3x18x9_S1x18x9_1_0_0) : (⟨S3x18x9, .f32⟩ : BufTy).Contents (Elt F) → (⟨S1x18x9, .f32⟩ : BufTy).Contents (Elt F)),
    reshape main_v102 main_v103 rfl shapeCasts_S1x18x9_S18x9,
    unary main_v103 main_v104 ((transpose S9x18 [1, 0] · transposes_S18x9_S9x18_1_0) : (⟨S18x9, .f32⟩ : BufTy).Contents (Elt F) → (⟨S9x18, .f32⟩ : BufTy).Contents (Elt F)),
    binary main_v101 main_v104 main_v105 ((fun l r => Host.dotGeneral dot_S500000x9_S9x18_S500000x18_1_0_0_1_n_n none l r) : (⟨S500000x9, .f32⟩ : BufTy).Contents (Elt F) → (⟨S9x18, .f32⟩ : BufTy).Contents (Elt F) → (⟨S500000x18, .f32⟩ : BufTy).Contents (Elt F)),
    unary main_arg4 main_v106 ((extractStridedSlice S1x18 ![1, 0] · slices_S3x18_S1x18_1_0) : (⟨S3x18, .f32⟩ : BufTy).Contents (Elt F) → (⟨S1x18, .f32⟩ : BufTy).Contents (Elt F)),
    reshape main_v106 main_v107 rfl shapeCasts_S1x18_S18,
    unary main_v107 main_v108 (broadcastInDim S1x18 ![1] bcast_S18_S1x18_1 : (⟨S18, .f32⟩ : BufTy).Contents (Elt F) → (⟨S1x18, .f32⟩ : BufTy).Contents (Elt F)),
    unary main_v108 main_v109 (broadcastInDim S500000x18 ![0, 1] bcast_S1x18_S500000x18_0_1 : (⟨S1x18, .f32⟩ : BufTy).Contents (Elt F) → (⟨S500000x18, .f32⟩ : BufTy).Contents (Elt F)) ]

theorem c3_sub : (c3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub ..⟩

/-- The references chunk 3 writes, in order. -/
abbrev c3_W : List (Ref sig .tc) := [main_c_4, main_v86, main_v87, main_c_5, main_v88, main_v89, main_v90, main_v91, main_v92, main_cst_6, main_v93, main_v94, main_v95, main_v96, main_v97, main_cst_7, main_v98, main_v99, main_v100, main_v101, main_v102, main_v103, main_v104, main_v105, main_v106, main_v107, main_v108, main_v109]

theorem c3_writes : (c3 : List (HloOp τ sig (Elt F))).Forall fun op =>
    op.writes ⊆ (c3_W.map (Proc.devRef (τ := τ) .tc)).toFinset :=
  ⟨writes_sub main_c_4 rfl (by decide),
   writes_sub main_v86 rfl (by decide),
   writes_sub main_v87 rfl (by decide),
   writes_sub main_c_5 rfl (by decide),
   writes_sub main_v88 rfl (by decide),
   writes_sub main_v89 rfl (by decide),
   writes_sub main_v90 rfl (by decide),
   writes_sub main_v91 rfl (by decide),
   writes_sub main_v92 rfl (by decide),
   writes_sub main_cst_6 rfl (by decide),
   writes_sub main_v93 rfl (by decide),
   writes_sub main_v94 rfl (by decide),
   writes_sub main_v95 rfl (by decide),
   writes_sub main_v96 rfl (by decide),
   writes_sub main_v97 rfl (by decide),
   writes_sub main_cst_7 rfl (by decide),
   writes_sub main_v98 rfl (by decide),
   writes_sub main_v99 rfl (by decide),
   writes_sub main_v100 rfl (by decide),
   writes_sub main_v101 rfl (by decide),
   writes_sub main_v102 rfl (by decide),
   writes_sub main_v103 rfl (by decide),
   writes_sub main_v104 rfl (by decide),
   writes_sub main_v105 rfl (by decide),
   writes_sub main_v106 rfl (by decide),
   writes_sub main_v107 rfl (by decide),
   writes_sub main_v108 rfl (by decide),
   writes_sub main_v109 rfl (by decide)⟩

/-- Operations 125 … 152 of 318. -/
abbrev c4 : List (HloOp τ sig (Elt F)) :=
  [ binary main_v105 main_v109 main_v110 (addf : (⟨S500000x18, .f32⟩ : BufTy).Contents (Elt F) → (⟨S500000x18, .f32⟩ : BufTy).Contents (Elt F) → (⟨S500000x18, .f32⟩ : BufTy).Contents (Elt F)),
    unary main_arg5 main_v111 ((extractStridedSlice S1x18 ![1, 0] · slices_S3x18_S1x18_1_0) : (⟨S3x18, .f32⟩ : BufTy).Contents (Elt F) → (⟨S1x18, .f32⟩ : BufTy).Contents (Elt F)),
    reshape main_v111 main_v112 rfl shapeCasts_S1x18_S18,
    unary main_arg6 main_v113 ((extractStridedSlice S1x18 ![1, 0] · slices_S3x18_S1x18_1_0) : (⟨S3x18, .f32⟩ : BufTy).Contents (Elt F) → (⟨S1x18, .f32⟩ : BufTy).Contents (Elt F)),
    reshape main_v113 main_v114 rfl shapeCasts_S1x18_S18,
    unary main_arg7 main_v115 ((extractStridedSlice S1x18 ![1, 0] · slices_S3x18_S1x18_1_0) : (⟨S3x18, .f32⟩ : BufTy).Contents (Elt F) → (⟨S1x18, .f32⟩ : BufTy).Contents (Elt F)),
    reshape main_v115 main_v116 rfl shapeCasts_S1x18_S18,
    unary main_arg8 main_v117 ((extractStridedSlice S1x18 ![1, 0] · slices_S3x18_S1x18_1_0) : (⟨S3x18, .f32⟩ : BufTy).Contents (Elt F) → (⟨S1x18, .f32⟩ : BufTy).Contents (Elt F)),
    reshape main_v117 main_v118 rfl shapeCasts_S1x18_S18,
    unary main_v116 main_v119 (broadcastInDim S1x18 ![1] bcast_S18_S1x18_1 : (⟨S18, .f32⟩ : BufTy).Contents (Elt F) → (⟨S1x18, .f32⟩ : BufTy).Contents (Elt F)),
    unary main_v119 main_v120 (broadcastInDim S500000x18 ![0, 1] bcast_S1x18_S500000x18_0_1 : (⟨S1x18, .f32⟩ : BufTy).Contents (Elt F) → (⟨S500000x18, .f32⟩ : BufTy).Contents (Elt F)),
    binary main_v110 main_v120 main_v121 (subf : (⟨S500000x18, .f32⟩ : BufTy).Contents (Elt F) → (⟨S500000x18, .f32⟩ : BufTy).Contents (Elt F) → (⟨S500000x18, .f32⟩ : BufTy).Contents (Elt F)),
    nullary main_cst_8 (constant S_ .f32 0x3727C5AC#32),
    unary main_cst_8 main_v122 (broadcastInDim S18 ![] bcast_S_S18 : (⟨S_, .f32⟩ : BufTy).Contents (Elt F) → (⟨S18, .f32⟩ : BufTy).Contents (Elt F)),
    binary main_v118 main_v122 main_v123 (addf : (⟨S18, .f32⟩ : BufTy).Contents (Elt F) → (⟨S18, .f32⟩ : BufTy).Contents (Elt F) → (⟨S18, .f32⟩ : BufTy).Contents (Elt F)),
    unary main_v123 main_v124 (Host.rsqrt : (⟨S18, .f32⟩ : BufTy).Contents (Elt F) → (⟨S18, .f32⟩ : BufTy).Contents (Elt F)),
    unary main_v124 main_v125 (broadcastInDim S1x18 ![1] bcast_S18_S1x18_1 : (⟨S18, .f32⟩ : BufTy).Contents (Elt F) → (⟨S1x18, .f32⟩ : BufTy).Contents (Elt F)),
    unary main_v125 main_v126 (broadcastInDim S500000x18 ![0, 1] bcast_S1x18_S500000x18_0_1 : (⟨S1x18, .f32⟩ : BufTy).Contents (Elt F) → (⟨S500000x18, .f32⟩ : BufTy).Contents (Elt F)),
    binary main_v121 main_v126 main_v127 (mulf : (⟨S500000x18, .f32⟩ : BufTy).Contents (Elt F) → (⟨S500000x18, .f32⟩ : BufTy).Contents (Elt F) → (⟨S500000x18, .f32⟩ : BufTy).Contents (Elt F)),
    unary main_v112 main_v128 (broadcastInDim S1x18 ![1] bcast_S18_S1x18_1 : (⟨S18, .f32⟩ : BufTy).Contents (Elt F) → (⟨S1x18, .f32⟩ : BufTy).Contents (Elt F)),
    unary main_v128 main_v129 (broadcastInDim S500000x18 ![0, 1] bcast_S1x18_S500000x18_0_1 : (⟨S1x18, .f32⟩ : BufTy).Contents (Elt F) → (⟨S500000x18, .f32⟩ : BufTy).Contents (Elt F)),
    binary main_v127 main_v129 main_v130 (mulf : (⟨S500000x18, .f32⟩ : BufTy).Contents (Elt F) → (⟨S500000x18, .f32⟩ : BufTy).Contents (Elt F) → (⟨S500000x18, .f32⟩ : BufTy).Contents (Elt F)),
    unary main_v114 main_v131 (broadcastInDim S1x18 ![1] bcast_S18_S1x18_1 : (⟨S18, .f32⟩ : BufTy).Contents (Elt F) → (⟨S1x18, .f32⟩ : BufTy).Contents (Elt F)),
    unary main_v131 main_v132 (broadcastInDim S500000x18 ![0, 1] bcast_S1x18_S500000x18_0_1 : (⟨S1x18, .f32⟩ : BufTy).Contents (Elt F) → (⟨S500000x18, .f32⟩ : BufTy).Contents (Elt F)),
    binary main_v130 main_v132 main_v133 (addf : (⟨S500000x18, .f32⟩ : BufTy).Contents (Elt F) → (⟨S500000x18, .f32⟩ : BufTy).Contents (Elt F) → (⟨S500000x18, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S500000x18, .f32⟩) main_call2_v0) (broadcastInDim S500000x18 ![] bcast_S_S500000x18),
    TRef.binary (TRef.of (T := ⟨S500000x18, .f32⟩) main_v133) (TRef.of (T := ⟨S500000x18, .f32⟩) main_call2_v0) (TRef.of (T := ⟨S500000x18, .f32⟩) main_v134) maximumf ]

theorem c4_sub : (c4 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The references chunk 4 writes, in order. -/
abbrev c4_W : List (Ref sig .tc) := [main_v110, main_v111, main_v112, main_v113, main_v114, main_v115, main_v116, main_v117, main_v118, main_v119, main_v120, main_v121, main_cst_8, main_v122, main_v123, main_v124, main_v125, main_v126, main_v127, main_v128, main_v129, main_v130, main_v131, main_v132, main_v133, main_call2_cst, main_call2_v0, main_v134]

theorem c4_writes : (c4 : List (HloOp τ sig (Elt F))).Forall fun op =>
    op.writes ⊆ (c4_W.map (Proc.devRef (τ := τ) .tc)).toFinset :=
  ⟨writes_sub main_v110 rfl (by decide),
   writes_sub main_v111 rfl (by decide),
   writes_sub main_v112 rfl (by decide),
   writes_sub main_v113 rfl (by decide),
   writes_sub main_v114 rfl (by decide),
   writes_sub main_v115 rfl (by decide),
   writes_sub main_v116 rfl (by decide),
   writes_sub main_v117 rfl (by decide),
   writes_sub main_v118 rfl (by decide),
   writes_sub main_v119 rfl (by decide),
   writes_sub main_v120 rfl (by decide),
   writes_sub main_v121 rfl (by decide),
   writes_sub main_cst_8 rfl (by decide),
   writes_sub main_v122 rfl (by decide),
   writes_sub main_v123 rfl (by decide),
   writes_sub main_v124 rfl (by decide),
   writes_sub main_v125 rfl (by decide),
   writes_sub main_v126 rfl (by decide),
   writes_sub main_v127 rfl (by decide),
   writes_sub main_v128 rfl (by decide),
   writes_sub main_v129 rfl (by decide),
   writes_sub main_v130 rfl (by decide),
   writes_sub main_v131 rfl (by decide),
   writes_sub main_v132 rfl (by decide),
   writes_sub main_v133 rfl (by decide),
   writes_sub main_call2_cst rfl (by decide),
   writes_sub main_call2_v0 rfl (by decide),
   writes_sub main_v134 rfl (by decide)⟩

/-- Operations 153 … 188 of 318. -/
abbrev c5 : List (HloOp τ sig (Elt F)) :=
  [ unary main_arg9 main_v135 ((extractStridedSlice S1x9x18 ![1, 0, 0] · slices_S3x9x18_S1x9x18_1_0_0) : (⟨S3x9x18, .f32⟩ : BufTy).Contents (Elt F) → (⟨S1x9x18, .f32⟩ : BufTy).Contents (Elt F)),
    reshape main_v135 main_v136 rfl shapeCasts_S1x9x18_S9x18,
    unary main_v136 main_v137 ((transpose S18x9 [1, 0] · transposes_S9x18_S18x9_1_0) : (⟨S9x18, .f32⟩ : BufTy).Contents (Elt F) → (⟨S18x9, .f32⟩ : BufTy).Contents (Elt F)),
    binary main_v134 main_v137 main_v138 ((fun l r => Host.dotGeneral dot_S500000x18_S18x9_S500000x9_1_0_0_1_n_n none l r) : (⟨S500000x18, .f32⟩ : BufTy).Contents (Elt F) → (⟨S18x9, .f32⟩ : BufTy).Contents (Elt F) → (⟨S500000x9, .f32⟩ : BufTy).Contents (Elt F)),
    unary main_arg10 main_v139 ((extractStridedSlice S1x9 ![1, 0] · slices_S3x9_S1x9_1_0) : (⟨S3x9, .f32⟩ : BufTy).Contents (Elt F) → (⟨S1x9, .f32⟩ : BufTy).Contents (Elt F)),
    reshape main_v139 main_v140 rfl shapeCasts_S1x9_S9,
    unary main_v140 main_v141 (broadcastInDim S1x9 ![1] bcast_S9_S1x9_1 : (⟨S9, .f32⟩ : BufTy).Contents (Elt F) → (⟨S1x9, .f32⟩ : BufTy).Contents (Elt F)),
    unary main_v141 main_v142 (broadcastInDim S500000x9 ![0, 1] bcast_S1x9_S500000x9_0_1 : (⟨S1x9, .f32⟩ : BufTy).Contents (Elt F) → (⟨S500000x9, .f32⟩ : BufTy).Contents (Elt F)),
    binary main_v138 main_v142 main_v143 (addf : (⟨S500000x9, .f32⟩ : BufTy).Contents (Elt F) → (⟨S500000x9, .f32⟩ : BufTy).Contents (Elt F) → (⟨S500000x9, .f32⟩ : BufTy).Contents (Elt F)),
    unary main_arg12 main_v144 ((extractStridedSlice S1x9 ![1, 0] · slices_S3x9_S1x9_1_0) : (⟨S3x9, .f32⟩ : BufTy).Contents (Elt F) → (⟨S1x9, .f32⟩ : BufTy).Contents (Elt F)),
    reshape main_v144 main_v145 rfl shapeCasts_S1x9_S9,
    unary main_arg13 main_v146 ((extractStridedSlice S1x9 ![1, 0] · slices_S3x9_S1x9_1_0) : (⟨S3x9, .f32⟩ : BufTy).Contents (Elt F) → (⟨S1x9, .f32⟩ : BufTy).Contents (Elt F)),
    reshape main_v146 main_v147 rfl shapeCasts_S1x9_S9,
    unary main_arg14 main_v148 ((extractStridedSlice S1x9 ![1, 0] · slices_S3x9_S1x9_1_0) : (⟨S3x9, .f32⟩ : BufTy).Contents (Elt F) → (⟨S1x9, .f32⟩ : BufTy).Contents (Elt F)),
    reshape main_v148 main_v149 rfl shapeCasts_S1x9_S9,
    unary main_arg15 main_v150 ((extractStridedSlice S1x9 ![1, 0] · slices_S3x9_S1x9_1_0) : (⟨S3x9, .f32⟩ : BufTy).Contents (Elt F) → (⟨S1x9, .f32⟩ : BufTy).Contents (Elt F)),
    reshape main_v150 main_v151 rfl shapeCasts_S1x9_S9,
    unary main_v149 main_v152 (broadcastInDim S1x9 ![1] bcast_S9_S1x9_1 : (⟨S9, .f32⟩ : BufTy).Contents (Elt F) → (⟨S1x9, .f32⟩ : BufTy).Contents (Elt F)),
    unary main_v152 main_v153 (broadcastInDim S500000x9 ![0, 1] bcast_S1x9_S500000x9_0_1 : (⟨S1x9, .f32⟩ : BufTy).Contents (Elt F) → (⟨S500000x9, .f32⟩ : BufTy).Contents (Elt F)),
    binary main_v143 main_v153 main_v154 (subf : (⟨S500000x9, .f32⟩ : BufTy).Contents (Elt F) → (⟨S500000x9, .f32⟩ : BufTy).Contents (Elt F) → (⟨S500000x9, .f32⟩ : BufTy).Contents (Elt F)),
    nullary main_cst_9 (constant S_ .f32 0x3727C5AC#32),
    unary main_cst_9 main_v155 (broadcastInDim S9 ![] bcast_S_S9 : (⟨S_, .f32⟩ : BufTy).Contents (Elt F) → (⟨S9, .f32⟩ : BufTy).Contents (Elt F)),
    binary main_v151 main_v155 main_v156 (addf : (⟨S9, .f32⟩ : BufTy).Contents (Elt F) → (⟨S9, .f32⟩ : BufTy).Contents (Elt F) → (⟨S9, .f32⟩ : BufTy).Contents (Elt F)),
    unary main_v156 main_v157 (Host.rsqrt : (⟨S9, .f32⟩ : BufTy).Contents (Elt F) → (⟨S9, .f32⟩ : BufTy).Contents (Elt F)),
    unary main_v157 main_v158 (broadcastInDim S1x9 ![1] bcast_S9_S1x9_1 : (⟨S9, .f32⟩ : BufTy).Contents (Elt F) → (⟨S1x9, .f32⟩ : BufTy).Contents (Elt F)),
    unary main_v158 main_v159 (broadcastInDim S500000x9 ![0, 1] bcast_S1x9_S500000x9_0_1 : (⟨S1x9, .f32⟩ : BufTy).Contents (Elt F) → (⟨S500000x9, .f32⟩ : BufTy).Contents (Elt F)),
    binary main_v154 main_v159 main_v160 (mulf : (⟨S500000x9, .f32⟩ : BufTy).Contents (Elt F) → (⟨S500000x9, .f32⟩ : BufTy).Contents (Elt F) → (⟨S500000x9, .f32⟩ : BufTy).Contents (Elt F)),
    unary main_v145 main_v161 (broadcastInDim S1x9 ![1] bcast_S9_S1x9_1 : (⟨S9, .f32⟩ : BufTy).Contents (Elt F) → (⟨S1x9, .f32⟩ : BufTy).Contents (Elt F)),
    unary main_v161 main_v162 (broadcastInDim S500000x9 ![0, 1] bcast_S1x9_S500000x9_0_1 : (⟨S1x9, .f32⟩ : BufTy).Contents (Elt F) → (⟨S500000x9, .f32⟩ : BufTy).Contents (Elt F)),
    binary main_v160 main_v162 main_v163 (mulf : (⟨S500000x9, .f32⟩ : BufTy).Contents (Elt F) → (⟨S500000x9, .f32⟩ : BufTy).Contents (Elt F) → (⟨S500000x9, .f32⟩ : BufTy).Contents (Elt F)),
    unary main_v147 main_v164 (broadcastInDim S1x9 ![1] bcast_S9_S1x9_1 : (⟨S9, .f32⟩ : BufTy).Contents (Elt F) → (⟨S1x9, .f32⟩ : BufTy).Contents (Elt F)),
    unary main_v164 main_v165 (broadcastInDim S500000x9 ![0, 1] bcast_S1x9_S500000x9_0_1 : (⟨S1x9, .f32⟩ : BufTy).Contents (Elt F) → (⟨S500000x9, .f32⟩ : BufTy).Contents (Elt F)),
    binary main_v163 main_v165 main_v166 (addf : (⟨S500000x9, .f32⟩ : BufTy).Contents (Elt F) → (⟨S500000x9, .f32⟩ : BufTy).Contents (Elt F) → (⟨S500000x9, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S500000x9, .f32⟩) main_call3_v0) (broadcastInDim S500000x9 ![] bcast_S_S500000x9),
    TRef.binary (TRef.of (T := ⟨S500000x9, .f32⟩) main_v166) (TRef.of (T := ⟨S500000x9, .f32⟩) main_call3_v0) (TRef.of (T := ⟨S500000x9, .f32⟩) main_v167) maximumf ]

theorem c5_sub : (c5 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The references chunk 5 writes, in order. -/
abbrev c5_W : List (Ref sig .tc) := [main_v135, main_v136, main_v137, main_v138, main_v139, main_v140, main_v141, main_v142, main_v143, main_v144, main_v145, main_v146, main_v147, main_v148, main_v149, main_v150, main_v151, main_v152, main_v153, main_v154, main_cst_9, main_v155, main_v156, main_v157, main_v158, main_v159, main_v160, main_v161, main_v162, main_v163, main_v164, main_v165, main_v166, main_call3_cst, main_call3_v0, main_v167]

theorem c5_writes : (c5 : List (HloOp τ sig (Elt F))).Forall fun op =>
    op.writes ⊆ (c5_W.map (Proc.devRef (τ := τ) .tc)).toFinset :=
  ⟨writes_sub main_v135 rfl (by decide),
   writes_sub main_v136 rfl (by decide),
   writes_sub main_v137 rfl (by decide),
   writes_sub main_v138 rfl (by decide),
   writes_sub main_v139 rfl (by decide),
   writes_sub main_v140 rfl (by decide),
   writes_sub main_v141 rfl (by decide),
   writes_sub main_v142 rfl (by decide),
   writes_sub main_v143 rfl (by decide),
   writes_sub main_v144 rfl (by decide),
   writes_sub main_v145 rfl (by decide),
   writes_sub main_v146 rfl (by decide),
   writes_sub main_v147 rfl (by decide),
   writes_sub main_v148 rfl (by decide),
   writes_sub main_v149 rfl (by decide),
   writes_sub main_v150 rfl (by decide),
   writes_sub main_v151 rfl (by decide),
   writes_sub main_v152 rfl (by decide),
   writes_sub main_v153 rfl (by decide),
   writes_sub main_v154 rfl (by decide),
   writes_sub main_cst_9 rfl (by decide),
   writes_sub main_v155 rfl (by decide),
   writes_sub main_v156 rfl (by decide),
   writes_sub main_v157 rfl (by decide),
   writes_sub main_v158 rfl (by decide),
   writes_sub main_v159 rfl (by decide),
   writes_sub main_v160 rfl (by decide),
   writes_sub main_v161 rfl (by decide),
   writes_sub main_v162 rfl (by decide),
   writes_sub main_v163 rfl (by decide),
   writes_sub main_v164 rfl (by decide),
   writes_sub main_v165 rfl (by decide),
   writes_sub main_v166 rfl (by decide),
   writes_sub main_call3_cst rfl (by decide),
   writes_sub main_call3_v0 rfl (by decide),
   writes_sub main_v167 rfl (by decide)⟩

/-- Operations 189 … 217 of 318. -/
abbrev c6 : List (HloOp τ sig (Elt F)) :=
  [ nullary main_c_10 (constantI S_ 32 0#32),
    unary main_c_10 main_v168 (broadcastInDim S16000000 ![] bcast_S_S16000000 : (⟨S_, .i32⟩ : BufTy).Contents (Elt F) → (⟨S16000000, .i32⟩ : BufTy).Contents (Elt F)),
    binary main_v1 main_v168 main_v169 (cmpi .slt : (⟨S16000000, .i32⟩ : BufTy).Contents (Elt F) → (⟨S16000000, .i32⟩ : BufTy).Contents (Elt F) → (⟨S16000000, .i1⟩ : BufTy).Contents (Elt F)),
    nullary main_c_11 (constantI S_ 32 500000#32),
    unary main_c_11 main_v170 (broadcastInDim S16000000 ![] bcast_S_S16000000 : (⟨S_, .i32⟩ : BufTy).Contents (Elt F) → (⟨S16000000, .i32⟩ : BufTy).Contents (Elt F)),
    binary main_v1 main_v170 main_v171 (addi : (⟨S16000000, .i32⟩ : BufTy).Contents (Elt F) → (⟨S16000000, .i32⟩ : BufTy).Contents (Elt F) → (⟨S16000000, .i32⟩ : BufTy).Contents (Elt F)),
    ternary main_v169 main_v171 main_v1 main_v172 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    unary main_v172 main_v173 (broadcastInDim S16000000x1 ![0] bcast_S16000000_S16000000x1_0 : (⟨S16000000, .i32⟩ : BufTy).Contents (Elt F) → (⟨S16000000x1, .i32⟩ : BufTy).Contents (Elt F)),
    binary main_v167 main_v173 main_v174 ((fun x i => Host.gather gather_S500000x9_S16000000x1_S16000000x9_1_0_n_n_0_1_19 x i) : (⟨S500000x9, .f32⟩ : BufTy).Contents (Elt F) → (⟨S16000000x1, .i32⟩ : BufTy).Contents (Elt F) → (⟨S16000000x9, .f32⟩ : BufTy).Contents (Elt F)),
    nullary main_cst_12 (constant S_ .f32 0x00000000#32),
    unary main_cst_12 main_v175 (broadcastInDim S500000x9 ![] bcast_S_S500000x9 : (⟨S_, .f32⟩ : BufTy).Contents (Elt F) → (⟨S500000x9, .f32⟩ : BufTy).Contents (Elt F)),
    unary main_v3 main_v176 (broadcastInDim S16000000x1 ![0] bcast_S16000000_S16000000x1_0 : (⟨S16000000, .i32⟩ : BufTy).Contents (Elt F) → (⟨S16000000x1, .i32⟩ : BufTy).Contents (Elt F)),
    ternary main_v175 main_v176 main_v174 main_v177 ((fun x i u => Host.scatterAdd scatter_S500000x9_S16000000x1_S16000000x9_1_0_0_1 x i u) : (⟨S500000x9, .f32⟩ : BufTy).Contents (Elt F) → (⟨S16000000x1, .i32⟩ : BufTy).Contents (Elt F) → (⟨S16000000x9, .f32⟩ : BufTy).Contents (Elt F) → (⟨S500000x9, .f32⟩ : BufTy).Contents (Elt F)),
    unary main_arg11 main_v178 ((extractStridedSlice S1 ![2] · slices_S3_S1_2) : (⟨S3, .f32⟩ : BufTy).Contents (Elt F) → (⟨S1, .f32⟩ : BufTy).Contents (Elt F)),
    reshape main_v178 main_v179 rfl shapeCasts_S1_S_,
    nullary main_cst_13 (constant S_ .f32 0x3F800000#32),
    binary main_cst_13 main_v179 main_v180 (addf : (⟨S_, .f32⟩ : BufTy).Contents (Elt F) → (⟨S_, .f32⟩ : BufTy).Contents (Elt F) → (⟨S_, .f32⟩ : BufTy).Contents (Elt F)),
    unary main_v180 main_v181 (broadcastInDim S500000x9 ![] bcast_S_S500000x9 : (⟨S_, .f32⟩ : BufTy).Contents (Elt F) → (⟨S500000x9, .f32⟩ : BufTy).Contents (Elt F)),
    binary main_v181 main_v167 main_v182 (mulf : (⟨S500000x9, .f32⟩ : BufTy).Contents (Elt F) → (⟨S500000x9, .f32⟩ : BufTy).Contents (Elt F) → (⟨S500000x9, .f32⟩ : BufTy).Contents (Elt F)),
    binary main_v182 main_v177 main_v183 (addf : (⟨S500000x9, .f32⟩ : BufTy).Contents (Elt F) → (⟨S500000x9, .f32⟩ : BufTy).Contents (Elt F) → (⟨S500000x9, .f32⟩ : BufTy).Contents (Elt F)),
    unary main_arg3 main_v184 ((extractStridedSlice S1x18x9 ![2, 0, 0] · slices_S3x18x9_S1x18x9_2_0_0) : (⟨S3x18x9, .f32⟩ : BufTy).Contents (Elt F) → (⟨S1x18x9, .f32⟩ : BufTy).Contents (Elt F)),
    reshape main_v184 main_v185 rfl shapeCasts_S1x18x9_S18x9,
    unary main_v185 main_v186 ((transpose S9x18 [1, 0] · transposes_S18x9_S9x18_1_0) : (⟨S18x9, .f32⟩ : BufTy).Contents (Elt F) → (⟨S9x18, .f32⟩ : BufTy).Contents (Elt F)),
    binary main_v183 main_v186 main_v187 ((fun l r => Host.dotGeneral dot_S500000x9_S9x18_S500000x18_1_0_0_1_n_n none l r) : (⟨S500000x9, .f32⟩ : BufTy).Contents (Elt F) → (⟨S9x18, .f32⟩ : BufTy).Contents (Elt F) → (⟨S500000x18, .f32⟩ : BufTy).Contents (Elt F)),
    unary main_arg4 main_v188 ((extractStridedSlice S1x18 ![2, 0] · slices_S3x18_S1x18_2_0) : (⟨S3x18, .f32⟩ : BufTy).Contents (Elt F) → (⟨S1x18, .f32⟩ : BufTy).Contents (Elt F)),
    reshape main_v188 main_v189 rfl shapeCasts_S1x18_S18,
    unary main_v189 main_v190 (broadcastInDim S1x18 ![1] bcast_S18_S1x18_1 : (⟨S18, .f32⟩ : BufTy).Contents (Elt F) → (⟨S1x18, .f32⟩ : BufTy).Contents (Elt F)),
    unary main_v190 main_v191 (broadcastInDim S500000x18 ![0, 1] bcast_S1x18_S500000x18_0_1 : (⟨S1x18, .f32⟩ : BufTy).Contents (Elt F) → (⟨S500000x18, .f32⟩ : BufTy).Contents (Elt F)),
    binary main_v187 main_v191 main_v192 (addf : (⟨S500000x18, .f32⟩ : BufTy).Contents (Elt F) → (⟨S500000x18, .f32⟩ : BufTy).Contents (Elt F) → (⟨S500000x18, .f32⟩ : BufTy).Contents (Elt F)) ]

theorem c6_sub : (c6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub ..⟩

/-- The references chunk 6 writes, in order. -/
abbrev c6_W : List (Ref sig .tc) := [main_c_10, main_v168, main_v169, main_c_11, main_v170, main_v171, main_v172, main_v173, main_v174, main_cst_12, main_v175, main_v176, main_v177, main_v178, main_v179, main_cst_13, main_v180, main_v181, main_v182, main_v183, main_v184, main_v185, main_v186, main_v187, main_v188, main_v189, main_v190, main_v191, main_v192]

theorem c6_writes : (c6 : List (HloOp τ sig (Elt F))).Forall fun op =>
    op.writes ⊆ (c6_W.map (Proc.devRef (τ := τ) .tc)).toFinset :=
  ⟨writes_sub main_c_10 rfl (by decide),
   writes_sub main_v168 rfl (by decide),
   writes_sub main_v169 rfl (by decide),
   writes_sub main_c_11 rfl (by decide),
   writes_sub main_v170 rfl (by decide),
   writes_sub main_v171 rfl (by decide),
   writes_sub main_v172 rfl (by decide),
   writes_sub main_v173 rfl (by decide),
   writes_sub main_v174 rfl (by decide),
   writes_sub main_cst_12 rfl (by decide),
   writes_sub main_v175 rfl (by decide),
   writes_sub main_v176 rfl (by decide),
   writes_sub main_v177 rfl (by decide),
   writes_sub main_v178 rfl (by decide),
   writes_sub main_v179 rfl (by decide),
   writes_sub main_cst_13 rfl (by decide),
   writes_sub main_v180 rfl (by decide),
   writes_sub main_v181 rfl (by decide),
   writes_sub main_v182 rfl (by decide),
   writes_sub main_v183 rfl (by decide),
   writes_sub main_v184 rfl (by decide),
   writes_sub main_v185 rfl (by decide),
   writes_sub main_v186 rfl (by decide),
   writes_sub main_v187 rfl (by decide),
   writes_sub main_v188 rfl (by decide),
   writes_sub main_v189 rfl (by decide),
   writes_sub main_v190 rfl (by decide),
   writes_sub main_v191 rfl (by decide),
   writes_sub main_v192 rfl (by decide)⟩

/-- Operations 218 … 250 of 318. -/
abbrev c7 : List (HloOp τ sig (Elt F)) :=
  [ unary main_arg5 main_v193 ((extractStridedSlice S1x18 ![2, 0] · slices_S3x18_S1x18_2_0) : (⟨S3x18, .f32⟩ : BufTy).Contents (Elt F) → (⟨S1x18, .f32⟩ : BufTy).Contents (Elt F)),
    reshape main_v193 main_v194 rfl shapeCasts_S1x18_S18,
    unary main_arg6 main_v195 ((extractStridedSlice S1x18 ![2, 0] · slices_S3x18_S1x18_2_0) : (⟨S3x18, .f32⟩ : BufTy).Contents (Elt F) → (⟨S1x18, .f32⟩ : BufTy).Contents (Elt F)),
    reshape main_v195 main_v196 rfl shapeCasts_S1x18_S18,
    unary main_arg7 main_v197 ((extractStridedSlice S1x18 ![2, 0] · slices_S3x18_S1x18_2_0) : (⟨S3x18, .f32⟩ : BufTy).Contents (Elt F) → (⟨S1x18, .f32⟩ : BufTy).Contents (Elt F)),
    reshape main_v197 main_v198 rfl shapeCasts_S1x18_S18,
    unary main_arg8 main_v199 ((extractStridedSlice S1x18 ![2, 0] · slices_S3x18_S1x18_2_0) : (⟨S3x18, .f32⟩ : BufTy).Contents (Elt F) → (⟨S1x18, .f32⟩ : BufTy).Contents (Elt F)),
    reshape main_v199 main_v200 rfl shapeCasts_S1x18_S18,
    unary main_v198 main_v201 (broadcastInDim S1x18 ![1] bcast_S18_S1x18_1 : (⟨S18, .f32⟩ : BufTy).Contents (Elt F) → (⟨S1x18, .f32⟩ : BufTy).Contents (Elt F)),
    unary main_v201 main_v202 (broadcastInDim S500000x18 ![0, 1] bcast_S1x18_S500000x18_0_1 : (⟨S1x18, .f32⟩ : BufTy).Contents (Elt F) → (⟨S500000x18, .f32⟩ : BufTy).Contents (Elt F)),
    binary main_v192 main_v202 main_v203 (subf : (⟨S500000x18, .f32⟩ : BufTy).Contents (Elt F) → (⟨S500000x18, .f32⟩ : BufTy).Contents (Elt F) → (⟨S500000x18, .f32⟩ : BufTy).Contents (Elt F)),
    nullary main_cst_14 (constant S_ .f32 0x3727C5AC#32),
    unary main_cst_14 main_v204 (broadcastInDim S18 ![] bcast_S_S18 : (⟨S_, .f32⟩ : BufTy).Contents (Elt F) → (⟨S18, .f32⟩ : BufTy).Contents (Elt F)),
    binary main_v200 main_v204 main_v205 (addf : (⟨S18, .f32⟩ : BufTy).Contents (Elt F) → (⟨S18, .f32⟩ : BufTy).Contents (Elt F) → (⟨S18, .f32⟩ : BufTy).Contents (Elt F)),
    unary main_v205 main_v206 (Host.rsqrt : (⟨S18, .f32⟩ : BufTy).Contents (Elt F) → (⟨S18, .f32⟩ : BufTy).Contents (Elt F)),
    unary main_v206 main_v207 (broadcastInDim S1x18 ![1] bcast_S18_S1x18_1 : (⟨S18, .f32⟩ : BufTy).Contents (Elt F) → (⟨S1x18, .f32⟩ : BufTy).Contents (Elt F)),
    unary main_v207 main_v208 (broadcastInDim S500000x18 ![0, 1] bcast_S1x18_S500000x18_0_1 : (⟨S1x18, .f32⟩ : BufTy).Contents (Elt F) → (⟨S500000x18, .f32⟩ : BufTy).Contents (Elt F)),
    binary main_v203 main_v208 main_v209 (mulf : (⟨S500000x18, .f32⟩ : BufTy).Contents (Elt F) → (⟨S500000x18, .f32⟩ : BufTy).Contents (Elt F) → (⟨S500000x18, .f32⟩ : BufTy).Contents (Elt F)),
    unary main_v194 main_v210 (broadcastInDim S1x18 ![1] bcast_S18_S1x18_1 : (⟨S18, .f32⟩ : BufTy).Contents (Elt F) → (⟨S1x18, .f32⟩ : BufTy).Contents (Elt F)),
    unary main_v210 main_v211 (broadcastInDim S500000x18 ![0, 1] bcast_S1x18_S500000x18_0_1 : (⟨S1x18, .f32⟩ : BufTy).Contents (Elt F) → (⟨S500000x18, .f32⟩ : BufTy).Contents (Elt F)),
    binary main_v209 main_v211 main_v212 (mulf : (⟨S500000x18, .f32⟩ : BufTy).Contents (Elt F) → (⟨S500000x18, .f32⟩ : BufTy).Contents (Elt F) → (⟨S500000x18, .f32⟩ : BufTy).Contents (Elt F)),
    unary main_v196 main_v213 (broadcastInDim S1x18 ![1] bcast_S18_S1x18_1 : (⟨S18, .f32⟩ : BufTy).Contents (Elt F) → (⟨S1x18, .f32⟩ : BufTy).Contents (Elt F)),
    unary main_v213 main_v214 (broadcastInDim S500000x18 ![0, 1] bcast_S1x18_S500000x18_0_1 : (⟨S1x18, .f32⟩ : BufTy).Contents (Elt F) → (⟨S500000x18, .f32⟩ : BufTy).Contents (Elt F)),
    binary main_v212 main_v214 main_v215 (addf : (⟨S500000x18, .f32⟩ : BufTy).Contents (Elt F) → (⟨S500000x18, .f32⟩ : BufTy).Contents (Elt F) → (⟨S500000x18, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S500000x18, .f32⟩) main_call4_v0) (broadcastInDim S500000x18 ![] bcast_S_S500000x18),
    TRef.binary (TRef.of (T := ⟨S500000x18, .f32⟩) main_v215) (TRef.of (T := ⟨S500000x18, .f32⟩) main_call4_v0) (TRef.of (T := ⟨S500000x18, .f32⟩) main_v216) maximumf,
    unary main_arg9 main_v217 ((extractStridedSlice S1x9x18 ![2, 0, 0] · slices_S3x9x18_S1x9x18_2_0_0) : (⟨S3x9x18, .f32⟩ : BufTy).Contents (Elt F) → (⟨S1x9x18, .f32⟩ : BufTy).Contents (Elt F)),
    reshape main_v217 main_v218 rfl shapeCasts_S1x9x18_S9x18,
    unary main_v218 main_v219 ((transpose S18x9 [1, 0] · transposes_S9x18_S18x9_1_0) : (⟨S9x18, .f32⟩ : BufTy).Contents (Elt F) → (⟨S18x9, .f32⟩ : BufTy).Contents (Elt F)),
    binary main_v216 main_v219 main_v220 ((fun l r => Host.dotGeneral dot_S500000x18_S18x9_S500000x9_1_0_0_1_n_n none l r) : (⟨S500000x18, .f32⟩ : BufTy).Contents (Elt F) → (⟨S18x9, .f32⟩ : BufTy).Contents (Elt F) → (⟨S500000x9, .f32⟩ : BufTy).Contents (Elt F)),
    unary main_arg10 main_v221 ((extractStridedSlice S1x9 ![2, 0] · slices_S3x9_S1x9_2_0) : (⟨S3x9, .f32⟩ : BufTy).Contents (Elt F) → (⟨S1x9, .f32⟩ : BufTy).Contents (Elt F)),
    reshape main_v221 main_v222 rfl shapeCasts_S1x9_S9 ]

theorem c7_sub : (c7 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub ..⟩

/-- The references chunk 7 writes, in order. -/
abbrev c7_W : List (Ref sig .tc) := [main_v193, main_v194, main_v195, main_v196, main_v197, main_v198, main_v199, main_v200, main_v201, main_v202, main_v203, main_cst_14, main_v204, main_v205, main_v206, main_v207, main_v208, main_v209, main_v210, main_v211, main_v212, main_v213, main_v214, main_v215, main_call4_cst, main_call4_v0, main_v216, main_v217, main_v218, main_v219, main_v220, main_v221, main_v222]

theorem c7_writes : (c7 : List (HloOp τ sig (Elt F))).Forall fun op =>
    op.writes ⊆ (c7_W.map (Proc.devRef (τ := τ) .tc)).toFinset :=
  ⟨writes_sub main_v193 rfl (by decide),
   writes_sub main_v194 rfl (by decide),
   writes_sub main_v195 rfl (by decide),
   writes_sub main_v196 rfl (by decide),
   writes_sub main_v197 rfl (by decide),
   writes_sub main_v198 rfl (by decide),
   writes_sub main_v199 rfl (by decide),
   writes_sub main_v200 rfl (by decide),
   writes_sub main_v201 rfl (by decide),
   writes_sub main_v202 rfl (by decide),
   writes_sub main_v203 rfl (by decide),
   writes_sub main_cst_14 rfl (by decide),
   writes_sub main_v204 rfl (by decide),
   writes_sub main_v205 rfl (by decide),
   writes_sub main_v206 rfl (by decide),
   writes_sub main_v207 rfl (by decide),
   writes_sub main_v208 rfl (by decide),
   writes_sub main_v209 rfl (by decide),
   writes_sub main_v210 rfl (by decide),
   writes_sub main_v211 rfl (by decide),
   writes_sub main_v212 rfl (by decide),
   writes_sub main_v213 rfl (by decide),
   writes_sub main_v214 rfl (by decide),
   writes_sub main_v215 rfl (by decide),
   writes_sub main_call4_cst rfl (by decide),
   writes_sub main_call4_v0 rfl (by decide),
   writes_sub main_v216 rfl (by decide),
   writes_sub main_v217 rfl (by decide),
   writes_sub main_v218 rfl (by decide),
   writes_sub main_v219 rfl (by decide),
   writes_sub main_v220 rfl (by decide),
   writes_sub main_v221 rfl (by decide),
   writes_sub main_v222 rfl (by decide)⟩

/-- Operations 251 … 280 of 318. -/
abbrev c8 : List (HloOp τ sig (Elt F)) :=
  [ unary main_v222 main_v223 (broadcastInDim S1x9 ![1] bcast_S9_S1x9_1 : (⟨S9, .f32⟩ : BufTy).Contents (Elt F) → (⟨S1x9, .f32⟩ : BufTy).Contents (Elt F)),
    unary main_v223 main_v224 (broadcastInDim S500000x9 ![0, 1] bcast_S1x9_S500000x9_0_1 : (⟨S1x9, .f32⟩ : BufTy).Contents (Elt F) → (⟨S500000x9, .f32⟩ : BufTy).Contents (Elt F)),
    binary main_v220 main_v224 main_v225 (addf : (⟨S500000x9, .f32⟩ : BufTy).Contents (Elt F) → (⟨S500000x9, .f32⟩ : BufTy).Contents (Elt F) → (⟨S500000x9, .f32⟩ : BufTy).Contents (Elt F)),
    unary main_arg12 main_v226 ((extractStridedSlice S1x9 ![2, 0] · slices_S3x9_S1x9_2_0) : (⟨S3x9, .f32⟩ : BufTy).Contents (Elt F) → (⟨S1x9, .f32⟩ : BufTy).Contents (Elt F)),
    reshape main_v226 main_v227 rfl shapeCasts_S1x9_S9,
    unary main_arg13 main_v228 ((extractStridedSlice S1x9 ![2, 0] · slices_S3x9_S1x9_2_0) : (⟨S3x9, .f32⟩ : BufTy).Contents (Elt F) → (⟨S1x9, .f32⟩ : BufTy).Contents (Elt F)),
    reshape main_v228 main_v229 rfl shapeCasts_S1x9_S9,
    unary main_arg14 main_v230 ((extractStridedSlice S1x9 ![2, 0] · slices_S3x9_S1x9_2_0) : (⟨S3x9, .f32⟩ : BufTy).Contents (Elt F) → (⟨S1x9, .f32⟩ : BufTy).Contents (Elt F)),
    reshape main_v230 main_v231 rfl shapeCasts_S1x9_S9,
    unary main_arg15 main_v232 ((extractStridedSlice S1x9 ![2, 0] · slices_S3x9_S1x9_2_0) : (⟨S3x9, .f32⟩ : BufTy).Contents (Elt F) → (⟨S1x9, .f32⟩ : BufTy).Contents (Elt F)),
    reshape main_v232 main_v233 rfl shapeCasts_S1x9_S9,
    unary main_v231 main_v234 (broadcastInDim S1x9 ![1] bcast_S9_S1x9_1 : (⟨S9, .f32⟩ : BufTy).Contents (Elt F) → (⟨S1x9, .f32⟩ : BufTy).Contents (Elt F)),
    unary main_v234 main_v235 (broadcastInDim S500000x9 ![0, 1] bcast_S1x9_S500000x9_0_1 : (⟨S1x9, .f32⟩ : BufTy).Contents (Elt F) → (⟨S500000x9, .f32⟩ : BufTy).Contents (Elt F)),
    binary main_v225 main_v235 main_v236 (subf : (⟨S500000x9, .f32⟩ : BufTy).Contents (Elt F) → (⟨S500000x9, .f32⟩ : BufTy).Contents (Elt F) → (⟨S500000x9, .f32⟩ : BufTy).Contents (Elt F)),
    nullary main_cst_15 (constant S_ .f32 0x3727C5AC#32),
    unary main_cst_15 main_v237 (broadcastInDim S9 ![] bcast_S_S9 : (⟨S_, .f32⟩ : BufTy).Contents (Elt F) → (⟨S9, .f32⟩ : BufTy).Contents (Elt F)),
    binary main_v233 main_v237 main_v238 (addf : (⟨S9, .f32⟩ : BufTy).Contents (Elt F) → (⟨S9, .f32⟩ : BufTy).Contents (Elt F) → (⟨S9, .f32⟩ : BufTy).Contents (Elt F)),
    unary main_v238 main_v239 (Host.rsqrt : (⟨S9, .f32⟩ : BufTy).Contents (Elt F) → (⟨S9, .f32⟩ : BufTy).Contents (Elt F)),
    unary main_v239 main_v240 (broadcastInDim S1x9 ![1] bcast_S9_S1x9_1 : (⟨S9, .f32⟩ : BufTy).Contents (Elt F) → (⟨S1x9, .f32⟩ : BufTy).Contents (Elt F)),
    unary main_v240 main_v241 (broadcastInDim S500000x9 ![0, 1] bcast_S1x9_S500000x9_0_1 : (⟨S1x9, .f32⟩ : BufTy).Contents (Elt F) → (⟨S500000x9, .f32⟩ : BufTy).Contents (Elt F)),
    binary main_v236 main_v241 main_v242 (mulf : (⟨S500000x9, .f32⟩ : BufTy).Contents (Elt F) → (⟨S500000x9, .f32⟩ : BufTy).Contents (Elt F) → (⟨S500000x9, .f32⟩ : BufTy).Contents (Elt F)),
    unary main_v227 main_v243 (broadcastInDim S1x9 ![1] bcast_S9_S1x9_1 : (⟨S9, .f32⟩ : BufTy).Contents (Elt F) → (⟨S1x9, .f32⟩ : BufTy).Contents (Elt F)),
    unary main_v243 main_v244 (broadcastInDim S500000x9 ![0, 1] bcast_S1x9_S500000x9_0_1 : (⟨S1x9, .f32⟩ : BufTy).Contents (Elt F) → (⟨S500000x9, .f32⟩ : BufTy).Contents (Elt F)),
    binary main_v242 main_v244 main_v245 (mulf : (⟨S500000x9, .f32⟩ : BufTy).Contents (Elt F) → (⟨S500000x9, .f32⟩ : BufTy).Contents (Elt F) → (⟨S500000x9, .f32⟩ : BufTy).Contents (Elt F)),
    unary main_v229 main_v246 (broadcastInDim S1x9 ![1] bcast_S9_S1x9_1 : (⟨S9, .f32⟩ : BufTy).Contents (Elt F) → (⟨S1x9, .f32⟩ : BufTy).Contents (Elt F)),
    unary main_v246 main_v247 (broadcastInDim S500000x9 ![0, 1] bcast_S1x9_S500000x9_0_1 : (⟨S1x9, .f32⟩ : BufTy).Contents (Elt F) → (⟨S500000x9, .f32⟩ : BufTy).Contents (Elt F)),
    binary main_v245 main_v247 main_v248 (addf : (⟨S500000x9, .f32⟩ : BufTy).Contents (Elt F) → (⟨S500000x9, .f32⟩ : BufTy).Contents (Elt F) → (⟨S500000x9, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S500000x9, .f32⟩) main_call5_v0) (broadcastInDim S500000x9 ![] bcast_S_S500000x9),
    TRef.binary (TRef.of (T := ⟨S500000x9, .f32⟩) main_v248) (TRef.of (T := ⟨S500000x9, .f32⟩) main_call5_v0) (TRef.of (T := ⟨S500000x9, .f32⟩) main_v249) maximumf ]

theorem c8_sub : (c8 : List (HloOp τ sig (Elt F))).Forall fun op => op.bufs ⊆ tcRefs τ sig :=
  ⟨unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The references chunk 8 writes, in order. -/
abbrev c8_W : List (Ref sig .tc) := [main_v223, main_v224, main_v225, main_v226, main_v227, main_v228, main_v229, main_v230, main_v231, main_v232, main_v233, main_v234, main_v235, main_v236, main_cst_15, main_v237, main_v238, main_v239, main_v240, main_v241, main_v242, main_v243, main_v244, main_v245, main_v246, main_v247, main_v248, main_call5_cst, main_call5_v0, main_v249]

theorem c8_writes : (c8 : List (HloOp τ sig (Elt F))).Forall fun op =>
    op.writes ⊆ (c8_W.map (Proc.devRef (τ := τ) .tc)).toFinset :=
  ⟨writes_sub main_v223 rfl (by decide),
   writes_sub main_v224 rfl (by decide),
   writes_sub main_v225 rfl (by decide),
   writes_sub main_v226 rfl (by decide),
   writes_sub main_v227 rfl (by decide),
   writes_sub main_v228 rfl (by decide),
   writes_sub main_v229 rfl (by decide),
   writes_sub main_v230 rfl (by decide),
   writes_sub main_v231 rfl (by decide),
   writes_sub main_v232 rfl (by decide),
   writes_sub main_v233 rfl (by decide),
   writes_sub main_v234 rfl (by decide),
   writes_sub main_v235 rfl (by decide),
   writes_sub main_v236 rfl (by decide),
   writes_sub main_cst_15 rfl (by decide),
   writes_sub main_v237 rfl (by decide),
   writes_sub main_v238 rfl (by decide),
   writes_sub main_v239 rfl (by decide),
   writes_sub main_v240 rfl (by decide),
   writes_sub main_v241 rfl (by decide),
   writes_sub main_v242 rfl (by decide),
   writes_sub main_v243 rfl (by decide),
   writes_sub main_v244 rfl (by decide),
   writes_sub main_v245 rfl (by decide),
   writes_sub main_v246 rfl (by decide),
   writes_sub main_v247 rfl (by decide),
   writes_sub main_v248 rfl (by decide),
   writes_sub main_call5_cst rfl (by decide),
   writes_sub main_call5_v0 rfl (by decide),
   writes_sub main_v249 rfl (by decide)⟩

/-- Operations 281 … 314 of 318. -/
abbrev c9 : List (HloOp τ sig (Elt F)) :=
  [ nullary main_cst_16 (constant S_ .f32 0x00000000#32),
    unary main_cst_16 main_v250 (broadcastInDim S1024x9 ![] bcast_S_S1024x9 : (⟨S_, .f32⟩ : BufTy).Contents (Elt F) → (⟨S1024x9, .f32⟩ : BufTy).Contents (Elt F)),
    unary main_arg2 main_v251 (broadcastInDim S500000x1 ![0] bcast_S500000_S500000x1_0 : (⟨S500000, .i32⟩ : BufTy).Contents (Elt F) → (⟨S500000x1, .i32⟩ : BufTy).Contents (Elt F)),
    ternary main_v250 main_v251 main_v249 main_v252 ((fun x i u => Host.scatterAdd scatter_S1024x9_S500000x1_S500000x9_1_0_0_1 x i u) : (⟨S1024x9, .f32⟩ : BufTy).Contents (Elt F) → (⟨S500000x1, .i32⟩ : BufTy).Contents (Elt F) → (⟨S500000x9, .f32⟩ : BufTy).Contents (Elt F) → (⟨S1024x9, .f32⟩ : BufTy).Contents (Elt F)),
    unary main_arg16 main_v253 ((transpose S9x9 [1, 0] · transposes_S9x9_S9x9_1_0) : (⟨S9x9, .f32⟩ : BufTy).Contents (Elt F) → (⟨S9x9, .f32⟩ : BufTy).Contents (Elt F)),
    binary main_v252 main_v253 main_v254 ((fun l r => Host.dotGeneral dot_S1024x9_S9x9_S1024x9_1_0_0_1_n_n none l r) : (⟨S1024x9, .f32⟩ : BufTy).Contents (Elt F) → (⟨S9x9, .f32⟩ : BufTy).Contents (Elt F) → (⟨S1024x9, .f32⟩ : BufTy).Contents (Elt F)),
    unary main_arg17 main_v255 (broadcastInDim S1x9 ![1] bcast_S9_S1x9_1 : (⟨S9, .f32⟩ : BufTy).Contents (Elt F) → (⟨S1x9, .f32⟩ : BufTy).Contents (Elt F)),
    unary main_v255 main_v256 (broadcastInDim S1024x9 ![0, 1] bcast_S1x9_S1024x9_0_1 : (⟨S1x9, .f32⟩ : BufTy).Contents (Elt F) → (⟨S1024x9, .f32⟩ : BufTy).Contents (Elt F)),
    binary main_v254 main_v256 main_v257 (addf : (⟨S1024x9, .f32⟩ : BufTy).Contents (Elt F) → (⟨S1024x9, .f32⟩ : BufTy).Contents (Elt F) → (⟨S1024x9, .f32⟩ : BufTy).Contents (Elt F)),
    unary main_arg20 main_v258 (broadcastInDim S1x9 ![1] bcast_S9_S1x9_1 : (⟨S9, .f32⟩ : BufTy).Contents (Elt F) → (⟨S1x9, .f32⟩ : BufTy).Contents (Elt F)),
    unary main_v258 main_v259 (broadcastInDim S1024x9 ![0, 1] bcast_S1x9_S1024x9_0_1 : (⟨S1x9, .f32⟩ : BufTy).Contents (Elt F) → (⟨S1024x9, .f32⟩ : BufTy).Contents (Elt F)),
    binary main_v257 main_v259 main_v260 (subf : (⟨S1024x9, .f32⟩ : BufTy).Contents (Elt F) → (⟨S1024x9, .f32⟩ : BufTy).Contents (Elt F) → (⟨S1024x9, .f32⟩ : BufTy).Contents (Elt F)),
    nullary main_cst_17 (constant S_ .f32 0x3727C5AC#32),
    unary main_cst_17 main_v261 (broadcastInDim S9 ![] bcast_S_S9 : (⟨S_, .f32⟩ : BufTy).Contents (Elt F) → (⟨S9, .f32⟩ : BufTy).Contents (Elt F)),
    binary main_arg21 main_v261 main_v262 (addf : (⟨S9, .f32⟩ : BufTy).Contents (Elt F) → (⟨S9, .f32⟩ : BufTy).Contents (Elt F) → (⟨S9, .f32⟩ : BufTy).Contents (Elt F)),
    unary main_v262 main_v263 (Host.rsqrt : (⟨S9, .f32⟩ : BufTy).Contents (Elt F) → (⟨S9, .f32⟩ : BufTy).Contents (Elt F)),
    unary main_v263 main_v264 (broadcastInDim S1x9 ![1] bcast_S9_S1x9_1 : (⟨S9, .f32⟩ : BufTy).Contents (Elt F) → (⟨S1x9, .f32⟩ : BufTy).Contents (Elt F)),
    unary main_v264 main_v265 (broadcastInDim S1024x9 ![0, 1] bcast_S1x9_S1024x9_0_1 : (⟨S1x9, .f32⟩ : BufTy).Contents (Elt F) → (⟨S1024x9, .f32⟩ : BufTy).Contents (Elt F)),
    binary main_v260 main_v265 main_v266 (mulf : (⟨S1024x9, .f32⟩ : BufTy).Contents (Elt F) → (⟨S1024x9, .f32⟩ : BufTy).Contents (Elt F) → (⟨S1024x9, .f32⟩ : BufTy).Contents (Elt F)),
    unary main_arg18 main_v267 (broadcastInDim S1x9 ![1] bcast_S9_S1x9_1 : (⟨S9, .f32⟩ : BufTy).Contents (Elt F) → (⟨S1x9, .f32⟩ : BufTy).Contents (Elt F)),
    unary main_v267 main_v268 (broadcastInDim S1024x9 ![0, 1] bcast_S1x9_S1024x9_0_1 : (⟨S1x9, .f32⟩ : BufTy).Contents (Elt F) → (⟨S1024x9, .f32⟩ : BufTy).Contents (Elt F)),
    binary main_v266 main_v268 main_v269 (mulf : (⟨S1024x9, .f32⟩ : BufTy).Contents (Elt F) → (⟨S1024x9, .f32⟩ : BufTy).Contents (Elt F) → (⟨S1024x9, .f32⟩ : BufTy).Contents (Elt F)),
    unary main_arg19 main_v270 (broadcastInDim S1x9 ![1] bcast_S9_S1x9_1 : (⟨S9, .f32⟩ : BufTy).Contents (Elt F) → (⟨S1x9, .f32⟩ : BufTy).Contents (Elt F)),
    unary main_v270 main_v271 (broadcastInDim S1024x9 ![0, 1] bcast_S1x9_S1024x9_0_1 : (⟨S1x9, .f32⟩ : BufTy).Contents (Elt F) → (⟨S1024x9, .f32⟩ : BufTy).Contents (Elt F)),
    binary main_v269 main_v271 main_v272 (addf : (⟨S1024x9, .f32⟩ : BufTy).Contents (Elt F) → (⟨S1024x9, .f32⟩ : BufTy).Contents (Elt F) → (⟨S1024x9, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1024x9, .f32⟩) main_call6_v0) (broadcastInDim S1024x9 ![] bcast_S_S1024x9),
    TRef.binary (TRef.of (T := ⟨S1024x9, .f32⟩) main_v272) (TRef.of (T := ⟨S1024x9, .f32⟩) main_call6_v0) (TRef.of (T := ⟨S1024x9, .f32⟩) main_v273) maximumf,
    unary main_arg22 main_v274 ((transpose S9x2 [1, 0] · transposes_S2x9_S9x2_1_0) : (⟨S2x9, .f32⟩ : BufTy).Contents (Elt F) → (⟨S9x2, .f32⟩ : BufTy).Contents (Elt F)),
    binary main_v273 main_v274 main_v275 ((fun l r => Host.dotGeneral dot_S1024x9_S9x2_S1024x2_1_0_0_1_n_n none l r) : (⟨S1024x9, .f32⟩ : BufTy).Contents (Elt F) → (⟨S9x2, .f32⟩ : BufTy).Contents (Elt F) → (⟨S1024x2, .f32⟩ : BufTy).Contents (Elt F)),
    unary main_arg23 main_v276 (broadcastInDim S1x2 ![1] bcast_S2_S1x2_1 : (⟨S2, .f32⟩ : BufTy).Contents (Elt F) → (⟨S1x2, .f32⟩ : BufTy).Contents (Elt F)),
    unary main_v276 main_v277 (broadcastInDim S1024x2 ![0, 1] bcast_S1x2_S1024x2_0_1 : (⟨S1x2, .f32⟩ : BufTy).Contents (Elt F) → (⟨S1024x2, .f32⟩ : BufTy).Contents (Elt F)),
    binary main_v275 main_v277 main_v278 (addf : (⟨S1024x2, .f32⟩ : BufTy).Contents (Elt F) → (⟨S1024x2, .f32⟩ : BufTy).Contents (Elt F) → (⟨S1024x2, .f32⟩ : BufTy).Contents (Elt F)),
    unary main_arg24 main_v279 ((transpose S2x2 [1, 0] · transposes_S2x2_S2x2_1_0) : (⟨S2x2, .f32⟩ : BufTy).Contents (Elt F) → (⟨S2x2, .f32⟩ : BufTy).Contents (Elt F)) ]

theorem c9_sub : (c9 : List (HloOp τ sig (Elt F))).Forall fun op => op.bufs ⊆ tcRefs τ sig :=
  ⟨nullary_bufs_sub .., unary_bufs_sub .., unary_bufs_sub .., ternary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub ..⟩

/-- The references chunk 9 writes, in order. -/
abbrev c9_W : List (Ref sig .tc) := [main_cst_16, main_v250, main_v251, main_v252, main_v253, main_v254, main_v255, main_v256, main_v257, main_v258, main_v259, main_v260, main_cst_17, main_v261, main_v262, main_v263, main_v264, main_v265, main_v266, main_v267, main_v268, main_v269, main_v270, main_v271, main_v272, main_call6_cst, main_call6_v0, main_v273, main_v274, main_v275, main_v276, main_v277, main_v278, main_v279]

theorem c9_writes : (c9 : List (HloOp τ sig (Elt F))).Forall fun op =>
    op.writes ⊆ (c9_W.map (Proc.devRef (τ := τ) .tc)).toFinset :=
  ⟨writes_sub main_cst_16 rfl (by decide),
   writes_sub main_v250 rfl (by decide),
   writes_sub main_v251 rfl (by decide),
   writes_sub main_v252 rfl (by decide),
   writes_sub main_v253 rfl (by decide),
   writes_sub main_v254 rfl (by decide),
   writes_sub main_v255 rfl (by decide),
   writes_sub main_v256 rfl (by decide),
   writes_sub main_v257 rfl (by decide),
   writes_sub main_v258 rfl (by decide),
   writes_sub main_v259 rfl (by decide),
   writes_sub main_v260 rfl (by decide),
   writes_sub main_cst_17 rfl (by decide),
   writes_sub main_v261 rfl (by decide),
   writes_sub main_v262 rfl (by decide),
   writes_sub main_v263 rfl (by decide),
   writes_sub main_v264 rfl (by decide),
   writes_sub main_v265 rfl (by decide),
   writes_sub main_v266 rfl (by decide),
   writes_sub main_v267 rfl (by decide),
   writes_sub main_v268 rfl (by decide),
   writes_sub main_v269 rfl (by decide),
   writes_sub main_v270 rfl (by decide),
   writes_sub main_v271 rfl (by decide),
   writes_sub main_v272 rfl (by decide),
   writes_sub main_call6_cst rfl (by decide),
   writes_sub main_call6_v0 rfl (by decide),
   writes_sub main_v273 rfl (by decide),
   writes_sub main_v274 rfl (by decide),
   writes_sub main_v275 rfl (by decide),
   writes_sub main_v276 rfl (by decide),
   writes_sub main_v277 rfl (by decide),
   writes_sub main_v278 rfl (by decide),
   writes_sub main_v279 rfl (by decide)⟩

/-- Operations 315 … 318 of 318. -/
abbrev c10 : List (HloOp τ sig (Elt F)) :=
  [ binary main_v278 main_v279 main_v280 ((fun l r => Host.dotGeneral dot_S1024x2_S2x2_S1024x2_1_0_0_1_n_n none l r) : (⟨S1024x2, .f32⟩ : BufTy).Contents (Elt F) → (⟨S2x2, .f32⟩ : BufTy).Contents (Elt F) → (⟨S1024x2, .f32⟩ : BufTy).Contents (Elt F)),
    unary main_arg25 main_v281 (broadcastInDim S1x2 ![1] bcast_S2_S1x2_1 : (⟨S2, .f32⟩ : BufTy).Contents (Elt F) → (⟨S1x2, .f32⟩ : BufTy).Contents (Elt F)),
    unary main_v281 main_v282 (broadcastInDim S1024x2 ![0, 1] bcast_S1x2_S1024x2_0_1 : (⟨S1x2, .f32⟩ : BufTy).Contents (Elt F) → (⟨S1024x2, .f32⟩ : BufTy).Contents (Elt F)),
    binary main_v280 main_v282 main_v283 (addf : (⟨S1024x2, .f32⟩ : BufTy).Contents (Elt F) → (⟨S1024x2, .f32⟩ : BufTy).Contents (Elt F) → (⟨S1024x2, .f32⟩ : BufTy).Contents (Elt F)) ]

theorem c10_sub : (c10 : List (HloOp τ sig (Elt F))).Forall fun op => op.bufs ⊆ tcRefs τ sig :=
  ⟨binary_bufs_sub .., unary_bufs_sub .., unary_bufs_sub .., binary_bufs_sub ..⟩

/-- The references chunk 10 writes, in order. -/
abbrev c10_W : List (Ref sig .tc) := [main_v280, main_v281, main_v282, main_v283]

theorem c10_writes : (c10 : List (HloOp τ sig (Elt F))).Forall fun op =>
    op.writes ⊆ (c10_W.map (Proc.devRef (τ := τ) .tc)).toFinset :=
  ⟨writes_sub main_v280 rfl (by decide),
   writes_sub main_v281 rfl (by decide),
   writes_sub main_v282 rfl (by decide),
   writes_sub main_v283 rfl (by decide)⟩

end Cert.ReferenceIdeal.Hand

end
-- ==== Proof.Ref.RunOps.lean ====
import proofs.«418735_j49933289783480_1_alg».proof.Proof.Ref.RunChunks
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem part0_eq (c : Dev nD) : main_part0 (F := F) c = seq (c0 ++ c1) := by chain_rfl
theorem part1_eq (c : Dev nD) : main_part1 (F := F) c = seq (c2 ++ c3) := by chain_rfl
theorem part2_eq (c : Dev nD) : main_part2 (F := F) c = seq (c4 ++ c5) := by chain_rfl
theorem part3_eq (c : Dev nD) : main_part3 (F := F) c = seq (c6 ++ c7) := by chain_rfl
theorem part4_eq (c : Dev nD) : main_part4 (F := F) c = seq (c8 ++ c9) := by chain_rfl
theorem part5_eq (c : Dev nD) : main_part5 (F := F) c = seq c10 := by chain_rfl

abbrev ops : List (HloOp τ sig (Elt F)) :=
  (c0 ++ c1) ++ ((c2 ++ c3) ++ ((c4 ++ c5) ++ ((c6 ++ c7) ++ ((c8 ++ c9) ++ c10))))

theorem main_eq (c : Dev nD) : main (F := F) c = seq ops := by
  show (main_part0 (F := F) c >>= fun _ => main_part1 (F := F) c >>= fun _ => main_part2 (F := F) c >>= fun _ =>
          main_part3 (F := F) c >>= fun _ => main_part4 (F := F) c >>= fun _ => main_part5 (F := F) c)
        = seq ((c0 ++ c1) ++ ((c2 ++ c3) ++ ((c4 ++ c5) ++ ((c6 ++ c7) ++ ((c8 ++ c9) ++ c10)))))
  rw [seq_append (c0 ++ c1), seq_append (c2 ++ c3), seq_append (c4 ++ c5), seq_append (c6 ++ c7), seq_append (c8 ++ c9),
    part0_eq, part1_eq, part2_eq, part3_eq, part4_eq, part5_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.forall_append]
  exact ⟨⟨c0_sub, c1_sub⟩, ⟨c2_sub, c3_sub⟩, ⟨c4_sub, c5_sub⟩, ⟨c6_sub, c7_sub⟩, ⟨c8_sub, c9_sub⟩, c10_sub⟩

-- No operation of the reference makes a buffer of its own.
theorem ops_fresh : (ops : List (HloOp τ sig (Elt F))).Forall fun op => op.fresh = ∅ := by
  simp only [List.forall_append, List.Forall]; repeat' constructor

theorem after_ops (V : Valuation τ sig (Elt F)) :
    after ops V
      = after c10 (after c9 (after c8 (after c7 (after c6 (after c5 (after c4 (after c3 (after c2 (after c1
          (after c0 V)))))))))) := by
  show after ((c0 ++ c1) ++ ((c2 ++ c3) ++ ((c4 ++ c5) ++ ((c6 ++ c7) ++ ((c8 ++ c9) ++ c10))))) V = _
  rw [StableHlo.after_append (c0 ++ c1), StableHlo.after_append c0, StableHlo.after_append (c2 ++ c3),
    StableHlo.after_append c2, StableHlo.after_append (c4 ++ c5), StableHlo.after_append c4,
    StableHlo.after_append (c6 ++ c7), StableHlo.after_append c6, StableHlo.after_append (c8 ++ c9),
    StableHlo.after_append c8]

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.Hand

end
-- ==== Proof.Ref.RunStages.lean ====
import proofs.«418735_j49933289783480_1_alg».proof.Proof.Ref.Stages
import proofs.«418735_j49933289783480_1_alg».proof.Proof.Ref.RunLib

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- The arguments hold in W what they hold in V.
abbrev Keeps (V W : Valuation τ sig (Elt F)) : Prop := ∀ r ∈ argRefs, W (r : DevRef τ sig) = V (r : DevRef τ sig)

-- Operations that write none of the arguments leave them as they were.
theorem kstep {l : List (HloOp τ sig (Elt F))} {W : List (Ref sig .tc)}
    (hW : l.Forall fun op => op.writes ⊆ (W.map (Proc.devRef (τ := τ) .tc)).toFinset) (hd : ∀ r ∈ argRefs, r ∉ W)
    {V V' : Valuation τ sig (Elt F)} (h : Keeps V V') : Keeps V (after l V') :=
  fun r hr => (keeps_args hW hd V' r hr).trans (h r hr)

-- A function of the fifteen arguments of the three layers, at what a valuation holds for them.
abbrev on15 {β : Type} (V : Valuation τ sig (Elt F))
    (f : (main_arg0 : DevRef τ sig).ty.Contents (Elt F) → (main_arg1 : DevRef τ sig).ty.Contents (Elt F) → (main_arg3 : DevRef τ sig).ty.Contents (Elt F) → (main_arg4 : DevRef τ sig).ty.Contents (Elt F) → (main_arg5 : DevRef τ sig).ty.Contents (Elt F) → (main_arg6 : DevRef τ sig).ty.Contents (Elt F) → (main_arg7 : DevRef τ sig).ty.Contents (Elt F) → (main_arg8 : DevRef τ sig).ty.Contents (Elt F) → (main_arg9 : DevRef τ sig).ty.Contents (Elt F) → (main_arg10 : DevRef τ sig).ty.Contents (Elt F) → (main_arg11 : DevRef τ sig).ty.Contents (Elt F) → (main_arg12 : DevRef τ sig).ty.Contents (Elt F) → (main_arg13 : DevRef τ sig).ty.Contents (Elt F) → (main_arg14 : DevRef τ sig).ty.Contents (Elt F) → (main_arg15 : DevRef τ sig).ty.Contents (Elt F) → β) : β :=
  f (V main_arg0) (V main_arg1) (V main_arg3) (V main_arg4) (V main_arg5) (V main_arg6) (V main_arg7) (V main_arg8) (V main_arg9) (V main_arg10) (V main_arg11) (V main_arg12) (V main_arg13) (V main_arg14) (V main_arg15)

abbrev s1 (V : Valuation τ sig (Elt F)) :=
  Stages.val_main_v1 (F := F) (V main_arg1)
abbrev s3 (V : Valuation τ sig (Elt F)) :=
  Stages.val_main_v3 (F := F) (V main_arg1)
abbrev s23 (V : Valuation τ sig (Elt F)) :=
  Stages.val_main_v23 (F := F) (V main_arg0) (V main_arg1) (V main_arg3) (V main_arg11)
abbrev s52 (V : Valuation τ sig (Elt F)) :=
  Stages.val_main_v52 (F := F) (V main_arg0) (V main_arg1) (V main_arg3) (V main_arg4) (V main_arg5) (V main_arg6) (V main_arg7) (V main_arg8) (V main_arg11)
abbrev s54 (V : Valuation τ sig (Elt F)) :=
  Stages.val_main_v54 (F := F) (V main_arg9)
abbrev s85 (V : Valuation τ sig (Elt F)) := on15 V (Stages.val_main_v85 (F := F))
abbrev s105 (V : Valuation τ sig (Elt F)) := on15 V (Stages.val_main_v105 (F := F))
abbrev s109 (V : Valuation τ sig (Elt F)) :=
  Stages.val_main_v109 (F := F) (V main_arg4)
abbrev s134 (V : Valuation τ sig (Elt F)) := on15 V (Stages.val_main_v134 (F := F))
abbrev s167 (V : Valuation τ sig (Elt F)) := on15 V (Stages.val_main_v167 (F := F))
abbrev s192 (V : Valuation τ sig (Elt F)) := on15 V (Stages.val_main_v192 (F := F))
abbrev s220 (V : Valuation τ sig (Elt F)) := on15 V (Stages.val_main_v220 (F := F))
abbrev s222 (V : Valuation τ sig (Elt F)) :=
  Stages.val_main_v222 (F := F) (V main_arg10)
abbrev s249 (V : Valuation τ sig (Elt F)) := on15 V (Stages.val_main_v249 (F := F))
abbrev s278 (V : Valuation τ sig (Elt F)) :=
  Stages.val_main_v278 (F := F) (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg22) (V main_arg23)
abbrev s279 (V : Valuation τ sig (Elt F)) :=
  Stages.val_main_v279 (F := F) (V main_arg24)
abbrev s283 (V : Valuation τ sig (Elt F)) :=
  Stages.val_main_v283 (F := F) (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg22) (V main_arg23) (V main_arg24) (V main_arg25)

end Cert.ReferenceIdeal.Hand

end
-- ==== Proof.Ref.Run0.lean ====
import proofs.«418735_j49933289783480_1_alg».proof.Proof.Ref.RunChunks
import proofs.«418735_j49933289783480_1_alg».proof.Proof.Ref.RunStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem c0_v1 (V W : Valuation τ sig (Elt F)) (hA : Keeps V W) :
    after c0 W main_v1 = s1 V := by
  after_results_simp
  simp (disch := decide) only [hA]
  rfl

theorem c0_v3 (V W : Valuation τ sig (Elt F)) (hA : Keeps V W) :
    after c0 W main_v3 = s3 V := by
  after_results_simp
  simp (disch := decide) only [hA]
  rfl

set_option maxRecDepth 8192 in
theorem c0_v23 (V W : Valuation τ sig (Elt F)) (hA : Keeps V W) :
    after c0 W main_v23 = s23 V := by
  after_results_simp
  simp (disch := decide) only [hA]
  rfl

set_option maxRecDepth 8192 in
theorem c1_v52 (V W : Valuation τ sig (Elt F)) (hA : Keeps V W)
    (h23 : W main_v23 = s23 V) :
    after c1 W main_v52 = s52 V := by
  after_results_simp
  simp (disch := decide) only [h23, hA]
  rfl

theorem c1_v54 (V W : Valuation τ sig (Elt F)) (hA : Keeps V W) :
    after c1 W main_v54 = s54 V := by
  after_results_simp
  simp (disch := decide) only [hA]
  rfl

end Cert.ReferenceIdeal.Hand

end
-- ==== Proof.Ref.Run1.lean ====
import proofs.«418735_j49933289783480_1_alg».proof.Proof.Ref.RunChunks
import proofs.«418735_j49933289783480_1_alg».proof.Proof.Ref.RunStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem c2_v85 (V W : Valuation τ sig (Elt F)) (hA : Keeps V W)
    (h52 : W main_v52 = s52 V) (h54 : W main_v54 = s54 V) :
    after c2 W main_v85 = s85 V := by
  after_results_simp
  simp (disch := decide) only [h52, h54, hA]
  rfl

set_option maxRecDepth 8192 in
theorem c3_v105 (V W : Valuation τ sig (Elt F)) (hA : Keeps V W)
    (h1 : W main_v1 = s1 V) (h3 : W main_v3 = s3 V)
    (h85 : W main_v85 = s85 V) :
    after c3 W main_v105 = s105 V := by
  after_results_simp
  simp (disch := decide) only [h1, h3, h85, hA]
  rfl

theorem c3_v109 (V W : Valuation τ sig (Elt F)) (hA : Keeps V W) :
    after c3 W main_v109 = s109 V := by
  after_results_simp
  simp (disch := decide) only [hA]
  rfl

end Cert.ReferenceIdeal.Hand

end
-- ==== Proof.Ref.Run2.lean ====
import proofs.«418735_j49933289783480_1_alg».proof.Proof.Ref.RunChunks
import proofs.«418735_j49933289783480_1_alg».proof.Proof.Ref.RunStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem c4_v134 (V W : Valuation τ sig (Elt F)) (hA : Keeps V W)
    (h105 : W main_v105 = s105 V) (h109 : W main_v109 = s109 V) :
    after c4 W main_v134 = s134 V := by
  after_results_simp
  simp (disch := decide) only [h105, h109, hA]
  rfl

set_option maxRecDepth 8192 in
theorem c5_v167 (V W : Valuation τ sig (Elt F)) (hA : Keeps V W)
    (h134 : W main_v134 = s134 V) :
    after c5 W main_v167 = s167 V := by
  after_results_simp
  simp (disch := decide) only [h134, hA]
  rfl

end Cert.ReferenceIdeal.Hand

end
-- ==== Proof.Ref.Run3.lean ====
import proofs.«418735_j49933289783480_1_alg».proof.Proof.Ref.RunChunks
import proofs.«418735_j49933289783480_1_alg».proof.Proof.Ref.RunStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem c6_v192 (V W : Valuation τ sig (Elt F)) (hA : Keeps V W)
    (h1 : W main_v1 = s1 V) (h3 : W main_v3 = s3 V)
    (h167 : W main_v167 = s167 V) :
    after c6 W main_v192 = s192 V := by
  after_results_simp
  simp (disch := decide) only [h1, h3, h167, hA]
  rfl

set_option maxRecDepth 8192 in
theorem c7_v220 (V W : Valuation τ sig (Elt F)) (hA : Keeps V W)
    (h192 : W main_v192 = s192 V) :
    after c7 W main_v220 = s220 V := by
  after_results_simp
  simp (disch := decide) only [h192, hA]
  rfl

theorem c7_v222 (V W : Valuation τ sig (Elt F)) (hA : Keeps V W) :
    after c7 W main_v222 = s222 V := by
  after_results_simp
  simp (disch := decide) only [hA]
  rfl

end Cert.ReferenceIdeal.Hand

end
-- ==== Proof.Ref.Run4.lean ====
import proofs.«418735_j49933289783480_1_alg».proof.Proof.Ref.RunChunks
import proofs.«418735_j49933289783480_1_alg».proof.Proof.Ref.RunStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem c8_v249 (V W : Valuation τ sig (Elt F)) (hA : Keeps V W)
    (h220 : W main_v220 = s220 V) (h222 : W main_v222 = s222 V) :
    after c8 W main_v249 = s249 V := by
  after_results_simp
  simp (disch := decide) only [h220, h222, hA]
  rfl

set_option maxRecDepth 8192 in
theorem c9_v278 (V W : Valuation τ sig (Elt F)) (hA : Keeps V W)
    (h249 : W main_v249 = s249 V) :
    after c9 W main_v278 = s278 V := by
  after_results_simp
  simp (disch := decide) only [h249, hA]
  rfl

theorem c9_v279 (V W : Valuation τ sig (Elt F)) (hA : Keeps V W) :
    after c9 W main_v279 = s279 V := by
  after_results_simp
  simp (disch := decide) only [hA]
  rfl

theorem c10_v283 (V W : Valuation τ sig (Elt F)) (hA : Keeps V W)
    (h278 : W main_v278 = s278 V) (h279 : W main_v279 = s279 V) :
    after c10 W main_v283 = s283 V := by
  after_results_simp
  simp (disch := decide) only [h278, h279, hA]
  rfl

end Cert.ReferenceIdeal.Hand

end
-- ==== Proof.Ref.Run.lean ====
import proofs.«418735_j49933289783480_1_alg».proof.Proof.Ref.RunOps
import proofs.«418735_j49933289783480_1_alg».proof.Proof.Ref.Run0
import proofs.«418735_j49933289783480_1_alg».proof.Proof.Ref.Run1
import proofs.«418735_j49933289783480_1_alg».proof.Proof.Ref.Run2
import proofs.«418735_j49933289783480_1_alg».proof.Proof.Ref.Run3
import proofs.«418735_j49933289783480_1_alg».proof.Proof.Ref.Run4

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- The run chunk by chunk: each chunk leaves the arguments alone and puts its stage's value in its result.
theorem out_args (V : Valuation τ sig (Elt F)) : after ops V main_v283 = s283 V ∧ Keeps V (after ops V) := by
  rw [after_ops]
  have k0 : Keeps V V := fun _ _ => rfl
  have k1 := kstep c0_writes (by decide) k0
  have a1 := c0_v1 V V k0
  have a3 := c0_v3 V V k0
  have a23 := c0_v23 V V k0
  have k2 := kstep c1_writes (by decide) k1
  have b1 := (after_of_writes_sub c1 _ c1_writes (by decide)).trans a1
  have b3 := (after_of_writes_sub c1 _ c1_writes (by decide)).trans a3
  have b52 := c1_v52 V _ k1 a23
  have b54 := c1_v54 V _ k1
  have k3 := kstep c2_writes (by decide) k2
  have d1 := (after_of_writes_sub c2 _ c2_writes (by decide)).trans b1
  have d3 := (after_of_writes_sub c2 _ c2_writes (by decide)).trans b3
  have d85 := c2_v85 V _ k2 b52 b54
  have k4 := kstep c3_writes (by decide) k3
  have e1 := (after_of_writes_sub c3 _ c3_writes (by decide)).trans d1
  have e3 := (after_of_writes_sub c3 _ c3_writes (by decide)).trans d3
  have e105 := c3_v105 V _ k3 d1 d3 d85
  have e109 := c3_v109 V _ k3
  have k5 := kstep c4_writes (by decide) k4
  have f1 := (after_of_writes_sub c4 _ c4_writes (by decide)).trans e1
  have f3 := (after_of_writes_sub c4 _ c4_writes (by decide)).trans e3
  have f134 := c4_v134 V _ k4 e105 e109
  have k6 := kstep c5_writes (by decide) k5
  have g1 := (after_of_writes_sub c5 _ c5_writes (by decide)).trans f1
  have g3 := (after_of_writes_sub c5 _ c5_writes (by decide)).trans f3
  have g167 := c5_v167 V _ k5 f134
  have k7 := kstep c6_writes (by decide) k6
  have h192 := c6_v192 V _ k6 g1 g3 g167
  have k8 := kstep c7_writes (by decide) k7
  have i220 := c7_v220 V _ k7 h192
  have i222 := c7_v222 V _ k7
  have k9 := kstep c8_writes (by decide) k8
  have j249 := c8_v249 V _ k8 i220 i222
  have k10 := kstep c9_writes (by decide) k9
  have l278 := c9_v278 V _ k9 j249
  have l279 := c9_v279 V _ k9
  exact ⟨c10_v283 V _ k10 l278 l279, kstep c10_writes (by decide) k10⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v283) = Stages.val_main_v283 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c =>
      have a : ∀ r ∈ argRefs, _ = m ((c.tc : Thread nD τ).loc r) := fun r hr => (h c r).trans ((out_args (launchContents m c)).2 r hr)
      ⟨(h c main_v283).trans (out_args (launchContents m c)).1, a main_arg0 (by decide), a main_arg1 (by decide), a main_arg2 (by decide), a main_arg3 (by decide), a main_arg4 (by decide), a main_arg5 (by decide), a main_arg6 (by decide), a main_arg7 (by decide), a main_arg8 (by decide), a main_arg9 (by decide), a main_arg10 (by decide), a main_arg11 (by decide), a main_arg12 (by decide), a main_arg13 (by decide), a main_arg14 (by decide), a main_arg15 (by decide), a main_arg16 (by decide), a main_arg17 (by decide), a main_arg18 (by decide), a main_arg19 (by decide), a main_arg20 (by decide), a main_arg21 (by decide), a main_arg22 (by decide), a main_arg23 (by decide), a main_arg24 (by decide), a main_arg25 (by decide)⟩)
    (run_after m ρ)

end Cert.ReferenceIdeal.Hand

end
-- ==== Proof.lean ====
import proofs.«418735_j49933289783480_1_alg».proof.Defs
import proofs.«418735_j49933289783480_1_alg».proof.Proof.Gen.Kernel
import proofs.«418735_j49933289783480_1_alg».proof.Proof.Gen.KernelIdeal
import proofs.«418735_j49933289783480_1_alg».proof.Proof.Gen.ReferenceIdeal
import proofs.«418735_j49933289783480_1_alg».proof.Proof.Gen.Pre_finite_inputs
import proofs.«418735_j49933289783480_1_alg».proof.Proof.K.Run
import proofs.«418735_j49933289783480_1_alg».proof.Proof.KI.Run
import proofs.«418735_j49933289783480_1_alg».proof.Proof.KI.Value
import proofs.«418735_j49933289783480_1_alg».proof.Proof.Ref.Run
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

-- The reference's frame is its run with the result forgotten.
theorem frame_ri : Cert.frame_ReferenceIdeal := fun m ρ _ =>
  (θ_run Cert.ReferenceIdeal.defs _ _).mono (fun _ h c => (h c).2) (Cert.ReferenceIdeal.Hand.run (F := Ideal) m ρ)

-- Both runs end at the reference's last stage of the arguments: three layers (each row with its neighbour sum through
-- two normalised, rectified matrix products), the rows of each graph added up, and the head on the sums.
theorem algebraic : Cert.algebraic_KernelIdeal_ReferenceIdeal := by
  intro m ρ m' ρ' _ hagree
  refine ⟨fun c => Cert.KernelIdeal.Hand.res m c, Cert.KernelIdeal.Hand.run_main m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10, h11, h12, h13, h14, h15, h16, h17, h18, h19, h20, h21, h22, h23, h24, h25⟩ := hagree c
  rw [h0, h1, h2, h3, h4, h5, h6, h7, h8, h9, h10, h11, h12, h13, h14, h15, h16, h17, h18, h19, h20, h21, h22, h23, h24, h25]
  exact (Cert.KernelIdeal.Hand.val_res m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
